-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v197) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S800000x8 : Shape := ⟨2, ![800000, 8]⟩
abbrev S800000 : Shape := ⟨1, ![800000]⟩
abbrev S100000 : Shape := ⟨1, ![100000]⟩
abbrev S16x32 : Shape := ⟨2, ![16, 32]⟩
abbrev S32 : Shape := ⟨1, ![32]⟩
abbrev S8x16 : Shape := ⟨2, ![8, 16]⟩
abbrev S16 : Shape := ⟨1, ![16]⟩
abbrev S80x32 : Shape := ⟨2, ![80, 32]⟩
abbrev S32x32 : Shape := ⟨2, ![32, 32]⟩
abbrev S64x64 : Shape := ⟨2, ![64, 64]⟩
abbrev S64 : Shape := ⟨1, ![64]⟩
abbrev S64x32 : Shape := ⟨2, ![64, 32]⟩
abbrev S32x128 : Shape := ⟨2, ![32, 128]⟩
abbrev S128 : Shape := ⟨1, ![128]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S800000x8 : S_.BroadcastsInDim S800000x8 (![] : Fin 0 → Fin S800000x8.rank)
  reducesTo_S800000x8_S_d0_1 : S800000x8.ReducesTo [0, 1] S_
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_
  bcast_S_S8x16 : S_.BroadcastsInDim S8x16 (![] : Fin 0 → Fin S8x16.rank)
  reducesTo_S8x16_S_d0_1 : S8x16.ReducesTo [0, 1] S_
  bcast_S_S16 : S_.BroadcastsInDim S16 (![] : Fin 0 → Fin S16.rank)
  reducesTo_S16_S_d0 : S16.ReducesTo [0] S_
  bcast_S_S80x32 : S_.BroadcastsInDim S80x32 (![] : Fin 0 → Fin S80x32.rank)
  reducesTo_S80x32_S_d0_1 : S80x32.ReducesTo [0, 1] S_
  bcast_S_S32x32 : S_.BroadcastsInDim S32x32 (![] : Fin 0 → Fin S32x32.rank)
  reducesTo_S32x32_S_d0_1 : S32x32.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_
  bcast_S_S800000 : S_.BroadcastsInDim S800000 (![] : Fin 0 → Fin S800000.rank)
  reducesTo_S800000_S_d0 : S800000.ReducesTo [0] S_

variable [Facts]

def fn_part6 {F : FTy → Type} [FloatOps F] (main_v95 : IVec S_ 1) (main_v101 : IVec S_ 1) : IVec S_ 1 :=
  let main_v102 : IVec S_ 1 := andi main_v95 main_v101
  main_v102

def fn_part5 {F : FTy → Type} [FloatOps F] (main_arg2 : IVec S800000 32) (main_arg3 : IVec S800000 32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_c_34 : IVec S_ 32 := constantI S_ 32 0#32
  let main_v89 : IVec S800000 32 := broadcastInDim S800000 ![] bcast_S_S800000 main_c_34
  let main_v90 : IVec S800000 1 := cmpi .sge main_arg2 main_v89
  let main_c_35 : IVec S_ 32 := constantI S_ 32 100000#32
  let main_v91 : IVec S800000 32 := broadcastInDim S800000 ![] bcast_S_S800000 main_c_35
  let main_v92 : IVec S800000 1 := cmpi .slt main_arg2 main_v91
  let main_v93 : IVec S800000 1 := andi main_v90 main_v92
  let main_c_36 : IVec S_ 1 := constantI S_ 1 1#1
  let main_v94 : IVec S_ 1 := (fun x v => Host.reduce IntOp.andi x v reducesTo_S800000_S_d0 h_S_) main_v93 main_c_36
  let main_v95 : IVec S_ 1 := andi main_v88 main_v94
  let main_c_37 : IVec S_ 32 := constantI S_ 32 0#32
  let main_v96 : IVec S800000 32 := broadcastInDim S800000 ![] bcast_S_S800000 main_c_37
  let main_v97 : IVec S800000 1 := cmpi .sge main_arg3 main_v96
  let main_c_38 : IVec S_ 32 := constantI S_ 32 100000#32
  let main_v98 : IVec S800000 32 := broadcastInDim S800000 ![] bcast_S_S800000 main_c_38
  let main_v99 : IVec S800000 1 := cmpi .slt main_arg3 main_v98
  let main_v100 : IVec S800000 1 := andi main_v97 main_v99
  let main_c_39 : IVec S_ 1 := constantI S_ 1 1#1
  let main_v101 : IVec S_ 1 := (fun x v => Host.reduce IntOp.andi x v reducesTo_S800000_S_d0 h_S_) main_v100 main_c_39
  fn_part6 (F := F) main_v95 main_v101

def fn_part4 {F : FTy → Type} [FloatOps F] (main_arg2 : IVec S800000 32) (main_arg3 : IVec S800000 32) (main_arg17 : FVec F S32x128 .f32) (main_arg18 : FVec F S128 .f32) (main_arg19 : FVec F S64x64 .f32) (main_arg20 : FVec F S64 .f32) (main_v63 : IVec S_ 1) (main_v67 : IVec S_ 1) : IVec S_ 1 :=
  let main_v68 : IVec S_ 1 := andi main_v63 main_v67
  let main_v69 : FVec F S32x128 .f32 := Host.absf main_arg17
  let main_cst_26 : FVec F S_ .f32 := constant S_ .f32 0x7F800000#32
  let main_v70 : FVec F S32x128 .f32 := broadcastInDim S32x128 ![] bcast_S_S32x128 main_cst_26
  let main_v71 : IVec S32x128 1 := cmpf .olt main_v69 main_v70
  let main_c_27 : IVec S_ 1 := constantI S_ 1 1#1
  let main_v72 : IVec S_ 1 := (fun x v => Host.reduce IntOp.andi x v reducesTo_S32x128_S_d0_1 h_S_) main_v71 main_c_27
  let main_v73 : IVec S_ 1 := andi main_v68 main_v72
  let main_v74 : FVec F S128 .f32 := Host.absf main_arg18
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S64x64 .f32 := Host.absf main_arg19
  let main_cst_30 : FVec F S_ .f32 := constant S_ .f32 0x7F800000#32
  let main_v80 : FVec F S64x64 .f32 := broadcastInDim S64x64 ![] bcast_S_S64x64 main_cst_30
  let main_v81 : IVec S64x64 1 := cmpf .olt main_v79 main_v80
  let main_c_31 : IVec S_ 1 := constantI S_ 1 1#1
  let main_v82 : IVec S_ 1 := (fun x v => Host.reduce IntOp.andi x v reducesTo_S64x64_S_d0_1 h_S_) main_v81 main_c_31
  let main_v83 : IVec S_ 1 := andi main_v78 main_v82
  let main_v84 : FVec F S64 .f32 := Host.absf main_arg20
  let main_cst_32 : FVec F S_ .f32 := constant S_ .f32 0x7F800000#32
  fn_part5 (F := F) main_arg2 main_arg3 main_v83 main_v84 main_cst_32

def fn_part3 {F : FTy → Type} [FloatOps F] (main_arg2 : IVec S800000 32) (main_arg3 : IVec S800000 32) (main_arg14 : FVec F S64 .f32) (main_arg15 : FVec F S64x32 .f32) (main_arg16 : FVec F S32 .f32) (main_arg17 : FVec F S32x128 .f32) (main_arg18 : FVec F S128 .f32) (main_arg19 : FVec F S64x64 .f32) (main_arg20 : FVec F S64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg14
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x32 .f32 := Host.absf main_arg15
  let main_cst_22 : FVec F S_ .f32 := constant S_ .f32 0x7F800000#32
  let main_v60 : FVec F S64x32 .f32 := broadcastInDim S64x32 ![] bcast_S_S64x32 main_cst_22
  let main_v61 : IVec S64x32 1 := cmpf .olt main_v59 main_v60
  let main_c_23 : IVec S_ 1 := constantI S_ 1 1#1
  let main_v62 : IVec S_ 1 := (fun x v => Host.reduce IntOp.andi x v reducesTo_S64x32_S_d0_1 h_S_) main_v61 main_c_23
  let main_v63 : IVec S_ 1 := andi main_v58 main_v62
  let main_v64 : FVec F S32 .f32 := Host.absf main_arg16
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg2 main_arg3 main_arg17 main_arg18 main_arg19 main_arg20 main_v63 main_v67

def fn_part2 {F : FTy → Type} [FloatOps F] (main_arg2 : IVec S800000 32) (main_arg3 : IVec S800000 32) (main_arg10 : FVec F S32 .f32) (main_arg11 : FVec F S32x32 .f32) (main_arg12 : FVec F S32 .f32) (main_arg13 : FVec F S64x64 .f32) (main_arg14 : FVec F S64 .f32) (main_arg15 : FVec F S64x32 .f32) (main_arg16 : FVec F S32 .f32) (main_arg17 : FVec F S32x128 .f32) (main_arg18 : FVec F S128 .f32) (main_arg19 : FVec F S64x64 .f32) (main_arg20 : FVec F S64 .f32) (main_v33 : IVec S_ 1) : IVec S_ 1 :=
  let main_v34 : FVec F S32 .f32 := Host.absf main_arg10
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x32 .f32 := Host.absf main_arg11
  let main_cst_14 : FVec F S_ .f32 := constant S_ .f32 0x7F800000#32
  let main_v40 : FVec F S32x32 .f32 := broadcastInDim S32x32 ![] bcast_S_S32x32 main_cst_14
  let main_v41 : IVec S32x32 1 := cmpf .olt main_v39 main_v40
  let main_c_15 : IVec S_ 1 := constantI S_ 1 1#1
  let main_v42 : IVec S_ 1 := (fun x v => Host.reduce IntOp.andi x v reducesTo_S32x32_S_d0_1 h_S_) main_v41 main_c_15
  let main_v43 : IVec S_ 1 := andi main_v38 main_v42
  let main_v44 : FVec F S32 .f32 := Host.absf main_arg12
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S64x64 .f32 := Host.absf main_arg13
  let main_cst_18 : FVec F S_ .f32 := constant S_ .f32 0x7F800000#32
  let main_v50 : FVec F S64x64 .f32 := broadcastInDim S64x64 ![] bcast_S_S64x64 main_cst_18
  fn_part3 (F := F) main_arg2 main_arg3 main_arg14 main_arg15 main_arg16 main_arg17 main_arg18 main_arg19 main_arg20 main_v48 main_v49 main_v50

def fn_part1 {F : FTy → Type} [FloatOps F] (main_arg2 : IVec S800000 32) (main_arg3 : IVec S800000 32) (main_arg7 : FVec F S8x16 .f32) (main_arg8 : FVec F S16 .f32) (main_arg9 : FVec F S80x32 .f32) (main_arg10 : FVec F S32 .f32) (main_arg11 : FVec F S32x32 .f32) (main_arg12 : FVec F S32 .f32) (main_arg13 : FVec F S64x64 .f32) (main_arg14 : FVec F S64 .f32) (main_arg15 : FVec F S64x32 .f32) (main_arg16 : FVec F S32 .f32) (main_arg17 : FVec F S32x128 .f32) (main_arg18 : FVec F S128 .f32) (main_arg19 : FVec F S64x64 .f32) (main_arg20 : FVec F S64 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S8x16 .f32 := Host.absf main_arg7
  let main_cst_6 : FVec F S_ .f32 := constant S_ .f32 0x7F800000#32
  let main_v20 : FVec F S8x16 .f32 := broadcastInDim S8x16 ![] bcast_S_S8x16 main_cst_6
  let main_v21 : IVec S8x16 1 := cmpf .olt main_v19 main_v20
  let main_c_7 : IVec S_ 1 := constantI S_ 1 1#1
  let main_v22 : IVec S_ 1 := (fun x v => Host.reduce IntOp.andi x v reducesTo_S8x16_S_d0_1 h_S_) main_v21 main_c_7
  let main_v23 : IVec S_ 1 := andi main_v18 main_v22
  let main_v24 : FVec F S16 .f32 := Host.absf main_arg8
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S80x32 .f32 := Host.absf main_arg9
  let main_cst_10 : FVec F S_ .f32 := constant S_ .f32 0x7F800000#32
  let main_v30 : FVec F S80x32 .f32 := broadcastInDim S80x32 ![] bcast_S_S80x32 main_cst_10
  let main_v31 : IVec S80x32 1 := cmpf .olt main_v29 main_v30
  let main_c_11 : IVec S_ 1 := constantI S_ 1 1#1
  let main_v32 : IVec S_ 1 := (fun x v => Host.reduce IntOp.andi x v reducesTo_S80x32_S_d0_1 h_S_) main_v31 main_c_11
  let main_v33 : IVec S_ 1 := andi main_v28 main_v32
  fn_part2 (F := F) main_arg2 main_arg3 main_arg10 main_arg11 main_arg12 main_arg13 main_arg14 main_arg15 main_arg16 main_arg17 main_arg18 main_arg19 main_arg20 main_v33

def fn {F : FTy → Type} [FloatOps F] (main_arg0 : FVec F S100000x16 .f32) (main_arg1 : FVec F S800000x8 .f32) (main_arg2 : IVec S800000 32) (main_arg3 : IVec S800000 32) (main_arg4 : IVec S100000 32) (main_arg5 : FVec F S16x32 .f32) (main_arg6 : FVec F S32 .f32) (main_arg7 : FVec F S8x16 .f32) (main_arg8 : FVec F S16 .f32) (main_arg9 : FVec F S80x32 .f32) (main_arg10 : FVec F S32 .f32) (main_arg11 : FVec F S32x32 .f32) (main_arg12 : FVec F S32 .f32) (main_arg13 : FVec F S64x64 .f32) (main_arg14 : FVec F S64 .f32) (main_arg15 : FVec F S64x32 .f32) (main_arg16 : FVec F S32 .f32) (main_arg17 : FVec F S32x128 .f32) (main_arg18 : FVec F S128 .f32) (main_arg19 : FVec F S64x64 .f32) (main_arg20 : FVec F S64 .f32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S800000x8 .f32 := Host.absf main_arg1
  let main_cst_0 : FVec F S_ .f32 := constant S_ .f32 0x7F800000#32
  let main_v5 : FVec F S800000x8 .f32 := broadcastInDim S800000x8 ![] bcast_S_S800000x8 main_cst_0
  let main_v6 : IVec S800000x8 1 := cmpf .olt main_v4 main_v5
  let main_c_1 : IVec S_ 1 := constantI S_ 1 1#1
  let main_v7 : IVec S_ 1 := (fun x v => Host.reduce IntOp.andi x v reducesTo_S800000x8_S_d0_1 h_S_) main_v6 main_c_1
  let main_v8 : IVec S_ 1 := andi main_v3 main_v7
  let main_v9 : FVec F S16x32 .f32 := Host.absf main_arg5
  let main_cst_2 : FVec F S_ .f32 := constant S_ .f32 0x7F800000#32
  let main_v10 : FVec F S16x32 .f32 := broadcastInDim S16x32 ![] bcast_S_S16x32 main_cst_2
  let main_v11 : IVec S16x32 1 := cmpf .olt main_v9 main_v10
  let main_c_3 : IVec S_ 1 := constantI S_ 1 1#1
  let main_v12 : IVec S_ 1 := (fun x v => Host.reduce IntOp.andi x v reducesTo_S16x32_S_d0_1 h_S_) main_v11 main_c_3
  let main_v13 : IVec S_ 1 := andi main_v8 main_v12
  let main_v14 : FVec F S32 .f32 := Host.absf main_arg6
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg2 main_arg3 main_arg7 main_arg8 main_arg9 main_arg10 main_arg11 main_arg12 main_arg13 main_arg14 main_arg15 main_arg16 main_arg17 main_arg18 main_arg19 main_arg20 main_v13 main_v16
-- ==== Kernel.lean ====
abbrev S100000x16 : Shape := ⟨2, ![100000, 16]⟩
abbrev S800000x8 : Shape := ⟨2, ![800000, 8]⟩
abbrev S800000 : Shape := ⟨1, ![800000]⟩
abbrev S100000 : Shape := ⟨1, ![100000]⟩
abbrev S16x32 : Shape := ⟨2, ![16, 32]⟩
abbrev S32 : Shape := ⟨1, ![32]⟩
abbrev S8x16 : Shape := ⟨2, ![8, 16]⟩
abbrev S16 : Shape := ⟨1, ![16]⟩
abbrev S80x32 : Shape := ⟨2, ![80, 32]⟩
abbrev S32x32 : Shape := ⟨2, ![32, 32]⟩
abbrev S64x64 : Shape := ⟨2, ![64, 64]⟩
abbrev S64 : Shape := ⟨1, ![64]⟩
abbrev S64x32 : Shape := ⟨2, ![64, 32]⟩
abbrev S32x128 : Shape := ⟨2, ![32, 128]⟩
abbrev S128 : Shape := ⟨1, ![128]⟩
abbrev S1x32 : Shape := ⟨2, ![1, 32]⟩
abbrev S100000x32 : Shape := ⟨2, ![100000, 32]⟩
abbrev S5000x16 : Shape := ⟨2, ![5000, 16]⟩
abbrev S5000x32 : Shape := ⟨2, ![5000, 32]⟩
abbrev S1x16 : Shape := ⟨2, ![1, 16]⟩
abbrev S800000x16 : Shape := ⟨2, ![800000, 16]⟩
abbrev S2000x8 : Shape := ⟨2, ![2000, 8]⟩
abbrev S2000x16 : Shape := ⟨2, ![2000, 16]⟩
abbrev S32x64 : Shape := ⟨2, ![32, 64]⟩
abbrev S1x64 : Shape := ⟨2, ![1, 64]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x32 : Shape := ⟨2, ![800000, 32]⟩
abbrev S2000x32 : Shape := ⟨2, ![2000, 32]⟩
abbrev S5000x64 : Shape := ⟨2, ![5000, 64]⟩
abbrev S1x128 : Shape := ⟨2, ![1, 128]⟩
abbrev S100000x64 : Shape := ⟨2, ![100000, 64]⟩
abbrev S5000x128 : Shape := ⟨2, ![5000, 128]⟩
abbrev S512x64 : Shape := ⟨2, ![512, 64]⟩
abbrev S100000x1 : Shape := ⟨2, ![100000, 1]⟩
abbrev S256x128 : Shape := ⟨2, ![256, 128]⟩
abbrev S256x64 : Shape := ⟨2, ![256, 64]⟩
abbrev S256 : Shape := ⟨1, ![256]⟩

abbrev nBuf : Space → Nat
  | .hbm => 240
  | .vmem => 99
  | .smem => 0
  | _ => 0

abbrev hbmTy0_0 (i : Nat) : BufTy := match i % 128 with
  | 0 => ⟨S100000x16, .f32⟩
  | 1 => ⟨S800000x8, .f32⟩
  | 2 => ⟨S800000, .i32⟩
  | 3 => ⟨S800000, .i32⟩
  | 4 => ⟨S100000, .i32⟩
  | 5 => ⟨S16x32, .f32⟩
  | 6 => ⟨S32, .f32⟩
  | 7 => ⟨S8x16, .f32⟩
  | 8 => ⟨S16, .f32⟩
  | 9 => ⟨S80x32, .f32⟩
  | 10 => ⟨S32, .f32⟩
  | 11 => ⟨S32x32, .f32⟩
  | 12 => ⟨S32, .f32⟩
  | 13 => ⟨S64x64, .f32⟩
  | 14 => ⟨S64, .f32⟩
  | 15 => ⟨S64x32, .f32⟩
  | 16 => ⟨S32, .f32⟩
  | 17 => ⟨S32x128, .f32⟩
  | 18 => ⟨S128, .f32⟩
  | 19 => ⟨S64x64, .f32⟩
  | 20 => ⟨S64, .f32⟩
  | 21 => ⟨S1x32, .f32⟩
  | 22 => ⟨S100000x32, .f32⟩
  | 23 => ⟨S1x16, .f32⟩
  | 24 => ⟨S800000x16, .f32⟩
  | 25 => ⟨S32x32, .f32⟩
  | 26 => ⟨S32x32, .f32⟩
  | 27 => ⟨S16x32, .f32⟩
  | 28 => ⟨S32x64, .f32⟩
  | 29 => ⟨S32x64, .f32⟩
  | 30 => ⟨S1x32, .f32⟩
  | 31 => ⟨S1x32, .f32⟩
  | 32 => ⟨S1x64, .f32⟩
  | 33 => ⟨S1x32, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S1, .i32⟩
  | 43 => ⟨S_, .i32⟩
  | 44 => ⟨S800000x1, .i32⟩
  | 45 => ⟨S800000x1, .i1⟩
  | 46 => ⟨S1x1, .i32⟩
  | 47 => ⟨S800000x1, .i32⟩
  | 48 => ⟨S800000x1, .i1⟩
  | 49 => ⟨S800000x1, .i1⟩
  | 50 => ⟨S_, .i1⟩
  | 51 => ⟨S800000, .i1⟩
  | 52 => ⟨S800000x32, .f32⟩
  | 53 => ⟨S800000x32, .i1⟩
  | 54 => ⟨S_, .f32⟩
  | 55 => ⟨S800000x32, .f32⟩
  | 56 => ⟨S800000x32, .f32⟩
  | 57 => ⟨S_, .i32⟩
  | 58 => ⟨S800000, .i32⟩
  | 59 => ⟨S800000, .i1⟩
  | 60 => ⟨S_, .i32⟩
  | 61 => ⟨S800000, .i32⟩
  | 62 => ⟨S800000, .i32⟩
  | 63 => ⟨S800000, .i32⟩
  | 64 => ⟨S800000x1, .i32⟩
  | 65 => ⟨S1, .i32⟩
  | 66 => ⟨S_, .i32⟩
  | 67 => ⟨S800000x1, .i32⟩
  | 68 => ⟨S800000x1, .i1⟩
  | 69 => ⟨S1x1, .i32⟩
  | 70 => ⟨S800000x1, .i32⟩
  | 71 => ⟨S800000x1, .i1⟩
  | 72 => ⟨S800000x1, .i1⟩
  | 73 => ⟨S_, .i1⟩
  | 74 => ⟨S800000, .i1⟩
  | 75 => ⟨S800000x32, .f32⟩
  | 76 => ⟨S800000x32, .i1⟩
  | 77 => ⟨S_, .f32⟩
  | 78 => ⟨S800000x32, .f32⟩
  | 79 => ⟨S800000x32, .f32⟩
  | 80 => ⟨S800000x32, .f32⟩
  | 81 => ⟨S800000x32, .f32⟩
  | 82 => ⟨S_, .f32⟩
  | 83 => ⟨S100000x32, .f32⟩
  | 84 => ⟨S800000x1, .i32⟩
  | 85 => ⟨S100000x32, .f32⟩
  | 86 => ⟨S_, .f32⟩
  | 87 => ⟨S100000x32, .f32⟩
  | 88 => ⟨S800000x1, .i32⟩
  | 89 => ⟨S100000x32, .f32⟩
  | 90 => ⟨S100000x32, .f32⟩
  | 91 => ⟨S100000x32, .f32⟩
  | 92 => ⟨S_, .i32⟩
  | 93 => ⟨S800000, .i32⟩
  | 94 => ⟨S800000, .i1⟩
  | 95 => ⟨S_, .i32⟩
  | 96 => ⟨S800000, .i32⟩
  | 97 => ⟨S800000, .i32⟩
  | 98 => ⟨S800000, .i32⟩
  | 99 => ⟨S800000x1, .i32⟩
  | 100 => ⟨S1, .i32⟩
  | 101 => ⟨S_, .i32⟩
  | 102 => ⟨S800000x1, .i32⟩
  | 103 => ⟨S800000x1, .i1⟩
  | 104 => ⟨S1x1, .i32⟩
  | 105 => ⟨S800000x1, .i32⟩
  | 106 => ⟨S800000x1, .i1⟩
  | 107 => ⟨S800000x1, .i1⟩
  | 108 => ⟨S_, .i1⟩
  | 109 => ⟨S800000, .i1⟩
  | 110 => ⟨S800000x32, .f32⟩
  | 111 => ⟨S800000x32, .i1⟩
  | 112 => ⟨S_, .f32⟩
  | 113 => ⟨S800000x32, .f32⟩
  | 114 => ⟨S800000x32, .f32⟩
  | 115 => ⟨S_, .i32⟩
  | 116 => ⟨S800000, .i32⟩
  | 117 => ⟨S800000, .i1⟩
  | 118 => ⟨S_, .i32⟩
  | 119 => ⟨S800000, .i32⟩
  | 120 => ⟨S800000, .i32⟩
  | 121 => ⟨S800000, .i32⟩
  | 122 => ⟨S800000x1, .i32⟩
  | 123 => ⟨S1, .i32⟩
  | 124 => ⟨S_, .i32⟩
  | 125 => ⟨S800000x1, .i32⟩
  | 126 => ⟨S800000x1, .i1⟩
  | 127 => ⟨S1x1, .i32⟩
  | _ => ⟨S100000x16, .f32⟩

abbrev hbmTy0_1 (i : Nat) : BufTy := match i % 128 with
  | 0 => ⟨S800000x1, .i32⟩
  | 1 => ⟨S800000x1, .i1⟩
  | 2 => ⟨S800000x1, .i1⟩
  | 3 => ⟨S_, .i1⟩
  | 4 => ⟨S800000, .i1⟩
  | 5 => ⟨S800000x32, .f32⟩
  | 6 => ⟨S800000x32, .i1⟩
  | 7 => ⟨S_, .f32⟩
  | 8 => ⟨S800000x32, .f32⟩
  | 9 => ⟨S800000x32, .f32⟩
  | 10 => ⟨S800000x32, .f32⟩
  | 11 => ⟨S800000x32, .f32⟩
  | 12 => ⟨S_, .f32⟩
  | 13 => ⟨S100000x32, .f32⟩
  | 14 => ⟨S800000x1, .i32⟩
  | 15 => ⟨S100000x32, .f32⟩
  | 16 => ⟨S_, .f32⟩
  | 17 => ⟨S100000x32, .f32⟩
  | 18 => ⟨S800000x1, .i32⟩
  | 19 => ⟨S100000x32, .f32⟩
  | 20 => ⟨S100000x32, .f32⟩
  | 21 => ⟨S100000x32, .f32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S1, .i32⟩
  | 31 => ⟨S_, .i32⟩
  | 32 => ⟨S800000x1, .i32⟩
  | 33 => ⟨S800000x1, .i1⟩
  | 34 => ⟨S1x1, .i32⟩
  | 35 => ⟨S800000x1, .i32⟩
  | 36 => ⟨S800000x1, .i1⟩
  | 37 => ⟨S800000x1, .i1⟩
  | 38 => ⟨S_, .i1⟩
  | 39 => ⟨S800000, .i1⟩
  | 40 => ⟨S800000x32, .f32⟩
  | 41 => ⟨S800000x32, .i1⟩
  | 42 => ⟨S_, .f32⟩
  | 43 => ⟨S800000x32, .f32⟩
  | 44 => ⟨S800000x32, .f32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S1, .i32⟩
  | 54 => ⟨S_, .i32⟩
  | 55 => ⟨S800000x1, .i32⟩
  | 56 => ⟨S800000x1, .i1⟩
  | 57 => ⟨S1x1, .i32⟩
  | 58 => ⟨S800000x1, .i32⟩
  | 59 => ⟨S800000x1, .i1⟩
  | 60 => ⟨S800000x1, .i1⟩
  | 61 => ⟨S_, .i1⟩
  | 62 => ⟨S800000, .i1⟩
  | 63 => ⟨S800000x32, .f32⟩
  | 64 => ⟨S800000x32, .i1⟩
  | 65 => ⟨S_, .f32⟩
  | 66 => ⟨S800000x32, .f32⟩
  | 67 => ⟨S800000x32, .f32⟩
  | 68 => ⟨S800000x32, .f32⟩
  | 69 => ⟨S800000x32, .f32⟩
  | 70 => ⟨S_, .f32⟩
  | 71 => ⟨S100000x32, .f32⟩
  | 72 => ⟨S800000x1, .i32⟩
  | 73 => ⟨S100000x32, .f32⟩
  | 74 => ⟨S_, .f32⟩
  | 75 => ⟨S100000x32, .f32⟩
  | 76 => ⟨S800000x1, .i32⟩
  | 77 => ⟨S100000x32, .f32⟩
  | 78 => ⟨S100000x32, .f32⟩
  | 79 => ⟨S100000x32, .f32⟩
  | 80 => ⟨S1x128, .f32⟩
  | 81 => ⟨S100000x64, .f32⟩
  | 82 => ⟨S_, .f32⟩
  | 83 => ⟨S512x64, .f32⟩
  | 84 => ⟨S100000x1, .i32⟩
  | 85 => ⟨S512x64, .f32⟩
  | 86 => ⟨S512x64, .f32⟩
  | 87 => ⟨S1x64, .f32⟩
  | 88 => ⟨S512x64, .f32⟩
  | 89 => ⟨S512x64, .f32⟩
  | 90 => ⟨S256x128, .f32⟩
  | 91 => ⟨S256x64, .f32⟩
  | 92 => ⟨S256x64, .f32⟩
  | 93 => ⟨S256x64, .f32⟩
  | 94 => ⟨S_, .f32⟩
  | 95 => ⟨S256x64, .f32⟩
  | 96 => ⟨S256x64, .f32⟩
  | 97 => ⟨S_, .f32⟩
  | 98 => ⟨S256, .f32⟩
  | 99 => ⟨S256x64, .f32⟩
  | 100 => ⟨S_, .f32⟩
  | 101 => ⟨S256x64, .f32⟩
  | 102 => ⟨S256x64, .f32⟩
  | 103 => ⟨S_, .f32⟩
  | 104 => ⟨S256, .f32⟩
  | 105 => ⟨S_, .f32⟩
  | 106 => ⟨S256, .f32⟩
  | 107 => ⟨S256, .f32⟩
  | 108 => ⟨S_, .f32⟩
  | 109 => ⟨S256, .f32⟩
  | 110 => ⟨S256, .f32⟩
  | 111 => ⟨S256, .f32⟩
  | _ => ⟨S100000x16, .f32⟩

abbrev hbmTy (i : Nat) : BufTy := match i / 128 with
  | 0 => hbmTy0_0 i
  | 1 => hbmTy0_1 i
  | _ => ⟨S100000x16, .f32⟩

abbrev bufTy : (tb : Table) → Fin (tcTables nBuf tb) → BufTy
  | .hbm, ⟨i, _⟩ => hbmTy i
  | .local _ .vmem, ⟨0, _⟩ => ⟨S5000x16, .f32⟩
  | .local _ .vmem, ⟨1, _⟩ => ⟨S5000x16, .f32⟩
  | .local _ .vmem, ⟨2, _⟩ => ⟨S16x32, .f32⟩
  | .local _ .vmem, ⟨3, _⟩ => ⟨S1x32, .f32⟩
  | .local _ .vmem, ⟨4, _⟩ => ⟨S5000x32, .f32⟩
  | .local _ .vmem, ⟨5, _⟩ => ⟨S5000x32, .f32⟩
  | .local _ .vmem, ⟨6, _⟩ => ⟨S2000x8, .f32⟩
  | .local _ .vmem, ⟨7, _⟩ => ⟨S2000x8, .f32⟩
  | .local _ .vmem, ⟨8, _⟩ => ⟨S8x16, .f32⟩
  | .local _ .vmem, ⟨9, _⟩ => ⟨S1x16, .f32⟩
  | .local _ .vmem, ⟨10, _⟩ => ⟨S2000x16, .f32⟩
  | .local _ .vmem, ⟨11, _⟩ => ⟨S2000x16, .f32⟩
  | .local _ .vmem, ⟨12, _⟩ => ⟨S2000x32, .f32⟩
  | .local _ .vmem, ⟨13, _⟩ => ⟨S2000x32, .f32⟩
  | .local _ .vmem, ⟨14, _⟩ => ⟨S2000x32, .f32⟩
  | .local _ .vmem, ⟨15, _⟩ => ⟨S2000x32, .f32⟩
  | .local _ .vmem, ⟨16, _⟩ => ⟨S2000x16, .f32⟩
  | .local _ .vmem, ⟨17, _⟩ => ⟨S2000x16, .f32⟩
  | .local _ .vmem, ⟨18, _⟩ => ⟨S32x32, .f32⟩
  | .local _ .vmem, ⟨19, _⟩ => ⟨S32x32, .f32⟩
  | .local _ .vmem, ⟨20, _⟩ => ⟨S16x32, .f32⟩
  | .local _ .vmem, ⟨21, _⟩ => ⟨S1x32, .f32⟩
  | .local _ .vmem, ⟨22, _⟩ => ⟨S32x32, .f32⟩
  | .local _ .vmem, ⟨23, _⟩ => ⟨S1x32, .f32⟩
  | .local _ .vmem, ⟨24, _⟩ => ⟨S2000x32, .f32⟩
  | .local _ .vmem, ⟨25, _⟩ => ⟨S2000x32, .f32⟩
  | .local _ .vmem, ⟨26, _⟩ => ⟨S2000x32, .f32⟩
  | .local _ .vmem, ⟨27, _⟩ => ⟨S2000x32, .f32⟩
  | .local _ .vmem, ⟨28, _⟩ => ⟨S5000x32, .f32⟩
  | .local _ .vmem, ⟨29, _⟩ => ⟨S5000x32, .f32⟩
  | .local _ .vmem, ⟨30, _⟩ => ⟨S5000x32, .f32⟩
  | .local _ .vmem, ⟨31, _⟩ => ⟨S5000x32, .f32⟩
  | .local _ .vmem, ⟨32, _⟩ => ⟨S32x64, .f32⟩
  | .local _ .vmem, ⟨33, _⟩ => ⟨S32x64, .f32⟩
  | .local _ .vmem, ⟨34, _⟩ => ⟨S1x64, .f32⟩
  | .local _ .vmem, ⟨35, _⟩ => ⟨S64x32, .f32⟩
  | .local _ .vmem, ⟨36, _⟩ => ⟨S1x32, .f32⟩
  | .local _ .vmem, ⟨37, _⟩ => ⟨S5000x32, .f32⟩
  | .local _ .vmem, ⟨38, _⟩ => ⟨S5000x32, .f32⟩
  | .local _ .vmem, ⟨39, _⟩ => ⟨S2000x32, .f32⟩
  | .local _ .vmem, ⟨40, _⟩ => ⟨S2000x32, .f32⟩
  | .local _ .vmem, ⟨41, _⟩ => ⟨S2000x32, .f32⟩
  | .local _ .vmem, ⟨42, _⟩ => ⟨S2000x32, .f32⟩
  | .local _ .vmem, ⟨43, _⟩ => ⟨S2000x16, .f32⟩
  | .local _ .vmem, ⟨44, _⟩ => ⟨S2000x16, .f32⟩
  | .local _ .vmem, ⟨45, _⟩ => ⟨S32x32, .f32⟩
  | .local _ .vmem, ⟨46, _⟩ => ⟨S32x32, .f32⟩
  | .local _ .vmem, ⟨47, _⟩ => ⟨S16x32, .f32⟩
  | .local _ .vmem, ⟨48, _⟩ => ⟨S1x32, .f32⟩
  | .local _ .vmem, ⟨49, _⟩ => ⟨S32x32, .f32⟩
  | .local _ .vmem, ⟨50, _⟩ => ⟨S1x32, .f32⟩
  | .local _ .vmem, ⟨51, _⟩ => ⟨S2000x32, .f32⟩
  | .local _ .vmem, ⟨52, _⟩ => ⟨S2000x32, .f32⟩
  | .local _ .vmem, ⟨53, _⟩ => ⟨S2000x32, .f32⟩
  | .local _ .vmem, ⟨54, _⟩ => ⟨S2000x32, .f32⟩
  | .local _ .vmem, ⟨55, _⟩ => ⟨S5000x32, .f32⟩
  | .local _ .vmem, ⟨56, _⟩ => ⟨S5000x32, .f32⟩
  | .local _ .vmem, ⟨57, _⟩ => ⟨S5000x32, .f32⟩
  | .local _ .vmem, ⟨58, _⟩ => ⟨S5000x32, .f32⟩
  | .local _ .vmem, ⟨59, _⟩ => ⟨S32x64, .f32⟩
  | .local _ .vmem, ⟨60, _⟩ => ⟨S32x64, .f32⟩
  | .local _ .vmem, ⟨61, _⟩ => ⟨S1x64, .f32⟩
  | .local _ .vmem, ⟨62, _⟩ => ⟨S64x32, .f32⟩
  | .local _ .vmem, ⟨63, _⟩ => ⟨S1x32, .f32⟩
  | .local _ .vmem, ⟨64, _⟩ => ⟨S5000x32, .f32⟩
  | .local _ .vmem, ⟨65, _⟩ => ⟨S5000x32, .f32⟩
  | .local _ .vmem, ⟨66, _⟩ => ⟨S2000x32, .f32⟩
  | .local _ .vmem, ⟨67, _⟩ => ⟨S2000x32, .f32⟩
  | .local _ .vmem, ⟨68, _⟩ => ⟨S2000x32, .f32⟩
  | .local _ .vmem, ⟨69, _⟩ => ⟨S2000x32, .f32⟩
  | .local _ .vmem, ⟨70, _⟩ => ⟨S2000x16, .f32⟩
  | .local _ .vmem, ⟨71, _⟩ => ⟨S2000x16, .f32⟩
  | .local _ .vmem, ⟨72, _⟩ => ⟨S32x32, .f32⟩
  | .local _ .vmem, ⟨73, _⟩ => ⟨S32x32, .f32⟩
  | .local _ .vmem, ⟨74, _⟩ => ⟨S16x32, .f32⟩
  | .local _ .vmem, ⟨75, _⟩ => ⟨S1x32, .f32⟩
  | .local _ .vmem, ⟨76, _⟩ => ⟨S32x32, .f32⟩
  | .local _ .vmem, ⟨77, _⟩ => ⟨S1x32, .f32⟩
  | .local _ .vmem, ⟨78, _⟩ => ⟨S2000x32, .f32⟩
  | .local _ .vmem, ⟨79, _⟩ => ⟨S2000x32, .f32⟩
  | .local _ .vmem, ⟨80, _⟩ => ⟨S2000x32, .f32⟩
  | .local _ .vmem, ⟨81, _⟩ => ⟨S2000x32, .f32⟩
  | .local _ .vmem, ⟨82, _⟩ => ⟨S5000x32, .f32⟩
  | .local _ .vmem, ⟨83, _⟩ => ⟨S5000x32, .f32⟩
  | .local _ .vmem, ⟨84, _⟩ => ⟨S5000x32, .f32⟩
  | .local _ .vmem, ⟨85, _⟩ => ⟨S5000x32, .f32⟩
  | .local _ .vmem, ⟨86, _⟩ => ⟨S32x64, .f32⟩
  | .local _ .vmem, ⟨87, _⟩ => ⟨S32x64, .f32⟩
  | .local _ .vmem, ⟨88, _⟩ => ⟨S1x64, .f32⟩
  | .local _ .vmem, ⟨89, _⟩ => ⟨S64x32, .f32⟩
  | .local _ .vmem, ⟨90, _⟩ => ⟨S1x32, .f32⟩
  | .local _ .vmem, ⟨91, _⟩ => ⟨S5000x32, .f32⟩
  | .local _ .vmem, ⟨92, _⟩ => ⟨S5000x32, .f32⟩
  | .local _ .vmem, ⟨93, _⟩ => ⟨S5000x32, .f32⟩
  | .local _ .vmem, ⟨94, _⟩ => ⟨S5000x32, .f32⟩
  | .local _ .vmem, ⟨95, _⟩ => ⟨S32x128, .f32⟩
  | .local _ .vmem, ⟨96, _⟩ => ⟨S1x128, .f32⟩
  | .local _ .vmem, ⟨97, _⟩ => ⟨S5000x64, .f32⟩
  | .local _ .vmem, ⟨98, _⟩ => ⟨S5000x64, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | _, _ => false

abbrev semScoped : Fin 0 → Bool
  | ⟨_, h⟩ => absurd h (Nat.not_lt_zero _)

abbrev dmaSemScoped : Fin 99 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | _ => false

abbrev sig : RefSig :=
  ofTc nBuf bufTy 0 99 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_call0_c : Ref sig .tc := ⟨.hbm, 34, rfl⟩
abbrev main_call0_v0 : Ref sig .tc := ⟨.hbm, 35, rfl⟩
abbrev main_call0_v1 : Ref sig .tc := ⟨.hbm, 36, rfl⟩
abbrev main_call0_c_0 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_c_1 : Ref sig .tc := ⟨.hbm, 42, rfl⟩
abbrev main_call0_c_2 : Ref sig .tc := ⟨.hbm, 43, rfl⟩
abbrev main_call0_v6 : Ref sig .tc := ⟨.hbm, 44, rfl⟩
abbrev main_call0_v7 : Ref sig .tc := ⟨.hbm, 45, rfl⟩
abbrev main_call0_v8 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_c_3 : Ref sig .tc := ⟨.hbm, 50, rfl⟩
abbrev main_call0_v12 : Ref sig .tc := ⟨.hbm, 51, rfl⟩
abbrev main_call0_v13 : Ref sig .tc := ⟨.hbm, 52, rfl⟩
abbrev main_call0_v14 : Ref sig .tc := ⟨.hbm, 53, rfl⟩
abbrev main_call0_cst : Ref sig .tc := ⟨.hbm, 54, rfl⟩
abbrev main_call0_v15 : Ref sig .tc := ⟨.hbm, 55, rfl⟩
abbrev main_v13 : Ref sig .tc := ⟨.hbm, 56, rfl⟩
abbrev main_call1_c : Ref sig .tc := ⟨.hbm, 57, rfl⟩
abbrev main_call1_v0 : Ref sig .tc := ⟨.hbm, 58, rfl⟩
abbrev main_call1_v1 : Ref sig .tc := ⟨.hbm, 59, rfl⟩
abbrev main_call1_c_0 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_call1_v5 : Ref sig .tc := ⟨.hbm, 64, rfl⟩
abbrev main_call1_c_1 : Ref sig .tc := ⟨.hbm, 65, rfl⟩
abbrev main_call1_c_2 : Ref sig .tc := ⟨.hbm, 66, rfl⟩
abbrev main_call1_v6 : Ref sig .tc := ⟨.hbm, 67, rfl⟩
abbrev main_call1_v7 : Ref sig .tc := ⟨.hbm, 68, rfl⟩
abbrev main_call1_v8 : Ref sig .tc := ⟨.hbm, 69, rfl⟩
abbrev main_call1_v9 : Ref sig .tc := ⟨.hbm, 70, rfl⟩
abbrev main_call1_v10 : Ref sig .tc := ⟨.hbm, 71, rfl⟩
abbrev main_call1_v11 : Ref sig .tc := ⟨.hbm, 72, rfl⟩
abbrev main_call1_c_3 : Ref sig .tc := ⟨.hbm, 73, rfl⟩
abbrev main_call1_v12 : Ref sig .tc := ⟨.hbm, 74, rfl⟩
abbrev main_call1_v13 : Ref sig .tc := ⟨.hbm, 75, rfl⟩
abbrev main_call1_v14 : Ref sig .tc := ⟨.hbm, 76, rfl⟩
abbrev main_call1_cst : Ref sig .tc := ⟨.hbm, 77, rfl⟩
abbrev main_call1_v15 : Ref sig .tc := ⟨.hbm, 78, rfl⟩
abbrev main_v14 : Ref sig .tc := ⟨.hbm, 79, rfl⟩
abbrev main_v15_0 : Ref sig .tc := ⟨.hbm, 80, rfl⟩
abbrev main_v15_1 : Ref sig .tc := ⟨.hbm, 81, rfl⟩
abbrev main_cst : Ref sig .tc := ⟨.hbm, 82, rfl⟩
abbrev main_v16 : Ref sig .tc := ⟨.hbm, 83, rfl⟩
abbrev main_v17 : Ref sig .tc := ⟨.hbm, 84, rfl⟩
abbrev main_v18 : Ref sig .tc := ⟨.hbm, 85, rfl⟩
abbrev main_cst_0 : Ref sig .tc := ⟨.hbm, 86, rfl⟩
abbrev main_v19 : Ref sig .tc := ⟨.hbm, 87, rfl⟩
abbrev main_v20 : Ref sig .tc := ⟨.hbm, 88, rfl⟩
abbrev main_v21 : Ref sig .tc := ⟨.hbm, 89, rfl⟩
abbrev main_v22 : Ref sig .tc := ⟨.hbm, 90, rfl⟩
abbrev main_v23 : Ref sig .tc := ⟨.hbm, 91, rfl⟩
abbrev main_call2_c : Ref sig .tc := ⟨.hbm, 92, rfl⟩
abbrev main_call2_v0 : Ref sig .tc := ⟨.hbm, 93, rfl⟩
abbrev main_call2_v1 : Ref sig .tc := ⟨.hbm, 94, rfl⟩
abbrev main_call2_c_0 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_c_1 : Ref sig .tc := ⟨.hbm, 100, rfl⟩
abbrev main_call2_c_2 : Ref sig .tc := ⟨.hbm, 101, rfl⟩
abbrev main_call2_v6 : Ref sig .tc := ⟨.hbm, 102, rfl⟩
abbrev main_call2_v7 : Ref sig .tc := ⟨.hbm, 103, rfl⟩
abbrev main_call2_v8 : Ref sig .tc := ⟨.hbm, 104, rfl⟩
abbrev main_call2_v9 : Ref sig .tc := ⟨.hbm, 105, rfl⟩
abbrev main_call2_v10 : Ref sig .tc := ⟨.hbm, 106, rfl⟩
abbrev main_call2_v11 : Ref sig .tc := ⟨.hbm, 107, rfl⟩
abbrev main_call2_c_3 : Ref sig .tc := ⟨.hbm, 108, rfl⟩
abbrev main_call2_v12 : Ref sig .tc := ⟨.hbm, 109, rfl⟩
abbrev main_call2_v13 : Ref sig .tc := ⟨.hbm, 110, rfl⟩
abbrev main_call2_v14 : Ref sig .tc := ⟨.hbm, 111, rfl⟩
abbrev main_call2_cst : Ref sig .tc := ⟨.hbm, 112, rfl⟩
abbrev main_call2_v15 : Ref sig .tc := ⟨.hbm, 113, rfl⟩
abbrev main_v24 : Ref sig .tc := ⟨.hbm, 114, rfl⟩
abbrev main_call3_c : Ref sig .tc := ⟨.hbm, 115, rfl⟩
abbrev main_call3_v0 : Ref sig .tc := ⟨.hbm, 116, rfl⟩
abbrev main_call3_v1 : Ref sig .tc := ⟨.hbm, 117, rfl⟩
abbrev main_call3_c_0 : Ref sig .tc := ⟨.hbm, 118, rfl⟩
abbrev main_call3_v2 : Ref sig .tc := ⟨.hbm, 119, rfl⟩
abbrev main_call3_v3 : Ref sig .tc := ⟨.hbm, 120, rfl⟩
abbrev main_call3_v4 : Ref sig .tc := ⟨.hbm, 121, rfl⟩
abbrev main_call3_v5 : Ref sig .tc := ⟨.hbm, 122, rfl⟩
abbrev main_call3_c_1 : Ref sig .tc := ⟨.hbm, 123, rfl⟩
abbrev main_call3_c_2 : Ref sig .tc := ⟨.hbm, 124, rfl⟩
abbrev main_call3_v6 : Ref sig .tc := ⟨.hbm, 125, rfl⟩
abbrev main_call3_v7 : Ref sig .tc := ⟨.hbm, 126, rfl⟩
abbrev main_call3_v8 : Ref sig .tc := ⟨.hbm, 127, rfl⟩
abbrev main_call3_v9 : Ref sig .tc := ⟨.hbm, 128, rfl⟩
abbrev main_call3_v10 : Ref sig .tc := ⟨.hbm, 129, rfl⟩
abbrev main_call3_v11 : Ref sig .tc := ⟨.hbm, 130, rfl⟩
abbrev main_call3_c_3 : Ref sig .tc := ⟨.hbm, 131, rfl⟩
abbrev main_call3_v12 : Ref sig .tc := ⟨.hbm, 132, rfl⟩
abbrev main_call3_v13 : Ref sig .tc := ⟨.hbm, 133, rfl⟩
abbrev main_call3_v14 : Ref sig .tc := ⟨.hbm, 134, rfl⟩
abbrev main_call3_cst : Ref sig .tc := ⟨.hbm, 135, rfl⟩
abbrev main_call3_v15 : Ref sig .tc := ⟨.hbm, 136, rfl⟩
abbrev main_v25 : Ref sig .tc := ⟨.hbm, 137, rfl⟩
abbrev main_v26_0 : Ref sig .tc := ⟨.hbm, 138, rfl⟩
abbrev main_v26_1 : Ref sig .tc := ⟨.hbm, 139, rfl⟩
abbrev main_cst_1 : Ref sig .tc := ⟨.hbm, 140, rfl⟩
abbrev main_v27 : Ref sig .tc := ⟨.hbm, 141, rfl⟩
abbrev main_v28 : Ref sig .tc := ⟨.hbm, 142, rfl⟩
abbrev main_v29 : Ref sig .tc := ⟨.hbm, 143, rfl⟩
abbrev main_cst_2 : Ref sig .tc := ⟨.hbm, 144, rfl⟩
abbrev main_v30 : Ref sig .tc := ⟨.hbm, 145, rfl⟩
abbrev main_v31 : Ref sig .tc := ⟨.hbm, 146, rfl⟩
abbrev main_v32 : Ref sig .tc := ⟨.hbm, 147, rfl⟩
abbrev main_v33 : Ref sig .tc := ⟨.hbm, 148, rfl⟩
abbrev main_v34 : Ref sig .tc := ⟨.hbm, 149, rfl⟩
abbrev main_call4_c : Ref sig .tc := ⟨.hbm, 150, rfl⟩
abbrev main_call4_v0 : Ref sig .tc := ⟨.hbm, 151, rfl⟩
abbrev main_call4_v1 : Ref sig .tc := ⟨.hbm, 152, rfl⟩
abbrev main_call4_c_0 : Ref sig .tc := ⟨.hbm, 153, rfl⟩
abbrev main_call4_v2 : Ref sig .tc := ⟨.hbm, 154, rfl⟩
abbrev main_call4_v3 : Ref sig .tc := ⟨.hbm, 155, rfl⟩
abbrev main_call4_v4 : Ref sig .tc := ⟨.hbm, 156, rfl⟩
abbrev main_call4_v5 : Ref sig .tc := ⟨.hbm, 157, rfl⟩
abbrev main_call4_c_1 : Ref sig .tc := ⟨.hbm, 158, rfl⟩
abbrev main_call4_c_2 : Ref sig .tc := ⟨.hbm, 159, rfl⟩
abbrev main_call4_v6 : Ref sig .tc := ⟨.hbm, 160, rfl⟩
abbrev main_call4_v7 : Ref sig .tc := ⟨.hbm, 161, rfl⟩
abbrev main_call4_v8 : Ref sig .tc := ⟨.hbm, 162, rfl⟩
abbrev main_call4_v9 : Ref sig .tc := ⟨.hbm, 163, rfl⟩
abbrev main_call4_v10 : Ref sig .tc := ⟨.hbm, 164, rfl⟩
abbrev main_call4_v11 : Ref sig .tc := ⟨.hbm, 165, rfl⟩
abbrev main_call4_c_3 : Ref sig .tc := ⟨.hbm, 166, rfl⟩
abbrev main_call4_v12 : Ref sig .tc := ⟨.hbm, 167, rfl⟩
abbrev main_call4_v13 : Ref sig .tc := ⟨.hbm, 168, rfl⟩
abbrev main_call4_v14 : Ref sig .tc := ⟨.hbm, 169, rfl⟩
abbrev main_call4_cst : Ref sig .tc := ⟨.hbm, 170, rfl⟩
abbrev main_call4_v15 : Ref sig .tc := ⟨.hbm, 171, rfl⟩
abbrev main_v35 : Ref sig .tc := ⟨.hbm, 172, rfl⟩
abbrev main_call5_c : Ref sig .tc := ⟨.hbm, 173, rfl⟩
abbrev main_call5_v0 : Ref sig .tc := ⟨.hbm, 174, rfl⟩
abbrev main_call5_v1 : Ref sig .tc := ⟨.hbm, 175, rfl⟩
abbrev main_call5_c_0 : Ref sig .tc := ⟨.hbm, 176, rfl⟩
abbrev main_call5_v2 : Ref sig .tc := ⟨.hbm, 177, rfl⟩
abbrev main_call5_v3 : Ref sig .tc := ⟨.hbm, 178, rfl⟩
abbrev main_call5_v4 : Ref sig .tc := ⟨.hbm, 179, rfl⟩
abbrev main_call5_v5 : Ref sig .tc := ⟨.hbm, 180, rfl⟩
abbrev main_call5_c_1 : Ref sig .tc := ⟨.hbm, 181, rfl⟩
abbrev main_call5_c_2 : Ref sig .tc := ⟨.hbm, 182, rfl⟩
abbrev main_call5_v6 : Ref sig .tc := ⟨.hbm, 183, rfl⟩
abbrev main_call5_v7 : Ref sig .tc := ⟨.hbm, 184, rfl⟩
abbrev main_call5_v8 : Ref sig .tc := ⟨.hbm, 185, rfl⟩
abbrev main_call5_v9 : Ref sig .tc := ⟨.hbm, 186, rfl⟩
abbrev main_call5_v10 : Ref sig .tc := ⟨.hbm, 187, rfl⟩
abbrev main_call5_v11 : Ref sig .tc := ⟨.hbm, 188, rfl⟩
abbrev main_call5_c_3 : Ref sig .tc := ⟨.hbm, 189, rfl⟩
abbrev main_call5_v12 : Ref sig .tc := ⟨.hbm, 190, rfl⟩
abbrev main_call5_v13 : Ref sig .tc := ⟨.hbm, 191, rfl⟩
abbrev main_call5_v14 : Ref sig .tc := ⟨.hbm, 192, rfl⟩
abbrev main_call5_cst : Ref sig .tc := ⟨.hbm, 193, rfl⟩
abbrev main_call5_v15 : Ref sig .tc := ⟨.hbm, 194, rfl⟩
abbrev main_v36 : Ref sig .tc := ⟨.hbm, 195, rfl⟩
abbrev main_v37_0 : Ref sig .tc := ⟨.hbm, 196, rfl⟩
abbrev main_v37_1 : Ref sig .tc := ⟨.hbm, 197, rfl⟩
abbrev main_cst_3 : Ref sig .tc := ⟨.hbm, 198, rfl⟩
abbrev main_v38 : Ref sig .tc := ⟨.hbm, 199, rfl⟩
abbrev main_v39 : Ref sig .tc := ⟨.hbm, 200, rfl⟩
abbrev main_v40 : Ref sig .tc := ⟨.hbm, 201, rfl⟩
abbrev main_cst_4 : Ref sig .tc := ⟨.hbm, 202, rfl⟩
abbrev main_v41 : Ref sig .tc := ⟨.hbm, 203, rfl⟩
abbrev main_v42 : Ref sig .tc := ⟨.hbm, 204, rfl⟩
abbrev main_v43 : Ref sig .tc := ⟨.hbm, 205, rfl⟩
abbrev main_v44 : Ref sig .tc := ⟨.hbm, 206, rfl⟩
abbrev main_v45 : Ref sig .tc := ⟨.hbm, 207, rfl⟩
abbrev main_v46 : Ref sig .tc := ⟨.hbm, 208, rfl⟩
abbrev main_v47 : Ref sig .tc := ⟨.hbm, 209, rfl⟩
abbrev main_cst_5 : Ref sig .tc := ⟨.hbm, 210, rfl⟩
abbrev main_v48 : Ref sig .tc := ⟨.hbm, 211, rfl⟩
abbrev main_v49 : Ref sig .tc := ⟨.hbm, 212, rfl⟩
abbrev main_v50 : Ref sig .tc := ⟨.hbm, 213, rfl⟩
abbrev main_v51 : Ref sig .tc := ⟨.hbm, 214, rfl⟩
abbrev main_v52 : Ref sig .tc := ⟨.hbm, 215, rfl⟩
abbrev main_v53 : Ref sig .tc := ⟨.hbm, 216, rfl⟩
abbrev main_v54 : Ref sig .tc := ⟨.hbm, 217, rfl⟩
abbrev main_v55 : Ref sig .tc := ⟨.hbm, 218, rfl⟩
abbrev main_v56 : Ref sig .tc := ⟨.hbm, 219, rfl⟩
abbrev main_v57 : Ref sig .tc := ⟨.hbm, 220, rfl⟩
abbrev main_v58 : Ref sig .tc := ⟨.hbm, 221, rfl⟩
abbrev main_call6_cst : Ref sig .tc := ⟨.hbm, 222, rfl⟩
abbrev main_call6_v0 : Ref sig .tc := ⟨.hbm, 223, rfl⟩
abbrev main_v59 : Ref sig .tc := ⟨.hbm, 224, rfl⟩
abbrev main_cst_6 : Ref sig .tc := ⟨.hbm, 225, rfl⟩
abbrev main_v60 : Ref sig .tc := ⟨.hbm, 226, rfl⟩
abbrev main_v61 : Ref sig .tc := ⟨.hbm, 227, rfl⟩
abbrev main_call7_cst : Ref sig .tc := ⟨.hbm, 228, rfl⟩
abbrev main_call7_v0 : Ref sig .tc := ⟨.hbm, 229, rfl⟩
abbrev main_v62 : Ref sig .tc := ⟨.hbm, 230, rfl⟩
abbrev main_cst_7 : Ref sig .tc := ⟨.hbm, 231, rfl⟩
abbrev main_v63 : Ref sig .tc := ⟨.hbm, 232, rfl⟩
abbrev main_cst_8 : Ref sig .tc := ⟨.hbm, 233, rfl⟩
abbrev main_v64 : Ref sig .tc := ⟨.hbm, 234, rfl⟩
abbrev main_v65 : Ref sig .tc := ⟨.hbm, 235, rfl⟩
abbrev main_cst_9 : Ref sig .tc := ⟨.hbm, 236, rfl⟩
abbrev main_v66 : Ref sig .tc := ⟨.hbm, 237, rfl⟩
abbrev main_v67 : Ref sig .tc := ⟨.hbm, 238, rfl⟩
abbrev main_v68 : Ref sig .tc := ⟨.hbm, 239, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg7_0 : Ref sig .tc := ⟨.vmem, 22, rfl⟩
abbrev cc2_stg8_0 : Ref sig .tc := ⟨.vmem, 23, rfl⟩
abbrev cc2_stg9_0 : Ref sig .tc := ⟨.vmem, 24, rfl⟩
abbrev cc2_stg9_1 : Ref sig .tc := ⟨.vmem, 25, rfl⟩
abbrev cc2_stg10_0 : Ref sig .tc := ⟨.vmem, 26, rfl⟩
abbrev cc2_stg10_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg6_0 : Ref sig .tc := ⟨.vmem, 36, rfl⟩
abbrev cc3_stg7_0 : Ref sig .tc := ⟨.vmem, 37, rfl⟩
abbrev cc3_stg7_1 : Ref sig .tc := ⟨.vmem, 38, rfl⟩
abbrev cc4_stg0_0 : Ref sig .tc := ⟨.vmem, 39, rfl⟩
abbrev cc4_stg0_1 : Ref sig .tc := ⟨.vmem, 40, rfl⟩
abbrev cc4_stg1_0 : Ref sig .tc := ⟨.vmem, 41, rfl⟩
abbrev cc4_stg1_1 : Ref sig .tc := ⟨.vmem, 42, rfl⟩
abbrev cc4_stg2_0 : Ref sig .tc := ⟨.vmem, 43, rfl⟩
abbrev cc4_stg2_1 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg5_0 : Ref sig .tc := ⟨.vmem, 47, rfl⟩
abbrev cc4_stg6_0 : Ref sig .tc := ⟨.vmem, 48, rfl⟩
abbrev cc4_stg7_0 : Ref sig .tc := ⟨.vmem, 49, rfl⟩
abbrev cc4_stg8_0 : Ref sig .tc := ⟨.vmem, 50, rfl⟩
abbrev cc4_stg9_0 : Ref sig .tc := ⟨.vmem, 51, rfl⟩
abbrev cc4_stg9_1 : Ref sig .tc := ⟨.vmem, 52, rfl⟩
abbrev cc4_stg10_0 : Ref sig .tc := ⟨.vmem, 53, rfl⟩
abbrev cc4_stg10_1 : Ref sig .tc := ⟨.vmem, 54, rfl⟩
abbrev cc5_stg0_0 : Ref sig .tc := ⟨.vmem, 55, rfl⟩
abbrev cc5_stg0_1 : Ref sig .tc := ⟨.vmem, 56, rfl⟩
abbrev cc5_stg1_0 : Ref sig .tc := ⟨.vmem, 57, rfl⟩
abbrev cc5_stg1_1 : Ref sig .tc := ⟨.vmem, 58, rfl⟩
abbrev cc5_stg2_0 : Ref sig .tc := ⟨.vmem, 59, rfl⟩
abbrev cc5_stg3_0 : Ref sig .tc := ⟨.vmem, 60, rfl⟩
abbrev cc5_stg4_0 : Ref sig .tc := ⟨.vmem, 61, rfl⟩
abbrev cc5_stg5_0 : Ref sig .tc := ⟨.vmem, 62, rfl⟩
abbrev cc5_stg6_0 : Ref sig .tc := ⟨.vmem, 63, rfl⟩
abbrev cc5_stg7_0 : Ref sig .tc := ⟨.vmem, 64, rfl⟩
abbrev cc5_stg7_1 : Ref sig .tc := ⟨.vmem, 65, rfl⟩
abbrev cc6_stg0_0 : Ref sig .tc := ⟨.vmem, 66, rfl⟩
abbrev cc6_stg0_1 : Ref sig .tc := ⟨.vmem, 67, rfl⟩
abbrev cc6_stg1_0 : Ref sig .tc := ⟨.vmem, 68, rfl⟩
abbrev cc6_stg1_1 : Ref sig .tc := ⟨.vmem, 69, rfl⟩
abbrev cc6_stg2_0 : Ref sig .tc := ⟨.vmem, 70, rfl⟩
abbrev cc6_stg2_1 : Ref sig .tc := ⟨.vmem, 71, rfl⟩
abbrev cc6_stg3_0 : Ref sig .tc := ⟨.vmem, 72, rfl⟩
abbrev cc6_stg4_0 : Ref sig .tc := ⟨.vmem, 73, rfl⟩
abbrev cc6_stg5_0 : Ref sig .tc := ⟨.vmem, 74, rfl⟩
abbrev cc6_stg6_0 : Ref sig .tc := ⟨.vmem, 75, rfl⟩
abbrev cc6_stg7_0 : Ref sig .tc := ⟨.vmem, 76, rfl⟩
abbrev cc6_stg8_0 : Ref sig .tc := ⟨.vmem, 77, rfl⟩
abbrev cc6_stg9_0 : Ref sig .tc := ⟨.vmem, 78, rfl⟩
abbrev cc6_stg9_1 : Ref sig .tc := ⟨.vmem, 79, rfl⟩
abbrev cc6_stg10_0 : Ref sig .tc := ⟨.vmem, 80, rfl⟩
abbrev cc6_stg10_1 : Ref sig .tc := ⟨.vmem, 81, rfl⟩
abbrev cc7_stg0_0 : Ref sig .tc := ⟨.vmem, 82, rfl⟩
abbrev cc7_stg0_1 : Ref sig .tc := ⟨.vmem, 83, rfl⟩
abbrev cc7_stg1_0 : Ref sig .tc := ⟨.vmem, 84, rfl⟩
abbrev cc7_stg1_1 : Ref sig .tc := ⟨.vmem, 85, rfl⟩
abbrev cc7_stg2_0 : Ref sig .tc := ⟨.vmem, 86, rfl⟩
abbrev cc7_stg3_0 : Ref sig .tc := ⟨.vmem, 87, rfl⟩
abbrev cc7_stg4_0 : Ref sig .tc := ⟨.vmem, 88, rfl⟩
abbrev cc7_stg5_0 : Ref sig .tc := ⟨.vmem, 89, rfl⟩
abbrev cc7_stg6_0 : Ref sig .tc := ⟨.vmem, 90, rfl⟩
abbrev cc7_stg7_0 : Ref sig .tc := ⟨.vmem, 91, rfl⟩
abbrev cc7_stg7_1 : Ref sig .tc := ⟨.vmem, 92, rfl⟩
abbrev cc8_stg0_0 : Ref sig .tc := ⟨.vmem, 93, rfl⟩
abbrev cc8_stg0_1 : Ref sig .tc := ⟨.vmem, 94, rfl⟩
abbrev cc8_stg1_0 : Ref sig .tc := ⟨.vmem, 95, rfl⟩
abbrev cc8_stg2_0 : Ref sig .tc := ⟨.vmem, 96, rfl⟩
abbrev cc8_stg3_0 : Ref sig .tc := ⟨.vmem, 97, rfl⟩
abbrev cc8_stg3_1 : Ref sig .tc := ⟨.vmem, 98, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem7_0 : DmaSem sig := 22
abbrev cc2_sem8_0 : DmaSem sig := 23
abbrev cc2_sem9_0 : DmaSem sig := 24
abbrev cc2_sem9_1 : DmaSem sig := 25
abbrev cc2_sem10_0 : DmaSem sig := 26
abbrev cc2_sem10_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem3_0 : DmaSem sig := 33
abbrev cc3_sem4_0 : DmaSem sig := 34
abbrev cc3_sem5_0 : DmaSem sig := 35
abbrev cc3_sem6_0 : DmaSem sig := 36
abbrev cc3_sem7_0 : DmaSem sig := 37
abbrev cc3_sem7_1 : DmaSem sig := 38
abbrev cc4_sem0_0 : DmaSem sig := 39
abbrev cc4_sem0_1 : DmaSem sig := 40
abbrev cc4_sem1_0 : DmaSem sig := 41
abbrev cc4_sem1_1 : DmaSem sig := 42
abbrev cc4_sem2_0 : DmaSem sig := 43
abbrev cc4_sem2_1 : DmaSem sig := 44
abbrev cc4_sem3_0 : DmaSem sig := 45
abbrev cc4_sem4_0 : DmaSem sig := 46
abbrev cc4_sem5_0 : DmaSem sig := 47
abbrev cc4_sem6_0 : DmaSem sig := 48
abbrev cc4_sem7_0 : DmaSem sig := 49
abbrev cc4_sem8_0 : DmaSem sig := 50
abbrev cc4_sem9_0 : DmaSem sig := 51
abbrev cc4_sem9_1 : DmaSem sig := 52
abbrev cc4_sem10_0 : DmaSem sig := 53
abbrev cc4_sem10_1 : DmaSem sig := 54
abbrev cc5_sem0_0 : DmaSem sig := 55
abbrev cc5_sem0_1 : DmaSem sig := 56
abbrev cc5_sem1_0 : DmaSem sig := 57
abbrev cc5_sem1_1 : DmaSem sig := 58
abbrev cc5_sem2_0 : DmaSem sig := 59
abbrev cc5_sem3_0 : DmaSem sig := 60
abbrev cc5_sem4_0 : DmaSem sig := 61
abbrev cc5_sem5_0 : DmaSem sig := 62
abbrev cc5_sem6_0 : DmaSem sig := 63
abbrev cc5_sem7_0 : DmaSem sig := 64
abbrev cc5_sem7_1 : DmaSem sig := 65
abbrev cc6_sem0_0 : DmaSem sig := 66
abbrev cc6_sem0_1 : DmaSem sig := 67
abbrev cc6_sem1_0 : DmaSem sig := 68
abbrev cc6_sem1_1 : DmaSem sig := 69
abbrev cc6_sem2_0 : DmaSem sig := 70
abbrev cc6_sem2_1 : DmaSem sig := 71
abbrev cc6_sem3_0 : DmaSem sig := 72
abbrev cc6_sem4_0 : DmaSem sig := 73
abbrev cc6_sem5_0 : DmaSem sig := 74
abbrev cc6_sem6_0 : DmaSem sig := 75
abbrev cc6_sem7_0 : DmaSem sig := 76
abbrev cc6_sem8_0 : DmaSem sig := 77
abbrev cc6_sem9_0 : DmaSem sig := 78
abbrev cc6_sem9_1 : DmaSem sig := 79
abbrev cc6_sem10_0 : DmaSem sig := 80
abbrev cc6_sem10_1 : DmaSem sig := 81
abbrev cc7_sem0_0 : DmaSem sig := 82
abbrev cc7_sem0_1 : DmaSem sig := 83
abbrev cc7_sem1_0 : DmaSem sig := 84
abbrev cc7_sem1_1 : DmaSem sig := 85
abbrev cc7_sem2_0 : DmaSem sig := 86
abbrev cc7_sem3_0 : DmaSem sig := 87
abbrev cc7_sem4_0 : DmaSem sig := 88
abbrev cc7_sem5_0 : DmaSem sig := 89
abbrev cc7_sem6_0 : DmaSem sig := 90
abbrev cc7_sem7_0 : DmaSem sig := 91
abbrev cc7_sem7_1 : DmaSem sig := 92
abbrev cc8_sem0_0 : DmaSem sig := 93
abbrev cc8_sem0_1 : DmaSem sig := 94
abbrev cc8_sem1_0 : DmaSem sig := 95
abbrev cc8_sem2_0 : DmaSem sig := 96
abbrev cc8_sem3_0 : DmaSem sig := 97
abbrev cc8_sem3_1 : DmaSem sig := 98

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![400], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x8 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![400], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S32x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S32x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S16x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x32 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S32x32 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x32 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S2000x32 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S2000x32 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S32x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S32x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x32 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x32 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S5000x32 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![400], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_10 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x32 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x16 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S32x32 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S32x32 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S16x32 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x32 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S32x32 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x32 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 2 → Memref sig .tc .vmem S2000x32 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev stage4_10 : Fin 2 → Memref sig .tc .vmem S2000x32 .f32 := fun | 0 => Memref.whole cc4_stg10_0 | 1 => Memref.whole cc4_stg10_1 | ⟨_ + 2, h⟩ => absurd h (Nat.not_lt.2 (Nat.le_add_left _ _))
abbrev sem4_10 : Fin 2 → DmaSem sig := fun | 0 => cc4_sem10_0 | 1 => cc4_sem10_1 | ⟨_ + 2, h⟩ => absurd h (Nat.not_lt.2 (Nat.le_add_left _ _))
abbrev reads4_10 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x32 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S32x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S32x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S64x32 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x32 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S5000x32 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![400], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_10 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x32 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S2000x16 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S32x32 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S32x32 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S16x32 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x32 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S32x32 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S1x32 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 2 → Memref sig .tc .vmem S2000x32 .f32 := fun | 0 => Memref.whole cc6_stg9_0 | 1 => Memref.whole cc6_stg9_1 | ⟨_ + 2, h⟩ => absurd h (Nat.not_lt.2 (Nat.le_add_left _ _))
abbrev sem6_9 : Fin 2 → DmaSem sig := fun | 0 => cc6_sem9_0 | 1 => cc6_sem9_1 | ⟨_ + 2, h⟩ => absurd h (Nat.not_lt.2 (Nat.le_add_left _ _))
abbrev reads6_9 : Fin grid6.rank → Bool := ![true]

abbrev stage6_10 : Fin 2 → Memref sig .tc .vmem S2000x32 .f32 := fun | 0 => Memref.whole cc6_stg10_0 | 1 => Memref.whole cc6_stg10_1 | ⟨_ + 2, h⟩ => absurd h (Nat.not_lt.2 (Nat.le_add_left _ _))
abbrev sem6_10 : Fin 2 → DmaSem sig := fun | 0 => cc6_sem10_0 | 1 => cc6_sem10_1 | ⟨_ + 2, h⟩ => absurd h (Nat.not_lt.2 (Nat.le_add_left _ _))
abbrev reads6_10 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x32 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x32 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S32x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S32x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S64x32 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x32 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 2 → Memref sig .tc .vmem S5000x32 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x32 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S32x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S5000x64 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

class Facts₀ : Prop where
  shapeCasts_S32_S1x32 : S32.ShapeCasts S1x32
  inb_S5000x16_S5000x16_0_0 : ∀ a, (![0, 0] : Fin 2 → Nat) a + S5000x16.size a ≤ S5000x16.size a
  h_S5000x16 : 0 < S5000x16.numel
  bitsLt_bf16_f32 : FTy.bits .bf16 < FTy.bits .f32
  inb_S16x32_S16x32_0_0 : ∀ a, (![0, 0] : Fin 2 → Nat) a + S16x32.size a ≤ S16x32.size a
  h_S16x32 : 0 < S16x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  shapeCasts_S16_S1x16 : S16.ShapeCasts S1x16
  inb_S2000x8_S2000x8_0_0 : ∀ a, (![0, 0] : Fin 2 → Nat) a + S2000x8.size a ≤ S2000x8.size a
  h_S2000x8 : 0 < S2000x8.numel
  inb_S8x16_S8x16_0_0 : ∀ a, (![0, 0] : Fin 2 → Nat) a + S8x16.size a ≤ S8x16.size a
  h_S8x16 : 0 < S8x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  inb_S2000x16_S2000x16_0_0 : ∀ a, (![0, 0] : Fin 2 → Nat) a + S2000x16.size a ≤ S2000x16.size a
  h_S2000x16 : 0 < S2000x16.numel
  slices_S80x32_S32x32_0_0 : S80x32.Slices ![0, 0] S32x32
  slices_S80x32_S32x32_32_0 : S80x32.Slices ![32, 0] S32x32
  slices_S80x32_S16x32_64_0 : S80x32.Slices ![64, 0] S16x32
  slices_S64x64_S32x64_0_0 : S64x64.Slices ![0, 0] S32x64
  slices_S64x64_S32x64_32_0 : S64x64.Slices ![32, 0] S32x64
  shapeCasts_S64_S1x64 : S64.ShapeCasts S1x64
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x32_0 : S800000.BroadcastsInDim S800000x32 (![0] : Fin 1 → Fin S800000x32.rank)
  bcast_S_S800000x32 : S_.BroadcastsInDim S800000x32 (![] : Fin 0 → Fin S800000x32.rank)
  inb_S2000x32_S2000x32_0_0 : ∀ a, (![0, 0] : Fin 2 → Nat) a + S2000x32.size a ≤ S2000x32.size a
  h_S2000x32 : 0 < S2000x32.numel
  shapeCasts_S2000x32_S2000x32 : S2000x32.ShapeCasts S2000x32
  shapeCasts_S2000x16_S2000x16 : S2000x16.ShapeCasts S2000x16
  inb_S32x32_S32x32_0_0 : ∀ a, (![0, 0] : Fin 2 → Nat) a + S32x32.size a ≤ S32x32.size a
  h_S32x32 : 0 < S32x32.numel
  shapeCasts_S32x32_S32x32 : S32x32.ShapeCasts S32x32
  shapeCasts_S16x32_S16x32 : S16x32.ShapeCasts S16x32
  broadcasts_S1x32_S2000x32 : S1x32.Broadcasts S2000x32
  bcast_S_S100000x32 : S_.BroadcastsInDim S100000x32 (![] : Fin 0 → Fin S100000x32.rank)
  shapeCasts_S5000x32_S5000x32 : S5000x32.ShapeCasts S5000x32
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S64x32_S64x32_0_0 : ∀ a, (![0, 0] : Fin 2 → Nat) a + S64x32.size a ≤ S64x32.size a
  h_S64x32 : 0 < S64x32.numel
  broadcasts_S1x64_S5000x64 : S1x64.Broadcasts S5000x64
  shapeCasts_S128_S1x128 : S128.ShapeCasts S1x128
  inb_S32x128_S32x128_0_0 : ∀ a, (![0, 0] : Fin 2 → Nat) a + S32x128.size a ≤ S32x128.size a
  h_S32x128 : 0 < S32x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S5000x128_o0_0_S5000x64 : S5000x128.Slices ![0, 0] S5000x64
  slices_S5000x128_o0_64_S5000x64 : S5000x128.Slices ![0, 64] S5000x64
  inb_S5000x64_S5000x64_0_0 : ∀ a, (![0, 0] : Fin 2 → Nat) a + S5000x64.size a ≤ S5000x64.size a
  h_S5000x64 : 0 < S5000x64.numel
  bcast_S_S512x64 : S_.BroadcastsInDim S512x64 (![] : Fin 0 → Fin S512x64.rank)
  bcast_S100000_S100000x1_0 : S100000.BroadcastsInDim S100000x1 (![0] : Fin 1 → Fin S100000x1.rank)
  bcast_S64_S1x64_1 : S64.BroadcastsInDim S1x64 (![1] : Fin 1 → Fin S1x64.rank)
  bcast_S1x64_S512x64_0_1 : S1x64.BroadcastsInDim S512x64 (![0, 1] : Fin 2 → Fin S512x64.rank)
  shapeCasts_S512x64_S256x128 : S512x64.ShapeCasts S256x128
  slices_S256x128_S256x64_0_0 : S256x128.Slices ![0, 0] S256x64
  slices_S256x128_S256x64_0_64 : S256x128.Slices ![0, 64] S256x64
  bcast_S_S256x64 : S_.BroadcastsInDim S256x64 (![] : Fin 0 → Fin S256x64.rank)
  reducesTo_S256x64_S256_d1 : S256x64.ReducesTo [1] S256
  bcast_S_S256 : S_.BroadcastsInDim S256 (![] : Fin 0 → Fin S256.rank)
  dot_S5000x16_S16x32_S5000x32_1_0_0_1_n_n_wf : DotDims.WF S5000x16 S16x32 S5000x32 [1] [0] [0] [1] [] []
  dot_S2000x8_S8x16_S2000x16_1_0_0_1_n_n_wf : DotDims.WF S2000x8 S8x16 S2000x16 [1] [0] [0] [1] [] []
  gather_S100000x32_S800000x1_S800000x32_1_0_n_n_0_1_132_wf : GatherDims.WF S100000x32 S800000x1 S800000x32 [1] [0] [] [0] [] 1 ![1, 32]
  dot_S2000x32_S32x32_S2000x32_1_0_0_1_n_n_wf : DotDims.WF S2000x32 S32x32 S2000x32 [1] [0] [0] [1] [] []
  dot_S2000x16_S16x32_S2000x32_1_0_0_1_n_n_wf : DotDims.WF S2000x16 S16x32 S2000x32 [1] [0] [0] [1] [] []
  scatter_S100000x32_S800000x1_S800000x32_1_0_0_1_wf : ScatterDims.WF S100000x32 S800000x1 S800000x32 [1] [0] [0] 1
  dot_S5000x32_S32x64_S5000x64_1_0_0_1_n_n_wf : DotDims.WF S5000x32 S32x64 S5000x64 [1] [0] [0] [1] [] []
  dot_S5000x64_S64x32_S5000x32_1_0_0_1_n_n_wf : DotDims.WF S5000x64 S64x32 S5000x32 [1] [0] [0] [1] [] []
  dot_S5000x32_S32x128_S5000x128_1_0_0_1_n_n_wf : DotDims.WF S5000x32 S32x128 S5000x128 [1] [0] [0] [1] [] []
  scatter_S512x64_S100000x1_S100000x64_1_0_0_1_wf : ScatterDims.WF S512x64 S100000x1 S100000x64 [1] [0] [0] 1
  dot_S512x64_S64x64_S512x64_1_0_0_1_n_n_wf : DotDims.WF S512x64 S64x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x16.size a ≤ S100000x16.size a
  hwx0_0 : ∀ i : grid0.Coords, EltTy.bits .f32 = 32 ∨ (Rect.block (s := S100000x16) S5000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x32.size a ≤ S16x32.size a
  hwx0_1 : ∀ i : grid0.Coords, EltTy.bits .f32 = 32 ∨ (Rect.block (s := S16x32) S16x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x32.size a ≤ S100000x32.size a
  hwx0_3 : ∀ i : grid0.Coords, EltTy.bits .f32 = 32 ∨ (Rect.block (s := S100000x32) S5000x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x8.size a ≤ S800000x8.size a
  hwx1_0 : ∀ i : grid1.Coords, EltTy.bits .f32 = 32 ∨ (Rect.block (s := S800000x8) S2000x8.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8x16.size a ≤ S8x16.size a
  hwx1_1 : ∀ i : grid1.Coords, EltTy.bits .f32 = 32 ∨ (Rect.block (s := S8x16) S8x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x16.size a ≤ S800000x16.size a
  hwx1_3 : ∀ i : grid1.Coords, EltTy.bits .f32 = 32 ∨ (Rect.block (s := S800000x16) S2000x16.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x32.size a ≤ S800000x32.size a
  hwx2_0 : ∀ i : grid2.Coords, EltTy.bits .f32 = 32 ∨ (Rect.block (s := S800000x32) S2000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x32.size a ≤ S800000x32.size a
  hwx2_1 : ∀ i : grid2.Coords, EltTy.bits .f32 = 32 ∨ (Rect.block (s := S800000x32) S2000x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x16.size a ≤ S800000x16.size a
  hwx2_2 : ∀ i : grid2.Coords, EltTy.bits .f32 = 32 ∨ (Rect.block (s := S800000x16) S2000x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x32.size a ≤ S32x32.size a
  hwx2_3 : ∀ i : grid2.Coords, EltTy.bits .f32 = 32 ∨ (Rect.block (s := S32x32) S32x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S32x32.size a ≤ S32x32.size a
  hwx2_4 : ∀ i : grid2.Coords, EltTy.bits .f32 = 32 ∨ (Rect.block (s := S32x32) S32x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S16x32.size a ≤ S16x32.size a
  hwx2_5 : ∀ i : grid2.Coords, EltTy.bits .f32 = 32 ∨ (Rect.block (s := S16x32) S16x32.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x32.size a ≤ S1x32.size a
  hwx2_6 : ∀ i : grid2.Coords, EltTy.bits .f32 = 32 ∨ (Rect.block (s := S1x32) S1x32.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S32x32.size a ≤ S32x32.size a
  hwx2_7 : ∀ i : grid2.Coords, EltTy.bits .f32 = 32 ∨ (Rect.block (s := S32x32) S32x32.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x32.size a ≤ S1x32.size a
  hwx2_8 : ∀ i : grid2.Coords, EltTy.bits .f32 = 32 ∨ (Rect.block (s := S1x32) S1x32.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S2000x32.size a ≤ S800000x32.size a
  hwx2_9 : ∀ i : grid2.Coords, EltTy.bits .f32 = 32 ∨ (Rect.block (s := S800000x32) S2000x32.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S2000x32.size a ≤ S800000x32.size a
  hwx2_10 : ∀ i : grid2.Coords, EltTy.bits .f32 = 32 ∨ (Rect.block (s := S800000x32) S2000x32.size (cc2_transform_10 i) (hinb2_10 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x32.size a ≤ S100000x32.size a
  hwx3_0 : ∀ i : grid3.Coords, EltTy.bits .f32 = 32 ∨ (Rect.block (s := S100000x32) S5000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x32.size a ≤ S100000x32.size a
  hwx3_1 : ∀ i : grid3.Coords, EltTy.bits .f32 = 32 ∨ (Rect.block (s := S100000x32) S5000x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S32x64.size a ≤ S32x64.size a
  hwx3_2 : ∀ i : grid3.Coords, EltTy.bits .f32 = 32 ∨ (Rect.block (s := S32x64) S32x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S32x64.size a ≤ S32x64.size a
  hwx3_3 : ∀ i : grid3.Coords, EltTy.bits .f32 = 32 ∨ (Rect.block (s := S32x64) S32x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x32.size a ≤ S64x32.size a
  hwx3_5 : ∀ i : grid3.Coords, EltTy.bits .f32 = 32 ∨ (Rect.block (s := S64x32) S64x32.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x32.size a ≤ S1x32.size a
  hwx3_6 : ∀ i : grid3.Coords, EltTy.bits .f32 = 32 ∨ (Rect.block (s := S1x32) S1x32.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x32.size a ≤ S100000x32.size a
  hwx3_7 : ∀ i : grid3.Coords, EltTy.bits .f32 = 32 ∨ (Rect.block (s := S100000x32) S5000x32.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x32.size a ≤ S800000x32.size a
  hwx4_0 : ∀ i : grid4.Coords, EltTy.bits .f32 = 32 ∨ (Rect.block (s := S800000x32) S2000x32.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x32.size a ≤ S800000x32.size a
  hwx4_1 : ∀ i : grid4.Coords, EltTy.bits .f32 = 32 ∨ (Rect.block (s := S800000x32) S2000x32.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x16.size a ≤ S800000x16.size a
  hwx4_2 : ∀ i : grid4.Coords, EltTy.bits .f32 = 32 ∨ (Rect.block (s := S800000x16) S2000x16.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S32x32.size a ≤ S32x32.size a
  hwx4_3 : ∀ i : grid4.Coords, EltTy.bits .f32 = 32 ∨ (Rect.block (s := S32x32) S32x32.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S32x32.size a ≤ S32x32.size a
  hwx4_4 : ∀ i : grid4.Coords, EltTy.bits .f32 = 32 ∨ (Rect.block (s := S32x32) S32x32.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S16x32.size a ≤ S16x32.size a
  hwx4_5 : ∀ i : grid4.Coords, EltTy.bits .f32 = 32 ∨ (Rect.block (s := S16x32) S16x32.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x32.size a ≤ S1x32.size a
  hwx4_6 : ∀ i : grid4.Coords, EltTy.bits .f32 = 32 ∨ (Rect.block (s := S1x32) S1x32.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S32x32.size a ≤ S32x32.size a
  hwx4_7 : ∀ i : grid4.Coords, EltTy.bits .f32 = 32 ∨ (Rect.block (s := S32x32) S32x32.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x32.size a ≤ S1x32.size a
  hwx4_8 : ∀ i : grid4.Coords, EltTy.bits .f32 = 32 ∨ (Rect.block (s := S1x32) S1x32.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S2000x32.size a ≤ S800000x32.size a
  hwx4_9 : ∀ i : grid4.Coords, EltTy.bits .f32 = 32 ∨ (Rect.block (s := S800000x32) S2000x32.size (cc4_transform_9 i) (hinb4_9 i)).WholeWords (EltTy.packing .f32)
  hstage4_10 : ∀ j, (stage4_10 j).IsWhole
  nbuf4_10 : grid4.bufCount reads4_10 false = 2
  hreads4_10 : ∀ i i' : grid4.Coords, (∀ a, reads4_10 a = true → i a = i' a) → cc4_transform_10 i = cc4_transform_10 i'
  hinb4_10 : ∀ (i : grid4.Coords) a, (cc4_transform_10 i a + 1) * S2000x32.size a ≤ S800000x32.size a
  hwx4_10 : ∀ i : grid4.Coords, EltTy.bits .f32 = 32 ∨ (Rect.block (s := S800000x32) S2000x32.size (cc4_transform_10 i) (hinb4_10 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x32.size a ≤ S100000x32.size a
  hwx5_0 : ∀ i : grid5.Coords, EltTy.bits .f32 = 32 ∨ (Rect.block (s := S100000x32) S5000x32.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x32.size a ≤ S100000x32.size a
  hwx5_1 : ∀ i : grid5.Coords, EltTy.bits .f32 = 32 ∨ (Rect.block (s := S100000x32) S5000x32.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S32x64.size a ≤ S32x64.size a
  hwx5_2 : ∀ i : grid5.Coords, EltTy.bits .f32 = 32 ∨ (Rect.block (s := S32x64) S32x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S32x64.size a ≤ S32x64.size a
  hwx5_3 : ∀ i : grid5.Coords, EltTy.bits .f32 = 32 ∨ (Rect.block (s := S32x64) S32x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S64x32.size a ≤ S64x32.size a
  hwx5_5 : ∀ i : grid5.Coords, EltTy.bits .f32 = 32 ∨ (Rect.block (s := S64x32) S64x32.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x32.size a ≤ S1x32.size a
  hwx5_6 : ∀ i : grid5.Coords, EltTy.bits .f32 = 32 ∨ (Rect.block (s := S1x32) S1x32.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S5000x32.size a ≤ S100000x32.size a
  hwx5_7 : ∀ i : grid5.Coords, EltTy.bits .f32 = 32 ∨ (Rect.block (s := S100000x32) S5000x32.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x32.size a ≤ S800000x32.size a
  hwx6_0 : ∀ i : grid6.Coords, EltTy.bits .f32 = 32 ∨ (Rect.block (s := S800000x32) S2000x32.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x32.size a ≤ S800000x32.size a
  hwx6_1 : ∀ i : grid6.Coords, EltTy.bits .f32 = 32 ∨ (Rect.block (s := S800000x32) S2000x32.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x16.size a ≤ S800000x16.size a
  hwx6_2 : ∀ i : grid6.Coords, EltTy.bits .f32 = 32 ∨ (Rect.block (s := S800000x16) S2000x16.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S32x32.size a ≤ S32x32.size a
  hwx6_3 : ∀ i : grid6.Coords, EltTy.bits .f32 = 32 ∨ (Rect.block (s := S32x32) S32x32.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S32x32.size a ≤ S32x32.size a
  hwx6_4 : ∀ i : grid6.Coords, EltTy.bits .f32 = 32 ∨ (Rect.block (s := S32x32) S32x32.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S16x32.size a ≤ S16x32.size a
  hwx6_5 : ∀ i : grid6.Coords, EltTy.bits .f32 = 32 ∨ (Rect.block (s := S16x32) S16x32.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x32.size a ≤ S1x32.size a
  hwx6_6 : ∀ i : grid6.Coords, EltTy.bits .f32 = 32 ∨ (Rect.block (s := S1x32) S1x32.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S32x32.size a ≤ S32x32.size a
  hwx6_7 : ∀ i : grid6.Coords, EltTy.bits .f32 = 32 ∨ (Rect.block (s := S32x32) S32x32.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S1x32.size a ≤ S1x32.size a
  hwx6_8 : ∀ i : grid6.Coords, EltTy.bits .f32 = 32 ∨ (Rect.block (s := S1x32) S1x32.size (cc6_transform_8 i) (hinb6_8 i)).WholeWords (EltTy.packing .f32)
  hstage6_9 : ∀ j, (stage6_9 j).IsWhole
  nbuf6_9 : grid6.bufCount reads6_9 false = 2
  hreads6_9 : ∀ i i' : grid6.Coords, (∀ a, reads6_9 a = true → i a = i' a) → cc6_transform_9 i = cc6_transform_9 i'
  hinb6_9 : ∀ (i : grid6.Coords) a, (cc6_transform_9 i a + 1) * S2000x32.size a ≤ S800000x32.size a
  hwx6_9 : ∀ i : grid6.Coords, EltTy.bits .f32 = 32 ∨ (Rect.block (s := S800000x32) S2000x32.size (cc6_transform_9 i) (hinb6_9 i)).WholeWords (EltTy.packing .f32)
  hstage6_10 : ∀ j, (stage6_10 j).IsWhole
  nbuf6_10 : grid6.bufCount reads6_10 false = 2
  hreads6_10 : ∀ i i' : grid6.Coords, (∀ a, reads6_10 a = true → i a = i' a) → cc6_transform_10 i = cc6_transform_10 i'
  hinb6_10 : ∀ (i : grid6.Coords) a, (cc6_transform_10 i a + 1) * S2000x32.size a ≤ S800000x32.size a
  hwx6_10 : ∀ i : grid6.Coords, EltTy.bits .f32 = 32 ∨ (Rect.block (s := S800000x32) S2000x32.size (cc6_transform_10 i) (hinb6_10 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x32.size a ≤ S100000x32.size a
  hwx7_0 : ∀ i : grid7.Coords, EltTy.bits .f32 = 32 ∨ (Rect.block (s := S100000x32) S5000x32.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x32.size a ≤ S100000x32.size a
  hwx7_1 : ∀ i : grid7.Coords, EltTy.bits .f32 = 32 ∨ (Rect.block (s := S100000x32) S5000x32.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S32x64.size a ≤ S32x64.size a
  hwx7_2 : ∀ i : grid7.Coords, EltTy.bits .f32 = 32 ∨ (Rect.block (s := S32x64) S32x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S32x64.size a ≤ S32x64.size a
  hwx7_3 : ∀ i : grid7.Coords, EltTy.bits .f32 = 32 ∨ (Rect.block (s := S32x64) S32x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x64.size a ≤ S1x64.size a
  hwx7_4 : ∀ i : grid7.Coords, EltTy.bits .f32 = 32 ∨ (Rect.block (s := S1x64) S1x64.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S64x32.size a ≤ S64x32.size a
  hwx7_5 : ∀ i : grid7.Coords, EltTy.bits .f32 = 32 ∨ (Rect.block (s := S64x32) S64x32.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x32.size a ≤ S1x32.size a
  hwx7_6 : ∀ i : grid7.Coords, EltTy.bits .f32 = 32 ∨ (Rect.block (s := S1x32) S1x32.size (cc7_transform_6 i) (hinb7_6 i)).WholeWords (EltTy.packing .f32)
  hstage7_7 : ∀ j, (stage7_7 j).IsWhole
  nbuf7_7 : grid7.bufCount reads7_7 false = 2
  hreads7_7 : ∀ i i' : grid7.Coords, (∀ a, reads7_7 a = true → i a = i' a) → cc7_transform_7 i = cc7_transform_7 i'
  hinb7_7 : ∀ (i : grid7.Coords) a, (cc7_transform_7 i a + 1) * S5000x32.size a ≤ S100000x32.size a
  hwx7_7 : ∀ i : grid7.Coords, EltTy.bits .f32 = 32 ∨ (Rect.block (s := S100000x32) S5000x32.size (cc7_transform_7 i) (hinb7_7 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x32.size a ≤ S100000x32.size a
  hwx8_0 : ∀ i : grid8.Coords, EltTy.bits .f32 = 32 ∨ (Rect.block (s := S100000x32) S5000x32.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S32x128.size a ≤ S32x128.size a
  hwx8_1 : ∀ i : grid8.Coords, EltTy.bits .f32 = 32 ∨ (Rect.block (s := S32x128) S32x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S5000x64.size a ≤ S100000x64.size a
  hwx8_3 : ∀ i : grid8.Coords, EltTy.bits .f32 = 32 ∨ (Rect.block (s := S100000x64) S5000x64.size (cc8_transform_3 i) (hinb8_3 i)).WholeWords (EltTy.packing .f32)

variable [Facts₀]

def dot_S5000x16_S16x32_S5000x32_1_0_0_1_n_n : DotDims S5000x16 S16x32 S5000x32 where
  lhsContracting := [1]
  rhsContracting := [0]
  lhsNonContracting := [0]
  rhsNonContracting := [1]
  lhsBatch := []
  rhsBatch := []
  wf := dot_S5000x16_S16x32_S5000x32_1_0_0_1_n_n_wf
def dot_S2000x8_S8x16_S2000x16_1_0_0_1_n_n : DotDims S2000x8 S8x16 S2000x16 where
  lhsContracting := [1]
  rhsContracting := [0]
  lhsNonContracting := [0]
  rhsNonContracting := [1]
  lhsBatch := []
  rhsBatch := []
  wf := dot_S2000x8_S8x16_S2000x16_1_0_0_1_n_n_wf
def gather_S100000x32_S800000x1_S800000x32_1_0_n_n_0_1_132 : GatherDims S100000x32 S800000x1 S800000x32 where
  offsetDims := [1]
  collapsedSliceDims := [0]
  operandBatchingDims := []
  startIndicesBatchingDims := []
  startIndexMap := [0]
  indexVectorDim := 1
  sliceSizes := ![1, 32]
  wf := gather_S100000x32_S800000x1_S800000x32_1_0_n_n_0_1_132_wf
def dot_S2000x32_S32x32_S2000x32_1_0_0_1_n_n : DotDims S2000x32 S32x32 S2000x32 where
  lhsContracting := [1]
  rhsContracting := [0]
  lhsNonContracting := [0]
  rhsNonContracting := [1]
  lhsBatch := []
  rhsBatch := []
  wf := dot_S2000x32_S32x32_S2000x32_1_0_0_1_n_n_wf
def dot_S2000x16_S16x32_S2000x32_1_0_0_1_n_n : DotDims S2000x16 S16x32 S2000x32 where
  lhsContracting := [1]
  rhsContracting := [0]
  lhsNonContracting := [0]
  rhsNonContracting := [1]
  lhsBatch := []
  rhsBatch := []
  wf := dot_S2000x16_S16x32_S2000x32_1_0_0_1_n_n_wf
def scatter_S100000x32_S800000x1_S800000x32_1_0_0_1 : ScatterDims S100000x32 S800000x1 S800000x32 where
  updateWindowDims := [1]
  insertedWindowDims := [0]
  scatterDimsToOperandDims := [0]
  indexVectorDim := 1
  wf := scatter_S100000x32_S800000x1_S800000x32_1_0_0_1_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def dot_S5000x32_S32x128_S5000x128_1_0_0_1_n_n : DotDims S5000x32 S32x128 S5000x128 where
  lhsContracting := [1]
  rhsContracting := [0]
  lhsNonContracting := [0]
  rhsNonContracting := [1]
  lhsBatch := []
  rhsBatch := []
  wf := dot_S5000x32_S32x128_S5000x128_1_0_0_1_n_n_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf

abbrev win0_0 : Pipeline.Window sig grid0 :=
  Pipeline.Window.ofSpec (Memref.whole main_arg0) S5000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S16x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S2000x8.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S8x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S2000x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v13) S2000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S2000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S2000x16.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v4) S32x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v5) S32x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v6) S16x32.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v9) S1x32.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg11) S32x32.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v10) S1x32.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v15_0) S2000x32.size cc2_transform_9 reads2_9 true false 2 stage2_9 sem2_9
    hrank2 hreads2_9 hinb2_9 nbuf2_9 (Memref.isWhole_whole _) hwx2_9 hstage2_9

abbrev win2_10 : Pipeline.Window sig grid2 :=
  Pipeline.Window.ofSpec (Memref.whole main_v15_1) S2000x32.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

abbrev win3_0 : Pipeline.Window sig grid3 :=
  Pipeline.Window.ofSpec (Memref.whole main_v22) S5000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v1) S5000x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v7) S32x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v8) S32x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v11) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg15) S64x32.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v12) S1x32.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v23) S5000x32.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v24) S2000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v25) S2000x32.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v3) S2000x16.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v4) S32x32.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v5) S32x32.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v6) S16x32.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v9) S1x32.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_arg11) S32x32.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v10) S1x32.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v26_0) S2000x32.size cc4_transform_9 reads4_9 true false 2 stage4_9 sem4_9
    hrank4 hreads4_9 hinb4_9 nbuf4_9 (Memref.isWhole_whole _) hwx4_9 hstage4_9

abbrev win4_10 : Pipeline.Window sig grid4 :=
  Pipeline.Window.ofSpec (Memref.whole main_v26_1) S2000x32.size cc4_transform_10 reads4_10 true false 2 stage4_10 sem4_10
    hrank4 hreads4_10 hinb4_10 nbuf4_10 (Memref.isWhole_whole _) hwx4_10 hstage4_10

abbrev win4 : Fin 11 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | ⟨_ + 11, h⟩ => absurd h (Nat.not_lt.2 (Nat.le_add_left _ _))
abbrev spec4 : Fin 11 → Pipeline.WinSpec sig grid4.rank := fun w => (win4 w).toWinSpec

abbrev win5_0 : Pipeline.Window sig grid5 :=
  Pipeline.Window.ofSpec (Memref.whole main_v33) S5000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v23) S5000x32.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v7) S32x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v8) S32x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v11) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg15) S64x32.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v12) S1x32.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v34) S5000x32.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v35) S2000x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v36) S2000x32.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v3) S2000x16.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v4) S32x32.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v5) S32x32.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v6) S16x32.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v9) S1x32.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_arg11) S32x32.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v10) S1x32.size cc6_transform_8 reads6_8 false true 1 stage6_8 sem6_8
    hrank6 hreads6_8 hinb6_8 nbuf6_8 (Memref.isWhole_whole _) hwx6_8 hstage6_8

abbrev win6_9 : Pipeline.Window sig grid6 :=
  Pipeline.Window.ofSpec (Memref.whole main_v37_0) S2000x32.size cc6_transform_9 reads6_9 true false 2 stage6_9 sem6_9
    hrank6 hreads6_9 hinb6_9 nbuf6_9 (Memref.isWhole_whole _) hwx6_9 hstage6_9

abbrev win6_10 : Pipeline.Window sig grid6 :=
  Pipeline.Window.ofSpec (Memref.whole main_v37_1) S2000x32.size cc6_transform_10 reads6_10 true false 2 stage6_10 sem6_10
    hrank6 hreads6_10 hinb6_10 nbuf6_10 (Memref.isWhole_whole _) hwx6_10 hstage6_10

abbrev win6 : Fin 11 → Pipeline.Window sig grid6 := fun | 0 => win6_0 | 1 => win6_1 | 2 => win6_2 | 3 => win6_3 | 4 => win6_4 | 5 => win6_5 | 6 => win6_6 | 7 => win6_7 | 8 => win6_8 | 9 => win6_9 | 10 => win6_10 | ⟨_ + 11, h⟩ => absurd h (Nat.not_lt.2 (Nat.le_add_left _ _))
abbrev spec6 : Fin 11 → Pipeline.WinSpec sig grid6.rank := fun w => (win6 w).toWinSpec

abbrev win7_0 : Pipeline.Window sig grid7 :=
  Pipeline.Window.ofSpec (Memref.whole main_v44) S5000x32.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v34) S5000x32.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v7) S32x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v8) S32x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v11) S1x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_arg15) S64x32.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v12) S1x32.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v45) S5000x32.size cc7_transform_7 reads7_7 true false 2 stage7_7 sem7_7
    hrank7 hreads7_7 hinb7_7 nbuf7_7 (Memref.isWhole_whole _) hwx7_7 hstage7_7

abbrev win7 : Fin 8 → Pipeline.Window sig grid7 := fun | 0 => win7_0 | 1 => win7_1 | 2 => win7_2 | 3 => win7_3 | 4 => win7_4 | 5 => win7_5 | 6 => win7_6 | 7 => win7_7 | ⟨_ + 8, h⟩ => absurd h (Nat.not_lt.2 (Nat.le_add_left _ _))
abbrev spec7 : Fin 8 → Pipeline.WinSpec sig grid7.rank := fun w => (win7 w).toWinSpec

abbrev win8_0 : Pipeline.Window sig grid8 :=
  Pipeline.Window.ofSpec (Memref.whole main_v45) S5000x32.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg17) S32x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v46) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v47) S5000x64.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

class Facts : Prop extends Facts₀ where

variable [Facts]
-- ==== ReferenceIdeal.lean ====
abbrev S100000x16 : Shape := ⟨2, ![100000, 16]⟩
abbrev S800000x8 : Shape := ⟨2, ![800000, 8]⟩
abbrev S800000 : Shape := ⟨1, ![800000]⟩
abbrev S100000 : Shape := ⟨1, ![100000]⟩
abbrev S16x32 : Shape := ⟨2, ![16, 32]⟩
abbrev S32 : Shape := ⟨1, ![32]⟩
abbrev S8x16 : Shape := ⟨2, ![8, 16]⟩
abbrev S16 : Shape := ⟨1, ![16]⟩
abbrev S80x32 : Shape := ⟨2, ![80, 32]⟩
abbrev S32x32 : Shape := ⟨2, ![32, 32]⟩
abbrev S64x64 : Shape := ⟨2, ![64, 64]⟩
abbrev S64 : Shape := ⟨1, ![64]⟩
abbrev S64x32 : Shape := ⟨2, ![64, 32]⟩
abbrev S32x128 : Shape := ⟨2, ![32, 128]⟩
abbrev S128 : Shape := ⟨1, ![128]⟩
abbrev S100000x32 : Shape := ⟨2, ![100000, 32]⟩
abbrev S1x32 : Shape := ⟨2, ![1, 32]⟩
abbrev S800000x16 : Shape := ⟨2, ![800000, 16]⟩
abbrev S1x16 : Shape := ⟨2, ![1, 16]⟩
abbrev S_ : Shape := ⟨0, ![]⟩
abbrev S800000x1 : Shape := ⟨2, ![800000, 1]⟩
abbrev S800000x32 : Shape := ⟨2, ![800000, 32]⟩
abbrev S800000x80 : Shape := ⟨2, ![800000, 80]⟩
abbrev S100000x64 : Shape := ⟨2, ![100000, 64]⟩
abbrev S1x64 : Shape := ⟨2, ![1, 64]⟩
abbrev S100000x128 : Shape := ⟨2, ![100000, 128]⟩
abbrev S1x128 : Shape := ⟨2, ![1, 128]⟩
abbrev S512x64 : Shape := ⟨2, ![512, 64]⟩
abbrev S100000x1 : Shape := ⟨2, ![100000, 1]⟩
abbrev S256x128 : Shape := ⟨2, ![256, 128]⟩
abbrev S256x64 : Shape := ⟨2, ![256, 64]⟩
abbrev S256 : Shape := ⟨1, ![256]⟩

abbrev nBuf : Space → Nat
  | .hbm => 266
  | .vmem => 0
  | .smem => 0
  | _ => 0

abbrev hbmTy0_0 (i : Nat) : BufTy := match i % 128 with
  | 0 => ⟨S100000x16, .f32⟩
  | 1 => ⟨S800000x8, .f32⟩
  | 2 => ⟨S800000, .i32⟩
  | 3 => ⟨S800000, .i32⟩
  | 4 => ⟨S100000, .i32⟩
  | 5 => ⟨S16x32, .f32⟩
  | 6 => ⟨S32, .f32⟩
  | 7 => ⟨S8x16, .f32⟩
  | 8 => ⟨S16, .f32⟩
  | 9 => ⟨S80x32, .f32⟩
  | 10 => ⟨S32, .f32⟩
  | 11 => ⟨S32x32, .f32⟩
  | 12 => ⟨S32, .f32⟩
  | 13 => ⟨S64x64, .f32⟩
  | 14 => ⟨S64, .f32⟩
  | 15 => ⟨S64x32, .f32⟩
  | 16 => ⟨S32, .f32⟩
  | 17 => ⟨S32x128, .f32⟩
  | 18 => ⟨S128, .f32⟩
  | 19 => ⟨S64x64, .f32⟩
  | 20 => ⟨S64, .f32⟩
  | 21 => ⟨S100000x32, .f32⟩
  | 22 => ⟨S1x32, .f32⟩
  | 23 => ⟨S100000x32, .f32⟩
  | 24 => ⟨S100000x32, .f32⟩
  | 25 => ⟨S800000x16, .f32⟩
  | 26 => ⟨S1x16, .f32⟩
  | 27 => ⟨S800000x16, .f32⟩
  | 28 => ⟨S800000x16, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000x32, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000x32, .f32⟩
  | 47 => ⟨S800000x80, .f32⟩
  | 48 => ⟨S800000x32, .f32⟩
  | 49 => ⟨S1x32, .f32⟩
  | 50 => ⟨S800000x32, .f32⟩
  | 51 => ⟨S800000x32, .f32⟩
  | 52 => ⟨S_, .f32⟩
  | 53 => ⟨S800000x32, .f32⟩
  | 54 => ⟨S800000x32, .f32⟩
  | 55 => ⟨S800000x32, .f32⟩
  | 56 => ⟨S1x32, .f32⟩
  | 57 => ⟨S800000x32, .f32⟩
  | 58 => ⟨S800000x32, .f32⟩
  | 59 => ⟨S_, .f32⟩
  | 60 => ⟨S100000x32, .f32⟩
  | 61 => ⟨S800000x1, .i32⟩
  | 62 => ⟨S100000x32, .f32⟩
  | 63 => ⟨S800000x80, .f32⟩
  | 64 => ⟨S800000x32, .f32⟩
  | 65 => ⟨S1x32, .f32⟩
  | 66 => ⟨S800000x32, .f32⟩
  | 67 => ⟨S800000x32, .f32⟩
  | 68 => ⟨S_, .f32⟩
  | 69 => ⟨S800000x32, .f32⟩
  | 70 => ⟨S800000x32, .f32⟩
  | 71 => ⟨S800000x32, .f32⟩
  | 72 => ⟨S1x32, .f32⟩
  | 73 => ⟨S800000x32, .f32⟩
  | 74 => ⟨S800000x32, .f32⟩
  | 75 => ⟨S_, .f32⟩
  | 76 => ⟨S100000x32, .f32⟩
  | 77 => ⟨S800000x1, .i32⟩
  | 78 => ⟨S100000x32, .f32⟩
  | 79 => ⟨S100000x32, .f32⟩
  | 80 => ⟨S100000x64, .f32⟩
  | 81 => ⟨S100000x64, .f32⟩
  | 82 => ⟨S1x64, .f32⟩
  | 83 => ⟨S100000x64, .f32⟩
  | 84 => ⟨S100000x64, .f32⟩
  | 85 => ⟨S_, .f32⟩
  | 86 => ⟨S100000x64, .f32⟩
  | 87 => ⟨S100000x64, .f32⟩
  | 88 => ⟨S100000x32, .f32⟩
  | 89 => ⟨S1x32, .f32⟩
  | 90 => ⟨S100000x32, .f32⟩
  | 91 => ⟨S100000x32, .f32⟩
  | 92 => ⟨S100000x32, .f32⟩
  | 93 => ⟨S_, .i32⟩
  | 94 => ⟨S800000, .i32⟩
  | 95 => ⟨S800000, .i1⟩
  | 96 => ⟨S_, .i32⟩
  | 97 => ⟨S800000, .i32⟩
  | 98 => ⟨S800000, .i32⟩
  | 99 => ⟨S800000, .i32⟩
  | 100 => ⟨S800000x1, .i32⟩
  | 101 => ⟨S800000x32, .f32⟩
  | 102 => ⟨S_, .i32⟩
  | 103 => ⟨S800000, .i32⟩
  | 104 => ⟨S800000, .i1⟩
  | 105 => ⟨S_, .i32⟩
  | 106 => ⟨S800000, .i32⟩
  | 107 => ⟨S800000, .i32⟩
  | 108 => ⟨S800000, .i32⟩
  | 109 => ⟨S800000x1, .i32⟩
  | 110 => ⟨S800000x32, .f32⟩
  | 111 => ⟨S800000x80, .f32⟩
  | 112 => ⟨S800000x32, .f32⟩
  | 113 => ⟨S1x32, .f32⟩
  | 114 => ⟨S800000x32, .f32⟩
  | 115 => ⟨S800000x32, .f32⟩
  | 116 => ⟨S_, .f32⟩
  | 117 => ⟨S800000x32, .f32⟩
  | 118 => ⟨S800000x32, .f32⟩
  | 119 => ⟨S800000x32, .f32⟩
  | 120 => ⟨S1x32, .f32⟩
  | 121 => ⟨S800000x32, .f32⟩
  | 122 => ⟨S800000x32, .f32⟩
  | 123 => ⟨S_, .f32⟩
  | 124 => ⟨S100000x32, .f32⟩
  | 125 => ⟨S800000x1, .i32⟩
  | 126 => ⟨S100000x32, .f32⟩
  | 127 => ⟨S800000x80, .f32⟩
  | _ => ⟨S100000x16, .f32⟩

abbrev hbmTy0_1 (i : Nat) : BufTy := match i % 128 with
  | 0 => ⟨S800000x32, .f32⟩
  | 1 => ⟨S1x32, .f32⟩
  | 2 => ⟨S800000x32, .f32⟩
  | 3 => ⟨S800000x32, .f32⟩
  | 4 => ⟨S_, .f32⟩
  | 5 => ⟨S800000x32, .f32⟩
  | 6 => ⟨S800000x32, .f32⟩
  | 7 => ⟨S800000x32, .f32⟩
  | 8 => ⟨S1x32, .f32⟩
  | 9 => ⟨S800000x32, .f32⟩
  | 10 => ⟨S800000x32, .f32⟩
  | 11 => ⟨S_, .f32⟩
  | 12 => ⟨S100000x32, .f32⟩
  | 13 => ⟨S800000x1, .i32⟩
  | 14 => ⟨S100000x32, .f32⟩
  | 15 => ⟨S100000x32, .f32⟩
  | 16 => ⟨S100000x64, .f32⟩
  | 17 => ⟨S100000x64, .f32⟩
  | 18 => ⟨S1x64, .f32⟩
  | 19 => ⟨S100000x64, .f32⟩
  | 20 => ⟨S100000x64, .f32⟩
  | 21 => ⟨S_, .f32⟩
  | 22 => ⟨S100000x64, .f32⟩
  | 23 => ⟨S100000x64, .f32⟩
  | 24 => ⟨S100000x32, .f32⟩
  | 25 => ⟨S1x32, .f32⟩
  | 26 => ⟨S100000x32, .f32⟩
  | 27 => ⟨S100000x32, .f32⟩
  | 28 => ⟨S100000x32, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000x32, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000x32, .f32⟩
  | 47 => ⟨S800000x80, .f32⟩
  | 48 => ⟨S800000x32, .f32⟩
  | 49 => ⟨S1x32, .f32⟩
  | 50 => ⟨S800000x32, .f32⟩
  | 51 => ⟨S800000x32, .f32⟩
  | 52 => ⟨S_, .f32⟩
  | 53 => ⟨S800000x32, .f32⟩
  | 54 => ⟨S800000x32, .f32⟩
  | 55 => ⟨S800000x32, .f32⟩
  | 56 => ⟨S1x32, .f32⟩
  | 57 => ⟨S800000x32, .f32⟩
  | 58 => ⟨S800000x32, .f32⟩
  | 59 => ⟨S_, .f32⟩
  | 60 => ⟨S100000x32, .f32⟩
  | 61 => ⟨S800000x1, .i32⟩
  | 62 => ⟨S100000x32, .f32⟩
  | 63 => ⟨S800000x80, .f32⟩
  | 64 => ⟨S800000x32, .f32⟩
  | 65 => ⟨S1x32, .f32⟩
  | 66 => ⟨S800000x32, .f32⟩
  | 67 => ⟨S800000x32, .f32⟩
  | 68 => ⟨S_, .f32⟩
  | 69 => ⟨S800000x32, .f32⟩
  | 70 => ⟨S800000x32, .f32⟩
  | 71 => ⟨S800000x32, .f32⟩
  | 72 => ⟨S1x32, .f32⟩
  | 73 => ⟨S800000x32, .f32⟩
  | 74 => ⟨S800000x32, .f32⟩
  | 75 => ⟨S_, .f32⟩
  | 76 => ⟨S100000x32, .f32⟩
  | 77 => ⟨S800000x1, .i32⟩
  | 78 => ⟨S100000x32, .f32⟩
  | 79 => ⟨S100000x32, .f32⟩
  | 80 => ⟨S100000x64, .f32⟩
  | 81 => ⟨S100000x64, .f32⟩
  | 82 => ⟨S1x64, .f32⟩
  | 83 => ⟨S100000x64, .f32⟩
  | 84 => ⟨S100000x64, .f32⟩
  | 85 => ⟨S_, .f32⟩
  | 86 => ⟨S100000x64, .f32⟩
  | 87 => ⟨S100000x64, .f32⟩
  | 88 => ⟨S100000x32, .f32⟩
  | 89 => ⟨S1x32, .f32⟩
  | 90 => ⟨S100000x32, .f32⟩
  | 91 => ⟨S100000x32, .f32⟩
  | 92 => ⟨S100000x32, .f32⟩
  | 93 => ⟨S100000x128, .f32⟩
  | 94 => ⟨S1x128, .f32⟩
  | 95 => ⟨S100000x128, .f32⟩
  | 96 => ⟨S100000x128, .f32⟩
  | 97 => ⟨S100000x64, .f32⟩
  | 98 => ⟨S100000x64, .f32⟩
  | 99 => ⟨S100000x64, .f32⟩
  | 100 => ⟨S_, .f32⟩
  | 101 => ⟨S100000x64, .f32⟩
  | 102 => ⟨S100000x64, .f32⟩
  | 103 => ⟨S_, .f32⟩
  | 104 => ⟨S100000x64, .f32⟩
  | 105 => ⟨S100000x64, .f32⟩
  | 106 => ⟨S100000x64, .f32⟩
  | 107 => ⟨S100000x64, .f32⟩
  | 108 => ⟨S_, .f32⟩
  | 109 => ⟨S512x64, .f32⟩
  | 110 => ⟨S100000x1, .i32⟩
  | 111 => ⟨S512x64, .f32⟩
  | 112 => ⟨S512x64, .f32⟩
  | 113 => ⟨S1x64, .f32⟩
  | 114 => ⟨S512x64, .f32⟩
  | 115 => ⟨S512x64, .f32⟩
  | 116 => ⟨S256x128, .f32⟩
  | 117 => ⟨S256x64, .f32⟩
  | 118 => ⟨S256x64, .f32⟩
  | 119 => ⟨S256x64, .f32⟩
  | 120 => ⟨S_, .f32⟩
  | 121 => ⟨S256x64, .f32⟩
  | 122 => ⟨S256x64, .f32⟩
  | 123 => ⟨S_, .f32⟩
  | 124 => ⟨S256, .f32⟩
  | 125 => ⟨S256x64, .f32⟩
  | 126 => ⟨S_, .f32⟩
  | 127 => ⟨S256x64, .f32⟩
  | _ => ⟨S100000x16, .f32⟩

abbrev hbmTy0_2 (i : Nat) : BufTy := match i % 128 with
  | 0 => ⟨S256x64, .f32⟩
  | 1 => ⟨S_, .f32⟩
  | 2 => ⟨S256, .f32⟩
  | 3 => ⟨S_, .f32⟩
  | 4 => ⟨S256, .f32⟩
  | 5 => ⟨S256, .f32⟩
  | 6 => ⟨S_, .f32⟩
  | 7 => ⟨S256, .f32⟩
  | 8 => ⟨S256, .f32⟩
  | 9 => ⟨S256, .f32⟩
  | _ => ⟨S100000x16, .f32⟩

abbrev hbmTy (i : Nat) : BufTy := match i / 128 with
  | 0 => hbmTy0_0 i
  | 1 => hbmTy0_1 i
  | 2 => hbmTy0_2 i
  | _ => ⟨S100000x16, .f32⟩

abbrev bufTy : (tb : Table) → Fin (tcTables nBuf tb) → BufTy
  | .hbm, ⟨i, _⟩ => hbmTy i
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_c : Ref sig .tc := ⟨.hbm, 29, rfl⟩
abbrev main_v8 : Ref sig .tc := ⟨.hbm, 30, rfl⟩
abbrev main_v9 : Ref sig .tc := ⟨.hbm, 31, rfl⟩
abbrev main_c_0 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_c_1 : Ref sig .tc := ⟨.hbm, 38, rfl⟩
abbrev main_v15 : Ref sig .tc := ⟨.hbm, 39, rfl⟩
abbrev main_v16 : Ref sig .tc := ⟨.hbm, 40, rfl⟩
abbrev main_c_2 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_call0_cst : Ref sig .tc := ⟨.hbm, 52, rfl⟩
abbrev main_call0_v0 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_cst : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_call1_cst : Ref sig .tc := ⟨.hbm, 68, rfl⟩
abbrev main_call1_v0 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_cst_3 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_call2_cst : Ref sig .tc := ⟨.hbm, 85, rfl⟩
abbrev main_call2_v0 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_c_4 : Ref sig .tc := ⟨.hbm, 93, rfl⟩
abbrev main_v60 : Ref sig .tc := ⟨.hbm, 94, rfl⟩
abbrev main_v61 : Ref sig .tc := ⟨.hbm, 95, rfl⟩
abbrev main_c_5 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_c_6 : Ref sig .tc := ⟨.hbm, 102, rfl⟩
abbrev main_v67 : Ref sig .tc := ⟨.hbm, 103, rfl⟩
abbrev main_v68 : Ref sig .tc := ⟨.hbm, 104, rfl⟩
abbrev main_c_7 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_call3_cst : Ref sig .tc := ⟨.hbm, 116, rfl⟩
abbrev main_call3_v0 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_cst_8 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_call4_cst : Ref sig .tc := ⟨.hbm, 132, rfl⟩
abbrev main_call4_v0 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_cst_9 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_call5_cst : Ref sig .tc := ⟨.hbm, 149, rfl⟩
abbrev main_call5_v0 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_c_10 : Ref sig .tc := ⟨.hbm, 157, rfl⟩
abbrev main_v112 : Ref sig .tc := ⟨.hbm, 158, rfl⟩
abbrev main_v113 : Ref sig .tc := ⟨.hbm, 159, rfl⟩
abbrev main_c_11 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_c_12 : Ref sig .tc := ⟨.hbm, 166, rfl⟩
abbrev main_v119 : Ref sig .tc := ⟨.hbm, 167, rfl⟩
abbrev main_v120 : Ref sig .tc := ⟨.hbm, 168, rfl⟩
abbrev main_c_13 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_call6_cst : Ref sig .tc := ⟨.hbm, 180, rfl⟩
abbrev main_call6_v0 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_cst_14 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_call7_cst : Ref sig .tc := ⟨.hbm, 196, rfl⟩
abbrev main_call7_v0 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_cst_15 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_call8_cst : Ref sig .tc := ⟨.hbm, 213, rfl⟩
abbrev main_call8_v0 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_cst_16 : Ref sig .tc := ⟨.hbm, 228, rfl⟩
abbrev main_v171 : Ref sig .tc := ⟨.hbm, 229, rfl⟩
abbrev main_v172 : Ref sig .tc := ⟨.hbm, 230, rfl⟩
abbrev main_cst_17 : Ref sig .tc := ⟨.hbm, 231, rfl⟩
abbrev main_v173 : Ref sig .tc := ⟨.hbm, 232, rfl⟩
abbrev main_v174 : Ref sig .tc := ⟨.hbm, 233, rfl⟩
abbrev main_v175 : Ref sig .tc := ⟨.hbm, 234, rfl⟩
abbrev main_v176 : Ref sig .tc := ⟨.hbm, 235, rfl⟩
abbrev main_cst_18 : Ref sig .tc := ⟨.hbm, 236, rfl⟩
abbrev main_v177 : Ref sig .tc := ⟨.hbm, 237, rfl⟩
abbrev main_v178 : Ref sig .tc := ⟨.hbm, 238, rfl⟩
abbrev main_v179 : Ref sig .tc := ⟨.hbm, 239, rfl⟩
abbrev main_v180 : Ref sig .tc := ⟨.hbm, 240, rfl⟩
abbrev main_v181 : Ref sig .tc := ⟨.hbm, 241, rfl⟩
abbrev main_v182 : Ref sig .tc := ⟨.hbm, 242, rfl⟩
abbrev main_v183 : Ref sig .tc := ⟨.hbm, 243, rfl⟩
abbrev main_v184 : Ref sig .tc := ⟨.hbm, 244, rfl⟩
abbrev main_v185 : Ref sig .tc := ⟨.hbm, 245, rfl⟩
abbrev main_v186 : Ref sig .tc := ⟨.hbm, 246, rfl⟩
abbrev main_v187 : Ref sig .tc := ⟨.hbm, 247, rfl⟩
abbrev main_call9_cst : Ref sig .tc := ⟨.hbm, 248, rfl⟩
abbrev main_call9_v0 : Ref sig .tc := ⟨.hbm, 249, rfl⟩
abbrev main_v188 : Ref sig .tc := ⟨.hbm, 250, rfl⟩
abbrev main_cst_19 : Ref sig .tc := ⟨.hbm, 251, rfl⟩
abbrev main_v189 : Ref sig .tc := ⟨.hbm, 252, rfl⟩
abbrev main_v190 : Ref sig .tc := ⟨.hbm, 253, rfl⟩
abbrev main_call10_cst : Ref sig .tc := ⟨.hbm, 254, rfl⟩
abbrev main_call10_v0 : Ref sig .tc := ⟨.hbm, 255, rfl⟩
abbrev main_v191 : Ref sig .tc := ⟨.hbm, 256, rfl⟩
abbrev main_cst_20 : Ref sig .tc := ⟨.hbm, 257, rfl⟩
abbrev main_v192 : Ref sig .tc := ⟨.hbm, 258, rfl⟩
abbrev main_cst_21 : Ref sig .tc := ⟨.hbm, 259, rfl⟩
abbrev main_v193 : Ref sig .tc := ⟨.hbm, 260, rfl⟩
abbrev main_v194 : Ref sig .tc := ⟨.hbm, 261, rfl⟩
abbrev main_cst_22 : Ref sig .tc := ⟨.hbm, 262, rfl⟩
abbrev main_v195 : Ref sig .tc := ⟨.hbm, 263, rfl⟩
abbrev main_v196 : Ref sig .tc := ⟨.hbm, 264, rfl⟩
abbrev main_v197 : Ref sig .tc := ⟨.hbm, 265, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S16_S1x16_1 : S16.BroadcastsInDim S1x16 (![1] : Fin 1 → Fin S1x16.rank)
  bcast_S1x16_S800000x16_0_1 : S1x16.BroadcastsInDim S800000x16 (![0, 1] : Fin 2 → Fin S800000x16.rank)
  bcast_S_S800000 : S_.BroadcastsInDim S800000 (![] : Fin 0 → Fin S800000.rank)
  bcast_S800000_S800000x1_0 : S800000.BroadcastsInDim S800000x1 (![0] : Fin 1 → Fin S800000x1.rank)
  concatenates_S800000x32_S800000x32_S800000x16_S800000x80_d1 : Shape.Concatenates [S800000x32, S800000x32, S800000x16] S800000x80 1
  bcast_S1x32_S800000x32_0_1 : S1x32.BroadcastsInDim S800000x32 (![0, 1] : Fin 2 → Fin S800000x32.rank)
  bcast_S_S800000x32 : S_.BroadcastsInDim S800000x32 (![] : Fin 0 → Fin S800000x32.rank)
  bcast_S_S100000x32 : S_.BroadcastsInDim S100000x32 (![] : Fin 0 → Fin S100000x32.rank)
  concatenates_S100000x32_S100000x32_S100000x64_d1 : Shape.Concatenates [S100000x32, S100000x32] S100000x64 1
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S100000x128_S100000x64_0_0 : S100000x128.Slices ![0, 0] S100000x64
  slices_S100000x128_S100000x64_0_64 : S100000x128.Slices ![0, 64] S100000x64
  bcast_S_S512x64 : S_.BroadcastsInDim S512x64 (![] : Fin 0 → Fin S512x64.rank)
  bcast_S100000_S100000x1_0 : S100000.BroadcastsInDim S100000x1 (![0] : Fin 1 → Fin S100000x1.rank)
  bcast_S1x64_S512x64_0_1 : S1x64.BroadcastsInDim S512x64 (![0, 1] : Fin 2 → Fin S512x64.rank)
  shapeCasts_S512x64_S256x128 : S512x64.ShapeCasts S256x128
  slices_S256x128_S256x64_0_0 : S256x128.Slices ![0, 0] S256x64
  slices_S256x128_S256x64_0_64 : S256x128.Slices ![0, 64] S256x64
  bcast_S_S256x64 : S_.BroadcastsInDim S256x64 (![] : Fin 0 → Fin S256x64.rank)
  reducesTo_S256x64_S256_d1 : S256x64.ReducesTo [1] S256
  h_S_ : 0 < S_.numel
  bcast_S_S256 : S_.BroadcastsInDim S256 (![] : Fin 0 → Fin S256.rank)
  dot_S100000x16_S16x32_S100000x32_1_0_0_1_n_n_wf : DotDims.WF S100000x16 S16x32 S100000x32 [1] [0] [0] [1] [] []
  dot_S800000x8_S8x16_S800000x16_1_0_0_1_n_n_wf : DotDims.WF S800000x8 S8x16 S800000x16 [1] [0] [0] [1] [] []
  gather_S100000x32_S800000x1_S800000x32_1_0_n_n_0_1_132_wf : GatherDims.WF S100000x32 S800000x1 S800000x32 [1] [0] [] [0] [] 1 ![1, 32]
  dot_S800000x80_S80x32_S800000x32_1_0_0_1_n_n_wf : DotDims.WF S800000x80 S80x32 S800000x32 [1] [0] [0] [1] [] []
  dot_S800000x32_S32x32_S800000x32_1_0_0_1_n_n_wf : DotDims.WF S800000x32 S32x32 S800000x32 [1] [0] [0] [1] [] []
  scatter_S100000x32_S800000x1_S800000x32_1_0_0_1_wf : ScatterDims.WF S100000x32 S800000x1 S800000x32 [1] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []
  dot_S100000x32_S32x128_S100000x128_1_0_0_1_n_n_wf : DotDims.WF S100000x32 S32x128 S100000x128 [1] [0] [0] [1] [] []
  scatter_S512x64_S100000x1_S100000x64_1_0_0_1_wf : ScatterDims.WF S512x64 S100000x1 S100000x64 [1] [0] [0] 1
  dot_S512x64_S64x64_S512x64_1_0_0_1_n_n_wf : DotDims.WF S512x64 S64x64 S512x64 [1] [0] [0] [1] [] []

variable [Facts₀]

def dot_S100000x16_S16x32_S100000x32_1_0_0_1_n_n : DotDims S100000x16 S16x32 S100000x32 where
  lhsContracting := [1]
  rhsContracting := [0]
  lhsNonContracting := [0]
  rhsNonContracting := [1]
  lhsBatch := []
  rhsBatch := []
  wf := dot_S100000x16_S16x32_S100000x32_1_0_0_1_n_n_wf
def dot_S800000x8_S8x16_S800000x16_1_0_0_1_n_n : DotDims S800000x8 S8x16 S800000x16 where
  lhsContracting := [1]
  rhsContracting := [0]
  lhsNonContracting := [0]
  rhsNonContracting := [1]
  lhsBatch := []
  rhsBatch := []
  wf := dot_S800000x8_S8x16_S800000x16_1_0_0_1_n_n_wf
def gather_S100000x32_S800000x1_S800000x32_1_0_n_n_0_1_132 : GatherDims S100000x32 S800000x1 S800000x32 where
  offsetDims := [1]
  collapsedSliceDims := [0]
  operandBatchingDims := []
  startIndicesBatchingDims := []
  startIndexMap := [0]
  indexVectorDim := 1
  sliceSizes := ![1, 32]
  wf := gather_S100000x32_S800000x1_S800000x32_1_0_n_n_0_1_132_wf
def dot_S800000x80_S80x32_S800000x32_1_0_0_1_n_n : DotDims S800000x80 S80x32 S800000x32 where
  lhsContracting := [1]
  rhsContracting := [0]
  lhsNonContracting := [0]
  rhsNonContracting := [1]
  lhsBatch := []
  rhsBatch := []
  wf := dot_S800000x80_S80x32_S800000x32_1_0_0_1_n_n_wf
def dot_S800000x32_S32x32_S800000x32_1_0_0_1_n_n : DotDims S800000x32 S32x32 S800000x32 where
  lhsContracting := [1]
  rhsContracting := [0]
  lhsNonContracting := [0]
  rhsNonContracting := [1]
  lhsBatch := []
  rhsBatch := []
  wf := dot_S800000x32_S32x32_S800000x32_1_0_0_1_n_n_wf
def scatter_S100000x32_S800000x1_S800000x32_1_0_0_1 : ScatterDims S100000x32 S800000x1 S800000x32 where
  updateWindowDims := [1]
  insertedWindowDims := [0]
  scatterDimsToOperandDims := [0]
  indexVectorDim := 1
  wf := scatter_S100000x32_S800000x1_S800000x32_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x32_S32x128_S100000x128_1_0_0_1_n_n : DotDims S100000x32 S32x128 S100000x128 where
  lhsContracting := [1]
  rhsContracting := [0]
  lhsNonContracting := [0]
  rhsNonContracting := [1]
  lhsBatch := []
  rhsBatch := []
  wf := dot_S100000x32_S32x128_S100000x128_1_0_0_1_n_n_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf

class Facts : Prop extends Facts₀ where

variable [Facts]
-- ==== Proof.IndexBlocks.lean ====
import Idealize.ShloMosaic.Lib.StableHlo.Run

noncomputable section

namespace Cert.IndexBlocks

open Idealize.ShloMosaic Idealize.ShloMosaic.StableHlo

variable {τ : Topo} {sig : RefSig} {Val : EltTy → Type}

/-- Every operation of the stretch writes a buffer whose index lies in `[a, b)`. -/
def WritesIn (ops : List (HloOp τ sig Val)) (a b : ℕ) : Prop :=
  ops.Forall fun op => ∀ d ∈ op.writes, ∃ y : Ref sig .tc, d = Proc.devRef (τ := τ) .tc y ∧ a ≤ y.idx.val ∧ y.idx.val < b

/-- A program in single-assignment form numbers its buffers in the order it defines them, so a stretch of it writes one
    block of consecutive indices: a buffer whose index is outside the block keeps its contents over the stretch. -/
theorem after_keep {ops : List (HloOp τ sig Val)} {a b : ℕ} (hw : WritesIn ops a b) (V : Valuation τ sig Val)
    (r : Ref sig .tc) (h : r.idx.val < a ∨ b ≤ r.idx.val) :
    after ops V (Proc.devRef .tc r) = V (Proc.devRef .tc r) :=
  after_of_forall_not_mem ops V fun op hop hm => by
    obtain ⟨y, e, h1, h2⟩ := List.forall_iff_forall_mem.mp hw op hop _ hm
    obtain rfl : r = y := Proc.devRef_injective _ e
    omega

end Cert.IndexBlocks

end
-- ==== Proof.KernelKeep.lean ====
import proofs.«411375_j87694642250038_1_alg».proof.Proof.Gen.KernelIdeal.Frame
import proofs.«411375_j87694642250038_1_alg».proof.Proof.IndexBlocks

noncomputable section

namespace Cert.KernelIdeal.Keep

open Cert.KernelIdeal Cert.KernelIdeal.Gen
open Idealize.ShloMosaic Idealize.ShloMosaic.TcCoe Idealize.SL.Sem Cert.IndexBlocks

variable {F : FTy → Type} [FloatOps F]

/-- A region rewrites only its output arrays: an array it only reads ends as entered, and no other buffer is the region's. -/
theorem withArrays_keep {gr W : Nat} (win : Fin W → Pipeline.WinSpec sig gr) (hinj : Function.Injective (Pipeline.arrRef win))
    (c : Dev nD) (V : Valuation τ sig (Elt F)) (A : (w : Fin W) → Buf (Elt F) ((win w).arr.view.loc (c.tc : Thread nD τ)))
    (r : Ref sig .tc) (h : ∀ w, Pipeline.arrRef win w = r → A w = V (Proc.devRef .tc (Pipeline.arrRef win w))) :
    Pipeline.withArrays win c V A (Proc.devRef .tc r) = V (Proc.devRef .tc r) := by
  by_cases hw : ∃ w, Pipeline.arrRef win w = r
  · obtain ⟨w, rfl⟩ := hw
    exact (Pipeline.withArrays_arr win hinj c V A w).trans (h w rfl)
  · exact Pipeline.withArrays_of_ne win c V A r fun w e => hw ⟨w, e⟩

/-- The program defines its buffers in index order: each host stretch writes one block of consecutive indices. -/
theorem host_writes : WritesIn (Val := Elt F) hostOps0 21 22 ∧ WritesIn (Val := Elt F) hostOps1 23 24 ∧ WritesIn (Val := Elt F) hostOps2 25 34 ∧ WritesIn (Val := Elt F) hostOps2_1 34 57 ∧ WritesIn (Val := Elt F) hostOps2_2 57 80 ∧ WritesIn (Val := Elt F) hostOps3 82 91 ∧ WritesIn (Val := Elt F) hostOps4 92 115 ∧ WritesIn (Val := Elt F) hostOps4_1 115 138 ∧ WritesIn (Val := Elt F) hostOps5 140 149 ∧ WritesIn (Val := Elt F) hostOps6 150 173 ∧ WritesIn (Val := Elt F) hostOps6_1 173 196 ∧ WritesIn (Val := Elt F) hostOps7 198 207 ∧ WritesIn (Val := Elt F) hostOps8 208 209 := by
  simp only [WritesIn, List.Forall, StableHlo.nullary_writes, StableHlo.unary_writes, StableHlo.binary_writes, StableHlo.ternary_writes,
    StableHlo.quaternary_writes, StableHlo.reshape_writes, StableHlo.binaryIndexed_writes, StableHlo.unaryIndexed_writes, StableHlo.nary_writes,
    Finset.mem_singleton, forall_eq]
  repeat' apply And.intro
  all_goals exact ⟨_, rfl, by decide⟩

variable (m : (ℓ : Loc nD τ sig) → Buf (Elt F) ℓ) (ρ : Dev nD → PrngReg) (c : Dev nD)

theorem s1 (r : Ref sig .tc) (h : r.idx.val < 21 ∨ 22 ≤ r.idx.val) : W1 m ρ c (Proc.devRef .tc r) = W0 m ρ c (Proc.devRef .tc r) :=
  after_keep host_writes.1 _ r h
theorem s2 (r : Ref sig .tc) (h : r.idx.val < 22 ∨ 23 ≤ r.idx.val) : W2 m ρ c (Proc.devRef .tc r) = W1 m ρ c (Proc.devRef .tc r) := by
  unfold W2
  refine withArrays_keep spec0 launch0.win.arr_inj c _ _ r fun w e => ((dat0 (V1 m ρ) c).arrAt_in w ?_ _).trans (A_eq0 (V1 m ρ) c w)
  have := (by decide : ∀ w : Fin cfg0.W, (cfg0.win w).isOut = true → 22 ≤ (Pipeline.arrRef spec0 w).idx.val ∧ (Pipeline.arrRef spec0 w).idx.val < 23) w
  cases ho : (cfg0.win w).isOut
  · rfl
  · have := this ho; rw [e] at this; omega
theorem s3 (r : Ref sig .tc) (h : r.idx.val < 23 ∨ 24 ≤ r.idx.val) : W3 m ρ c (Proc.devRef .tc r) = W2 m ρ c (Proc.devRef .tc r) :=
  after_keep host_writes.2.1 _ r h
theorem s4 (r : Ref sig .tc) (h : r.idx.val < 24 ∨ 25 ≤ r.idx.val) : W4 m ρ c (Proc.devRef .tc r) = W3 m ρ c (Proc.devRef .tc r) := by
  unfold W4
  refine withArrays_keep spec1 launch1.win.arr_inj c _ _ r fun w e => ((dat1 (V3 m ρ) c).arrAt_in w ?_ _).trans (A_eq1 (V3 m ρ) c w)
  have := (by decide : ∀ w : Fin cfg1.W, (cfg1.win w).isOut = true → 24 ≤ (Pipeline.arrRef spec1 w).idx.val ∧ (Pipeline.arrRef spec1 w).idx.val < 25) w
  cases ho : (cfg1.win w).isOut
  · rfl
  · have := this ho; rw [e] at this; omega
theorem s5 (r : Ref sig .tc) (h : r.idx.val < 25 ∨ 34 ≤ r.idx.val) : W5 m ρ c (Proc.devRef .tc r) = W4 m ρ c (Proc.devRef .tc r) :=
  after_keep host_writes.2.2.1 _ r h
theorem s6 (r : Ref sig .tc) (h : r.idx.val < 34 ∨ 57 ≤ r.idx.val) : W6 m ρ c (Proc.devRef .tc r) = W5 m ρ c (Proc.devRef .tc r) :=
  after_keep host_writes.2.2.2.1 _ r h
theorem s7 (r : Ref sig .tc) (h : r.idx.val < 57 ∨ 80 ≤ r.idx.val) : W7 m ρ c (Proc.devRef .tc r) = W6 m ρ c (Proc.devRef .tc r) :=
  after_keep host_writes.2.2.2.2.1 _ r h
theorem s8 (r : Ref sig .tc) (h : r.idx.val < 80 ∨ 82 ≤ r.idx.val) : W8 m ρ c (Proc.devRef .tc r) = W7 m ρ c (Proc.devRef .tc r) := by
  unfold W8
  refine withArrays_keep spec2 launch2.win.arr_inj c _ _ r fun w e => ((dat2 (V7 m ρ) c).arrAt_in w ?_ _).trans (A_eq2 (V7 m ρ) c w)
  have := (by decide : ∀ w : Fin cfg2.W, (cfg2.win w).isOut = true → 80 ≤ (Pipeline.arrRef spec2 w).idx.val ∧ (Pipeline.arrRef spec2 w).idx.val < 82) w
  cases ho : (cfg2.win w).isOut
  · rfl
  · have := this ho; rw [e] at this; omega
theorem s9 (r : Ref sig .tc) (h : r.idx.val < 82 ∨ 91 ≤ r.idx.val) : W9 m ρ c (Proc.devRef .tc r) = W8 m ρ c (Proc.devRef .tc r) :=
  after_keep host_writes.2.2.2.2.2.1 _ r h
theorem s10 (r : Ref sig .tc) (h : r.idx.val < 91 ∨ 92 ≤ r.idx.val) : W10 m ρ c (Proc.devRef .tc r) = W9 m ρ c (Proc.devRef .tc r) := by
  unfold W10
  refine withArrays_keep spec3 launch3.win.arr_inj c _ _ r fun w e => ((dat3 (V9 m ρ) c).arrAt_in w ?_ _).trans (A_eq3 (V9 m ρ) c w)
  have := (by decide : ∀ w : Fin cfg3.W, (cfg3.win w).isOut = true → 91 ≤ (Pipeline.arrRef spec3 w).idx.val ∧ (Pipeline.arrRef spec3 w).idx.val < 92) w
  cases ho : (cfg3.win w).isOut
  · rfl
  · have := this ho; rw [e] at this; omega
theorem s11 (r : Ref sig .tc) (h : r.idx.val < 92 ∨ 115 ≤ r.idx.val) : W11 m ρ c (Proc.devRef .tc r) = W10 m ρ c (Proc.devRef .tc r) :=
  after_keep host_writes.2.2.2.2.2.2.1 _ r h
theorem s12 (r : Ref sig .tc) (h : r.idx.val < 115 ∨ 138 ≤ r.idx.val) : W12 m ρ c (Proc.devRef .tc r) = W11 m ρ c (Proc.devRef .tc r) :=
  after_keep host_writes.2.2.2.2.2.2.2.1 _ r h
theorem s13 (r : Ref sig .tc) (h : r.idx.val < 138 ∨ 140 ≤ r.idx.val) : W13 m ρ c (Proc.devRef .tc r) = W12 m ρ c (Proc.devRef .tc r) := by
  unfold W13
  refine withArrays_keep spec4 launch4.win.arr_inj c _ _ r fun w e => ((dat4 (V12 m ρ) c).arrAt_in w ?_ _).trans (A_eq4 (V12 m ρ) c w)
  have := (by decide : ∀ w : Fin cfg4.W, (cfg4.win w).isOut = true → 138 ≤ (Pipeline.arrRef spec4 w).idx.val ∧ (Pipeline.arrRef spec4 w).idx.val < 140) w
  cases ho : (cfg4.win w).isOut
  · rfl
  · have := this ho; rw [e] at this; omega
theorem s14 (r : Ref sig .tc) (h : r.idx.val < 140 ∨ 149 ≤ r.idx.val) : W14 m ρ c (Proc.devRef .tc r) = W13 m ρ c (Proc.devRef .tc r) :=
  after_keep host_writes.2.2.2.2.2.2.2.2.1 _ r h
theorem s15 (r : Ref sig .tc) (h : r.idx.val < 149 ∨ 150 ≤ r.idx.val) : W15 m ρ c (Proc.devRef .tc r) = W14 m ρ c (Proc.devRef .tc r) := by
  unfold W15
  refine withArrays_keep spec5 launch5.win.arr_inj c _ _ r fun w e => ((dat5 (V14 m ρ) c).arrAt_in w ?_ _).trans (A_eq5 (V14 m ρ) c w)
  have := (by decide : ∀ w : Fin cfg5.W, (cfg5.win w).isOut = true → 149 ≤ (Pipeline.arrRef spec5 w).idx.val ∧ (Pipeline.arrRef spec5 w).idx.val < 150) w
  cases ho : (cfg5.win w).isOut
  · rfl
  · have := this ho; rw [e] at this; omega
theorem s16 (r : Ref sig .tc) (h : r.idx.val < 150 ∨ 173 ≤ r.idx.val) : W16 m ρ c (Proc.devRef .tc r) = W15 m ρ c (Proc.devRef .tc r) :=
  after_keep host_writes.2.2.2.2.2.2.2.2.2.1 _ r h
theorem s17 (r : Ref sig .tc) (h : r.idx.val < 173 ∨ 196 ≤ r.idx.val) : W17 m ρ c (Proc.devRef .tc r) = W16 m ρ c (Proc.devRef .tc r) :=
  after_keep host_writes.2.2.2.2.2.2.2.2.2.2.1 _ r h
theorem s18 (r : Ref sig .tc) (h : r.idx.val < 196 ∨ 198 ≤ r.idx.val) : W18 m ρ c (Proc.devRef .tc r) = W17 m ρ c (Proc.devRef .tc r) := by
  unfold W18
  refine withArrays_keep spec6 launch6.win.arr_inj c _ _ r fun w e => ((dat6 (V17 m ρ) c).arrAt_in w ?_ _).trans (A_eq6 (V17 m ρ) c w)
  have := (by decide : ∀ w : Fin cfg6.W, (cfg6.win w).isOut = true → 196 ≤ (Pipeline.arrRef spec6 w).idx.val ∧ (Pipeline.arrRef spec6 w).idx.val < 198) w
  cases ho : (cfg6.win w).isOut
  · rfl
  · have := this ho; rw [e] at this; omega
theorem s19 (r : Ref sig .tc) (h : r.idx.val < 198 ∨ 207 ≤ r.idx.val) : W19 m ρ c (Proc.devRef .tc r) = W18 m ρ c (Proc.devRef .tc r) :=
  after_keep host_writes.2.2.2.2.2.2.2.2.2.2.2.1 _ r h
theorem s20 (r : Ref sig .tc) (h : r.idx.val < 207 ∨ 208 ≤ r.idx.val) : W20 m ρ c (Proc.devRef .tc r) = W19 m ρ c (Proc.devRef .tc r) := by
  unfold W20
  refine withArrays_keep spec7 launch7.win.arr_inj c _ _ r fun w e => ((dat7 (V19 m ρ) c).arrAt_in w ?_ _).trans (A_eq7 (V19 m ρ) c w)
  have := (by decide : ∀ w : Fin cfg7.W, (cfg7.win w).isOut = true → 207 ≤ (Pipeline.arrRef spec7 w).idx.val ∧ (Pipeline.arrRef spec7 w).idx.val < 208) w
  cases ho : (cfg7.win w).isOut
  · rfl
  · have := this ho; rw [e] at this; omega
theorem s21 (r : Ref sig .tc) (h : r.idx.val < 208 ∨ 209 ≤ r.idx.val) : W21 m ρ c (Proc.devRef .tc r) = W20 m ρ c (Proc.devRef .tc r) :=
  after_keep host_writes.2.2.2.2.2.2.2.2.2.2.2.2 _ r h
theorem s22 (r : Ref sig .tc) (h : r.idx.val < 209 ∨ 210 ≤ r.idx.val) : W22 m ρ c (Proc.devRef .tc r) = W21 m ρ c (Proc.devRef .tc r) := by
  unfold W22
  refine withArrays_keep spec8 launch8.win.arr_inj c _ _ r fun w e => ((dat8 (V21 m ρ) c).arrAt_in w ?_ _).trans (A_eq8 (V21 m ρ) c w)
  have := (by decide : ∀ w : Fin cfg8.W, (cfg8.win w).isOut = true → 209 ≤ (Pipeline.arrRef spec8 w).idx.val ∧ (Pipeline.arrRef spec8 w).idx.val < 210) w
  cases ho : (cfg8.win w).isOut
  · rfl
  · have := this ho; rw [e] at this; omega

theorem k0_2 (r : Ref sig .tc) (h : r.idx.val < 21 ∨ 23 ≤ r.idx.val) : W2 m ρ c (Proc.devRef .tc r) = W0 m ρ c (Proc.devRef .tc r) :=
  (s2 m ρ c r (by omega)).trans (s1 m ρ c r (by omega))
theorem k0_3 (r : Ref sig .tc) (h : r.idx.val < 21 ∨ 24 ≤ r.idx.val) : W3 m ρ c (Proc.devRef .tc r) = W0 m ρ c (Proc.devRef .tc r) :=
  (s3 m ρ c r (by omega)).trans (k0_2 m ρ c r (by omega))
theorem k0_4 (r : Ref sig .tc) (h : r.idx.val < 21 ∨ 25 ≤ r.idx.val) : W4 m ρ c (Proc.devRef .tc r) = W0 m ρ c (Proc.devRef .tc r) :=
  (s4 m ρ c r (by omega)).trans (k0_3 m ρ c r (by omega))
theorem k0_5 (r : Ref sig .tc) (h : r.idx.val < 21 ∨ 34 ≤ r.idx.val) : W5 m ρ c (Proc.devRef .tc r) = W0 m ρ c (Proc.devRef .tc r) :=
  (s5 m ρ c r (by omega)).trans (k0_4 m ρ c r (by omega))
theorem k0_6 (r : Ref sig .tc) (h : r.idx.val < 21 ∨ 57 ≤ r.idx.val) : W6 m ρ c (Proc.devRef .tc r) = W0 m ρ c (Proc.devRef .tc r) :=
  (s6 m ρ c r (by omega)).trans (k0_5 m ρ c r (by omega))
theorem k0_7 (r : Ref sig .tc) (h : r.idx.val < 21 ∨ 80 ≤ r.idx.val) : W7 m ρ c (Proc.devRef .tc r) = W0 m ρ c (Proc.devRef .tc r) :=
  (s7 m ρ c r (by omega)).trans (k0_6 m ρ c r (by omega))
theorem k0_8 (r : Ref sig .tc) (h : r.idx.val < 21 ∨ 82 ≤ r.idx.val) : W8 m ρ c (Proc.devRef .tc r) = W0 m ρ c (Proc.devRef .tc r) :=
  (s8 m ρ c r (by omega)).trans (k0_7 m ρ c r (by omega))
theorem k0_9 (r : Ref sig .tc) (h : r.idx.val < 21 ∨ 91 ≤ r.idx.val) : W9 m ρ c (Proc.devRef .tc r) = W0 m ρ c (Proc.devRef .tc r) :=
  (s9 m ρ c r (by omega)).trans (k0_8 m ρ c r (by omega))
theorem k0_10 (r : Ref sig .tc) (h : r.idx.val < 21 ∨ 92 ≤ r.idx.val) : W10 m ρ c (Proc.devRef .tc r) = W0 m ρ c (Proc.devRef .tc r) :=
  (s10 m ρ c r (by omega)).trans (k0_9 m ρ c r (by omega))
theorem k0_11 (r : Ref sig .tc) (h : r.idx.val < 21 ∨ 115 ≤ r.idx.val) : W11 m ρ c (Proc.devRef .tc r) = W0 m ρ c (Proc.devRef .tc r) :=
  (s11 m ρ c r (by omega)).trans (k0_10 m ρ c r (by omega))
theorem k0_12 (r : Ref sig .tc) (h : r.idx.val < 21 ∨ 138 ≤ r.idx.val) : W12 m ρ c (Proc.devRef .tc r) = W0 m ρ c (Proc.devRef .tc r) :=
  (s12 m ρ c r (by omega)).trans (k0_11 m ρ c r (by omega))
theorem k0_13 (r : Ref sig .tc) (h : r.idx.val < 21 ∨ 140 ≤ r.idx.val) : W13 m ρ c (Proc.devRef .tc r) = W0 m ρ c (Proc.devRef .tc r) :=
  (s13 m ρ c r (by omega)).trans (k0_12 m ρ c r (by omega))
theorem k0_14 (r : Ref sig .tc) (h : r.idx.val < 21 ∨ 149 ≤ r.idx.val) : W14 m ρ c (Proc.devRef .tc r) = W0 m ρ c (Proc.devRef .tc r) :=
  (s14 m ρ c r (by omega)).trans (k0_13 m ρ c r (by omega))
theorem k0_15 (r : Ref sig .tc) (h : r.idx.val < 21 ∨ 150 ≤ r.idx.val) : W15 m ρ c (Proc.devRef .tc r) = W0 m ρ c (Proc.devRef .tc r) :=
  (s15 m ρ c r (by omega)).trans (k0_14 m ρ c r (by omega))
theorem k0_16 (r : Ref sig .tc) (h : r.idx.val < 21 ∨ 173 ≤ r.idx.val) : W16 m ρ c (Proc.devRef .tc r) = W0 m ρ c (Proc.devRef .tc r) :=
  (s16 m ρ c r (by omega)).trans (k0_15 m ρ c r (by omega))
theorem k0_17 (r : Ref sig .tc) (h : r.idx.val < 21 ∨ 196 ≤ r.idx.val) : W17 m ρ c (Proc.devRef .tc r) = W0 m ρ c (Proc.devRef .tc r) :=
  (s17 m ρ c r (by omega)).trans (k0_16 m ρ c r (by omega))
theorem k0_18 (r : Ref sig .tc) (h : r.idx.val < 21 ∨ 198 ≤ r.idx.val) : W18 m ρ c (Proc.devRef .tc r) = W0 m ρ c (Proc.devRef .tc r) :=
  (s18 m ρ c r (by omega)).trans (k0_17 m ρ c r (by omega))
theorem k0_19 (r : Ref sig .tc) (h : r.idx.val < 21 ∨ 207 ≤ r.idx.val) : W19 m ρ c (Proc.devRef .tc r) = W0 m ρ c (Proc.devRef .tc r) :=
  (s19 m ρ c r (by omega)).trans (k0_18 m ρ c r (by omega))
theorem k0_20 (r : Ref sig .tc) (h : r.idx.val < 21 ∨ 208 ≤ r.idx.val) : W20 m ρ c (Proc.devRef .tc r) = W0 m ρ c (Proc.devRef .tc r) :=
  (s20 m ρ c r (by omega)).trans (k0_19 m ρ c r (by omega))
theorem k0_21 (r : Ref sig .tc) (h : r.idx.val < 21 ∨ 209 ≤ r.idx.val) : W21 m ρ c (Proc.devRef .tc r) = W0 m ρ c (Proc.devRef .tc r) :=
  (s21 m ρ c r (by omega)).trans (k0_20 m ρ c r (by omega))
theorem k0_22 (r : Ref sig .tc) (h : r.idx.val < 21 ∨ 210 ≤ r.idx.val) : W22 m ρ c (Proc.devRef .tc r) = W0 m ρ c (Proc.devRef .tc r) :=
  (s22 m ρ c r (by omega)).trans (k0_21 m ρ c r (by omega))
theorem k2_4 (r : Ref sig .tc) (h : r.idx.val < 23 ∨ 25 ≤ r.idx.val) : W4 m ρ c (Proc.devRef .tc r) = W2 m ρ c (Proc.devRef .tc r) :=
  (s4 m ρ c r (by omega)).trans (s3 m ρ c r (by omega))
theorem k2_5 (r : Ref sig .tc) (h : r.idx.val < 23 ∨ 34 ≤ r.idx.val) : W5 m ρ c (Proc.devRef .tc r) = W2 m ρ c (Proc.devRef .tc r) :=
  (s5 m ρ c r (by omega)).trans (k2_4 m ρ c r (by omega))
theorem k2_6 (r : Ref sig .tc) (h : r.idx.val < 23 ∨ 57 ≤ r.idx.val) : W6 m ρ c (Proc.devRef .tc r) = W2 m ρ c (Proc.devRef .tc r) :=
  (s6 m ρ c r (by omega)).trans (k2_5 m ρ c r (by omega))
theorem k2_7 (r : Ref sig .tc) (h : r.idx.val < 23 ∨ 80 ≤ r.idx.val) : W7 m ρ c (Proc.devRef .tc r) = W2 m ρ c (Proc.devRef .tc r) :=
  (s7 m ρ c r (by omega)).trans (k2_6 m ρ c r (by omega))
theorem k2_8 (r : Ref sig .tc) (h : r.idx.val < 23 ∨ 82 ≤ r.idx.val) : W8 m ρ c (Proc.devRef .tc r) = W2 m ρ c (Proc.devRef .tc r) :=
  (s8 m ρ c r (by omega)).trans (k2_7 m ρ c r (by omega))
theorem k2_9 (r : Ref sig .tc) (h : r.idx.val < 23 ∨ 91 ≤ r.idx.val) : W9 m ρ c (Proc.devRef .tc r) = W2 m ρ c (Proc.devRef .tc r) :=
  (s9 m ρ c r (by omega)).trans (k2_8 m ρ c r (by omega))
theorem k4_6 (r : Ref sig .tc) (h : r.idx.val < 25 ∨ 57 ≤ r.idx.val) : W6 m ρ c (Proc.devRef .tc r) = W4 m ρ c (Proc.devRef .tc r) :=
  (s6 m ρ c r (by omega)).trans (s5 m ρ c r (by omega))
theorem k4_7 (r : Ref sig .tc) (h : r.idx.val < 25 ∨ 80 ≤ r.idx.val) : W7 m ρ c (Proc.devRef .tc r) = W4 m ρ c (Proc.devRef .tc r) :=
  (s7 m ρ c r (by omega)).trans (k4_6 m ρ c r (by omega))
theorem k4_8 (r : Ref sig .tc) (h : r.idx.val < 25 ∨ 82 ≤ r.idx.val) : W8 m ρ c (Proc.devRef .tc r) = W4 m ρ c (Proc.devRef .tc r) :=
  (s8 m ρ c r (by omega)).trans (k4_7 m ρ c r (by omega))
theorem k4_9 (r : Ref sig .tc) (h : r.idx.val < 25 ∨ 91 ≤ r.idx.val) : W9 m ρ c (Proc.devRef .tc r) = W4 m ρ c (Proc.devRef .tc r) :=
  (s9 m ρ c r (by omega)).trans (k4_8 m ρ c r (by omega))
theorem k4_10 (r : Ref sig .tc) (h : r.idx.val < 25 ∨ 92 ≤ r.idx.val) : W10 m ρ c (Proc.devRef .tc r) = W4 m ρ c (Proc.devRef .tc r) :=
  (s10 m ρ c r (by omega)).trans (k4_9 m ρ c r (by omega))
theorem k4_11 (r : Ref sig .tc) (h : r.idx.val < 25 ∨ 115 ≤ r.idx.val) : W11 m ρ c (Proc.devRef .tc r) = W4 m ρ c (Proc.devRef .tc r) :=
  (s11 m ρ c r (by omega)).trans (k4_10 m ρ c r (by omega))
theorem k4_12 (r : Ref sig .tc) (h : r.idx.val < 25 ∨ 138 ≤ r.idx.val) : W12 m ρ c (Proc.devRef .tc r) = W4 m ρ c (Proc.devRef .tc r) :=
  (s12 m ρ c r (by omega)).trans (k4_11 m ρ c r (by omega))
theorem k4_13 (r : Ref sig .tc) (h : r.idx.val < 25 ∨ 140 ≤ r.idx.val) : W13 m ρ c (Proc.devRef .tc r) = W4 m ρ c (Proc.devRef .tc r) :=
  (s13 m ρ c r (by omega)).trans (k4_12 m ρ c r (by omega))
theorem k4_14 (r : Ref sig .tc) (h : r.idx.val < 25 ∨ 149 ≤ r.idx.val) : W14 m ρ c (Proc.devRef .tc r) = W4 m ρ c (Proc.devRef .tc r) :=
  (s14 m ρ c r (by omega)).trans (k4_13 m ρ c r (by omega))
theorem k4_15 (r : Ref sig .tc) (h : r.idx.val < 25 ∨ 150 ≤ r.idx.val) : W15 m ρ c (Proc.devRef .tc r) = W4 m ρ c (Proc.devRef .tc r) :=
  (s15 m ρ c r (by omega)).trans (k4_14 m ρ c r (by omega))
theorem k4_16 (r : Ref sig .tc) (h : r.idx.val < 25 ∨ 173 ≤ r.idx.val) : W16 m ρ c (Proc.devRef .tc r) = W4 m ρ c (Proc.devRef .tc r) :=
  (s16 m ρ c r (by omega)).trans (k4_15 m ρ c r (by omega))
theorem k4_17 (r : Ref sig .tc) (h : r.idx.val < 25 ∨ 196 ≤ r.idx.val) : W17 m ρ c (Proc.devRef .tc r) = W4 m ρ c (Proc.devRef .tc r) :=
  (s17 m ρ c r (by omega)).trans (k4_16 m ρ c r (by omega))
theorem k5_7 (r : Ref sig .tc) (h : r.idx.val < 34 ∨ 80 ≤ r.idx.val) : W7 m ρ c (Proc.devRef .tc r) = W5 m ρ c (Proc.devRef .tc r) :=
  (s7 m ρ c r (by omega)).trans (s6 m ρ c r (by omega))
theorem k5_8 (r : Ref sig .tc) (h : r.idx.val < 34 ∨ 82 ≤ r.idx.val) : W8 m ρ c (Proc.devRef .tc r) = W5 m ρ c (Proc.devRef .tc r) :=
  (s8 m ρ c r (by omega)).trans (k5_7 m ρ c r (by omega))
theorem k5_9 (r : Ref sig .tc) (h : r.idx.val < 34 ∨ 91 ≤ r.idx.val) : W9 m ρ c (Proc.devRef .tc r) = W5 m ρ c (Proc.devRef .tc r) :=
  (s9 m ρ c r (by omega)).trans (k5_8 m ρ c r (by omega))
theorem k5_10 (r : Ref sig .tc) (h : r.idx.val < 34 ∨ 92 ≤ r.idx.val) : W10 m ρ c (Proc.devRef .tc r) = W5 m ρ c (Proc.devRef .tc r) :=
  (s10 m ρ c r (by omega)).trans (k5_9 m ρ c r (by omega))
theorem k5_11 (r : Ref sig .tc) (h : r.idx.val < 34 ∨ 115 ≤ r.idx.val) : W11 m ρ c (Proc.devRef .tc r) = W5 m ρ c (Proc.devRef .tc r) :=
  (s11 m ρ c r (by omega)).trans (k5_10 m ρ c r (by omega))
theorem k5_12 (r : Ref sig .tc) (h : r.idx.val < 34 ∨ 138 ≤ r.idx.val) : W12 m ρ c (Proc.devRef .tc r) = W5 m ρ c (Proc.devRef .tc r) :=
  (s12 m ρ c r (by omega)).trans (k5_11 m ρ c r (by omega))
theorem k5_13 (r : Ref sig .tc) (h : r.idx.val < 34 ∨ 140 ≤ r.idx.val) : W13 m ρ c (Proc.devRef .tc r) = W5 m ρ c (Proc.devRef .tc r) :=
  (s13 m ρ c r (by omega)).trans (k5_12 m ρ c r (by omega))
theorem k5_14 (r : Ref sig .tc) (h : r.idx.val < 34 ∨ 149 ≤ r.idx.val) : W14 m ρ c (Proc.devRef .tc r) = W5 m ρ c (Proc.devRef .tc r) :=
  (s14 m ρ c r (by omega)).trans (k5_13 m ρ c r (by omega))
theorem k5_15 (r : Ref sig .tc) (h : r.idx.val < 34 ∨ 150 ≤ r.idx.val) : W15 m ρ c (Proc.devRef .tc r) = W5 m ρ c (Proc.devRef .tc r) :=
  (s15 m ρ c r (by omega)).trans (k5_14 m ρ c r (by omega))
theorem k5_16 (r : Ref sig .tc) (h : r.idx.val < 34 ∨ 173 ≤ r.idx.val) : W16 m ρ c (Proc.devRef .tc r) = W5 m ρ c (Proc.devRef .tc r) :=
  (s16 m ρ c r (by omega)).trans (k5_15 m ρ c r (by omega))
theorem k5_17 (r : Ref sig .tc) (h : r.idx.val < 34 ∨ 196 ≤ r.idx.val) : W17 m ρ c (Proc.devRef .tc r) = W5 m ρ c (Proc.devRef .tc r) :=
  (s17 m ρ c r (by omega)).trans (k5_16 m ρ c r (by omega))
theorem k5_18 (r : Ref sig .tc) (h : r.idx.val < 34 ∨ 198 ≤ r.idx.val) : W18 m ρ c (Proc.devRef .tc r) = W5 m ρ c (Proc.devRef .tc r) :=
  (s18 m ρ c r (by omega)).trans (k5_17 m ρ c r (by omega))
theorem k5_19 (r : Ref sig .tc) (h : r.idx.val < 34 ∨ 207 ≤ r.idx.val) : W19 m ρ c (Proc.devRef .tc r) = W5 m ρ c (Proc.devRef .tc r) :=
  (s19 m ρ c r (by omega)).trans (k5_18 m ρ c r (by omega))
theorem k10_12 (r : Ref sig .tc) (h : r.idx.val < 92 ∨ 138 ≤ r.idx.val) : W12 m ρ c (Proc.devRef .tc r) = W10 m ρ c (Proc.devRef .tc r) :=
  (s12 m ρ c r (by omega)).trans (s11 m ρ c r (by omega))
theorem k10_13 (r : Ref sig .tc) (h : r.idx.val < 92 ∨ 140 ≤ r.idx.val) : W13 m ρ c (Proc.devRef .tc r) = W10 m ρ c (Proc.devRef .tc r) :=
  (s13 m ρ c r (by omega)).trans (k10_12 m ρ c r (by omega))
theorem k10_14 (r : Ref sig .tc) (h : r.idx.val < 92 ∨ 149 ≤ r.idx.val) : W14 m ρ c (Proc.devRef .tc r) = W10 m ρ c (Proc.devRef .tc r) :=
  (s14 m ρ c r (by omega)).trans (k10_13 m ρ c r (by omega))
theorem k15_17 (r : Ref sig .tc) (h : r.idx.val < 150 ∨ 196 ≤ r.idx.val) : W17 m ρ c (Proc.devRef .tc r) = W15 m ρ c (Proc.devRef .tc r) :=
  (s17 m ρ c r (by omega)).trans (s16 m ρ c r (by omega))
theorem k15_18 (r : Ref sig .tc) (h : r.idx.val < 150 ∨ 198 ≤ r.idx.val) : W18 m ρ c (Proc.devRef .tc r) = W15 m ρ c (Proc.devRef .tc r) :=
  (s18 m ρ c r (by omega)).trans (k15_17 m ρ c r (by omega))
theorem k15_19 (r : Ref sig .tc) (h : r.idx.val < 150 ∨ 207 ≤ r.idx.val) : W19 m ρ c (Proc.devRef .tc r) = W15 m ρ c (Proc.devRef .tc r) :=
  (s19 m ρ c r (by omega)).trans (k15_18 m ρ c r (by omega))

theorem keep1_arg0 : W1 m ρ c (Proc.devRef .tc main_arg0) = W0 m ρ c (Proc.devRef .tc main_arg0) := s1 m ρ c _ (by decide)
theorem keep1_arg5 : W1 m ρ c (Proc.devRef .tc main_arg5) = W0 m ρ c (Proc.devRef .tc main_arg5) := s1 m ρ c _ (by decide)
theorem keep2_arg8 : W2 m ρ c (Proc.devRef .tc main_arg8) = W0 m ρ c (Proc.devRef .tc main_arg8) := k0_2 m ρ c _ (by decide)
theorem keep3_arg1 : W3 m ρ c (Proc.devRef .tc main_arg1) = W0 m ρ c (Proc.devRef .tc main_arg1) := k0_3 m ρ c _ (by decide)
theorem keep3_arg7 : W3 m ρ c (Proc.devRef .tc main_arg7) = W0 m ρ c (Proc.devRef .tc main_arg7) := k0_3 m ρ c _ (by decide)
theorem keep4_arg9 : W4 m ρ c (Proc.devRef .tc main_arg9) = W0 m ρ c (Proc.devRef .tc main_arg9) := k0_4 m ρ c _ (by decide)
theorem keep4_arg13 : W4 m ρ c (Proc.devRef .tc main_arg13) = W0 m ρ c (Proc.devRef .tc main_arg13) := k0_4 m ρ c _ (by decide)
theorem keep4_arg10 : W4 m ρ c (Proc.devRef .tc main_arg10) = W0 m ρ c (Proc.devRef .tc main_arg10) := k0_4 m ρ c _ (by decide)
theorem keep4_arg12 : W4 m ρ c (Proc.devRef .tc main_arg12) = W0 m ρ c (Proc.devRef .tc main_arg12) := k0_4 m ρ c _ (by decide)
theorem keep4_arg14 : W4 m ρ c (Proc.devRef .tc main_arg14) = W0 m ρ c (Proc.devRef .tc main_arg14) := k0_4 m ρ c _ (by decide)
theorem keep4_arg16 : W4 m ρ c (Proc.devRef .tc main_arg16) = W0 m ρ c (Proc.devRef .tc main_arg16) := k0_4 m ρ c _ (by decide)
theorem keep5_v1 : W5 m ρ c (Proc.devRef .tc main_v1) = W2 m ρ c (Proc.devRef .tc main_v1) := k2_5 m ρ c _ (by decide)
theorem keep5_arg2 : W5 m ρ c (Proc.devRef .tc main_arg2) = W0 m ρ c (Proc.devRef .tc main_arg2) := k0_5 m ρ c _ (by decide)
theorem keep6_v1 : W6 m ρ c (Proc.devRef .tc main_v1) = W2 m ρ c (Proc.devRef .tc main_v1) := k2_6 m ρ c _ (by decide)
theorem keep6_arg3 : W6 m ρ c (Proc.devRef .tc main_arg3) = W0 m ρ c (Proc.devRef .tc main_arg3) := k0_6 m ρ c _ (by decide)
theorem keep7_v13 : W7 m ρ c (Proc.devRef .tc main_v13) = W6 m ρ c (Proc.devRef .tc main_v13) := s7 m ρ c _ (by decide)
theorem keep7_v3 : W7 m ρ c (Proc.devRef .tc main_v3) = W4 m ρ c (Proc.devRef .tc main_v3) := k4_7 m ρ c _ (by decide)
theorem keep7_v4 : W7 m ρ c (Proc.devRef .tc main_v4) = W5 m ρ c (Proc.devRef .tc main_v4) := k5_7 m ρ c _ (by decide)
theorem keep7_v5 : W7 m ρ c (Proc.devRef .tc main_v5) = W5 m ρ c (Proc.devRef .tc main_v5) := k5_7 m ρ c _ (by decide)
theorem keep7_v6 : W7 m ρ c (Proc.devRef .tc main_v6) = W5 m ρ c (Proc.devRef .tc main_v6) := k5_7 m ρ c _ (by decide)
theorem keep7_v9 : W7 m ρ c (Proc.devRef .tc main_v9) = W5 m ρ c (Proc.devRef .tc main_v9) := k5_7 m ρ c _ (by decide)
theorem keep7_v10 : W7 m ρ c (Proc.devRef .tc main_v10) = W5 m ρ c (Proc.devRef .tc main_v10) := k5_7 m ρ c _ (by decide)
theorem keep7_arg11 : W7 m ρ c (Proc.devRef .tc main_arg11) = W0 m ρ c (Proc.devRef .tc main_arg11) := k0_7 m ρ c _ (by decide)
theorem keep8_arg3 : W8 m ρ c (Proc.devRef .tc main_arg3) = W0 m ρ c (Proc.devRef .tc main_arg3) := k0_8 m ρ c _ (by decide)
theorem keep8_arg2 : W8 m ρ c (Proc.devRef .tc main_arg2) = W0 m ρ c (Proc.devRef .tc main_arg2) := k0_8 m ρ c _ (by decide)
theorem keep9_v1 : W9 m ρ c (Proc.devRef .tc main_v1) = W2 m ρ c (Proc.devRef .tc main_v1) := k2_9 m ρ c _ (by decide)
theorem keep9_v7 : W9 m ρ c (Proc.devRef .tc main_v7) = W5 m ρ c (Proc.devRef .tc main_v7) := k5_9 m ρ c _ (by decide)
theorem keep9_v8 : W9 m ρ c (Proc.devRef .tc main_v8) = W5 m ρ c (Proc.devRef .tc main_v8) := k5_9 m ρ c _ (by decide)
theorem keep9_v11 : W9 m ρ c (Proc.devRef .tc main_v11) = W5 m ρ c (Proc.devRef .tc main_v11) := k5_9 m ρ c _ (by decide)
theorem keep9_v12 : W9 m ρ c (Proc.devRef .tc main_v12) = W5 m ρ c (Proc.devRef .tc main_v12) := k5_9 m ρ c _ (by decide)
theorem keep9_arg15 : W9 m ρ c (Proc.devRef .tc main_arg15) = W0 m ρ c (Proc.devRef .tc main_arg15) := k0_9 m ρ c _ (by decide)
theorem keep10_arg2 : W10 m ρ c (Proc.devRef .tc main_arg2) = W0 m ρ c (Proc.devRef .tc main_arg2) := k0_10 m ρ c _ (by decide)
theorem keep11_v23 : W11 m ρ c (Proc.devRef .tc main_v23) = W10 m ρ c (Proc.devRef .tc main_v23) := s11 m ρ c _ (by decide)
theorem keep11_arg3 : W11 m ρ c (Proc.devRef .tc main_arg3) = W0 m ρ c (Proc.devRef .tc main_arg3) := k0_11 m ρ c _ (by decide)
theorem keep12_v24 : W12 m ρ c (Proc.devRef .tc main_v24) = W11 m ρ c (Proc.devRef .tc main_v24) := s12 m ρ c _ (by decide)
theorem keep12_v3 : W12 m ρ c (Proc.devRef .tc main_v3) = W4 m ρ c (Proc.devRef .tc main_v3) := k4_12 m ρ c _ (by decide)
theorem keep12_v4 : W12 m ρ c (Proc.devRef .tc main_v4) = W5 m ρ c (Proc.devRef .tc main_v4) := k5_12 m ρ c _ (by decide)
theorem keep12_v5 : W12 m ρ c (Proc.devRef .tc main_v5) = W5 m ρ c (Proc.devRef .tc main_v5) := k5_12 m ρ c _ (by decide)
theorem keep12_v6 : W12 m ρ c (Proc.devRef .tc main_v6) = W5 m ρ c (Proc.devRef .tc main_v6) := k5_12 m ρ c _ (by decide)
theorem keep12_v9 : W12 m ρ c (Proc.devRef .tc main_v9) = W5 m ρ c (Proc.devRef .tc main_v9) := k5_12 m ρ c _ (by decide)
theorem keep12_v10 : W12 m ρ c (Proc.devRef .tc main_v10) = W5 m ρ c (Proc.devRef .tc main_v10) := k5_12 m ρ c _ (by decide)
theorem keep12_arg11 : W12 m ρ c (Proc.devRef .tc main_arg11) = W0 m ρ c (Proc.devRef .tc main_arg11) := k0_12 m ρ c _ (by decide)
theorem keep13_arg3 : W13 m ρ c (Proc.devRef .tc main_arg3) = W0 m ρ c (Proc.devRef .tc main_arg3) := k0_13 m ρ c _ (by decide)
theorem keep13_arg2 : W13 m ρ c (Proc.devRef .tc main_arg2) = W0 m ρ c (Proc.devRef .tc main_arg2) := k0_13 m ρ c _ (by decide)
theorem keep14_v23 : W14 m ρ c (Proc.devRef .tc main_v23) = W10 m ρ c (Proc.devRef .tc main_v23) := k10_14 m ρ c _ (by decide)
theorem keep14_v7 : W14 m ρ c (Proc.devRef .tc main_v7) = W5 m ρ c (Proc.devRef .tc main_v7) := k5_14 m ρ c _ (by decide)
theorem keep14_v8 : W14 m ρ c (Proc.devRef .tc main_v8) = W5 m ρ c (Proc.devRef .tc main_v8) := k5_14 m ρ c _ (by decide)
theorem keep14_v11 : W14 m ρ c (Proc.devRef .tc main_v11) = W5 m ρ c (Proc.devRef .tc main_v11) := k5_14 m ρ c _ (by decide)
theorem keep14_v12 : W14 m ρ c (Proc.devRef .tc main_v12) = W5 m ρ c (Proc.devRef .tc main_v12) := k5_14 m ρ c _ (by decide)
theorem keep14_arg15 : W14 m ρ c (Proc.devRef .tc main_arg15) = W0 m ρ c (Proc.devRef .tc main_arg15) := k0_14 m ρ c _ (by decide)
theorem keep15_arg2 : W15 m ρ c (Proc.devRef .tc main_arg2) = W0 m ρ c (Proc.devRef .tc main_arg2) := k0_15 m ρ c _ (by decide)
theorem keep16_v34 : W16 m ρ c (Proc.devRef .tc main_v34) = W15 m ρ c (Proc.devRef .tc main_v34) := s16 m ρ c _ (by decide)
theorem keep16_arg3 : W16 m ρ c (Proc.devRef .tc main_arg3) = W0 m ρ c (Proc.devRef .tc main_arg3) := k0_16 m ρ c _ (by decide)
theorem keep17_v35 : W17 m ρ c (Proc.devRef .tc main_v35) = W16 m ρ c (Proc.devRef .tc main_v35) := s17 m ρ c _ (by decide)
theorem keep17_v3 : W17 m ρ c (Proc.devRef .tc main_v3) = W4 m ρ c (Proc.devRef .tc main_v3) := k4_17 m ρ c _ (by decide)
theorem keep17_v4 : W17 m ρ c (Proc.devRef .tc main_v4) = W5 m ρ c (Proc.devRef .tc main_v4) := k5_17 m ρ c _ (by decide)
theorem keep17_v5 : W17 m ρ c (Proc.devRef .tc main_v5) = W5 m ρ c (Proc.devRef .tc main_v5) := k5_17 m ρ c _ (by decide)
theorem keep17_v6 : W17 m ρ c (Proc.devRef .tc main_v6) = W5 m ρ c (Proc.devRef .tc main_v6) := k5_17 m ρ c _ (by decide)
theorem keep17_v9 : W17 m ρ c (Proc.devRef .tc main_v9) = W5 m ρ c (Proc.devRef .tc main_v9) := k5_17 m ρ c _ (by decide)
theorem keep17_v10 : W17 m ρ c (Proc.devRef .tc main_v10) = W5 m ρ c (Proc.devRef .tc main_v10) := k5_17 m ρ c _ (by decide)
theorem keep17_arg11 : W17 m ρ c (Proc.devRef .tc main_arg11) = W0 m ρ c (Proc.devRef .tc main_arg11) := k0_17 m ρ c _ (by decide)
theorem keep18_arg3 : W18 m ρ c (Proc.devRef .tc main_arg3) = W0 m ρ c (Proc.devRef .tc main_arg3) := k0_18 m ρ c _ (by decide)
theorem keep18_arg2 : W18 m ρ c (Proc.devRef .tc main_arg2) = W0 m ρ c (Proc.devRef .tc main_arg2) := k0_18 m ρ c _ (by decide)
theorem keep19_v34 : W19 m ρ c (Proc.devRef .tc main_v34) = W15 m ρ c (Proc.devRef .tc main_v34) := k15_19 m ρ c _ (by decide)
theorem keep19_v7 : W19 m ρ c (Proc.devRef .tc main_v7) = W5 m ρ c (Proc.devRef .tc main_v7) := k5_19 m ρ c _ (by decide)
theorem keep19_v8 : W19 m ρ c (Proc.devRef .tc main_v8) = W5 m ρ c (Proc.devRef .tc main_v8) := k5_19 m ρ c _ (by decide)
theorem keep19_v11 : W19 m ρ c (Proc.devRef .tc main_v11) = W5 m ρ c (Proc.devRef .tc main_v11) := k5_19 m ρ c _ (by decide)
theorem keep19_v12 : W19 m ρ c (Proc.devRef .tc main_v12) = W5 m ρ c (Proc.devRef .tc main_v12) := k5_19 m ρ c _ (by decide)
theorem keep19_arg15 : W19 m ρ c (Proc.devRef .tc main_arg15) = W0 m ρ c (Proc.devRef .tc main_arg15) := k0_19 m ρ c _ (by decide)
theorem keep20_arg18 : W20 m ρ c (Proc.devRef .tc main_arg18) = W0 m ρ c (Proc.devRef .tc main_arg18) := k0_20 m ρ c _ (by decide)
theorem keep21_v45 : W21 m ρ c (Proc.devRef .tc main_v45) = W20 m ρ c (Proc.devRef .tc main_v45) := s21 m ρ c _ (by decide)
theorem keep21_arg17 : W21 m ρ c (Proc.devRef .tc main_arg17) = W0 m ρ c (Proc.devRef .tc main_arg17) := k0_21 m ρ c _ (by decide)
theorem keep22_arg4 : W22 m ρ c (Proc.devRef .tc main_arg4) = W0 m ρ c (Proc.devRef .tc main_arg4) := k0_22 m ρ c _ (by decide)
theorem keep22_arg19 : W22 m ρ c (Proc.devRef .tc main_arg19) = W0 m ρ c (Proc.devRef .tc main_arg19) := k0_22 m ρ c _ (by decide)
theorem keep22_arg20 : W22 m ρ c (Proc.devRef .tc main_arg20) = W0 m ρ c (Proc.devRef .tc main_arg20) := k0_22 m ρ c _ (by decide)

end Cert.KernelIdeal.Keep

end
-- ==== Proof.TakeGather.lean ====
import proofs.«411375_j87694642250038_1_alg».proof.Proof.Gen.KernelIdeal
import Idealize.ShloMosaic.Lib.ValueIdx
import Idealize.ShloMosaic.Lib.ReduceAll
import Idealize.ShloMosaic.Lib.StableHlo.Predicate
import Idealize.ShloMosaic.Lib.Pipeline.Value

noncomputable section

namespace Cert.KernelIdeal.TakeGather

open Cert.KernelIdeal Cert.KernelIdeal.Gen Idealize.ShloMosaic Idealize.ShloMosaic.ValueIdx

def wrapIdx (idx : IVec S800000 32) : IVec S800000x1 32 :=
  broadcastInDim S800000x1 ![0] bcast_S800000_S800000x1_0
    (select (cmpi .slt idx (broadcastInDim S800000 ![] bcast_S_S800000 (constantI S_ 32 0#32)))
      (addi idx (broadcastInDim S800000 ![] bcast_S_S800000 (constantI S_ 32 100000#32))) idx)

def gatherK (x : FVec Ideal S100000x32 .f32) (idx : IVec S800000 32) : FVec Ideal S800000x32 .f32 :=
  Host.gather gather_S100000x32_S800000x1_S800000x32_1_0_n_n_0_1_132 x (wrapIdx idx)

def takeK (x : FVec Ideal S100000x32 .f32) (idx : IVec S800000 32) : FVec Ideal S800000x32 .f32 :=
  select
    (broadcastInDim S800000x32 ![0] bcast_S800000_S800000x32_0
      (Host.reduce IntOp.andi
        (andi
          (cmpi .sge (wrapIdx idx) (broadcastInDim S800000x1 ![] bcast_S_S800000x1 (constantI S_ 32 0#32)))
          (cmpi .sle (wrapIdx idx)
            (broadcastInDim S800000x1 ![0, 1] bcast_S1x1_S800000x1_0_1
              (broadcastInDim S1x1 ![1] bcast_S1_S1x1_1 (constantI S1 32 99999#32)))))
        (constantI S_ 1 1#1) reducesTo_S800000x1_S800000_d1 h_S_))
    (gatherK x idx)
    (broadcastInDim S800000x32 ![] bcast_S_S800000x32 (constant (F := Ideal) S_ .f32 0x7FC00000#32))

theorem word_in_range (w : BitVec 32) (h0 : IntOp.cmpi .sge w 0#32 = 1#1) (h1 : IntOp.cmpi .slt w 100000#32 = 1#1) :
    IntOp.cmpi .slt w 0#32 = 0#1 ∧ IntOp.cmpi .sle w 99999#32 = 1#1 := by
  have a := IntOp.cmpi_sge.1 h0
  have b := IntOp.cmpi_slt.1 h1
  have z : (0#32 : BitVec 32).toInt = 0 := by decide
  have c : (100000#32 : BitVec 32).toInt = 100000 := by decide
  have d : (99999#32 : BitVec 32).toInt = 99999 := by decide
  refine ⟨eq_zero_of_ne_one fun h => ?_, IntOp.cmpi_sle.2 (by omega)⟩
  have := IntOp.cmpi_slt.1 h
  omega

theorem foldl_andi_ones {ι : Type} (f : ι → BitVec 1) (hf : ∀ n, f n = 1#1) :
    ∀ l : List ι, l.foldl (fun r n => IntOp.andi r (f n)) 1#1 = 1#1
  | [] => rfl
  | a :: l => by
    have e : IntOp.andi 1#1 1#1 = 1#1 := by decide
    rw [List.foldl_cons, hf a, e]
    exact foldl_andi_ones f hf l

theorem reduce_andi_ones {s t : Shape} {axes : List (Fin s.rank)} (p : s.Idx → BitVec 1) (hp : ∀ i, p i = 1#1)
    (h : s.ReducesTo axes t) (hu : 0 < S_.numel) (j : t.Idx) :
    Host.reduce IntOp.andi p (constantI S_ 1 1#1) h hu j = 1#1 := by
  rw [Host.reduce_eq_foldl]
  exact foldl_andi_ones p hp _

theorem broadcastInDim_of_const {α : Type} {s t : Shape} (dims : Fin s.rank → Fin t.rank) (h : s.BroadcastsInDim t dims)
    (v : s.Idx → α) (c : α) (hv : ∀ k, v k = c) (j : t.Idx) : broadcastInDim t dims h v j = c := hv _

section InRange

variable (idx : IVec S800000 32)
  (hlo : ∀ e : Fin 800000, IntOp.cmpi .sge (idx (ix1 e)) 0#32 = 1#1)
  (hhi : ∀ e : Fin 800000, IntOp.cmpi .slt (idx (ix1 e)) 100000#32 = 1#1)

include hlo hhi

theorem wrapIdx_apply (e : Fin 800000) (b : Fin 1) : wrapIdx idx (ix2 e b) = idx (ix1 e) := by
  unfold wrapIdx
  refine (broadcastInDim_apply ![0] bcast_S800000_S800000x1_0 _ (ix2 e b) (ix1 e)
    (fun a => match a with | ⟨0, _⟩ => rfl)).trans ?_
  show Scalar.select (IntOp.cmpi .slt (idx (ix1 e)) 0#32) (IntOp.addi (idx (ix1 e)) 100000#32) (idx (ix1 e)) = idx (ix1 e)
  rw [(word_in_range _ (hlo e) (hhi e)).1, select_zero]

theorem range_bit (j : S800000x1.Idx) :
    andi
      (cmpi .sge (wrapIdx idx) (broadcastInDim S800000x1 ![] bcast_S_S800000x1 (constantI S_ 32 0#32)))
      (cmpi .sle (wrapIdx idx)
        (broadcastInDim S800000x1 ![0, 1] bcast_S1x1_S800000x1_0_1
          (broadcastInDim S1x1 ![1] bcast_S1_S1x1_1 (constantI S1 32 99999#32)))) j = 1#1 := by
  obtain ⟨e, b, rfl⟩ : ∃ (e : Fin 800000) (b : Fin 1), j = ix2 e b := ⟨j 0, j 1, eq_ix2 j⟩
  show IntOp.andi (IntOp.cmpi .sge (wrapIdx idx (ix2 e b)) 0#32) (IntOp.cmpi .sle (wrapIdx idx (ix2 e b)) 99999#32) = 1#1
  rw [wrapIdx_apply idx hlo hhi e b, hlo e, (word_in_range _ (hlo e) (hhi e)).2]
  decide

end InRange

theorem takeK_eq_gatherK (x : FVec Ideal S100000x32 .f32) (idx : IVec S800000 32)
    (hlo : ∀ e : Fin 800000, IntOp.cmpi .sge (idx (ix1 e)) 0#32 = 1#1)
    (hhi : ∀ e : Fin 800000, IntOp.cmpi .slt (idx (ix1 e)) 100000#32 = 1#1) : takeK x idx = gatherK x idx := by
  funext i
  unfold takeK
  rw [select_apply, broadcastInDim_of_const ![0] bcast_S800000_S800000x32_0 _ 1#1
    (reduce_andi_ones _ (range_bit idx hlo hhi) reducesTo_S800000x1_S800000_d1 h_S_) i, select_one]

end Cert.KernelIdeal.TakeGather
-- ==== Proof.KernelHost.lean ====
import proofs.«411375_j87694642250038_1_alg».proof.Proof.Gen.KernelIdeal.Frame
import proofs.«411375_j87694642250038_1_alg».proof.Proof.TakeGather
import Idealize.ShloMosaic.Lib.ValueLayout
import Idealize.ShloMosaic.Lib.Pipeline.Value
import Idealize.ShloMosaic.Lib.ValueIdx

noncomputable section

namespace Cert.KernelIdeal.HostVal

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

open Cert.KernelIdeal.TakeGather

theorem w1_v0 (q : Fin 32) : W1 m ρ c (Proc.devRef .tc main_v0) (ix2 (0 : Fin 1) q) = W0 m ρ c (Proc.devRef .tc main_arg6) (ix1 q) := by
  have h : W1 m ρ c (Proc.devRef .tc main_v0) = fun i => shapeCast S1x32 (W0 m ρ c (Proc.devRef .tc main_arg6)) shapeCasts_S32_S1x32 i := by
    show StableHlo.after hostOps0 (W0 m ρ c) (Proc.devRef .tc main_v0) = _
    dsimp only [hostOps0]; after_results; rfl
  rw [h]; exact shapeCast_a_1a_apply _ _ _ _

theorem w3_v2 (q : Fin 16) : W3 m ρ c (Proc.devRef .tc main_v2) (ix2 (0 : Fin 1) q) = W2 m ρ c (Proc.devRef .tc main_arg8) (ix1 q) := by
  have h : W3 m ρ c (Proc.devRef .tc main_v2) = fun i => shapeCast S1x16 (W2 m ρ c (Proc.devRef .tc main_arg8)) shapeCasts_S16_S1x16 i := by
    show StableHlo.after hostOps1 (W2 m ρ c) (Proc.devRef .tc main_v2) = _
    dsimp only [hostOps1]; after_results; rfl
  rw [h]; exact shapeCast_a_1a_apply _ _ _ _

theorem w21_v46 (q : Fin 128) : W21 m ρ c (Proc.devRef .tc main_v46) (ix2 (0 : Fin 1) q) = W20 m ρ c (Proc.devRef .tc main_arg18) (ix1 q) := by
  have h : W21 m ρ c (Proc.devRef .tc main_v46) = fun i => shapeCast S1x128 (W20 m ρ c (Proc.devRef .tc main_arg18)) shapeCasts_S128_S1x128 i := by
    show StableHlo.after hostOps8 (W20 m ρ c) (Proc.devRef .tc main_v46) = _
    dsimp only [hostOps8]; after_results; rfl
  rw [h]; exact shapeCast_a_1a_apply _ _ _ _

theorem w5_v4 (k : Fin 32) (j : Fin 32) :
    W5 m ρ c (Proc.devRef .tc main_v4) (ix2 k j) = W4 m ρ c (Proc.devRef .tc main_arg9) (ix2 (⟨0 + k.val, by omega⟩ : Fin 80) j) := by
  have h : W5 m ρ c (Proc.devRef .tc main_v4) = extractStridedSlice S32x32 ![0, 0] (W4 m ρ c (Proc.devRef .tc main_arg9)) slices_S80x32_S32x32_0_0 := by
    show StableHlo.after hostOps2 (W4 m ρ c) (Proc.devRef .tc main_v4) = _
    dsimp only [hostOps2]; after_results
  rw [h]; exact slice2_axis0_apply 0 _ _ k j _ rfl

theorem w5_v5 (k : Fin 32) (j : Fin 32) :
    W5 m ρ c (Proc.devRef .tc main_v5) (ix2 k j) = W4 m ρ c (Proc.devRef .tc main_arg9) (ix2 (⟨32 + k.val, by omega⟩ : Fin 80) j) := by
  have h : W5 m ρ c (Proc.devRef .tc main_v5) = extractStridedSlice S32x32 ![32, 0] (W4 m ρ c (Proc.devRef .tc main_arg9)) slices_S80x32_S32x32_32_0 := by
    show StableHlo.after hostOps2 (W4 m ρ c) (Proc.devRef .tc main_v5) = _
    dsimp only [hostOps2]; after_results
  rw [h]; exact slice2_axis0_apply 32 _ _ k j _ rfl

theorem w5_v6 (k : Fin 16) (j : Fin 32) :
    W5 m ρ c (Proc.devRef .tc main_v6) (ix2 k j) = W4 m ρ c (Proc.devRef .tc main_arg9) (ix2 (⟨64 + k.val, by omega⟩ : Fin 80) j) := by
  have h : W5 m ρ c (Proc.devRef .tc main_v6) = extractStridedSlice S16x32 ![64, 0] (W4 m ρ c (Proc.devRef .tc main_arg9)) slices_S80x32_S16x32_64_0 := by
    show StableHlo.after hostOps2 (W4 m ρ c) (Proc.devRef .tc main_v6) = _
    dsimp only [hostOps2]; after_results
  rw [h]; exact slice2_axis0_apply 64 _ _ k j _ rfl

theorem w5_v7 (k : Fin 32) (j : Fin 64) :
    W5 m ρ c (Proc.devRef .tc main_v7) (ix2 k j) = W4 m ρ c (Proc.devRef .tc main_arg13) (ix2 (⟨0 + k.val, by omega⟩ : Fin 64) j) := by
  have h : W5 m ρ c (Proc.devRef .tc main_v7) = extractStridedSlice S32x64 ![0, 0] (W4 m ρ c (Proc.devRef .tc main_arg13)) slices_S64x64_S32x64_0_0 := by
    show StableHlo.after hostOps2 (W4 m ρ c) (Proc.devRef .tc main_v7) = _
    dsimp only [hostOps2]; after_results
  rw [h]; exact slice2_axis0_apply 0 _ _ k j _ rfl

theorem w5_v8 (k : Fin 32) (j : Fin 64) :
    W5 m ρ c (Proc.devRef .tc main_v8) (ix2 k j) = W4 m ρ c (Proc.devRef .tc main_arg13) (ix2 (⟨32 + k.val, by omega⟩ : Fin 64) j) := by
  have h : W5 m ρ c (Proc.devRef .tc main_v8) = extractStridedSlice S32x64 ![32, 0] (W4 m ρ c (Proc.devRef .tc main_arg13)) slices_S64x64_S32x64_32_0 := by
    show StableHlo.after hostOps2 (W4 m ρ c) (Proc.devRef .tc main_v8) = _
    dsimp only [hostOps2]; after_results
  rw [h]; exact slice2_axis0_apply 32 _ _ k j _ rfl

theorem w5_v9 (q : Fin 32) : W5 m ρ c (Proc.devRef .tc main_v9) (ix2 (0 : Fin 1) q) = W4 m ρ c (Proc.devRef .tc main_arg10) (ix1 q) := by
  have h : W5 m ρ c (Proc.devRef .tc main_v9) = fun i => shapeCast S1x32 (W4 m ρ c (Proc.devRef .tc main_arg10)) shapeCasts_S32_S1x32 i := by
    show StableHlo.after hostOps2 (W4 m ρ c) (Proc.devRef .tc main_v9) = _
    dsimp only [hostOps2]; after_results; rfl
  rw [h]; exact shapeCast_a_1a_apply _ _ _ _

theorem w5_v10 (q : Fin 32) : W5 m ρ c (Proc.devRef .tc main_v10) (ix2 (0 : Fin 1) q) = W4 m ρ c (Proc.devRef .tc main_arg12) (ix1 q) := by
  have h : W5 m ρ c (Proc.devRef .tc main_v10) = fun i => shapeCast S1x32 (W4 m ρ c (Proc.devRef .tc main_arg12)) shapeCasts_S32_S1x32 i := by
    show StableHlo.after hostOps2 (W4 m ρ c) (Proc.devRef .tc main_v10) = _
    dsimp only [hostOps2]; after_results; rfl
  rw [h]; exact shapeCast_a_1a_apply _ _ _ _

theorem w5_v11 (q : Fin 64) : W5 m ρ c (Proc.devRef .tc main_v11) (ix2 (0 : Fin 1) q) = W4 m ρ c (Proc.devRef .tc main_arg14) (ix1 q) := by
  have h : W5 m ρ c (Proc.devRef .tc main_v11) = fun i => shapeCast S1x64 (W4 m ρ c (Proc.devRef .tc main_arg14)) shapeCasts_S64_S1x64 i := by
    show StableHlo.after hostOps2 (W4 m ρ c) (Proc.devRef .tc main_v11) = _
    dsimp only [hostOps2]; after_results; rfl
  rw [h]; exact shapeCast_a_1a_apply _ _ _ _

theorem w5_v12 (q : Fin 32) : W5 m ρ c (Proc.devRef .tc main_v12) (ix2 (0 : Fin 1) q) = W4 m ρ c (Proc.devRef .tc main_arg16) (ix1 q) := by
  have h : W5 m ρ c (Proc.devRef .tc main_v12) = fun i => shapeCast S1x32 (W4 m ρ c (Proc.devRef .tc main_arg16)) shapeCasts_S32_S1x32 i := by
    show StableHlo.after hostOps2 (W4 m ρ c) (Proc.devRef .tc main_v12) = _
    dsimp only [hostOps2]; after_results; rfl
  rw [h]; exact shapeCast_a_1a_apply _ _ _ _

theorem after_append {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => simp only [List.cons_append, StableHlo.after_cons, ih]

set_option maxHeartbeats 1000000 in
theorem w6_v13 : W6 m ρ c (Proc.devRef .tc main_v13) = takeK (W5 m ρ c (Proc.devRef .tc main_v1)) (W5 m ρ c (Proc.devRef .tc main_arg2)) := by
  show StableHlo.after hostOps2_1 (W5 m ρ c) (Proc.devRef .tc main_v13) = _
  generalize W5 m ρ c = V

  have a1 : StableHlo.after (hostOps2_1.take 18) V (Proc.devRef .tc main_call0_v12)
      = Host.reduce IntOp.andi (andi (cmpi .sge (wrapIdx (V (Proc.devRef .tc main_arg2))) (broadcastInDim S800000x1 ![] bcast_S_S800000x1 (constantI S_ 32 0#32))) (cmpi .sle (wrapIdx (V (Proc.devRef .tc main_arg2))) (broadcastInDim S800000x1 ![0, 1] bcast_S1x1_S800000x1_0_1 (broadcastInDim S1x1 ![1] bcast_S1_S1x1_1 (constantI S1 32 99999#32))))) (constantI S_ 1 1#1) reducesTo_S800000x1_S800000_d1 h_S_ := by
    dsimp only [hostOps2_1, List.take]; after_results_simp
    simp only [StableHlo.TRef.ofBuf, StableHlo.TRef.toBuf, cast_eq]; rfl
  have a2 : StableHlo.after (hostOps2_1.take 18) V (Proc.devRef .tc main_call0_v5) = wrapIdx (V (Proc.devRef .tc main_arg2)) := by
    dsimp only [hostOps2_1, List.take]; after_results_simp
    simp only [StableHlo.TRef.ofBuf, StableHlo.TRef.toBuf, cast_eq]; rfl
  have a3 : StableHlo.after (hostOps2_1.take 18) V (Proc.devRef .tc main_v1) = V (Proc.devRef .tc main_v1) := by
    dsimp only [hostOps2_1, List.take]; after_results_simp
  have b1 : ∀ V' : Valuation τ sig (Elt Ideal), StableHlo.after ((hostOps2_1.drop 18).take 4) V' (Proc.devRef .tc main_call0_v13)
      = Host.gather gather_S100000x32_S800000x1_S800000x32_1_0_n_n_0_1_132 (V' (Proc.devRef .tc main_v1)) (V' (Proc.devRef .tc main_call0_v5)) := by
    intro V'; dsimp only [hostOps2_1, List.drop, List.take]; after_results_simp; rfl
  have b2 : ∀ V' : Valuation τ sig (Elt Ideal), StableHlo.after ((hostOps2_1.drop 18).take 4) V' (Proc.devRef .tc main_call0_v14)
      = broadcastInDim S800000x32 ![0] bcast_S800000_S800000x32_0 (V' (Proc.devRef .tc main_call0_v12)) := by
    intro V'; dsimp only [hostOps2_1, List.drop, List.take]; after_results_simp; rfl
  have b3 : ∀ V' : Valuation τ sig (Elt Ideal), StableHlo.after ((hostOps2_1.drop 18).take 4) V' (Proc.devRef .tc main_call0_v15)
      = broadcastInDim S800000x32 ![] bcast_S_S800000x32 (constant (F := Ideal) S_ .f32 0x7FC00000#32) := by
    intro V'; dsimp only [hostOps2_1, List.drop, List.take]; after_results_simp; rfl
  have c1 : ∀ V' : Valuation τ sig (Elt Ideal), StableHlo.after (hostOps2_1.drop 22) V' (Proc.devRef .tc main_v13)
      = select (V' (Proc.devRef .tc main_call0_v14)) (V' (Proc.devRef .tc main_call0_v13)) (V' (Proc.devRef .tc main_call0_v15)) := by
    intro V'; dsimp only [hostOps2_1, List.drop]; after_results_simp; rfl
  have hcut : (hostOps2_1 : List (HloOp τ sig (Elt Ideal))) = hostOps2_1.take 18 ++ ((hostOps2_1.drop 18).take 4 ++ hostOps2_1.drop 22) := by
    dsimp only [hostOps2_1, List.take, List.drop]; rfl
  rw [hcut, after_append, after_append, c1, b1, b2, b3, a1, a2, a3]
  rfl

set_option maxHeartbeats 1000000 in
theorem w7_v14 : W7 m ρ c (Proc.devRef .tc main_v14) = takeK (W6 m ρ c (Proc.devRef .tc main_v1)) (W6 m ρ c (Proc.devRef .tc main_arg3)) := by
  show StableHlo.after hostOps2_2 (W6 m ρ c) (Proc.devRef .tc main_v14) = _
  generalize W6 m ρ c = V

  have a1 : StableHlo.after (hostOps2_2.take 18) V (Proc.devRef .tc main_call1_v12)
      = Host.reduce IntOp.andi (andi (cmpi .sge (wrapIdx (V (Proc.devRef .tc main_arg3))) (broadcastInDim S800000x1 ![] bcast_S_S800000x1 (constantI S_ 32 0#32))) (cmpi .sle (wrapIdx (V (Proc.devRef .tc main_arg3))) (broadcastInDim S800000x1 ![0, 1] bcast_S1x1_S800000x1_0_1 (broadcastInDim S1x1 ![1] bcast_S1_S1x1_1 (constantI S1 32 99999#32))))) (constantI S_ 1 1#1) reducesTo_S800000x1_S800000_d1 h_S_ := by
    dsimp only [hostOps2_2, List.take]; after_results_simp
    simp only [StableHlo.TRef.ofBuf, StableHlo.TRef.toBuf, cast_eq]; rfl
  have a2 : StableHlo.after (hostOps2_2.take 18) V (Proc.devRef .tc main_call1_v5) = wrapIdx (V (Proc.devRef .tc main_arg3)) := by
    dsimp only [hostOps2_2, List.take]; after_results_simp
    simp only [StableHlo.TRef.ofBuf, StableHlo.TRef.toBuf, cast_eq]; rfl
  have a3 : StableHlo.after (hostOps2_2.take 18) V (Proc.devRef .tc main_v1) = V (Proc.devRef .tc main_v1) := by
    dsimp only [hostOps2_2, List.take]; after_results_simp
  have b1 : ∀ V' : Valuation τ sig (Elt Ideal), StableHlo.after ((hostOps2_2.drop 18).take 4) V' (Proc.devRef .tc main_call1_v13)
      = Host.gather gather_S100000x32_S800000x1_S800000x32_1_0_n_n_0_1_132 (V' (Proc.devRef .tc main_v1)) (V' (Proc.devRef .tc main_call1_v5)) := by
    intro V'; dsimp only [hostOps2_2, List.drop, List.take]; after_results_simp; rfl
  have b2 : ∀ V' : Valuation τ sig (Elt Ideal), StableHlo.after ((hostOps2_2.drop 18).take 4) V' (Proc.devRef .tc main_call1_v14)
      = broadcastInDim S800000x32 ![0] bcast_S800000_S800000x32_0 (V' (Proc.devRef .tc main_call1_v12)) := by
    intro V'; dsimp only [hostOps2_2, List.drop, List.take]; after_results_simp; rfl
  have b3 : ∀ V' : Valuation τ sig (Elt Ideal), StableHlo.after ((hostOps2_2.drop 18).take 4) V' (Proc.devRef .tc main_call1_v15)
      = broadcastInDim S800000x32 ![] bcast_S_S800000x32 (constant (F := Ideal) S_ .f32 0x7FC00000#32) := by
    intro V'; dsimp only [hostOps2_2, List.drop, List.take]; after_results_simp; rfl
  have c1 : ∀ V' : Valuation τ sig (Elt Ideal), StableHlo.after (hostOps2_2.drop 22) V' (Proc.devRef .tc main_v14)
      = select (V' (Proc.devRef .tc main_call1_v14)) (V' (Proc.devRef .tc main_call1_v13)) (V' (Proc.devRef .tc main_call1_v15)) := by
    intro V'; dsimp only [hostOps2_2, List.drop]; after_results_simp; rfl
  have hcut : (hostOps2_2 : List (HloOp τ sig (Elt Ideal))) = hostOps2_2.take 18 ++ ((hostOps2_2.drop 18).take 4 ++ hostOps2_2.drop 22) := by
    dsimp only [hostOps2_2, List.take, List.drop]; rfl
  rw [hcut, after_append, after_append, c1, b1, b2, b3, a1, a2, a3]
  rfl

set_option maxHeartbeats 1000000 in
theorem w11_v24 : W11 m ρ c (Proc.devRef .tc main_v24) = takeK (W10 m ρ c (Proc.devRef .tc main_v23)) (W10 m ρ c (Proc.devRef .tc main_arg2)) := by
  show StableHlo.after hostOps4 (W10 m ρ c) (Proc.devRef .tc main_v24) = _
  generalize W10 m ρ c = V

  have a1 : StableHlo.after (hostOps4.take 18) V (Proc.devRef .tc main_call2_v12)
      = Host.reduce IntOp.andi (andi (cmpi .sge (wrapIdx (V (Proc.devRef .tc main_arg2))) (broadcastInDim S800000x1 ![] bcast_S_S800000x1 (constantI S_ 32 0#32))) (cmpi .sle (wrapIdx (V (Proc.devRef .tc main_arg2))) (broadcastInDim S800000x1 ![0, 1] bcast_S1x1_S800000x1_0_1 (broadcastInDim S1x1 ![1] bcast_S1_S1x1_1 (constantI S1 32 99999#32))))) (constantI S_ 1 1#1) reducesTo_S800000x1_S800000_d1 h_S_ := by
    dsimp only [hostOps4, List.take]; after_results_simp
    simp only [StableHlo.TRef.ofBuf, StableHlo.TRef.toBuf, cast_eq]; rfl
  have a2 : StableHlo.after (hostOps4.take 18) V (Proc.devRef .tc main_call2_v5) = wrapIdx (V (Proc.devRef .tc main_arg2)) := by
    dsimp only [hostOps4, List.take]; after_results_simp
    simp only [StableHlo.TRef.ofBuf, StableHlo.TRef.toBuf, cast_eq]; rfl
  have a3 : StableHlo.after (hostOps4.take 18) V (Proc.devRef .tc main_v23) = V (Proc.devRef .tc main_v23) := by
    dsimp only [hostOps4, List.take]; after_results_simp
  have b1 : ∀ V' : Valuation τ sig (Elt Ideal), StableHlo.after ((hostOps4.drop 18).take 4) V' (Proc.devRef .tc main_call2_v13)
      = Host.gather gather_S100000x32_S800000x1_S800000x32_1_0_n_n_0_1_132 (V' (Proc.devRef .tc main_v23)) (V' (Proc.devRef .tc main_call2_v5)) := by
    intro V'; dsimp only [hostOps4, List.drop, List.take]; after_results_simp; rfl
  have b2 : ∀ V' : Valuation τ sig (Elt Ideal), StableHlo.after ((hostOps4.drop 18).take 4) V' (Proc.devRef .tc main_call2_v14)
      = broadcastInDim S800000x32 ![0] bcast_S800000_S800000x32_0 (V' (Proc.devRef .tc main_call2_v12)) := by
    intro V'; dsimp only [hostOps4, List.drop, List.take]; after_results_simp; rfl
  have b3 : ∀ V' : Valuation τ sig (Elt Ideal), StableHlo.after ((hostOps4.drop 18).take 4) V' (Proc.devRef .tc main_call2_v15)
      = broadcastInDim S800000x32 ![] bcast_S_S800000x32 (constant (F := Ideal) S_ .f32 0x7FC00000#32) := by
    intro V'; dsimp only [hostOps4, List.drop, List.take]; after_results_simp; rfl
  have c1 : ∀ V' : Valuation τ sig (Elt Ideal), StableHlo.after (hostOps4.drop 22) V' (Proc.devRef .tc main_v24)
      = select (V' (Proc.devRef .tc main_call2_v14)) (V' (Proc.devRef .tc main_call2_v13)) (V' (Proc.devRef .tc main_call2_v15)) := by
    intro V'; dsimp only [hostOps4, List.drop]; after_results_simp; rfl
  have hcut : (hostOps4 : List (HloOp τ sig (Elt Ideal))) = hostOps4.take 18 ++ ((hostOps4.drop 18).take 4 ++ hostOps4.drop 22) := by
    dsimp only [hostOps4, List.take, List.drop]; rfl
  rw [hcut, after_append, after_append, c1, b1, b2, b3, a1, a2, a3]
  rfl

set_option maxHeartbeats 1000000 in
theorem w12_v25 : W12 m ρ c (Proc.devRef .tc main_v25) = takeK (W11 m ρ c (Proc.devRef .tc main_v23)) (W11 m ρ c (Proc.devRef .tc main_arg3)) := by
  show StableHlo.after hostOps4_1 (W11 m ρ c) (Proc.devRef .tc main_v25) = _
  generalize W11 m ρ c = V

  have a1 : StableHlo.after (hostOps4_1.take 18) V (Proc.devRef .tc main_call3_v12)
      = Host.reduce IntOp.andi (andi (cmpi .sge (wrapIdx (V (Proc.devRef .tc main_arg3))) (broadcastInDim S800000x1 ![] bcast_S_S800000x1 (constantI S_ 32 0#32))) (cmpi .sle (wrapIdx (V (Proc.devRef .tc main_arg3))) (broadcastInDim S800000x1 ![0, 1] bcast_S1x1_S800000x1_0_1 (broadcastInDim S1x1 ![1] bcast_S1_S1x1_1 (constantI S1 32 99999#32))))) (constantI S_ 1 1#1) reducesTo_S800000x1_S800000_d1 h_S_ := by
    dsimp only [hostOps4_1, List.take]; after_results_simp
    simp only [StableHlo.TRef.ofBuf, StableHlo.TRef.toBuf, cast_eq]; rfl
  have a2 : StableHlo.after (hostOps4_1.take 18) V (Proc.devRef .tc main_call3_v5) = wrapIdx (V (Proc.devRef .tc main_arg3)) := by
    dsimp only [hostOps4_1, List.take]; after_results_simp
    simp only [StableHlo.TRef.ofBuf, StableHlo.TRef.toBuf, cast_eq]; rfl
  have a3 : StableHlo.after (hostOps4_1.take 18) V (Proc.devRef .tc main_v23) = V (Proc.devRef .tc main_v23) := by
    dsimp only [hostOps4_1, List.take]; after_results_simp
  have b1 : ∀ V' : Valuation τ sig (Elt Ideal), StableHlo.after ((hostOps4_1.drop 18).take 4) V' (Proc.devRef .tc main_call3_v13)
      = Host.gather gather_S100000x32_S800000x1_S800000x32_1_0_n_n_0_1_132 (V' (Proc.devRef .tc main_v23)) (V' (Proc.devRef .tc main_call3_v5)) := by
    intro V'; dsimp only [hostOps4_1, List.drop, List.take]; after_results_simp; rfl
  have b2 : ∀ V' : Valuation τ sig (Elt Ideal), StableHlo.after ((hostOps4_1.drop 18).take 4) V' (Proc.devRef .tc main_call3_v14)
      = broadcastInDim S800000x32 ![0] bcast_S800000_S800000x32_0 (V' (Proc.devRef .tc main_call3_v12)) := by
    intro V'; dsimp only [hostOps4_1, List.drop, List.take]; after_results_simp; rfl
  have b3 : ∀ V' : Valuation τ sig (Elt Ideal), StableHlo.after ((hostOps4_1.drop 18).take 4) V' (Proc.devRef .tc main_call3_v15)
      = broadcastInDim S800000x32 ![] bcast_S_S800000x32 (constant (F := Ideal) S_ .f32 0x7FC00000#32) := by
    intro V'; dsimp only [hostOps4_1, List.drop, List.take]; after_results_simp; rfl
  have c1 : ∀ V' : Valuation τ sig (Elt Ideal), StableHlo.after (hostOps4_1.drop 22) V' (Proc.devRef .tc main_v25)
      = select (V' (Proc.devRef .tc main_call3_v14)) (V' (Proc.devRef .tc main_call3_v13)) (V' (Proc.devRef .tc main_call3_v15)) := by
    intro V'; dsimp only [hostOps4_1, List.drop]; after_results_simp; rfl
  have hcut : (hostOps4_1 : List (HloOp τ sig (Elt Ideal))) = hostOps4_1.take 18 ++ ((hostOps4_1.drop 18).take 4 ++ hostOps4_1.drop 22) := by
    dsimp only [hostOps4_1, List.take, List.drop]; rfl
  rw [hcut, after_append, after_append, c1, b1, b2, b3, a1, a2, a3]
  rfl

set_option maxHeartbeats 1000000 in
theorem w16_v35 : W16 m ρ c (Proc.devRef .tc main_v35) = takeK (W15 m ρ c (Proc.devRef .tc main_v34)) (W15 m ρ c (Proc.devRef .tc main_arg2)) := by
  show StableHlo.after hostOps6 (W15 m ρ c) (Proc.devRef .tc main_v35) = _
  generalize W15 m ρ c = V

  have a1 : StableHlo.after (hostOps6.take 18) V (Proc.devRef .tc main_call4_v12)
      = Host.reduce IntOp.andi (andi (cmpi .sge (wrapIdx (V (Proc.devRef .tc main_arg2))) (broadcastInDim S800000x1 ![] bcast_S_S800000x1 (constantI S_ 32 0#32))) (cmpi .sle (wrapIdx (V (Proc.devRef .tc main_arg2))) (broadcastInDim S800000x1 ![0, 1] bcast_S1x1_S800000x1_0_1 (broadcastInDim S1x1 ![1] bcast_S1_S1x1_1 (constantI S1 32 99999#32))))) (constantI S_ 1 1#1) reducesTo_S800000x1_S800000_d1 h_S_ := by
    dsimp only [hostOps6, List.take]; after_results_simp
    simp only [StableHlo.TRef.ofBuf, StableHlo.TRef.toBuf, cast_eq]; rfl
  have a2 : StableHlo.after (hostOps6.take 18) V (Proc.devRef .tc main_call4_v5) = wrapIdx (V (Proc.devRef .tc main_arg2)) := by
    dsimp only [hostOps6, List.take]; after_results_simp
    simp only [StableHlo.TRef.ofBuf, StableHlo.TRef.toBuf, cast_eq]; rfl
  have a3 : StableHlo.after (hostOps6.take 18) V (Proc.devRef .tc main_v34) = V (Proc.devRef .tc main_v34) := by
    dsimp only [hostOps6, List.take]; after_results_simp
  have b1 : ∀ V' : Valuation τ sig (Elt Ideal), StableHlo.after ((hostOps6.drop 18).take 4) V' (Proc.devRef .tc main_call4_v13)
      = Host.gather gather_S100000x32_S800000x1_S800000x32_1_0_n_n_0_1_132 (V' (Proc.devRef .tc main_v34)) (V' (Proc.devRef .tc main_call4_v5)) := by
    intro V'; dsimp only [hostOps6, List.drop, List.take]; after_results_simp; rfl
  have b2 : ∀ V' : Valuation τ sig (Elt Ideal), StableHlo.after ((hostOps6.drop 18).take 4) V' (Proc.devRef .tc main_call4_v14)
      = broadcastInDim S800000x32 ![0] bcast_S800000_S800000x32_0 (V' (Proc.devRef .tc main_call4_v12)) := by
    intro V'; dsimp only [hostOps6, List.drop, List.take]; after_results_simp; rfl
  have b3 : ∀ V' : Valuation τ sig (Elt Ideal), StableHlo.after ((hostOps6.drop 18).take 4) V' (Proc.devRef .tc main_call4_v15)
      = broadcastInDim S800000x32 ![] bcast_S_S800000x32 (constant (F := Ideal) S_ .f32 0x7FC00000#32) := by
    intro V'; dsimp only [hostOps6, List.drop, List.take]; after_results_simp; rfl
  have c1 : ∀ V' : Valuation τ sig (Elt Ideal), StableHlo.after (hostOps6.drop 22) V' (Proc.devRef .tc main_v35)
      = select (V' (Proc.devRef .tc main_call4_v14)) (V' (Proc.devRef .tc main_call4_v13)) (V' (Proc.devRef .tc main_call4_v15)) := by
    intro V'; dsimp only [hostOps6, List.drop]; after_results_simp; rfl
  have hcut : (hostOps6 : List (HloOp τ sig (Elt Ideal))) = hostOps6.take 18 ++ ((hostOps6.drop 18).take 4 ++ hostOps6.drop 22) := by
    dsimp only [hostOps6, List.take, List.drop]; rfl
  rw [hcut, after_append, after_append, c1, b1, b2, b3, a1, a2, a3]
  rfl

set_option maxHeartbeats 1000000 in
theorem w17_v36 : W17 m ρ c (Proc.devRef .tc main_v36) = takeK (W16 m ρ c (Proc.devRef .tc main_v34)) (W16 m ρ c (Proc.devRef .tc main_arg3)) := by
  show StableHlo.after hostOps6_1 (W16 m ρ c) (Proc.devRef .tc main_v36) = _
  generalize W16 m ρ c = V

  have a1 : StableHlo.after (hostOps6_1.take 18) V (Proc.devRef .tc main_call5_v12)
      = Host.reduce IntOp.andi (andi (cmpi .sge (wrapIdx (V (Proc.devRef .tc main_arg3))) (broadcastInDim S800000x1 ![] bcast_S_S800000x1 (constantI S_ 32 0#32))) (cmpi .sle (wrapIdx (V (Proc.devRef .tc main_arg3))) (broadcastInDim S800000x1 ![0, 1] bcast_S1x1_S800000x1_0_1 (broadcastInDim S1x1 ![1] bcast_S1_S1x1_1 (constantI S1 32 99999#32))))) (constantI S_ 1 1#1) reducesTo_S800000x1_S800000_d1 h_S_ := by
    dsimp only [hostOps6_1, List.take]; after_results_simp
    simp only [StableHlo.TRef.ofBuf, StableHlo.TRef.toBuf, cast_eq]; rfl
  have a2 : StableHlo.after (hostOps6_1.take 18) V (Proc.devRef .tc main_call5_v5) = wrapIdx (V (Proc.devRef .tc main_arg3)) := by
    dsimp only [hostOps6_1, List.take]; after_results_simp
    simp only [StableHlo.TRef.ofBuf, StableHlo.TRef.toBuf, cast_eq]; rfl
  have a3 : StableHlo.after (hostOps6_1.take 18) V (Proc.devRef .tc main_v34) = V (Proc.devRef .tc main_v34) := by
    dsimp only [hostOps6_1, List.take]; after_results_simp
  have b1 : ∀ V' : Valuation τ sig (Elt Ideal), StableHlo.after ((hostOps6_1.drop 18).take 4) V' (Proc.devRef .tc main_call5_v13)
      = Host.gather gather_S100000x32_S800000x1_S800000x32_1_0_n_n_0_1_132 (V' (Proc.devRef .tc main_v34)) (V' (Proc.devRef .tc main_call5_v5)) := by
    intro V'; dsimp only [hostOps6_1, List.drop, List.take]; after_results_simp; rfl
  have b2 : ∀ V' : Valuation τ sig (Elt Ideal), StableHlo.after ((hostOps6_1.drop 18).take 4) V' (Proc.devRef .tc main_call5_v14)
      = broadcastInDim S800000x32 ![0] bcast_S800000_S800000x32_0 (V' (Proc.devRef .tc main_call5_v12)) := by
    intro V'; dsimp only [hostOps6_1, List.drop, List.take]; after_results_simp; rfl
  have b3 : ∀ V' : Valuation τ sig (Elt Ideal), StableHlo.after ((hostOps6_1.drop 18).take 4) V' (Proc.devRef .tc main_call5_v15)
      = broadcastInDim S800000x32 ![] bcast_S_S800000x32 (constant (F := Ideal) S_ .f32 0x7FC00000#32) := by
    intro V'; dsimp only [hostOps6_1, List.drop, List.take]; after_results_simp; rfl
  have c1 : ∀ V' : Valuation τ sig (Elt Ideal), StableHlo.after (hostOps6_1.drop 22) V' (Proc.devRef .tc main_v36)
      = select (V' (Proc.devRef .tc main_call5_v14)) (V' (Proc.devRef .tc main_call5_v13)) (V' (Proc.devRef .tc main_call5_v15)) := by
    intro V'; dsimp only [hostOps6_1, List.drop]; after_results_simp; rfl
  have hcut : (hostOps6_1 : List (HloOp τ sig (Elt Ideal))) = hostOps6_1.take 18 ++ ((hostOps6_1.drop 18).take 4 ++ hostOps6_1.drop 22) := by
    dsimp only [hostOps6_1, List.take, List.drop]; rfl
  rw [hcut, after_append, after_append, c1, b1, b2, b3, a1, a2, a3]
  rfl

def scatK (idx : IVec S800000 32) (u : FVec Ideal S800000x32 .f32) : FVec Ideal S100000x32 .f32 :=
  Host.scatterAdd scatter_S100000x32_S800000x1_S800000x32_1_0_0_1
    (broadcastInDim S100000x32 ![] bcast_S_S100000x32 (constant S_ .f32 0x00000000#32))
    (broadcastInDim S800000x1 ![0] bcast_S800000_S800000x1_0 idx) u

theorem w9_v22 : W9 m ρ c (Proc.devRef .tc main_v22)
    = addf (scatK (W8 m ρ c (Proc.devRef .tc main_arg3)) (W8 m ρ c (Proc.devRef .tc main_v15_0)))
        (scatK (W8 m ρ c (Proc.devRef .tc main_arg2)) (W8 m ρ c (Proc.devRef .tc main_v15_1))) := by
  show StableHlo.after hostOps3 (W8 m ρ c) (Proc.devRef .tc main_v22) = _
  dsimp only [hostOps3]; after_results; rfl

theorem w14_v33 : W14 m ρ c (Proc.devRef .tc main_v33)
    = addf (scatK (W13 m ρ c (Proc.devRef .tc main_arg3)) (W13 m ρ c (Proc.devRef .tc main_v26_0)))
        (scatK (W13 m ρ c (Proc.devRef .tc main_arg2)) (W13 m ρ c (Proc.devRef .tc main_v26_1))) := by
  show StableHlo.after hostOps5 (W13 m ρ c) (Proc.devRef .tc main_v33) = _
  dsimp only [hostOps5]; after_results; rfl

theorem w19_v44 : W19 m ρ c (Proc.devRef .tc main_v44)
    = addf (scatK (W18 m ρ c (Proc.devRef .tc main_arg3)) (W18 m ρ c (Proc.devRef .tc main_v37_0)))
        (scatK (W18 m ρ c (Proc.devRef .tc main_arg2)) (W18 m ρ c (Proc.devRef .tc main_v37_1))) := by
  show StableHlo.after hostOps7 (W18 m ρ c) (Proc.devRef .tc main_v44) = _
  dsimp only [hostOps7]; after_results; rfl

def pairsK (g : FVec Ideal S100000x64 .f32) (x4 : IVec S100000 32) (x19 : FVec Ideal S64x64 .f32) (x20 : FVec Ideal S64 .f32) :
    FVec Ideal S256x128 .f32 :=
  shapeCast S256x128
    (addf
      (Host.dotGeneral dot_S512x64_S64x64_S512x64_1_0_0_1_n_n none
        (Host.scatterAdd scatter_S512x64_S100000x1_S100000x64_1_0_0_1
          (broadcastInDim S512x64 ![] bcast_S_S512x64 (constant S_ .f32 0x00000000#32))
          (broadcastInDim S100000x1 ![0] bcast_S100000_S100000x1_0 x4) g)
        x19)
      (broadcastInDim S512x64 ![0, 1] bcast_S1x64_S512x64_0_1 (broadcastInDim S1x64 ![1] bcast_S64_S1x64_1 x20)))
    shapeCasts_S512x64_S256x128

def tailK (g : FVec Ideal S100000x64 .f32) (x4 : IVec S100000 32) (x19 : FVec Ideal S64x64 .f32) (x20 : FVec Ideal S64 .f32) :
    FVec Ideal S256 .f32 :=
  addf
    (mulf (broadcastInDim S256 ![] bcast_S_S256 (constant S_ .f32 0x3F800000#32))
      (Host.reduceAdd
        (maximumf
          (subf (extractStridedSlice S256x64 ![0, 64] (pairsK g x4 x19 x20) slices_S256x128_S256x64_0_64)
            (extractStridedSlice S256x64 ![0, 0] (pairsK g x4 x19 x20) slices_S256x128_S256x64_0_0))
          (broadcastInDim S256x64 ![] bcast_S_S256x64 (constant S_ .f32 0x00000000#32)))
        (constant S_ .f32 0x00000000#32) reducesTo_S256x64_S256_d1 h_S_))
    (mulf (broadcastInDim S256 ![] bcast_S_S256 (constant S_ .f32 0x3F800000#32))
      (Host.reduceAdd
        (maximumf
          (subf (extractStridedSlice S256x64 ![0, 0] (pairsK g x4 x19 x20) slices_S256x128_S256x64_0_0)
            (extractStridedSlice S256x64 ![0, 64] (pairsK g x4 x19 x20) slices_S256x128_S256x64_0_64))
          (broadcastInDim S256x64 ![] bcast_S_S256x64 (constant S_ .f32 0x00000000#32)))
        (constant S_ .f32 0x00000000#32) reducesTo_S256x64_S256_d1 h_S_))

set_option maxHeartbeats 2000000 in
theorem w27_v68 : W27 m ρ c (Proc.devRef .tc main_v68)
    = tailK (W22 m ρ c (Proc.devRef .tc main_v47)) (W22 m ρ c (Proc.devRef .tc main_arg4)) (W22 m ρ c (Proc.devRef .tc main_arg19))
        (W22 m ρ c (Proc.devRef .tc main_arg20)) := by
  show StableHlo.after hostOps9_4 (StableHlo.after hostOps9_3 (StableHlo.after hostOps9_2 (StableHlo.after hostOps9_1 (StableHlo.after hostOps9 (W22 m ρ c))))) (Proc.devRef .tc main_v68) = _
  generalize W22 m ρ c = V
  dsimp only [hostOps9, hostOps9_1, hostOps9_2, hostOps9_3, hostOps9_4]
  after_results_simp
  rfl

end Cert.KernelIdeal.HostVal

end
-- ==== Proof.Spec.lean ====
import Idealize.ShloMosaic.PureOps.Ideal
import Mathlib.Algebra.BigOperators.Fin
import Mathlib.Data.EReal.Basic

noncomputable section

namespace Cert.Spec

open scoped BigOperators

def linRow {K : Nat} (x : Fin K → EReal) (w : Fin K → EReal) (b : EReal) : EReal := (∑ k : Fin K, x k * w k) + b

def cat3 (fs ts : Fin 32 → EReal) (e : Fin 16 → EReal) : Fin 80 → EReal := fun k =>
  if h : k.val < 32 then fs ⟨k.val, h⟩ else if h' : k.val < 64 then ts ⟨k.val - 32, by omega⟩ else e ⟨k.val - 64, by omega⟩

def cat2 (a h : Fin 32 → EReal) : Fin 64 → EReal := fun k =>
  if hk : k.val < 32 then a ⟨k.val, hk⟩ else h ⟨k.val - 32, by omega⟩

def rowsFrom {N M : Nat} (n o : Nat) (ho : o + n ≤ N) (w : Fin N → Fin M → EReal) : Fin n → Fin M → EReal :=
  fun k j => w ⟨o + k.val, by omega⟩ j

def hidden {K H : Nat} (x : Fin K → EReal) (w1 : Fin K → Fin H → EReal) (b1 : Fin H → EReal) (j : Fin H) : EReal :=
  max (linRow x (fun k => w1 k j) (b1 j)) 0

def mlp2 {K H O : Nat} (x : Fin K → EReal) (w1 : Fin K → Fin H → EReal) (b1 : Fin H → EReal)
    (w2 : Fin H → Fin O → EReal) (b2 : Fin O → EReal) (q : Fin O) : EReal :=
  linRow (hidden x w1 b1) (fun j => w2 j q) (b2 q)

def msgRow (fs ts : Fin 32 → EReal) (e : Fin 16 → EReal) (w1 : Fin 80 → Fin 32 → EReal) (b1 : Fin 32 → EReal)
    (w2 : Fin 32 → Fin 32 → EReal) (b2 : Fin 32 → EReal) (q : Fin 32) : EReal :=
  mlp2 (cat3 fs ts e) w1 b1 w2 b2 q

def msgRowSplit (fs ts : Fin 32 → EReal) (e : Fin 16 → EReal) (w1a w1b : Fin 32 → Fin 32 → EReal) (w1c : Fin 16 → Fin 32 → EReal)
    (b1 : Fin 32 → EReal) (w2 : Fin 32 → Fin 32 → EReal) (b2 : Fin 32 → EReal) (q : Fin 32) : EReal :=
  linRow (fun j => max ((((∑ k : Fin 32, fs k * w1a k j) + (∑ k : Fin 32, ts k * w1b k j)) + (∑ k : Fin 16, e k * w1c k j)) + b1 j) 0)
    (fun j => w2 j q) (b2 q)

def updRow (agg h : Fin 32 → EReal) (w1 : Fin 64 → Fin 64 → EReal) (b1 : Fin 64 → EReal)
    (w2 : Fin 64 → Fin 32 → EReal) (b2 : Fin 32 → EReal) (q : Fin 32) : EReal :=
  h q + mlp2 (cat2 agg h) w1 b1 w2 b2 q

def updRowSplit (agg h : Fin 32 → EReal) (w1a w1b : Fin 32 → Fin 64 → EReal) (b1 : Fin 64 → EReal)
    (w2 : Fin 64 → Fin 32 → EReal) (b2 : Fin 32 → EReal) (q : Fin 32) : EReal :=
  h q + linRow (fun j => max (((∑ k : Fin 32, agg k * w1a k j) + (∑ k : Fin 32, h k * w1b k j)) + b1 j) 0) (fun j => w2 j q) (b2 q)

def gatedRow (h : Fin 32 → EReal) (w : Fin 32 → Fin 128 → EReal) (b : Fin 128 → EReal) (q : Fin 64) : EReal :=
  Idealize.ShloMosaic.Ideal.logistic (linRow h (fun k => w k ⟨q.val, by omega⟩) (b ⟨q.val, by omega⟩))
    * linRow h (fun k => w k ⟨64 + q.val, by omega⟩) (b ⟨64 + q.val, by omega⟩)

end Cert.Spec

end
-- ==== Proof.Lin0.lean ====
import proofs.«411375_j87694642250038_1_alg».proof.Proof.Gen.KernelIdeal.Frame
import proofs.«411375_j87694642250038_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Lin0

open Cert.KernelIdeal Cert.KernelIdeal.Gen Idealize.ShloMosaic Idealize.ShloMosaic.TcCoe Idealize.SL.Sem Idealize.ShloMosaic.ValueIdx
open scoped BigOperators

variable (V : (c : Dev nD) → (b : Ref sig .tc) → Buf (Elt Ideal) ((c : Thread nD τ).loc b))

theorem lhs_axis0 (i : S5000x32.Idx) (q : dot_S5000x16_S16x32_S5000x32_1_0_0_1_n_n.contr.Idx) :
    (dot_S5000x16_S16x32_S5000x32_1_0_0_1_n_n.lhsIdx i q 0).val = (i 0).val := by
  unfold DotDims.lhsIdx
  rw [dif_neg (show ¬(0 : Fin S5000x16.rank) ∈ dot_S5000x16_S16x32_S5000x32_1_0_0_1_n_n.lhsBatch by decide), dif_pos (show (0 : Fin S5000x16.rank) ∈ dot_S5000x16_S16x32_S5000x32_1_0_0_1_n_n.lhsNonContracting by decide)]
  rfl

theorem lhs_axis1 (i : S5000x32.Idx) (q : dot_S5000x16_S16x32_S5000x32_1_0_0_1_n_n.contr.Idx) :
    (dot_S5000x16_S16x32_S5000x32_1_0_0_1_n_n.lhsIdx i q 1).val = (q ⟨0, by decide⟩).val :=
  dot_S5000x16_S16x32_S5000x32_1_0_0_1_n_n.lhsIdx_val_of_single rfl i q

theorem rhs_axis0 (i : S5000x32.Idx) (q : dot_S5000x16_S16x32_S5000x32_1_0_0_1_n_n.contr.Idx) :
    (dot_S5000x16_S16x32_S5000x32_1_0_0_1_n_n.rhsIdx i q 0).val = (q ⟨0, by decide⟩).val :=
  dot_S5000x16_S16x32_S5000x32_1_0_0_1_n_n.rhsIdx_val_of_single rfl i q

theorem rhs_axis1 (i : S5000x32.Idx) (q : dot_S5000x16_S16x32_S5000x32_1_0_0_1_n_n.contr.Idx) :
    (dot_S5000x16_S16x32_S5000x32_1_0_0_1_n_n.rhsIdx i q 1).val = (i 1).val := by
  unfold DotDims.rhsIdx
  rw [dif_neg (show ¬(1 : Fin S16x32.rank) ∈ dot_S5000x16_S16x32_S5000x32_1_0_0_1_n_n.rhsBatch by decide), dif_pos (show (1 : Fin S16x32.rank) ∈ dot_S5000x16_S16x32_S5000x32_1_0_0_1_n_n.rhsNonContracting by decide)]
  rfl

theorem prod_apply {φ₁ φ₂ : FTy} (a : FVec Ideal S5000x16 φ₁) (b : FVec Ideal S16x32 φ₂) (r : Fin 5000) (q : Fin 32) :
    FloatOps.matmul dot_S5000x16_S16x32_S5000x32_1_0_0_1_n_n none a b (constant S5000x32 .f32 0x00000000#32) (ix2 r q)
      = ∑ k : Fin 16, a (ix2 r k) * b (ix2 k q) := by
  rw [Ideal.matmul_constant_zero_apply, ← Equiv.sum_comp (ValueIdx.contrEquiv1 dot_S5000x16_S16x32_S5000x32_1_0_0_1_n_n 16 rfl rfl).symm]
  refine Finset.sum_congr rfl fun k _ => ?_
  have hk := ValueIdx.contrEquiv1_symm_val dot_S5000x16_S16x32_S5000x32_1_0_0_1_n_n 16 rfl rfl k
  have el : dot_S5000x16_S16x32_S5000x32_1_0_0_1_n_n.lhsIdx (ix2 r q) ((ValueIdx.contrEquiv1 dot_S5000x16_S16x32_S5000x32_1_0_0_1_n_n 16 rfl rfl).symm k) = ix2 r k := funext fun a => Fin.ext (by
    match a with
    | ⟨0, _⟩ => exact lhs_axis0 _ _
    | ⟨1, _⟩ => exact (lhs_axis1 _ _).trans hk)
  have er : dot_S5000x16_S16x32_S5000x32_1_0_0_1_n_n.rhsIdx (ix2 r q) ((ValueIdx.contrEquiv1 dot_S5000x16_S16x32_S5000x32_1_0_0_1_n_n 16 rfl rfl).symm k) = ix2 k q := funext fun a => Fin.ext (by
    match a with
    | ⟨0, _⟩ => exact (rhs_axis0 _ _).trans hk
    | ⟨1, _⟩ => exact rhs_axis1 _ _)
  rw [el, er]

theorem pay_apply (x0 : Vec Ideal S5000x16 .f32) (x1 : Vec Ideal S16x32 .f32) (x2 : Vec Ideal S1x32 .f32) (r : Fin 5000) (q : Fin 32) :
    k0_pay1 (F := Ideal) x0 x1 x2 (ix2 r q)
      = Cert.Spec.linRow (fun k : Fin 16 => x0 (ix2 r k)) (fun k : Fin 16 => x1 (ix2 k q)) (x2 (ix2 (0 : Fin 1) q)) := by
  unfold k0_pay1
  rw [addf_apply]
  unfold Cert.Spec.linRow
  congr 1
  · exact prod_apply _ _ r q
  · rw [shapeCast_self]
    exact broadcastTo_1b_ab_apply _ _ r q

theorem zero_off : (![0, 0] : Fin 2 → Nat) = fun _ => 0 := funext fun a => by fin_cases a <;> rfl

theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem x_blk_apply (A : S100000x16.Idx → Elt Ideal .f32) (t : Fin cfg0.N) (r : Fin 5000) (k : Fin 16) (p : Fin 100000)
    (hp : p.val = t.val * 5000 + r.val) :
    (((cfg0.win 0).blk t).view.read (Elt Ideal) A : Vec Ideal S5000x16 .f32) (ix2 r k) = A (ix2 p k) := by
  obtain ⟨e0, e1, -⟩ := idx_facts t
  show A (((cfg0.win 0).blk t).view.emb (ix2 r k)) = A (ix2 p k)
  refine congrArg A (funext fun a => Fin.ext ?_)
  match a with
  | ⟨0, _⟩ => show win0_0.index t (0 : Fin 2) * 5000 + 1 * r.val = p.val; omega
  | ⟨1, _⟩ => show win0_0.index t (1 : Fin 2) * 16 + 1 * k.val = k.val; omega

theorem w_blk_apply (A : S16x32.Idx → Elt Ideal .f32) (t : Fin cfg0.N) (k : Fin 16) (q : Fin 32) :
    (((cfg0.win 1).blk t).view.read (Elt Ideal) A : Vec Ideal S16x32 .f32) (ix2 k q) = A (ix2 k q) := by
  obtain ⟨-, -, e0, e1, -⟩ := idx_facts t
  show A (((cfg0.win 1).blk t).view.emb (ix2 k q)) = A (ix2 k q)
  refine congrArg A (funext fun a => Fin.ext ?_)
  match a with
  | ⟨0, _⟩ => show win0_1.index t (0 : Fin 2) * 16 + 1 * k.val = k.val; omega
  | ⟨1, _⟩ => show win0_1.index t (1 : Fin 2) * 32 + 1 * q.val = q.val; omega

theorem b_blk_apply (A : S1x32.Idx → Elt Ideal .f32) (t : Fin cfg0.N) (z : Fin 1) (q : Fin 32) :
    (((cfg0.win 2).blk t).view.read (Elt Ideal) A : Vec Ideal S1x32 .f32) (ix2 z q) = A (ix2 z q) := by
  obtain ⟨-, -, -, -, e0, e1, -⟩ := idx_facts t
  show A (((cfg0.win 2).blk t).view.emb (ix2 z q)) = A (ix2 z q)
  refine congrArg A (funext fun a => Fin.ext ?_)
  match a with
  | ⟨0, _⟩ => show win0_2.index t (0 : Fin 2) * 1 + 1 * z.val = z.val; omega
  | ⟨1, _⟩ => show win0_2.index t (1 : Fin 2) * 32 + 1 * q.val = q.val; omega

theorem o_blk_emb (t : Fin cfg0.N) (r : Fin 5000) (q : Fin 32) (p : Fin 100000) (hp : p.val = t.val * 5000 + r.val) :
    ((cfg0.win 3).blk t).view.emb (ix2 r q) = (ix2 p q : S100000x32.Idx) := by
  obtain ⟨-, -, -, -, -, -, e0, e1⟩ := idx_facts t
  refine funext fun a => Fin.ext ?_
  match a with
  | ⟨0, _⟩ => show win0_3.index t (0 : Fin 2) * 5000 + 1 * r.val = p.val; omega
  | ⟨1, _⟩ => show win0_3.index t (1 : Fin 2) * 32 + 1 * q.val = q.val; omega

abbrev G (A0 : S100000x16.Idx → Elt Ideal .f32) (A1 : S16x32.Idx → Elt Ideal .f32) (A2 : S1x32.Idx → Elt Ideal .f32) :
    S100000x32.Idx → Elt Ideal .f32 := fun i =>
  Cert.Spec.linRow (fun k : Fin 16 => A0 (ix2 (⟨(i 0).val, (i 0).isLt⟩ : Fin 100000) k))
    (fun k : Fin 16 => A1 (ix2 k (⟨(i 1).val, (i 1).isLt⟩ : Fin 32)))
    (A2 (ix2 (0 : Fin 1) (⟨(i 1).val, (i 1).isLt⟩ : Fin 32)))

theorem mem_blk (t : Fin cfg0.N) (i : S100000x32.Idx) :
    i ∈ ((cfg0.win 3).blk t).view.set ↔ ∀ a : Fin 2, win0_3.index t a * S5000x32.size a ≤ (i a).val ∧ (i a).val < win0_3.index t a * S5000x32.size a + S5000x32.size a := by
  show i ∈ ((View.whole main_v1).slice (win0_3.rect t)).set ↔ _
  rw [View.set_slice_whole, Rect.mem_set_unit]
  exact Iff.rfl

theorem cover (i : S100000x32.Idx) : ∃ t : Fin cfg0.N, (cfg0.win 3).flush t = true ∧ i ∈ ((cfg0.win 3).blk t).view.set := by
  have hi0 : (i 0).val < 100000 := (i 0).isLt
  have hi1 : (i 1).val < 32 := (i 1).isLt
  have hN : cfg0.N = 20 := N_0
  let t : Fin cfg0.N := ⟨(i 0).val / 5000, by rw [hN]; omega⟩
  obtain ⟨-, -, -, -, -, -, e0, e1⟩ := idx_facts t
  have ht : t.val = (i 0).val / 5000 := rfl
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 32 ≤ (i 1).val ∧ (i 1).val < win0_3.index t (1 : Fin 2) * 32 + 32; omega

theorem flushed_eq (c : Dev nD) (t : Fin cfg0.N) :
    (dat0 (F := Ideal) V c).flushed 3 t
      = ((cfg0.win 3).blk t).view.read (Elt Ideal) (G (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero zero_off]
  simp only [View.ld_unit_zero (S := S5000x16) zero_off, View.ld_unit_zero (S := S16x32) zero_off, View.ld_unit_zero (S := S1x32) zero_off]
  funext j
  obtain ⟨r, q, rfl⟩ : ∃ (r : Fin 5000) (q : Fin 32), j = ix2 r q := ⟨j 0, j 1, eq_ix2 j⟩
  have hp : t.val * 5000 + r.val < 100000 := by
    have hN : cfg0.N = 20 := N_0
    have := t.isLt; have := r.isLt; omega
  show k0_pay1 (F := Ideal) (iblk0 V c 0 t) (iblk0 V c 1 t) (iblk0 V c 2 t) (ix2 r q)
    = G (V c (Pipeline.arrRef spec0 0)) (V c (Pipeline.arrRef spec0 1)) (V c (Pipeline.arrRef spec0 2)) (((cfg0.win 3).blk t).view.emb (ix2 r q))
  rw [o_blk_emb t r q ⟨t.val * 5000 + r.val, hp⟩ rfl]
  refine (pay_apply (iblk0 V c 0 t) (iblk0 V c 1 t) (iblk0 V c 2 t) r q).trans ?_
  unfold iblk0
  show Cert.Spec.linRow _ _ _ = Cert.Spec.linRow _ _ _
  congr 1
  · funext k
    exact x_blk_apply (V c (Pipeline.arrRef spec0 0)) t r k ⟨t.val * 5000 + r.val, hp⟩ rfl
  · funext k
    exact w_blk_apply (V c (Pipeline.arrRef spec0 1)) t k q
  · exact b_blk_apply (V c (Pipeline.arrRef spec0 2)) t 0 q

theorem final (c : Dev nD) :
    (dat0 (F := Ideal) V c).arrAt 3 cfg0.N = G (V c (Pipeline.arrRef spec0 0)) (V c (Pipeline.arrRef spec0 1)) (V c (Pipeline.arrRef spec0 2)) :=
  (dat0 (F := Ideal) V c).arrAt_eq_of_cover 3 _ (fun t _ => flushed_eq V c t) cover

theorem value (c : Dev nD) (p : Fin 100000) (q : Fin 32) :
    (dat0 (F := Ideal) V c).arrAt 3 cfg0.N (ix2 p q)
      = Cert.Spec.linRow (fun k : Fin 16 => V c (Pipeline.arrRef spec0 0) (ix2 p k)) (fun k : Fin 16 => V c (Pipeline.arrRef spec0 1) (ix2 k q)) (V c (Pipeline.arrRef spec0 2) (ix2 (0 : Fin 1) q)) := by
  rw [final V c]

end Cert.KernelIdeal.Lin0

end
-- ==== Proof.Lin1.lean ====
import proofs.«411375_j87694642250038_1_alg».proof.Proof.Gen.KernelIdeal.Frame
import proofs.«411375_j87694642250038_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Lin1

open Cert.KernelIdeal Cert.KernelIdeal.Gen Idealize.ShloMosaic Idealize.ShloMosaic.TcCoe Idealize.SL.Sem Idealize.ShloMosaic.ValueIdx
open scoped BigOperators

variable (V : (c : Dev nD) → (b : Ref sig .tc) → Buf (Elt Ideal) ((c : Thread nD τ).loc b))

theorem lhs_axis0 (i : S2000x16.Idx) (q : dot_S2000x8_S8x16_S2000x16_1_0_0_1_n_n.contr.Idx) :
    (dot_S2000x8_S8x16_S2000x16_1_0_0_1_n_n.lhsIdx i q 0).val = (i 0).val := by
  unfold DotDims.lhsIdx
  rw [dif_neg (show ¬(0 : Fin S2000x8.rank) ∈ dot_S2000x8_S8x16_S2000x16_1_0_0_1_n_n.lhsBatch by decide), dif_pos (show (0 : Fin S2000x8.rank) ∈ dot_S2000x8_S8x16_S2000x16_1_0_0_1_n_n.lhsNonContracting by decide)]
  rfl

theorem lhs_axis1 (i : S2000x16.Idx) (q : dot_S2000x8_S8x16_S2000x16_1_0_0_1_n_n.contr.Idx) :
    (dot_S2000x8_S8x16_S2000x16_1_0_0_1_n_n.lhsIdx i q 1).val = (q ⟨0, by decide⟩).val :=
  dot_S2000x8_S8x16_S2000x16_1_0_0_1_n_n.lhsIdx_val_of_single rfl i q

theorem rhs_axis0 (i : S2000x16.Idx) (q : dot_S2000x8_S8x16_S2000x16_1_0_0_1_n_n.contr.Idx) :
    (dot_S2000x8_S8x16_S2000x16_1_0_0_1_n_n.rhsIdx i q 0).val = (q ⟨0, by decide⟩).val :=
  dot_S2000x8_S8x16_S2000x16_1_0_0_1_n_n.rhsIdx_val_of_single rfl i q

theorem rhs_axis1 (i : S2000x16.Idx) (q : dot_S2000x8_S8x16_S2000x16_1_0_0_1_n_n.contr.Idx) :
    (dot_S2000x8_S8x16_S2000x16_1_0_0_1_n_n.rhsIdx i q 1).val = (i 1).val := by
  unfold DotDims.rhsIdx
  rw [dif_neg (show ¬(1 : Fin S8x16.rank) ∈ dot_S2000x8_S8x16_S2000x16_1_0_0_1_n_n.rhsBatch by decide), dif_pos (show (1 : Fin S8x16.rank) ∈ dot_S2000x8_S8x16_S2000x16_1_0_0_1_n_n.rhsNonContracting by decide)]
  rfl

theorem prod_apply {φ₁ φ₂ : FTy} (a : FVec Ideal S2000x8 φ₁) (b : FVec Ideal S8x16 φ₂) (r : Fin 2000) (q : Fin 16) :
    FloatOps.matmul dot_S2000x8_S8x16_S2000x16_1_0_0_1_n_n none a b (constant S2000x16 .f32 0x00000000#32) (ix2 r q)
      = ∑ k : Fin 8, a (ix2 r k) * b (ix2 k q) := by
  rw [Ideal.matmul_constant_zero_apply, ← Equiv.sum_comp (ValueIdx.contrEquiv1 dot_S2000x8_S8x16_S2000x16_1_0_0_1_n_n 8 rfl rfl).symm]
  refine Finset.sum_congr rfl fun k _ => ?_
  have hk := ValueIdx.contrEquiv1_symm_val dot_S2000x8_S8x16_S2000x16_1_0_0_1_n_n 8 rfl rfl k
  have el : dot_S2000x8_S8x16_S2000x16_1_0_0_1_n_n.lhsIdx (ix2 r q) ((ValueIdx.contrEquiv1 dot_S2000x8_S8x16_S2000x16_1_0_0_1_n_n 8 rfl rfl).symm k) = ix2 r k := funext fun a => Fin.ext (by
    match a with
    | ⟨0, _⟩ => exact lhs_axis0 _ _
    | ⟨1, _⟩ => exact (lhs_axis1 _ _).trans hk)
  have er : dot_S2000x8_S8x16_S2000x16_1_0_0_1_n_n.rhsIdx (ix2 r q) ((ValueIdx.contrEquiv1 dot_S2000x8_S8x16_S2000x16_1_0_0_1_n_n 8 rfl rfl).symm k) = ix2 k q := funext fun a => Fin.ext (by
    match a with
    | ⟨0, _⟩ => exact (rhs_axis0 _ _).trans hk
    | ⟨1, _⟩ => exact rhs_axis1 _ _)
  rw [el, er]

theorem pay_apply (x0 : Vec Ideal S2000x8 .f32) (x1 : Vec Ideal S8x16 .f32) (x2 : Vec Ideal S1x16 .f32) (r : Fin 2000) (q : Fin 16) :
    k1_pay1 (F := Ideal) x0 x1 x2 (ix2 r q)
      = Cert.Spec.linRow (fun k : Fin 8 => x0 (ix2 r k)) (fun k : Fin 8 => x1 (ix2 k q)) (x2 (ix2 (0 : Fin 1) q)) := by
  unfold k1_pay1
  rw [addf_apply]
  unfold Cert.Spec.linRow
  congr 1
  · exact prod_apply _ _ r q
  · rw [shapeCast_self]
    exact broadcastTo_1b_ab_apply _ _ r q

theorem zero_off : (![0, 0] : Fin 2 → Nat) = fun _ => 0 := funext fun a => by fin_cases a <;> rfl

theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem x_blk_apply (A : S800000x8.Idx → Elt Ideal .f32) (t : Fin cfg1.N) (r : Fin 2000) (k : Fin 8) (p : Fin 800000)
    (hp : p.val = t.val * 2000 + r.val) :
    (((cfg1.win 0).blk t).view.read (Elt Ideal) A : Vec Ideal S2000x8 .f32) (ix2 r k) = A (ix2 p k) := by
  obtain ⟨e0, e1, -⟩ := idx_facts t
  show A (((cfg1.win 0).blk t).view.emb (ix2 r k)) = A (ix2 p k)
  refine congrArg A (funext fun a => Fin.ext ?_)
  match a with
  | ⟨0, _⟩ => show win1_0.index t (0 : Fin 2) * 2000 + 1 * r.val = p.val; omega
  | ⟨1, _⟩ => show win1_0.index t (1 : Fin 2) * 8 + 1 * k.val = k.val; omega

theorem w_blk_apply (A : S8x16.Idx → Elt Ideal .f32) (t : Fin cfg1.N) (k : Fin 8) (q : Fin 16) :
    (((cfg1.win 1).blk t).view.read (Elt Ideal) A : Vec Ideal S8x16 .f32) (ix2 k q) = A (ix2 k q) := by
  obtain ⟨-, -, e0, e1, -⟩ := idx_facts t
  show A (((cfg1.win 1).blk t).view.emb (ix2 k q)) = A (ix2 k q)
  refine congrArg A (funext fun a => Fin.ext ?_)
  match a with
  | ⟨0, _⟩ => show win1_1.index t (0 : Fin 2) * 8 + 1 * k.val = k.val; omega
  | ⟨1, _⟩ => show win1_1.index t (1 : Fin 2) * 16 + 1 * q.val = q.val; omega

theorem b_blk_apply (A : S1x16.Idx → Elt Ideal .f32) (t : Fin cfg1.N) (z : Fin 1) (q : Fin 16) :
    (((cfg1.win 2).blk t).view.read (Elt Ideal) A : Vec Ideal S1x16 .f32) (ix2 z q) = A (ix2 z q) := by
  obtain ⟨-, -, -, -, e0, e1, -⟩ := idx_facts t
  show A (((cfg1.win 2).blk t).view.emb (ix2 z q)) = A (ix2 z q)
  refine congrArg A (funext fun a => Fin.ext ?_)
  match a with
  | ⟨0, _⟩ => show win1_2.index t (0 : Fin 2) * 1 + 1 * z.val = z.val; omega
  | ⟨1, _⟩ => show win1_2.index t (1 : Fin 2) * 16 + 1 * q.val = q.val; omega

theorem o_blk_emb (t : Fin cfg1.N) (r : Fin 2000) (q : Fin 16) (p : Fin 800000) (hp : p.val = t.val * 2000 + r.val) :
    ((cfg1.win 3).blk t).view.emb (ix2 r q) = (ix2 p q : S800000x16.Idx) := by
  obtain ⟨-, -, -, -, -, -, e0, e1⟩ := idx_facts t
  refine funext fun a => Fin.ext ?_
  match a with
  | ⟨0, _⟩ => show win1_3.index t (0 : Fin 2) * 2000 + 1 * r.val = p.val; omega
  | ⟨1, _⟩ => show win1_3.index t (1 : Fin 2) * 16 + 1 * q.val = q.val; omega

abbrev G (A0 : S800000x8.Idx → Elt Ideal .f32) (A1 : S8x16.Idx → Elt Ideal .f32) (A2 : S1x16.Idx → Elt Ideal .f32) :
    S800000x16.Idx → Elt Ideal .f32 := fun i =>
  Cert.Spec.linRow (fun k : Fin 8 => A0 (ix2 (⟨(i 0).val, (i 0).isLt⟩ : Fin 800000) k))
    (fun k : Fin 8 => A1 (ix2 k (⟨(i 1).val, (i 1).isLt⟩ : Fin 16)))
    (A2 (ix2 (0 : Fin 1) (⟨(i 1).val, (i 1).isLt⟩ : Fin 16)))

theorem mem_blk (t : Fin cfg1.N) (i : S800000x16.Idx) :
    i ∈ ((cfg1.win 3).blk t).view.set ↔ ∀ a : Fin 2, win1_3.index t a * S2000x16.size a ≤ (i a).val ∧ (i a).val < win1_3.index t a * S2000x16.size a + S2000x16.size a := by
  show i ∈ ((View.whole main_v3).slice (win1_3.rect t)).set ↔ _
  rw [View.set_slice_whole, Rect.mem_set_unit]
  exact Iff.rfl

theorem cover (i : S800000x16.Idx) : ∃ t : Fin cfg1.N, (cfg1.win 3).flush t = true ∧ i ∈ ((cfg1.win 3).blk t).view.set := by
  have hi0 : (i 0).val < 800000 := (i 0).isLt
  have hi1 : (i 1).val < 16 := (i 1).isLt
  have hN : cfg1.N = 400 := N_1
  let t : Fin cfg1.N := ⟨(i 0).val / 2000, by rw [hN]; omega⟩
  obtain ⟨-, -, -, -, -, -, e0, e1⟩ := idx_facts t
  have ht : t.val = (i 0).val / 2000 := rfl
  refine ⟨t, flush1_3 t, ?_⟩
  rw [mem_blk]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 16 ≤ (i 1).val ∧ (i 1).val < win1_3.index t (1 : Fin 2) * 16 + 16; omega

theorem flushed_eq (c : Dev nD) (t : Fin cfg1.N) :
    (dat1 (F := Ideal) V c).flushed 3 t
      = ((cfg1.win 3).blk t).view.read (Elt Ideal) (G (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero zero_off]
  simp only [View.ld_unit_zero (S := S2000x8) zero_off, View.ld_unit_zero (S := S8x16) zero_off, View.ld_unit_zero (S := S1x16) zero_off]
  funext j
  obtain ⟨r, q, rfl⟩ : ∃ (r : Fin 2000) (q : Fin 16), j = ix2 r q := ⟨j 0, j 1, eq_ix2 j⟩
  have hp : t.val * 2000 + r.val < 800000 := by
    have hN : cfg1.N = 400 := N_1
    have := t.isLt; have := r.isLt; omega
  show k1_pay1 (F := Ideal) (iblk1 V c 0 t) (iblk1 V c 1 t) (iblk1 V c 2 t) (ix2 r q)
    = G (V c (Pipeline.arrRef spec1 0)) (V c (Pipeline.arrRef spec1 1)) (V c (Pipeline.arrRef spec1 2)) (((cfg1.win 3).blk t).view.emb (ix2 r q))
  rw [o_blk_emb t r q ⟨t.val * 2000 + r.val, hp⟩ rfl]
  refine (pay_apply (iblk1 V c 0 t) (iblk1 V c 1 t) (iblk1 V c 2 t) r q).trans ?_
  unfold iblk1
  show Cert.Spec.linRow _ _ _ = Cert.Spec.linRow _ _ _
  congr 1
  · funext k
    exact x_blk_apply (V c (Pipeline.arrRef spec1 0)) t r k ⟨t.val * 2000 + r.val, hp⟩ rfl
  · funext k
    exact w_blk_apply (V c (Pipeline.arrRef spec1 1)) t k q
  · exact b_blk_apply (V c (Pipeline.arrRef spec1 2)) t 0 q

theorem final (c : Dev nD) :
    (dat1 (F := Ideal) V c).arrAt 3 cfg1.N = G (V c (Pipeline.arrRef spec1 0)) (V c (Pipeline.arrRef spec1 1)) (V c (Pipeline.arrRef spec1 2)) :=
  (dat1 (F := Ideal) V c).arrAt_eq_of_cover 3 _ (fun t _ => flushed_eq V c t) cover

theorem value (c : Dev nD) (p : Fin 800000) (q : Fin 16) :
    (dat1 (F := Ideal) V c).arrAt 3 cfg1.N (ix2 p q)
      = Cert.Spec.linRow (fun k : Fin 8 => V c (Pipeline.arrRef spec1 0) (ix2 p k)) (fun k : Fin 8 => V c (Pipeline.arrRef spec1 1) (ix2 k q)) (V c (Pipeline.arrRef spec1 2) (ix2 (0 : Fin 1) q)) := by
  rw [final V c]

end Cert.KernelIdeal.Lin1

end
-- ==== Proof.Msg2.lean ====
import proofs.«411375_j87694642250038_1_alg».proof.Proof.Gen.KernelIdeal.Frame
import proofs.«411375_j87694642250038_1_alg».proof.Proof.Spec
import Idealize.ShloMosaic.Lib.Pipeline.Value
import Idealize.ShloMosaic.Lib.ValueIdx
import Idealize.ShloMosaic.PureOps.Ideal.Laws

noncomputable section

namespace Cert.KernelIdeal.Msg2

open Cert.KernelIdeal Cert.KernelIdeal.Gen Idealize.ShloMosaic Idealize.ShloMosaic.TcCoe Idealize.SL.Sem Idealize.ShloMosaic.ValueIdx
open scoped BigOperators
theorem lhs32_0 (i : S2000x32.Idx) (q : dot_S2000x32_S32x32_S2000x32_1_0_0_1_n_n.contr.Idx) :
    (dot_S2000x32_S32x32_S2000x32_1_0_0_1_n_n.lhsIdx i q 0).val = (i 0).val := by
  unfold DotDims.lhsIdx
  rw [dif_neg (show ¬(0 : Fin S2000x32.rank) ∈ dot_S2000x32_S32x32_S2000x32_1_0_0_1_n_n.lhsBatch by decide), dif_pos (show (0 : Fin S2000x32.rank) ∈ dot_S2000x32_S32x32_S2000x32_1_0_0_1_n_n.lhsNonContracting by decide)]
  rfl
theorem lhs32_1 (i : S2000x32.Idx) (q : dot_S2000x32_S32x32_S2000x32_1_0_0_1_n_n.contr.Idx) :
    (dot_S2000x32_S32x32_S2000x32_1_0_0_1_n_n.lhsIdx i q 1).val = (q ⟨0, by decide⟩).val :=
  dot_S2000x32_S32x32_S2000x32_1_0_0_1_n_n.lhsIdx_val_of_single rfl i q
theorem rhs32_0 (i : S2000x32.Idx) (q : dot_S2000x32_S32x32_S2000x32_1_0_0_1_n_n.contr.Idx) :
    (dot_S2000x32_S32x32_S2000x32_1_0_0_1_n_n.rhsIdx i q 0).val = (q ⟨0, by decide⟩).val :=
  dot_S2000x32_S32x32_S2000x32_1_0_0_1_n_n.rhsIdx_val_of_single rfl i q
theorem rhs32_1 (i : S2000x32.Idx) (q : dot_S2000x32_S32x32_S2000x32_1_0_0_1_n_n.contr.Idx) :
    (dot_S2000x32_S32x32_S2000x32_1_0_0_1_n_n.rhsIdx i q 1).val = (i 1).val := by
  unfold DotDims.rhsIdx
  rw [dif_neg (show ¬(1 : Fin S32x32.rank) ∈ dot_S2000x32_S32x32_S2000x32_1_0_0_1_n_n.rhsBatch by decide), dif_pos (show (1 : Fin S32x32.rank) ∈ dot_S2000x32_S32x32_S2000x32_1_0_0_1_n_n.rhsNonContracting by decide)]
  rfl

/-- A product into the zero accumulator, read at an entry, is the sum over the contracted position. -/
theorem matmul32_apply {φ₁ φ₂ : FTy} (a : FVec Ideal S2000x32 φ₁) (w : FVec Ideal S32x32 φ₂) (r : Fin 2000) (j : Fin 32) :
    matmul dot_S2000x32_S32x32_S2000x32_1_0_0_1_n_n none a w (constant (F := Ideal) S2000x32 .f32 0x00000000#32) (ix2 r j)
      = ∑ k : Fin 32, a (ix2 r k) * w (ix2 k j) := by
  refine (Ideal.matmul_constant_zero_apply dot_S2000x32_S32x32_S2000x32_1_0_0_1_n_n none a w (ix2 r j)).trans ?_
  rw [← Equiv.sum_comp (contrEquiv1 dot_S2000x32_S32x32_S2000x32_1_0_0_1_n_n 32 rfl rfl).symm]
  refine Finset.sum_congr rfl fun k _ => ?_
  have hk := contrEquiv1_symm_val dot_S2000x32_S32x32_S2000x32_1_0_0_1_n_n 32 rfl rfl k
  have el : dot_S2000x32_S32x32_S2000x32_1_0_0_1_n_n.lhsIdx (ix2 r j) ((contrEquiv1 dot_S2000x32_S32x32_S2000x32_1_0_0_1_n_n 32 rfl rfl).symm k) = ix2 r k := funext fun a => Fin.ext (by
    match a with
    | ⟨0, _⟩ => exact lhs32_0 _ _
    | ⟨1, _⟩ => exact (lhs32_1 _ _).trans hk)
  have er : dot_S2000x32_S32x32_S2000x32_1_0_0_1_n_n.rhsIdx (ix2 r j) ((contrEquiv1 dot_S2000x32_S32x32_S2000x32_1_0_0_1_n_n 32 rfl rfl).symm k) = ix2 k j := funext fun a => Fin.ext (by
    match a with
    | ⟨0, _⟩ => exact (rhs32_0 _ _).trans hk
    | ⟨1, _⟩ => exact rhs32_1 _ _)
  rw [el, er]

theorem lhs16_0 (i : S2000x32.Idx) (q : dot_S2000x16_S16x32_S2000x32_1_0_0_1_n_n.contr.Idx) :
    (dot_S2000x16_S16x32_S2000x32_1_0_0_1_n_n.lhsIdx i q 0).val = (i 0).val := by
  unfold DotDims.lhsIdx
  rw [dif_neg (show ¬(0 : Fin S2000x16.rank) ∈ dot_S2000x16_S16x32_S2000x32_1_0_0_1_n_n.lhsBatch by decide), dif_pos (show (0 : Fin S2000x16.rank) ∈ dot_S2000x16_S16x32_S2000x32_1_0_0_1_n_n.lhsNonContracting by decide)]
  rfl
theorem lhs16_1 (i : S2000x32.Idx) (q : dot_S2000x16_S16x32_S2000x32_1_0_0_1_n_n.contr.Idx) :
    (dot_S2000x16_S16x32_S2000x32_1_0_0_1_n_n.lhsIdx i q 1).val = (q ⟨0, by decide⟩).val :=
  dot_S2000x16_S16x32_S2000x32_1_0_0_1_n_n.lhsIdx_val_of_single rfl i q
theorem rhs16_0 (i : S2000x32.Idx) (q : dot_S2000x16_S16x32_S2000x32_1_0_0_1_n_n.contr.Idx) :
    (dot_S2000x16_S16x32_S2000x32_1_0_0_1_n_n.rhsIdx i q 0).val = (q ⟨0, by decide⟩).val :=
  dot_S2000x16_S16x32_S2000x32_1_0_0_1_n_n.rhsIdx_val_of_single rfl i q
theorem rhs16_1 (i : S2000x32.Idx) (q : dot_S2000x16_S16x32_S2000x32_1_0_0_1_n_n.contr.Idx) :
    (dot_S2000x16_S16x32_S2000x32_1_0_0_1_n_n.rhsIdx i q 1).val = (i 1).val := by
  unfold DotDims.rhsIdx
  rw [dif_neg (show ¬(1 : Fin S16x32.rank) ∈ dot_S2000x16_S16x32_S2000x32_1_0_0_1_n_n.rhsBatch by decide), dif_pos (show (1 : Fin S16x32.rank) ∈ dot_S2000x16_S16x32_S2000x32_1_0_0_1_n_n.rhsNonContracting by decide)]
  rfl

theorem matmul16_apply {φ₁ φ₂ : FTy} (a : FVec Ideal S2000x16 φ₁) (w : FVec Ideal S16x32 φ₂) (r : Fin 2000) (j : Fin 32) :
    matmul dot_S2000x16_S16x32_S2000x32_1_0_0_1_n_n none a w (constant (F := Ideal) S2000x32 .f32 0x00000000#32) (ix2 r j)
      = ∑ k : Fin 16, a (ix2 r k) * w (ix2 k j) := by
  refine (Ideal.matmul_constant_zero_apply dot_S2000x16_S16x32_S2000x32_1_0_0_1_n_n none a w (ix2 r j)).trans ?_
  rw [← Equiv.sum_comp (contrEquiv1 dot_S2000x16_S16x32_S2000x32_1_0_0_1_n_n 16 rfl rfl).symm]
  refine Finset.sum_congr rfl fun k _ => ?_
  have hk := contrEquiv1_symm_val dot_S2000x16_S16x32_S2000x32_1_0_0_1_n_n 16 rfl rfl k
  have el : dot_S2000x16_S16x32_S2000x32_1_0_0_1_n_n.lhsIdx (ix2 r j) ((contrEquiv1 dot_S2000x16_S16x32_S2000x32_1_0_0_1_n_n 16 rfl rfl).symm k) = ix2 r k := funext fun a => Fin.ext (by
    match a with
    | ⟨0, _⟩ => exact lhs16_0 _ _
    | ⟨1, _⟩ => exact (lhs16_1 _ _).trans hk)
  have er : dot_S2000x16_S16x32_S2000x32_1_0_0_1_n_n.rhsIdx (ix2 r j) ((contrEquiv1 dot_S2000x16_S16x32_S2000x32_1_0_0_1_n_n 16 rfl rfl).symm k) = ix2 k j := funext fun a => Fin.ext (by
    match a with
    | ⟨0, _⟩ => exact (rhs16_0 _ _).trans hk
    | ⟨1, _⟩ => exact rhs16_1 _ _)
  rw [el, er]

theorem rowBias_apply (b : Vec Ideal S1x32 .f32) (r : Fin 2000) (j : Fin 32) :
    broadcastTo S2000x32 (shapeCast S1x32 b shapeCasts_S1x32_S1x32) broadcasts_S1x32_S2000x32 (ix2 r j) = b (ix2 (0 : Fin 1) j) := by
  rw [shapeCast_self]
  exact broadcastTo_apply b broadcasts_S1x32_S2000x32 (ix2 r j) (ix2 (0 : Fin 1) j) (fun a => match a with
    | ⟨0, _⟩ => by show (0 : Nat) = if (1 : Nat) = 1 then 0 else r.val; rw [if_pos rfl]
    | ⟨1, _⟩ => by show j.val = if (32 : Nat) = 1 then 0 else j.val; rw [if_neg (by decide)])

theorem hidden_apply {φa φb φc φd φe φf : FTy} (a : FVec Ideal S2000x32 φa) (b : FVec Ideal S2000x32 φb) (e : FVec Ideal S2000x16 φc)
    (wa : FVec Ideal S32x32 φd) (wb : FVec Ideal S32x32 φe) (wc : FVec Ideal S16x32 φf) (b1 : Vec Ideal S1x32 .f32) (r : Fin 2000) (j : Fin 32) :
    maximumf (addf (addf (addf (matmul dot_S2000x32_S32x32_S2000x32_1_0_0_1_n_n none a wa (constant (F := Ideal) S2000x32 .f32 0x00000000#32))
          (matmul dot_S2000x32_S32x32_S2000x32_1_0_0_1_n_n none b wb (constant (F := Ideal) S2000x32 .f32 0x00000000#32)))
          (matmul dot_S2000x16_S16x32_S2000x32_1_0_0_1_n_n none e wc (constant (F := Ideal) S2000x32 .f32 0x00000000#32)))
          (broadcastTo S2000x32 (shapeCast S1x32 b1 shapeCasts_S1x32_S1x32) broadcasts_S1x32_S2000x32))
        (broadcast S2000x32 (Scalar.ofBits (F := Ideal) .f32 0x00000000#32)) (ix2 r j)
      = max ((((∑ k : Fin 32, a (ix2 r k) * wa (ix2 k j)) + (∑ k : Fin 32, b (ix2 r k) * wb (ix2 k j))) + (∑ k : Fin 16, e (ix2 r k) * wc (ix2 k j))) + b1 (ix2 (0 : Fin 1) j)) 0 := by
  rw [maximumf_apply, addf_apply, addf_apply, addf_apply, matmul32_apply, matmul32_apply, matmul16_apply, rowBias_apply, broadcast_apply]
  exact congrArg (max _) Ideal.ofBits_zero_f32

/-- Entry (r, q) of the first stored block is the message of row r of the three row blocks. -/
theorem store_f_apply (x0 x1 : Vec Ideal S2000x32 .f32) (x2 : Vec Ideal S2000x16 .f32) (x3 x4 : Vec Ideal S32x32 .f32) (x5 : Vec Ideal S16x32 .f32)
    (x6 : Vec Ideal S1x32 .f32) (x7 : Vec Ideal S32x32 .f32) (x8 : Vec Ideal S1x32 .f32) (r : Fin 2000) (q : Fin 32) :
    k2_pay1 (k2_pay12 x0 x1 x2 x3 x4 x5 x6 x7) (k2_pay13 x8) (ix2 r q)
      = Cert.Spec.msgRowSplit (fun k : Fin 32 => x0 (ix2 r k)) (fun k : Fin 32 => x1 (ix2 r k)) (fun k : Fin 16 => x2 (ix2 r k))
          (fun (k : Fin 32) (j : Fin 32) => x3 (ix2 k j)) (fun (k : Fin 32) (j : Fin 32) => x4 (ix2 k j)) (fun (k : Fin 16) (j : Fin 32) => x5 (ix2 k j))
          (fun j : Fin 32 => x6 (ix2 (0 : Fin 1) j)) (fun (k : Fin 32) (j : Fin 32) => x7 (ix2 k j)) (fun j : Fin 32 => x8 (ix2 (0 : Fin 1) j)) q := by
  unfold k2_pay1 k2_pay12 k2_pay13 k2_pay3 k2_pay4 k2_pay5 k2_pay6 k2_pay7 k2_pay8 k2_pay9 k2_pay10 k2_pay11
  unfold Cert.Spec.msgRowSplit Cert.Spec.linRow
  dsimp only
  rw [addf_apply, matmul32_apply, rowBias_apply]
  refine congrArg (· + _) (Finset.sum_congr rfl fun j _ => ?_)
  rw [truncf_apply, truncf_apply, hidden_apply]
  simp only [truncf_apply, shapeCast_self]

theorem store_r_apply (x0 x1 : Vec Ideal S2000x32 .f32) (x2 : Vec Ideal S2000x16 .f32) (x3 x4 : Vec Ideal S32x32 .f32) (x5 : Vec Ideal S16x32 .f32)
    (x6 : Vec Ideal S1x32 .f32) (x7 : Vec Ideal S32x32 .f32) (x8 : Vec Ideal S1x32 .f32) (r : Fin 2000) (q : Fin 32) :
    k2_pay2 (k2_pay3 x0) (k2_pay4 x1) (k2_pay5 x2) (k2_pay6 x3) (k2_pay7 x4) (k2_pay8 x5) (k2_pay9 x6) (k2_pay10 x7) (k2_pay11 x8) (ix2 r q)
      = Cert.Spec.msgRowSplit (fun k : Fin 32 => x1 (ix2 r k)) (fun k : Fin 32 => x0 (ix2 r k)) (fun k : Fin 16 => x2 (ix2 r k))
          (fun (k : Fin 32) (j : Fin 32) => x3 (ix2 k j)) (fun (k : Fin 32) (j : Fin 32) => x4 (ix2 k j)) (fun (k : Fin 16) (j : Fin 32) => x5 (ix2 k j))
          (fun j : Fin 32 => x6 (ix2 (0 : Fin 1) j)) (fun (k : Fin 32) (j : Fin 32) => x7 (ix2 k j)) (fun j : Fin 32 => x8 (ix2 (0 : Fin 1) j)) q := by
  unfold k2_pay2 k2_pay3 k2_pay4 k2_pay5 k2_pay6 k2_pay7 k2_pay8 k2_pay9 k2_pay10 k2_pay11
  unfold Cert.Spec.msgRowSplit Cert.Spec.linRow
  dsimp only
  rw [addf_apply, matmul32_apply, rowBias_apply]
  refine congrArg (· + _) (Finset.sum_congr rfl fun j _ => ?_)
  rw [truncf_apply, truncf_apply, hidden_apply]
  simp only [truncf_apply, shapeCast_self]

theorem zeroOffsets : (![0, 0] : Fin 2 → Nat) = fun _ => 0 := funext fun a => by fin_cases a <;> rfl

def msgArr (A0 A1 : S800000x32.Idx → EReal) (A2 : S800000x16.Idx → EReal) (A3 A4 : S32x32.Idx → EReal) (A5 : S16x32.Idx → EReal) (A6 : S1x32.Idx → EReal) (A7 : S32x32.Idx → EReal) (A8 : S1x32.Idx → EReal) : S800000x32.Idx → EReal := fun i =>
  Cert.Spec.msgRowSplit (fun k : Fin 32 => A0 (ix2 (⟨(i 0).val, idx2_lt0 i⟩ : Fin 800000) k)) (fun k : Fin 32 => A1 (ix2 (⟨(i 0).val, idx2_lt0 i⟩ : Fin 800000) k)) (fun k : Fin 16 => A2 (ix2 (⟨(i 0).val, idx2_lt0 i⟩ : Fin 800000) k))
      (fun (k : Fin 32) (j : Fin 32) => A3 (ix2 k j)) (fun (k : Fin 32) (j : Fin 32) => A4 (ix2 k j)) (fun (k : Fin 16) (j : Fin 32) => A5 (ix2 k j))
      (fun j : Fin 32 => A6 (ix2 (0 : Fin 1) j)) (fun (k : Fin 32) (j : Fin 32) => A7 (ix2 k j)) (fun j : Fin 32 => A8 (ix2 (0 : Fin 1) j)) ⟨(i 1).val, idx2_lt1 i⟩

theorem msgArr_apply (A0 A1 : S800000x32.Idx → EReal) (A2 : S800000x16.Idx → EReal) (A3 A4 : S32x32.Idx → EReal) (A5 : S16x32.Idx → EReal) (A6 : S1x32.Idx → EReal) (A7 : S32x32.Idx → EReal) (A8 : S1x32.Idx → EReal) (p : Fin 800000) (q : Fin 32) :
    msgArr A0 A1 A2 A3 A4 A5 A6 A7 A8 (ix2 p q) = Cert.Spec.msgRowSplit (fun k : Fin 32 => A0 (ix2 p k)) (fun k : Fin 32 => A1 (ix2 p k)) (fun k : Fin 16 => A2 (ix2 p k))
      (fun (k : Fin 32) (j : Fin 32) => A3 (ix2 k j)) (fun (k : Fin 32) (j : Fin 32) => A4 (ix2 k j)) (fun (k : Fin 16) (j : Fin 32) => A5 (ix2 k j))
      (fun j : Fin 32 => A6 (ix2 (0 : Fin 1) j)) (fun (k : Fin 32) (j : Fin 32) => A7 (ix2 k j)) (fun j : Fin 32 => A8 (ix2 (0 : Fin 1) j)) q := rfl

/-- If the blocks' rows are rows of the arrays and the weight blocks are the weight arrays, the stored entry is the message array's. -/
theorem point_f (x0 x1 : Vec Ideal S2000x32 .f32) (x2 : Vec Ideal S2000x16 .f32) (x3 x4 : Vec Ideal S32x32 .f32) (x5 : Vec Ideal S16x32 .f32) (x6 : Vec Ideal S1x32 .f32) (x7 : Vec Ideal S32x32 .f32) (x8 : Vec Ideal S1x32 .f32) (A0 A1 : S800000x32.Idx → EReal) (A2 : S800000x16.Idx → EReal) (A3 A4 : S32x32.Idx → EReal) (A5 : S16x32.Idx → EReal) (A6 : S1x32.Idx → EReal) (A7 : S32x32.Idx → EReal) (A8 : S1x32.Idx → EReal) (r : Fin 2000) (q : Fin 32) (p : Fin 800000)
    (h0 : ∀ k : Fin 32, x0 (ix2 r k) = A0 (ix2 p k)) (h1 : ∀ k : Fin 32, x1 (ix2 r k) = A1 (ix2 p k)) (h2 : ∀ k : Fin 16, x2 (ix2 r k) = A2 (ix2 p k))
    (h3 : x3 = A3) (h4 : x4 = A4) (h5 : x5 = A5) (h6 : x6 = A6) (h7 : x7 = A7) (h8 : x8 = A8) :
    k2_pay1 (k2_pay12 x0 x1 x2 x3 x4 x5 x6 x7) (k2_pay13 x8) (ix2 r q) = msgArr A0 A1 A2 A3 A4 A5 A6 A7 A8 (ix2 p q) := by
  subst h3 h4 h5 h6 h7 h8
  rw [store_f_apply, msgArr_apply]
  simp only [h0, h1, h2]

theorem point_r (x0 x1 : Vec Ideal S2000x32 .f32) (x2 : Vec Ideal S2000x16 .f32) (x3 x4 : Vec Ideal S32x32 .f32) (x5 : Vec Ideal S16x32 .f32) (x6 : Vec Ideal S1x32 .f32) (x7 : Vec Ideal S32x32 .f32) (x8 : Vec Ideal S1x32 .f32) (A0 A1 : S800000x32.Idx → EReal) (A2 : S800000x16.Idx → EReal) (A3 A4 : S32x32.Idx → EReal) (A5 : S16x32.Idx → EReal) (A6 : S1x32.Idx → EReal) (A7 : S32x32.Idx → EReal) (A8 : S1x32.Idx → EReal) (r : Fin 2000) (q : Fin 32) (p : Fin 800000)
    (h0 : ∀ k : Fin 32, x0 (ix2 r k) = A0 (ix2 p k)) (h1 : ∀ k : Fin 32, x1 (ix2 r k) = A1 (ix2 p k)) (h2 : ∀ k : Fin 16, x2 (ix2 r k) = A2 (ix2 p k))
    (h3 : x3 = A3) (h4 : x4 = A4) (h5 : x5 = A5) (h6 : x6 = A6) (h7 : x7 = A7) (h8 : x8 = A8) :
    k2_pay2 (k2_pay3 x0) (k2_pay4 x1) (k2_pay5 x2) (k2_pay6 x3) (k2_pay7 x4) (k2_pay8 x5) (k2_pay9 x6) (k2_pay10 x7) (k2_pay11 x8) (ix2 r q)
      = msgArr A1 A0 A2 A3 A4 A5 A6 A7 A8 (ix2 p q) := by
  subst h3 h4 h5 h6 h7 h8
  rw [store_r_apply, msgArr_apply]
  simp only [h0, h1, h2]

section Region

theorem blockIdx_facts : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = t.val
    ∧ win2_2.index t (1 : Fin 2) = 0
    ∧ win2_9.index t (0 : Fin 2) = t.val
    ∧ win2_9.index t (1 : Fin 2) = 0
    ∧ win2_10.index t (0 : Fin 2) = t.val
    ∧ win2_10.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = 0
    ∧ win2_7.index t (1 : Fin 2) = 0
    ∧ win2_8.index t (0 : Fin 2) = 0
    ∧ win2_8.index t (1 : Fin 2) = 0 :=
  (by decide +kernel : ∀ t : Fin grid2.N, _)

variable (V : (c : Dev nD) → (b : Ref sig .tc) → Buf (Elt Ideal) ((c : Thread nD τ).loc b))

theorem rowBlock0_apply (c : Dev nD) (t : Fin cfg2.N) (r : Fin 2000) (k : Fin 32) (p : Fin 800000) (hp : p.val = t.val * 2000 + r.val) :
    (iblk2 V c 0 t : Vec Ideal S2000x32 .f32) (ix2 r k) = (V c (Pipeline.arrRef spec2 0) : S800000x32.Idx → EReal) (ix2 p k) := by
  obtain ⟨a0, b0, a1, b1, a2, b2, a9, b9, a10, b10, a3, b3, a4, b4, a5, b5, a6, b6, a7, b7, a8, b8⟩ := blockIdx_facts t
  unfold iblk2
  rw [View.read_apply]
  show V c (Pipeline.arrRef spec2 0) _ = V c (Pipeline.arrRef spec2 0) (ix2 p k)
  refine congrArg _ (funext fun a => Fin.ext ?_)
  match a with
  | ⟨0, _⟩ => show win2_0.index t (0 : Fin 2) * 2000 + 1 * r.val = p.val; omega
  | ⟨1, _⟩ => show win2_0.index t (1 : Fin 2) * 32 + 1 * k.val = k.val; omega

theorem rowBlock1_apply (c : Dev nD) (t : Fin cfg2.N) (r : Fin 2000) (k : Fin 32) (p : Fin 800000) (hp : p.val = t.val * 2000 + r.val) :
    (iblk2 V c 1 t : Vec Ideal S2000x32 .f32) (ix2 r k) = (V c (Pipeline.arrRef spec2 1) : S800000x32.Idx → EReal) (ix2 p k) := by
  obtain ⟨a0, b0, a1, b1, a2, b2, a9, b9, a10, b10, a3, b3, a4, b4, a5, b5, a6, b6, a7, b7, a8, b8⟩ := blockIdx_facts t
  unfold iblk2
  rw [View.read_apply]
  show V c (Pipeline.arrRef spec2 1) _ = V c (Pipeline.arrRef spec2 1) (ix2 p k)
  refine congrArg _ (funext fun a => Fin.ext ?_)
  match a with
  | ⟨0, _⟩ => show win2_1.index t (0 : Fin 2) * 2000 + 1 * r.val = p.val; omega
  | ⟨1, _⟩ => show win2_1.index t (1 : Fin 2) * 32 + 1 * k.val = k.val; omega

theorem rowBlock2_apply (c : Dev nD) (t : Fin cfg2.N) (r : Fin 2000) (k : Fin 16) (p : Fin 800000) (hp : p.val = t.val * 2000 + r.val) :
    (iblk2 V c 2 t : Vec Ideal S2000x16 .f32) (ix2 r k) = (V c (Pipeline.arrRef spec2 2) : S800000x16.Idx → EReal) (ix2 p k) := by
  obtain ⟨a0, b0, a1, b1, a2, b2, a9, b9, a10, b10, a3, b3, a4, b4, a5, b5, a6, b6, a7, b7, a8, b8⟩ := blockIdx_facts t
  unfold iblk2
  rw [View.read_apply]
  show V c (Pipeline.arrRef spec2 2) _ = V c (Pipeline.arrRef spec2 2) (ix2 p k)
  refine congrArg _ (funext fun a => Fin.ext ?_)
  match a with
  | ⟨0, _⟩ => show win2_2.index t (0 : Fin 2) * 2000 + 1 * r.val = p.val; omega
  | ⟨1, _⟩ => show win2_2.index t (1 : Fin 2) * 16 + 1 * k.val = k.val; omega

theorem wholeBlock3_eq (c : Dev nD) (t : Fin cfg2.N) :
    (iblk2 V c 3 t : Vec Ideal S32x32 .f32) = (V c (Pipeline.arrRef spec2 3) : S32x32.Idx → EReal) := by
  obtain ⟨a0, b0, a1, b1, a2, b2, a9, b9, a10, b10, a3, b3, a4, b4, a5, b5, a6, b6, a7, b7, a8, b8⟩ := blockIdx_facts t
  funext y
  unfold iblk2
  rw [View.read_apply]
  show V c (Pipeline.arrRef spec2 3) _ = V c (Pipeline.arrRef spec2 3) y
  refine congrArg _ (funext fun a => Fin.ext ?_)
  match a with
  | ⟨0, _⟩ => show win2_3.index t (0 : Fin 2) * 32 + 1 * (y 0).val = (y 0).val; omega
  | ⟨1, _⟩ => show win2_3.index t (1 : Fin 2) * 32 + 1 * (y 1).val = (y 1).val; omega

theorem wholeBlock4_eq (c : Dev nD) (t : Fin cfg2.N) :
    (iblk2 V c 4 t : Vec Ideal S32x32 .f32) = (V c (Pipeline.arrRef spec2 4) : S32x32.Idx → EReal) := by
  obtain ⟨a0, b0, a1, b1, a2, b2, a9, b9, a10, b10, a3, b3, a4, b4, a5, b5, a6, b6, a7, b7, a8, b8⟩ := blockIdx_facts t
  funext y
  unfold iblk2
  rw [View.read_apply]
  show V c (Pipeline.arrRef spec2 4) _ = V c (Pipeline.arrRef spec2 4) y
  refine congrArg _ (funext fun a => Fin.ext ?_)
  match a with
  | ⟨0, _⟩ => show win2_4.index t (0 : Fin 2) * 32 + 1 * (y 0).val = (y 0).val; omega
  | ⟨1, _⟩ => show win2_4.index t (1 : Fin 2) * 32 + 1 * (y 1).val = (y 1).val; omega

theorem wholeBlock5_eq (c : Dev nD) (t : Fin cfg2.N) :
    (iblk2 V c 5 t : Vec Ideal S16x32 .f32) = (V c (Pipeline.arrRef spec2 5) : S16x32.Idx → EReal) := by
  obtain ⟨a0, b0, a1, b1, a2, b2, a9, b9, a10, b10, a3, b3, a4, b4, a5, b5, a6, b6, a7, b7, a8, b8⟩ := blockIdx_facts t
  funext y
  unfold iblk2
  rw [View.read_apply]
  show V c (Pipeline.arrRef spec2 5) _ = V c (Pipeline.arrRef spec2 5) y
  refine congrArg _ (funext fun a => Fin.ext ?_)
  match a with
  | ⟨0, _⟩ => show win2_5.index t (0 : Fin 2) * 16 + 1 * (y 0).val = (y 0).val; omega
  | ⟨1, _⟩ => show win2_5.index t (1 : Fin 2) * 32 + 1 * (y 1).val = (y 1).val; omega

theorem wholeBlock6_eq (c : Dev nD) (t : Fin cfg2.N) :
    (iblk2 V c 6 t : Vec Ideal S1x32 .f32) = (V c (Pipeline.arrRef spec2 6) : S1x32.Idx → EReal) := by
  obtain ⟨a0, b0, a1, b1, a2, b2, a9, b9, a10, b10, a3, b3, a4, b4, a5, b5, a6, b6, a7, b7, a8, b8⟩ := blockIdx_facts t
  funext y
  unfold iblk2
  rw [View.read_apply]
  show V c (Pipeline.arrRef spec2 6) _ = V c (Pipeline.arrRef spec2 6) y
  refine congrArg _ (funext fun a => Fin.ext ?_)
  match a with
  | ⟨0, _⟩ => show win2_6.index t (0 : Fin 2) * 1 + 1 * (y 0).val = (y 0).val; omega
  | ⟨1, _⟩ => show win2_6.index t (1 : Fin 2) * 32 + 1 * (y 1).val = (y 1).val; omega

theorem wholeBlock7_eq (c : Dev nD) (t : Fin cfg2.N) :
    (iblk2 V c 7 t : Vec Ideal S32x32 .f32) = (V c (Pipeline.arrRef spec2 7) : S32x32.Idx → EReal) := by
  obtain ⟨a0, b0, a1, b1, a2, b2, a9, b9, a10, b10, a3, b3, a4, b4, a5, b5, a6, b6, a7, b7, a8, b8⟩ := blockIdx_facts t
  funext y
  unfold iblk2
  rw [View.read_apply]
  show V c (Pipeline.arrRef spec2 7) _ = V c (Pipeline.arrRef spec2 7) y
  refine congrArg _ (funext fun a => Fin.ext ?_)
  match a with
  | ⟨0, _⟩ => show win2_7.index t (0 : Fin 2) * 32 + 1 * (y 0).val = (y 0).val; omega
  | ⟨1, _⟩ => show win2_7.index t (1 : Fin 2) * 32 + 1 * (y 1).val = (y 1).val; omega

theorem wholeBlock8_eq (c : Dev nD) (t : Fin cfg2.N) :
    (iblk2 V c 8 t : Vec Ideal S1x32 .f32) = (V c (Pipeline.arrRef spec2 8) : S1x32.Idx → EReal) := by
  obtain ⟨a0, b0, a1, b1, a2, b2, a9, b9, a10, b10, a3, b3, a4, b4, a5, b5, a6, b6, a7, b7, a8, b8⟩ := blockIdx_facts t
  funext y
  unfold iblk2
  rw [View.read_apply]
  show V c (Pipeline.arrRef spec2 8) _ = V c (Pipeline.arrRef spec2 8) y
  refine congrArg _ (funext fun a => Fin.ext ?_)
  match a with
  | ⟨0, _⟩ => show win2_8.index t (0 : Fin 2) * 1 + 1 * (y 0).val = (y 0).val; omega
  | ⟨1, _⟩ => show win2_8.index t (1 : Fin 2) * 32 + 1 * (y 1).val = (y 1).val; omega

def fwdArr (c : Dev nD) : S800000x32.Idx → EReal := msgArr (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8))

theorem stored_f (c : Dev nD) (t : Fin cfg2.N) :
    (dat2 (F := Ideal) V c).after 9 t = k2_pay1 (k2_pay12 (iblk2 V c 0 t) (iblk2 V c 1 t) (iblk2 V c 2 t) (iblk2 V c 3 t) (iblk2 V c 4 t) (iblk2 V c 5 t) (iblk2 V c 6 t) (iblk2 V c 7 t)) (k2_pay13 (iblk2 V c 8 t)) := by
  rw [after2_9]
  unfold out2_9
  rw [View.canon_unit_zero zeroOffsets]
  simp only [View.ld_unit_zero (S := S2000x32) zeroOffsets, View.ld_unit_zero (S := S2000x16) zeroOffsets, View.ld_unit_zero (S := S32x32) zeroOffsets, View.ld_unit_zero (S := S16x32) zeroOffsets, View.ld_unit_zero (S := S1x32) zeroOffsets]

theorem outRow_f (t : Fin cfg2.N) (r : Fin 2000) (q : Fin 32) (p : Fin 800000) (hp : p.val = t.val * 2000 + r.val) :
    ((cfg2.win 9).blk t).view.emb (ix2 r q) = (ix2 p q : S800000x32.Idx) := by
  obtain ⟨a0, b0, a1, b1, a2, b2, a9, b9, a10, b10, a3, b3, a4, b4, a5, b5, a6, b6, a7, b7, a8, b8⟩ := blockIdx_facts t
  funext a; apply Fin.ext
  match a with
  | ⟨0, _⟩ => show win2_9.index t (0 : Fin 2) * 2000 + 1 * r.val = p.val; omega
  | ⟨1, _⟩ => show win2_9.index t (1 : Fin 2) * 32 + 1 * q.val = q.val; omega

theorem readOut_f (G : S800000x32.Idx → EReal) (t : Fin cfg2.N) (r : Fin 2000) (q : Fin 32) (p : Fin 800000) (hp : p.val = t.val * 2000 + r.val) :
    ((cfg2.win 9).blk t).view.read (Elt Ideal) G (ix2 r q) = G (ix2 p q) := by
  rw [View.read_apply, cast_eq]
  exact congrArg G (outRow_f t r q p hp)

theorem flushed_f (c : Dev nD) (t : Fin cfg2.N) :
    (dat2 (F := Ideal) V c).flushed 9 t = ((cfg2.win 9).blk t).view.read (Elt Ideal) (fwdArr V c) := by
  funext j
  obtain ⟨r, q, rfl⟩ : ∃ (r : Fin 2000) (q : Fin 32), j = ix2 r q := ⟨j 0, j 1, eq_ix2 j⟩
  have hN : t.val < 400 := lt_of_lt_of_eq t.isLt N_2
  have hr : r.val < 2000 := r.isLt
  refine Eq.trans (congrFun (stored_f V c t) (ix2 r q))
    (Eq.trans ?_ (readOut_f (fwdArr V c) t r q ⟨t.val * 2000 + r.val, by omega⟩ rfl).symm)
  exact point_f _ _ _ _ _ _ _ _ _ _ _ _ _ _ _ _ _ _ r q _
      (fun k => rowBlock0_apply V c t r k _ rfl) (fun k => rowBlock1_apply V c t r k _ rfl) (fun k => rowBlock2_apply V c t r k _ rfl)
      (wholeBlock3_eq V c t) (wholeBlock4_eq V c t) (wholeBlock5_eq V c t) (wholeBlock6_eq V c t) (wholeBlock7_eq V c t) (wholeBlock8_eq V c t)

theorem mem_outBlock_f (t : Fin cfg2.N) (i : S800000x32.Idx) :
    i ∈ ((cfg2.win 9).blk t).view.set ↔ ∀ a : Fin 2, win2_9.index t a * S2000x32.size a ≤ (i a).val ∧ (i a).val < win2_9.index t a * S2000x32.size a + S2000x32.size a := by
  show i ∈ ((View.whole (Pipeline.arrRef spec2 9)).slice (win2_9.rect t)).set ↔ _
  rw [View.set_slice_whole, Rect.mem_set_unit]
  exact Iff.rfl

/-- Row p of the array lies in the block of grid point p / 2000. -/
theorem cover_f (i : S800000x32.Idx) : ∃ t : Fin cfg2.N, (cfg2.win 9).flush t = true ∧ i ∈ ((cfg2.win 9).blk t).view.set := by
  have hi0 : (i 0).val < 800000 := idx2_lt0 i
  have hi1 : (i 1).val < 32 := idx2_lt1 i
  have hN : cfg2.N = 400 := N_2
  obtain ⟨t, ht⟩ : ∃ t : Fin cfg2.N, t.val = (i 0).val / 2000 := ⟨⟨(i 0).val / 2000, by rw [hN]; omega⟩, rfl⟩
  refine ⟨t, flush2_9 t, ?_⟩
  rw [mem_outBlock_f]
  obtain ⟨a0, b0, a1, b1, a2, b2, a9, b9, a10, b10, a3, b3, a4, b4, a5, b5, a6, b6, a7, b7, a8, b8⟩ := blockIdx_facts t
  intro a
  match a with
  | ⟨0, _⟩ => show win2_9.index t (0 : Fin 2) * 2000 ≤ (i 0).val ∧ (i 0).val < win2_9.index t (0 : Fin 2) * 2000 + 2000; omega
  | ⟨1, _⟩ => show win2_9.index t (1 : Fin 2) * 32 ≤ (i 1).val ∧ (i 1).val < win2_9.index t (1 : Fin 2) * 32 + 32; omega

/-- The blocks tile the array, and each is the matching block of the message array. -/
theorem array_f (c : Dev nD) : (dat2 (F := Ideal) V c).arrAt 9 cfg2.N = fwdArr V c :=
  (dat2 V c).arrAt_eq_of_cover 9 (fwdArr V c) (fun t _ => flushed_f V c t) cover_f

def revArr (c : Dev nD) : S800000x32.Idx → EReal := msgArr (V c (Pipeline.arrRef spec2 1)) (V c (Pipeline.arrRef spec2 0)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8))

theorem stored_r (c : Dev nD) (t : Fin cfg2.N) :
    (dat2 (F := Ideal) V c).after 10 t = k2_pay2 (k2_pay3 (iblk2 V c 0 t)) (k2_pay4 (iblk2 V c 1 t)) (k2_pay5 (iblk2 V c 2 t)) (k2_pay6 (iblk2 V c 3 t)) (k2_pay7 (iblk2 V c 4 t)) (k2_pay8 (iblk2 V c 5 t)) (k2_pay9 (iblk2 V c 6 t)) (k2_pay10 (iblk2 V c 7 t)) (k2_pay11 (iblk2 V c 8 t)) := by
  rw [after2_10]
  unfold out2_10
  rw [View.canon_unit_zero zeroOffsets]
  simp only [View.ld_unit_zero (S := S2000x32) zeroOffsets, View.ld_unit_zero (S := S2000x16) zeroOffsets, View.ld_unit_zero (S := S32x32) zeroOffsets, View.ld_unit_zero (S := S16x32) zeroOffsets, View.ld_unit_zero (S := S1x32) zeroOffsets]

theorem outRow_r (t : Fin cfg2.N) (r : Fin 2000) (q : Fin 32) (p : Fin 800000) (hp : p.val = t.val * 2000 + r.val) :
    ((cfg2.win 10).blk t).view.emb (ix2 r q) = (ix2 p q : S800000x32.Idx) := by
  obtain ⟨a0, b0, a1, b1, a2, b2, a9, b9, a10, b10, a3, b3, a4, b4, a5, b5, a6, b6, a7, b7, a8, b8⟩ := blockIdx_facts t
  funext a; apply Fin.ext
  match a with
  | ⟨0, _⟩ => show win2_10.index t (0 : Fin 2) * 2000 + 1 * r.val = p.val; omega
  | ⟨1, _⟩ => show win2_10.index t (1 : Fin 2) * 32 + 1 * q.val = q.val; omega

theorem readOut_r (G : S800000x32.Idx → EReal) (t : Fin cfg2.N) (r : Fin 2000) (q : Fin 32) (p : Fin 800000) (hp : p.val = t.val * 2000 + r.val) :
    ((cfg2.win 10).blk t).view.read (Elt Ideal) G (ix2 r q) = G (ix2 p q) := by
  rw [View.read_apply, cast_eq]
  exact congrArg G (outRow_r t r q p hp)

theorem flushed_r (c : Dev nD) (t : Fin cfg2.N) :
    (dat2 (F := Ideal) V c).flushed 10 t = ((cfg2.win 10).blk t).view.read (Elt Ideal) (revArr V c) := by
  funext j
  obtain ⟨r, q, rfl⟩ : ∃ (r : Fin 2000) (q : Fin 32), j = ix2 r q := ⟨j 0, j 1, eq_ix2 j⟩
  have hN : t.val < 400 := lt_of_lt_of_eq t.isLt N_2
  have hr : r.val < 2000 := r.isLt
  refine Eq.trans (congrFun (stored_r V c t) (ix2 r q))
    (Eq.trans ?_ (readOut_r (revArr V c) t r q ⟨t.val * 2000 + r.val, by omega⟩ rfl).symm)
  exact point_r _ _ _ _ _ _ _ _ _ _ _ _ _ _ _ _ _ _ r q _
      (fun k => rowBlock0_apply V c t r k _ rfl) (fun k => rowBlock1_apply V c t r k _ rfl) (fun k => rowBlock2_apply V c t r k _ rfl)
      (wholeBlock3_eq V c t) (wholeBlock4_eq V c t) (wholeBlock5_eq V c t) (wholeBlock6_eq V c t) (wholeBlock7_eq V c t) (wholeBlock8_eq V c t)

theorem mem_outBlock_r (t : Fin cfg2.N) (i : S800000x32.Idx) :
    i ∈ ((cfg2.win 10).blk t).view.set ↔ ∀ a : Fin 2, win2_10.index t a * S2000x32.size a ≤ (i a).val ∧ (i a).val < win2_10.index t a * S2000x32.size a + S2000x32.size a := by
  show i ∈ ((View.whole (Pipeline.arrRef spec2 10)).slice (win2_10.rect t)).set ↔ _
  rw [View.set_slice_whole, Rect.mem_set_unit]
  exact Iff.rfl

theorem cover_r (i : S800000x32.Idx) : ∃ t : Fin cfg2.N, (cfg2.win 10).flush t = true ∧ i ∈ ((cfg2.win 10).blk t).view.set := by
  have hi0 : (i 0).val < 800000 := idx2_lt0 i
  have hi1 : (i 1).val < 32 := idx2_lt1 i
  have hN : cfg2.N = 400 := N_2
  obtain ⟨t, ht⟩ : ∃ t : Fin cfg2.N, t.val = (i 0).val / 2000 := ⟨⟨(i 0).val / 2000, by rw [hN]; omega⟩, rfl⟩
  refine ⟨t, flush2_10 t, ?_⟩
  rw [mem_outBlock_r]
  obtain ⟨a0, b0, a1, b1, a2, b2, a9, b9, a10, b10, a3, b3, a4, b4, a5, b5, a6, b6, a7, b7, a8, b8⟩ := blockIdx_facts t
  intro a
  match a with
  | ⟨0, _⟩ => show win2_10.index t (0 : Fin 2) * 2000 ≤ (i 0).val ∧ (i 0).val < win2_10.index t (0 : Fin 2) * 2000 + 2000; omega
  | ⟨1, _⟩ => show win2_10.index t (1 : Fin 2) * 32 ≤ (i 1).val ∧ (i 1).val < win2_10.index t (1 : Fin 2) * 32 + 32; omega

theorem array_r (c : Dev nD) : (dat2 (F := Ideal) V c).arrAt 10 cfg2.N = revArr V c :=
  (dat2 V c).arrAt_eq_of_cover 10 (revArr V c) (fun t _ => flushed_r V c t) cover_r

theorem value_f (c : Dev nD) (p : Fin 800000) (q : Fin 32) :
    (dat2 (F := Ideal) V c).arrAt 9 cfg2.N (ix2 p q)
      = Cert.Spec.msgRowSplit (fun k : Fin 32 => V c (Pipeline.arrRef spec2 0) (ix2 p k)) (fun k : Fin 32 => V c (Pipeline.arrRef spec2 1) (ix2 p k)) (fun k : Fin 16 => V c (Pipeline.arrRef spec2 2) (ix2 p k))
          (fun (k : Fin 32) (j : Fin 32) => V c (Pipeline.arrRef spec2 3) (ix2 k j)) (fun (k : Fin 32) (j : Fin 32) => V c (Pipeline.arrRef spec2 4) (ix2 k j)) (fun (k : Fin 16) (j : Fin 32) => V c (Pipeline.arrRef spec2 5) (ix2 k j))
          (fun j : Fin 32 => V c (Pipeline.arrRef spec2 6) (ix2 (0 : Fin 1) j)) (fun (k : Fin 32) (j : Fin 32) => V c (Pipeline.arrRef spec2 7) (ix2 k j)) (fun j : Fin 32 => V c (Pipeline.arrRef spec2 8) (ix2 (0 : Fin 1) j)) q :=
  (congrFun (array_f V c) (ix2 p q)).trans (msgArr_apply _ _ _ _ _ _ _ _ _ p q)

theorem value_r (c : Dev nD) (p : Fin 800000) (q : Fin 32) :
    (dat2 (F := Ideal) V c).arrAt 10 cfg2.N (ix2 p q)
      = Cert.Spec.msgRowSplit (fun k : Fin 32 => V c (Pipeline.arrRef spec2 1) (ix2 p k)) (fun k : Fin 32 => V c (Pipeline.arrRef spec2 0) (ix2 p k)) (fun k : Fin 16 => V c (Pipeline.arrRef spec2 2) (ix2 p k))
          (fun (k : Fin 32) (j : Fin 32) => V c (Pipeline.arrRef spec2 3) (ix2 k j)) (fun (k : Fin 32) (j : Fin 32) => V c (Pipeline.arrRef spec2 4) (ix2 k j)) (fun (k : Fin 16) (j : Fin 32) => V c (Pipeline.arrRef spec2 5) (ix2 k j))
          (fun j : Fin 32 => V c (Pipeline.arrRef spec2 6) (ix2 (0 : Fin 1) j)) (fun (k : Fin 32) (j : Fin 32) => V c (Pipeline.arrRef spec2 7) (ix2 k j)) (fun j : Fin 32 => V c (Pipeline.arrRef spec2 8) (ix2 (0 : Fin 1) j)) q :=
  (congrFun (array_r V c) (ix2 p q)).trans (msgArr_apply _ _ _ _ _ _ _ _ _ p q)

end Region

end Cert.KernelIdeal.Msg2

end
-- ==== Proof.Msg4.lean ====
import proofs.«411375_j87694642250038_1_alg».proof.Proof.Msg2

noncomputable section

namespace Cert.KernelIdeal.Msg4
open Cert.KernelIdeal Cert.KernelIdeal.Gen Idealize.ShloMosaic Idealize.ShloMosaic.TcCoe Idealize.SL.Sem Idealize.ShloMosaic.ValueIdx
open scoped BigOperators
open Cert.KernelIdeal.Msg2 (zeroOffsets msgArr msgArr_apply point_f point_r)

section Region

theorem blockIdx_facts : ∀ t : Fin cfg4.N, win4_0.index t (0 : Fin 2) = t.val
    ∧ win4_0.index t (1 : Fin 2) = 0
    ∧ win4_1.index t (0 : Fin 2) = t.val
    ∧ win4_1.index t (1 : Fin 2) = 0
    ∧ win4_2.index t (0 : Fin 2) = t.val
    ∧ win4_2.index t (1 : Fin 2) = 0
    ∧ win4_9.index t (0 : Fin 2) = t.val
    ∧ win4_9.index t (1 : Fin 2) = 0
    ∧ win4_10.index t (0 : Fin 2) = t.val
    ∧ win4_10.index t (1 : Fin 2) = 0
    ∧ win4_3.index t (0 : Fin 2) = 0
    ∧ win4_3.index t (1 : Fin 2) = 0
    ∧ win4_4.index t (0 : Fin 2) = 0
    ∧ win4_4.index t (1 : Fin 2) = 0
    ∧ win4_5.index t (0 : Fin 2) = 0
    ∧ win4_5.index t (1 : Fin 2) = 0
    ∧ win4_6.index t (0 : Fin 2) = 0
    ∧ win4_6.index t (1 : Fin 2) = 0
    ∧ win4_7.index t (0 : Fin 2) = 0
    ∧ win4_7.index t (1 : Fin 2) = 0
    ∧ win4_8.index t (0 : Fin 2) = 0
    ∧ win4_8.index t (1 : Fin 2) = 0 :=
  (by decide +kernel : ∀ t : Fin grid4.N, _)

variable (V : (c : Dev nD) → (b : Ref sig .tc) → Buf (Elt Ideal) ((c : Thread nD τ).loc b))

theorem rowBlock0_apply (c : Dev nD) (t : Fin cfg4.N) (r : Fin 2000) (k : Fin 32) (p : Fin 800000) (hp : p.val = t.val * 2000 + r.val) :
    (iblk4 V c 0 t : Vec Ideal S2000x32 .f32) (ix2 r k) = (V c (Pipeline.arrRef spec4 0) : S800000x32.Idx → EReal) (ix2 p k) := by
  obtain ⟨a0, b0, a1, b1, a2, b2, a9, b9, a10, b10, a3, b3, a4, b4, a5, b5, a6, b6, a7, b7, a8, b8⟩ := blockIdx_facts t
  unfold iblk4
  rw [View.read_apply]
  show V c (Pipeline.arrRef spec4 0) _ = V c (Pipeline.arrRef spec4 0) (ix2 p k)
  refine congrArg _ (funext fun a => Fin.ext ?_)
  match a with
  | ⟨0, _⟩ => show win4_0.index t (0 : Fin 2) * 2000 + 1 * r.val = p.val; omega
  | ⟨1, _⟩ => show win4_0.index t (1 : Fin 2) * 32 + 1 * k.val = k.val; omega

theorem rowBlock1_apply (c : Dev nD) (t : Fin cfg4.N) (r : Fin 2000) (k : Fin 32) (p : Fin 800000) (hp : p.val = t.val * 2000 + r.val) :
    (iblk4 V c 1 t : Vec Ideal S2000x32 .f32) (ix2 r k) = (V c (Pipeline.arrRef spec4 1) : S800000x32.Idx → EReal) (ix2 p k) := by
  obtain ⟨a0, b0, a1, b1, a2, b2, a9, b9, a10, b10, a3, b3, a4, b4, a5, b5, a6, b6, a7, b7, a8, b8⟩ := blockIdx_facts t
  unfold iblk4
  rw [View.read_apply]
  show V c (Pipeline.arrRef spec4 1) _ = V c (Pipeline.arrRef spec4 1) (ix2 p k)
  refine congrArg _ (funext fun a => Fin.ext ?_)
  match a with
  | ⟨0, _⟩ => show win4_1.index t (0 : Fin 2) * 2000 + 1 * r.val = p.val; omega
  | ⟨1, _⟩ => show win4_1.index t (1 : Fin 2) * 32 + 1 * k.val = k.val; omega

theorem rowBlock2_apply (c : Dev nD) (t : Fin cfg4.N) (r : Fin 2000) (k : Fin 16) (p : Fin 800000) (hp : p.val = t.val * 2000 + r.val) :
    (iblk4 V c 2 t : Vec Ideal S2000x16 .f32) (ix2 r k) = (V c (Pipeline.arrRef spec4 2) : S800000x16.Idx → EReal) (ix2 p k) := by
  obtain ⟨a0, b0, a1, b1, a2, b2, a9, b9, a10, b10, a3, b3, a4, b4, a5, b5, a6, b6, a7, b7, a8, b8⟩ := blockIdx_facts t
  unfold iblk4
  rw [View.read_apply]
  show V c (Pipeline.arrRef spec4 2) _ = V c (Pipeline.arrRef spec4 2) (ix2 p k)
  refine congrArg _ (funext fun a => Fin.ext ?_)
  match a with
  | ⟨0, _⟩ => show win4_2.index t (0 : Fin 2) * 2000 + 1 * r.val = p.val; omega
  | ⟨1, _⟩ => show win4_2.index t (1 : Fin 2) * 16 + 1 * k.val = k.val; omega

theorem wholeBlock3_eq (c : Dev nD) (t : Fin cfg4.N) :
    (iblk4 V c 3 t : Vec Ideal S32x32 .f32) = (V c (Pipeline.arrRef spec4 3) : S32x32.Idx → EReal) := by
  obtain ⟨a0, b0, a1, b1, a2, b2, a9, b9, a10, b10, a3, b3, a4, b4, a5, b5, a6, b6, a7, b7, a8, b8⟩ := blockIdx_facts t
  funext y
  unfold iblk4
  rw [View.read_apply]
  show V c (Pipeline.arrRef spec4 3) _ = V c (Pipeline.arrRef spec4 3) y
  refine congrArg _ (funext fun a => Fin.ext ?_)
  match a with
  | ⟨0, _⟩ => show win4_3.index t (0 : Fin 2) * 32 + 1 * (y 0).val = (y 0).val; omega
  | ⟨1, _⟩ => show win4_3.index t (1 : Fin 2) * 32 + 1 * (y 1).val = (y 1).val; omega

theorem wholeBlock4_eq (c : Dev nD) (t : Fin cfg4.N) :
    (iblk4 V c 4 t : Vec Ideal S32x32 .f32) = (V c (Pipeline.arrRef spec4 4) : S32x32.Idx → EReal) := by
  obtain ⟨a0, b0, a1, b1, a2, b2, a9, b9, a10, b10, a3, b3, a4, b4, a5, b5, a6, b6, a7, b7, a8, b8⟩ := blockIdx_facts t
  funext y
  unfold iblk4
  rw [View.read_apply]
  show V c (Pipeline.arrRef spec4 4) _ = V c (Pipeline.arrRef spec4 4) y
  refine congrArg _ (funext fun a => Fin.ext ?_)
  match a with
  | ⟨0, _⟩ => show win4_4.index t (0 : Fin 2) * 32 + 1 * (y 0).val = (y 0).val; omega
  | ⟨1, _⟩ => show win4_4.index t (1 : Fin 2) * 32 + 1 * (y 1).val = (y 1).val; omega

theorem wholeBlock5_eq (c : Dev nD) (t : Fin cfg4.N) :
    (iblk4 V c 5 t : Vec Ideal S16x32 .f32) = (V c (Pipeline.arrRef spec4 5) : S16x32.Idx → EReal) := by
  obtain ⟨a0, b0, a1, b1, a2, b2, a9, b9, a10, b10, a3, b3, a4, b4, a5, b5, a6, b6, a7, b7, a8, b8⟩ := blockIdx_facts t
  funext y
  unfold iblk4
  rw [View.read_apply]
  show V c (Pipeline.arrRef spec4 5) _ = V c (Pipeline.arrRef spec4 5) y
  refine congrArg _ (funext fun a => Fin.ext ?_)
  match a with
  | ⟨0, _⟩ => show win4_5.index t (0 : Fin 2) * 16 + 1 * (y 0).val = (y 0).val; omega
  | ⟨1, _⟩ => show win4_5.index t (1 : Fin 2) * 32 + 1 * (y 1).val = (y 1).val; omega

theorem wholeBlock6_eq (c : Dev nD) (t : Fin cfg4.N) :
    (iblk4 V c 6 t : Vec Ideal S1x32 .f32) = (V c (Pipeline.arrRef spec4 6) : S1x32.Idx → EReal) := by
  obtain ⟨a0, b0, a1, b1, a2, b2, a9, b9, a10, b10, a3, b3, a4, b4, a5, b5, a6, b6, a7, b7, a8, b8⟩ := blockIdx_facts t
  funext y
  unfold iblk4
  rw [View.read_apply]
  show V c (Pipeline.arrRef spec4 6) _ = V c (Pipeline.arrRef spec4 6) y
  refine congrArg _ (funext fun a => Fin.ext ?_)
  match a with
  | ⟨0, _⟩ => show win4_6.index t (0 : Fin 2) * 1 + 1 * (y 0).val = (y 0).val; omega
  | ⟨1, _⟩ => show win4_6.index t (1 : Fin 2) * 32 + 1 * (y 1).val = (y 1).val; omega

theorem wholeBlock7_eq (c : Dev nD) (t : Fin cfg4.N) :
    (iblk4 V c 7 t : Vec Ideal S32x32 .f32) = (V c (Pipeline.arrRef spec4 7) : S32x32.Idx → EReal) := by
  obtain ⟨a0, b0, a1, b1, a2, b2, a9, b9, a10, b10, a3, b3, a4, b4, a5, b5, a6, b6, a7, b7, a8, b8⟩ := blockIdx_facts t
  funext y
  unfold iblk4
  rw [View.read_apply]
  show V c (Pipeline.arrRef spec4 7) _ = V c (Pipeline.arrRef spec4 7) y
  refine congrArg _ (funext fun a => Fin.ext ?_)
  match a with
  | ⟨0, _⟩ => show win4_7.index t (0 : Fin 2) * 32 + 1 * (y 0).val = (y 0).val; omega
  | ⟨1, _⟩ => show win4_7.index t (1 : Fin 2) * 32 + 1 * (y 1).val = (y 1).val; omega

theorem wholeBlock8_eq (c : Dev nD) (t : Fin cfg4.N) :
    (iblk4 V c 8 t : Vec Ideal S1x32 .f32) = (V c (Pipeline.arrRef spec4 8) : S1x32.Idx → EReal) := by
  obtain ⟨a0, b0, a1, b1, a2, b2, a9, b9, a10, b10, a3, b3, a4, b4, a5, b5, a6, b6, a7, b7, a8, b8⟩ := blockIdx_facts t
  funext y
  unfold iblk4
  rw [View.read_apply]
  show V c (Pipeline.arrRef spec4 8) _ = V c (Pipeline.arrRef spec4 8) y
  refine congrArg _ (funext fun a => Fin.ext ?_)
  match a with
  | ⟨0, _⟩ => show win4_8.index t (0 : Fin 2) * 1 + 1 * (y 0).val = (y 0).val; omega
  | ⟨1, _⟩ => show win4_8.index t (1 : Fin 2) * 32 + 1 * (y 1).val = (y 1).val; omega

def fwdArr (c : Dev nD) : S800000x32.Idx → EReal := msgArr (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) (V c (Pipeline.arrRef spec4 7)) (V c (Pipeline.arrRef spec4 8))

theorem stored_f (c : Dev nD) (t : Fin cfg4.N) :
    (dat4 (F := Ideal) V c).after 9 t = k4_pay1 (k4_pay12 (iblk4 V c 0 t) (iblk4 V c 1 t) (iblk4 V c 2 t) (iblk4 V c 3 t) (iblk4 V c 4 t) (iblk4 V c 5 t) (iblk4 V c 6 t) (iblk4 V c 7 t)) (k4_pay13 (iblk4 V c 8 t)) := by
  rw [after4_9]
  unfold out4_9
  rw [View.canon_unit_zero zeroOffsets]
  simp only [View.ld_unit_zero (S := S2000x32) zeroOffsets, View.ld_unit_zero (S := S2000x16) zeroOffsets, View.ld_unit_zero (S := S32x32) zeroOffsets, View.ld_unit_zero (S := S16x32) zeroOffsets, View.ld_unit_zero (S := S1x32) zeroOffsets]

theorem outRow_f (t : Fin cfg4.N) (r : Fin 2000) (q : Fin 32) (p : Fin 800000) (hp : p.val = t.val * 2000 + r.val) :
    ((cfg4.win 9).blk t).view.emb (ix2 r q) = (ix2 p q : S800000x32.Idx) := by
  obtain ⟨a0, b0, a1, b1, a2, b2, a9, b9, a10, b10, a3, b3, a4, b4, a5, b5, a6, b6, a7, b7, a8, b8⟩ := blockIdx_facts t
  funext a; apply Fin.ext
  match a with
  | ⟨0, _⟩ => show win4_9.index t (0 : Fin 2) * 2000 + 1 * r.val = p.val; omega
  | ⟨1, _⟩ => show win4_9.index t (1 : Fin 2) * 32 + 1 * q.val = q.val; omega

theorem readOut_f (G : S800000x32.Idx → EReal) (t : Fin cfg4.N) (r : Fin 2000) (q : Fin 32) (p : Fin 800000) (hp : p.val = t.val * 2000 + r.val) :
    ((cfg4.win 9).blk t).view.read (Elt Ideal) G (ix2 r q) = G (ix2 p q) := by
  rw [View.read_apply, cast_eq]
  exact congrArg G (outRow_f t r q p hp)

theorem flushed_f (c : Dev nD) (t : Fin cfg4.N) :
    (dat4 (F := Ideal) V c).flushed 9 t = ((cfg4.win 9).blk t).view.read (Elt Ideal) (fwdArr V c) := by
  funext j
  obtain ⟨r, q, rfl⟩ : ∃ (r : Fin 2000) (q : Fin 32), j = ix2 r q := ⟨j 0, j 1, eq_ix2 j⟩
  have hN : t.val < 400 := lt_of_lt_of_eq t.isLt N_4
  have hr : r.val < 2000 := r.isLt
  refine Eq.trans (congrFun (stored_f V c t) (ix2 r q))
    (Eq.trans ?_ (readOut_f (fwdArr V c) t r q ⟨t.val * 2000 + r.val, by omega⟩ rfl).symm)
  exact point_f _ _ _ _ _ _ _ _ _ _ _ _ _ _ _ _ _ _ r q _
      (fun k => rowBlock0_apply V c t r k _ rfl) (fun k => rowBlock1_apply V c t r k _ rfl) (fun k => rowBlock2_apply V c t r k _ rfl)
      (wholeBlock3_eq V c t) (wholeBlock4_eq V c t) (wholeBlock5_eq V c t) (wholeBlock6_eq V c t) (wholeBlock7_eq V c t) (wholeBlock8_eq V c t)

theorem mem_outBlock_f (t : Fin cfg4.N) (i : S800000x32.Idx) :
    i ∈ ((cfg4.win 9).blk t).view.set ↔ ∀ a : Fin 2, win4_9.index t a * S2000x32.size a ≤ (i a).val ∧ (i a).val < win4_9.index t a * S2000x32.size a + S2000x32.size a := by
  show i ∈ ((View.whole (Pipeline.arrRef spec4 9)).slice (win4_9.rect t)).set ↔ _
  rw [View.set_slice_whole, Rect.mem_set_unit]
  exact Iff.rfl

/-- Row p of the array lies in the block of grid point p / 2000. -/
theorem cover_f (i : S800000x32.Idx) : ∃ t : Fin cfg4.N, (cfg4.win 9).flush t = true ∧ i ∈ ((cfg4.win 9).blk t).view.set := by
  have hi0 : (i 0).val < 800000 := idx2_lt0 i
  have hi1 : (i 1).val < 32 := idx2_lt1 i
  have hN : cfg4.N = 400 := N_4
  obtain ⟨t, ht⟩ : ∃ t : Fin cfg4.N, t.val = (i 0).val / 2000 := ⟨⟨(i 0).val / 2000, by rw [hN]; omega⟩, rfl⟩
  refine ⟨t, flush4_9 t, ?_⟩
  rw [mem_outBlock_f]
  obtain ⟨a0, b0, a1, b1, a2, b2, a9, b9, a10, b10, a3, b3, a4, b4, a5, b5, a6, b6, a7, b7, a8, b8⟩ := blockIdx_facts t
  intro a
  match a with
  | ⟨0, _⟩ => show win4_9.index t (0 : Fin 2) * 2000 ≤ (i 0).val ∧ (i 0).val < win4_9.index t (0 : Fin 2) * 2000 + 2000; omega
  | ⟨1, _⟩ => show win4_9.index t (1 : Fin 2) * 32 ≤ (i 1).val ∧ (i 1).val < win4_9.index t (1 : Fin 2) * 32 + 32; omega

/-- The blocks tile the array, and each is the matching block of the message array. -/
theorem array_f (c : Dev nD) : (dat4 (F := Ideal) V c).arrAt 9 cfg4.N = fwdArr V c :=
  (dat4 V c).arrAt_eq_of_cover 9 (fwdArr V c) (fun t _ => flushed_f V c t) cover_f

def revArr (c : Dev nD) : S800000x32.Idx → EReal := msgArr (V c (Pipeline.arrRef spec4 1)) (V c (Pipeline.arrRef spec4 0)) (V c (Pipeline.arrRef spec4 2)) (V c (Pipeline.arrRef spec4 3)) (V c (Pipeline.arrRef spec4 4)) (V c (Pipeline.arrRef spec4 5)) (V c (Pipeline.arrRef spec4 6)) (V c (Pipeline.arrRef spec4 7)) (V c (Pipeline.arrRef spec4 8))

theorem stored_r (c : Dev nD) (t : Fin cfg4.N) :
    (dat4 (F := Ideal) V c).after 10 t = k4_pay2 (k4_pay3 (iblk4 V c 0 t)) (k4_pay4 (iblk4 V c 1 t)) (k4_pay5 (iblk4 V c 2 t)) (k4_pay6 (iblk4 V c 3 t)) (k4_pay7 (iblk4 V c 4 t)) (k4_pay8 (iblk4 V c 5 t)) (k4_pay9 (iblk4 V c 6 t)) (k4_pay10 (iblk4 V c 7 t)) (k4_pay11 (iblk4 V c 8 t)) := by
  rw [after4_10]
  unfold out4_10
  rw [View.canon_unit_zero zeroOffsets]
  simp only [View.ld_unit_zero (S := S2000x32) zeroOffsets, View.ld_unit_zero (S := S2000x16) zeroOffsets, View.ld_unit_zero (S := S32x32) zeroOffsets, View.ld_unit_zero (S := S16x32) zeroOffsets, View.ld_unit_zero (S := S1x32) zeroOffsets]

theorem outRow_r (t : Fin cfg4.N) (r : Fin 2000) (q : Fin 32) (p : Fin 800000) (hp : p.val = t.val * 2000 + r.val) :
    ((cfg4.win 10).blk t).view.emb (ix2 r q) = (ix2 p q : S800000x32.Idx) := by
  obtain ⟨a0, b0, a1, b1, a2, b2, a9, b9, a10, b10, a3, b3, a4, b4, a5, b5, a6, b6, a7, b7, a8, b8⟩ := blockIdx_facts t
  funext a; apply Fin.ext
  match a with
  | ⟨0, _⟩ => show win4_10.index t (0 : Fin 2) * 2000 + 1 * r.val = p.val; omega
  | ⟨1, _⟩ => show win4_10.index t (1 : Fin 2) * 32 + 1 * q.val = q.val; omega

theorem readOut_r (G : S800000x32.Idx → EReal) (t : Fin cfg4.N) (r : Fin 2000) (q : Fin 32) (p : Fin 800000) (hp : p.val = t.val * 2000 + r.val) :
    ((cfg4.win 10).blk t).view.read (Elt Ideal) G (ix2 r q) = G (ix2 p q) := by
  rw [View.read_apply, cast_eq]
  exact congrArg G (outRow_r t r q p hp)

theorem flushed_r (c : Dev nD) (t : Fin cfg4.N) :
    (dat4 (F := Ideal) V c).flushed 10 t = ((cfg4.win 10).blk t).view.read (Elt Ideal) (revArr V c) := by
  funext j
  obtain ⟨r, q, rfl⟩ : ∃ (r : Fin 2000) (q : Fin 32), j = ix2 r q := ⟨j 0, j 1, eq_ix2 j⟩
  have hN : t.val < 400 := lt_of_lt_of_eq t.isLt N_4
  have hr : r.val < 2000 := r.isLt
  refine Eq.trans (congrFun (stored_r V c t) (ix2 r q))
    (Eq.trans ?_ (readOut_r (revArr V c) t r q ⟨t.val * 2000 + r.val, by omega⟩ rfl).symm)
  exact point_r _ _ _ _ _ _ _ _ _ _ _ _ _ _ _ _ _ _ r q _
      (fun k => rowBlock0_apply V c t r k _ rfl) (fun k => rowBlock1_apply V c t r k _ rfl) (fun k => rowBlock2_apply V c t r k _ rfl)
      (wholeBlock3_eq V c t) (wholeBlock4_eq V c t) (wholeBlock5_eq V c t) (wholeBlock6_eq V c t) (wholeBlock7_eq V c t) (wholeBlock8_eq V c t)

theorem mem_outBlock_r (t : Fin cfg4.N) (i : S800000x32.Idx) :
    i ∈ ((cfg4.win 10).blk t).view.set ↔ ∀ a : Fin 2, win4_10.index t a * S2000x32.size a ≤ (i a).val ∧ (i a).val < win4_10.index t a * S2000x32.size a + S2000x32.size a := by
  show i ∈ ((View.whole (Pipeline.arrRef spec4 10)).slice (win4_10.rect t)).set ↔ _
  rw [View.set_slice_whole, Rect.mem_set_unit]
  exact Iff.rfl

theorem cover_r (i : S800000x32.Idx) : ∃ t : Fin cfg4.N, (cfg4.win 10).flush t = true ∧ i ∈ ((cfg4.win 10).blk t).view.set := by
  have hi0 : (i 0).val < 800000 := idx2_lt0 i
  have hi1 : (i 1).val < 32 := idx2_lt1 i
  have hN : cfg4.N = 400 := N_4
  obtain ⟨t, ht⟩ : ∃ t : Fin cfg4.N, t.val = (i 0).val / 2000 := ⟨⟨(i 0).val / 2000, by rw [hN]; omega⟩, rfl⟩
  refine ⟨t, flush4_10 t, ?_⟩
  rw [mem_outBlock_r]
  obtain ⟨a0, b0, a1, b1, a2, b2, a9, b9, a10, b10, a3, b3, a4, b4, a5, b5, a6, b6, a7, b7, a8, b8⟩ := blockIdx_facts t
  intro a
  match a with
  | ⟨0, _⟩ => show win4_10.index t (0 : Fin 2) * 2000 ≤ (i 0).val ∧ (i 0).val < win4_10.index t (0 : Fin 2) * 2000 + 2000; omega
  | ⟨1, _⟩ => show win4_10.index t (1 : Fin 2) * 32 ≤ (i 1).val ∧ (i 1).val < win4_10.index t (1 : Fin 2) * 32 + 32; omega

theorem array_r (c : Dev nD) : (dat4 (F := Ideal) V c).arrAt 10 cfg4.N = revArr V c :=
  (dat4 V c).arrAt_eq_of_cover 10 (revArr V c) (fun t _ => flushed_r V c t) cover_r

theorem value_f (c : Dev nD) (p : Fin 800000) (q : Fin 32) :
    (dat4 (F := Ideal) V c).arrAt 9 cfg4.N (ix2 p q)
      = Cert.Spec.msgRowSplit (fun k : Fin 32 => V c (Pipeline.arrRef spec4 0) (ix2 p k)) (fun k : Fin 32 => V c (Pipeline.arrRef spec4 1) (ix2 p k)) (fun k : Fin 16 => V c (Pipeline.arrRef spec4 2) (ix2 p k))
          (fun (k : Fin 32) (j : Fin 32) => V c (Pipeline.arrRef spec4 3) (ix2 k j)) (fun (k : Fin 32) (j : Fin 32) => V c (Pipeline.arrRef spec4 4) (ix2 k j)) (fun (k : Fin 16) (j : Fin 32) => V c (Pipeline.arrRef spec4 5) (ix2 k j))
          (fun j : Fin 32 => V c (Pipeline.arrRef spec4 6) (ix2 (0 : Fin 1) j)) (fun (k : Fin 32) (j : Fin 32) => V c (Pipeline.arrRef spec4 7) (ix2 k j)) (fun j : Fin 32 => V c (Pipeline.arrRef spec4 8) (ix2 (0 : Fin 1) j)) q :=
  (congrFun (array_f V c) (ix2 p q)).trans (msgArr_apply _ _ _ _ _ _ _ _ _ p q)

theorem value_r (c : Dev nD) (p : Fin 800000) (q : Fin 32) :
    (dat4 (F := Ideal) V c).arrAt 10 cfg4.N (ix2 p q)
      = Cert.Spec.msgRowSplit (fun k : Fin 32 => V c (Pipeline.arrRef spec4 1) (ix2 p k)) (fun k : Fin 32 => V c (Pipeline.arrRef spec4 0) (ix2 p k)) (fun k : Fin 16 => V c (Pipeline.arrRef spec4 2) (ix2 p k))
          (fun (k : Fin 32) (j : Fin 32) => V c (Pipeline.arrRef spec4 3) (ix2 k j)) (fun (k : Fin 32) (j : Fin 32) => V c (Pipeline.arrRef spec4 4) (ix2 k j)) (fun (k : Fin 16) (j : Fin 32) => V c (Pipeline.arrRef spec4 5) (ix2 k j))
          (fun j : Fin 32 => V c (Pipeline.arrRef spec4 6) (ix2 (0 : Fin 1) j)) (fun (k : Fin 32) (j : Fin 32) => V c (Pipeline.arrRef spec4 7) (ix2 k j)) (fun j : Fin 32 => V c (Pipeline.arrRef spec4 8) (ix2 (0 : Fin 1) j)) q :=
  (congrFun (array_r V c) (ix2 p q)).trans (msgArr_apply _ _ _ _ _ _ _ _ _ p q)

end Region

end Cert.KernelIdeal.Msg4

end
-- ==== Proof.Msg6.lean ====
import proofs.«411375_j87694642250038_1_alg».proof.Proof.Msg2

noncomputable section

namespace Cert.KernelIdeal.Msg6
open Cert.KernelIdeal Cert.KernelIdeal.Gen Idealize.ShloMosaic Idealize.ShloMosaic.TcCoe Idealize.SL.Sem Idealize.ShloMosaic.ValueIdx
open scoped BigOperators
open Cert.KernelIdeal.Msg2 (zeroOffsets msgArr msgArr_apply point_f point_r)

section Region

theorem blockIdx_facts : ∀ t : Fin cfg6.N, win6_0.index t (0 : Fin 2) = t.val
    ∧ win6_0.index t (1 : Fin 2) = 0
    ∧ win6_1.index t (0 : Fin 2) = t.val
    ∧ win6_1.index t (1 : Fin 2) = 0
    ∧ win6_2.index t (0 : Fin 2) = t.val
    ∧ win6_2.index t (1 : Fin 2) = 0
    ∧ win6_9.index t (0 : Fin 2) = t.val
    ∧ win6_9.index t (1 : Fin 2) = 0
    ∧ win6_10.index t (0 : Fin 2) = t.val
    ∧ win6_10.index t (1 : Fin 2) = 0
    ∧ win6_3.index t (0 : Fin 2) = 0
    ∧ win6_3.index t (1 : Fin 2) = 0
    ∧ win6_4.index t (0 : Fin 2) = 0
    ∧ win6_4.index t (1 : Fin 2) = 0
    ∧ win6_5.index t (0 : Fin 2) = 0
    ∧ win6_5.index t (1 : Fin 2) = 0
    ∧ win6_6.index t (0 : Fin 2) = 0
    ∧ win6_6.index t (1 : Fin 2) = 0
    ∧ win6_7.index t (0 : Fin 2) = 0
    ∧ win6_7.index t (1 : Fin 2) = 0
    ∧ win6_8.index t (0 : Fin 2) = 0
    ∧ win6_8.index t (1 : Fin 2) = 0 :=
  (by decide +kernel : ∀ t : Fin grid6.N, _)

variable (V : (c : Dev nD) → (b : Ref sig .tc) → Buf (Elt Ideal) ((c : Thread nD τ).loc b))

theorem rowBlock0_apply (c : Dev nD) (t : Fin cfg6.N) (r : Fin 2000) (k : Fin 32) (p : Fin 800000) (hp : p.val = t.val * 2000 + r.val) :
    (iblk6 V c 0 t : Vec Ideal S2000x32 .f32) (ix2 r k) = (V c (Pipeline.arrRef spec6 0) : S800000x32.Idx → EReal) (ix2 p k) := by
  obtain ⟨a0, b0, a1, b1, a2, b2, a9, b9, a10, b10, a3, b3, a4, b4, a5, b5, a6, b6, a7, b7, a8, b8⟩ := blockIdx_facts t
  unfold iblk6
  rw [View.read_apply]
  show V c (Pipeline.arrRef spec6 0) _ = V c (Pipeline.arrRef spec6 0) (ix2 p k)
  refine congrArg _ (funext fun a => Fin.ext ?_)
  match a with
  | ⟨0, _⟩ => show win6_0.index t (0 : Fin 2) * 2000 + 1 * r.val = p.val; omega
  | ⟨1, _⟩ => show win6_0.index t (1 : Fin 2) * 32 + 1 * k.val = k.val; omega

theorem rowBlock1_apply (c : Dev nD) (t : Fin cfg6.N) (r : Fin 2000) (k : Fin 32) (p : Fin 800000) (hp : p.val = t.val * 2000 + r.val) :
    (iblk6 V c 1 t : Vec Ideal S2000x32 .f32) (ix2 r k) = (V c (Pipeline.arrRef spec6 1) : S800000x32.Idx → EReal) (ix2 p k) := by
  obtain ⟨a0, b0, a1, b1, a2, b2, a9, b9, a10, b10, a3, b3, a4, b4, a5, b5, a6, b6, a7, b7, a8, b8⟩ := blockIdx_facts t
  unfold iblk6
  rw [View.read_apply]
  show V c (Pipeline.arrRef spec6 1) _ = V c (Pipeline.arrRef spec6 1) (ix2 p k)
  refine congrArg _ (funext fun a => Fin.ext ?_)
  match a with
  | ⟨0, _⟩ => show win6_1.index t (0 : Fin 2) * 2000 + 1 * r.val = p.val; omega
  | ⟨1, _⟩ => show win6_1.index t (1 : Fin 2) * 32 + 1 * k.val = k.val; omega

theorem rowBlock2_apply (c : Dev nD) (t : Fin cfg6.N) (r : Fin 2000) (k : Fin 16) (p : Fin 800000) (hp : p.val = t.val * 2000 + r.val) :
    (iblk6 V c 2 t : Vec Ideal S2000x16 .f32) (ix2 r k) = (V c (Pipeline.arrRef spec6 2) : S800000x16.Idx → EReal) (ix2 p k) := by
  obtain ⟨a0, b0, a1, b1, a2, b2, a9, b9, a10, b10, a3, b3, a4, b4, a5, b5, a6, b6, a7, b7, a8, b8⟩ := blockIdx_facts t
  unfold iblk6
  rw [View.read_apply]
  show V c (Pipeline.arrRef spec6 2) _ = V c (Pipeline.arrRef spec6 2) (ix2 p k)
  refine congrArg _ (funext fun a => Fin.ext ?_)
  match a with
  | ⟨0, _⟩ => show win6_2.index t (0 : Fin 2) * 2000 + 1 * r.val = p.val; omega
  | ⟨1, _⟩ => show win6_2.index t (1 : Fin 2) * 16 + 1 * k.val = k.val; omega

theorem wholeBlock3_eq (c : Dev nD) (t : Fin cfg6.N) :
    (iblk6 V c 3 t : Vec Ideal S32x32 .f32) = (V c (Pipeline.arrRef spec6 3) : S32x32.Idx → EReal) := by
  obtain ⟨a0, b0, a1, b1, a2, b2, a9, b9, a10, b10, a3, b3, a4, b4, a5, b5, a6, b6, a7, b7, a8, b8⟩ := blockIdx_facts t
  funext y
  unfold iblk6
  rw [View.read_apply]
  show V c (Pipeline.arrRef spec6 3) _ = V c (Pipeline.arrRef spec6 3) y
  refine congrArg _ (funext fun a => Fin.ext ?_)
  match a with
  | ⟨0, _⟩ => show win6_3.index t (0 : Fin 2) * 32 + 1 * (y 0).val = (y 0).val; omega
  | ⟨1, _⟩ => show win6_3.index t (1 : Fin 2) * 32 + 1 * (y 1).val = (y 1).val; omega

theorem wholeBlock4_eq (c : Dev nD) (t : Fin cfg6.N) :
    (iblk6 V c 4 t : Vec Ideal S32x32 .f32) = (V c (Pipeline.arrRef spec6 4) : S32x32.Idx → EReal) := by
  obtain ⟨a0, b0, a1, b1, a2, b2, a9, b9, a10, b10, a3, b3, a4, b4, a5, b5, a6, b6, a7, b7, a8, b8⟩ := blockIdx_facts t
  funext y
  unfold iblk6
  rw [View.read_apply]
  show V c (Pipeline.arrRef spec6 4) _ = V c (Pipeline.arrRef spec6 4) y
  refine congrArg _ (funext fun a => Fin.ext ?_)
  match a with
  | ⟨0, _⟩ => show win6_4.index t (0 : Fin 2) * 32 + 1 * (y 0).val = (y 0).val; omega
  | ⟨1, _⟩ => show win6_4.index t (1 : Fin 2) * 32 + 1 * (y 1).val = (y 1).val; omega

theorem wholeBlock5_eq (c : Dev nD) (t : Fin cfg6.N) :
    (iblk6 V c 5 t : Vec Ideal S16x32 .f32) = (V c (Pipeline.arrRef spec6 5) : S16x32.Idx → EReal) := by
  obtain ⟨a0, b0, a1, b1, a2, b2, a9, b9, a10, b10, a3, b3, a4, b4, a5, b5, a6, b6, a7, b7, a8, b8⟩ := blockIdx_facts t
  funext y
  unfold iblk6
  rw [View.read_apply]
  show V c (Pipeline.arrRef spec6 5) _ = V c (Pipeline.arrRef spec6 5) y
  refine congrArg _ (funext fun a => Fin.ext ?_)
  match a with
  | ⟨0, _⟩ => show win6_5.index t (0 : Fin 2) * 16 + 1 * (y 0).val = (y 0).val; omega
  | ⟨1, _⟩ => show win6_5.index t (1 : Fin 2) * 32 + 1 * (y 1).val = (y 1).val; omega

theorem wholeBlock6_eq (c : Dev nD) (t : Fin cfg6.N) :
    (iblk6 V c 6 t : Vec Ideal S1x32 .f32) = (V c (Pipeline.arrRef spec6 6) : S1x32.Idx → EReal) := by
  obtain ⟨a0, b0, a1, b1, a2, b2, a9, b9, a10, b10, a3, b3, a4, b4, a5, b5, a6, b6, a7, b7, a8, b8⟩ := blockIdx_facts t
  funext y
  unfold iblk6
  rw [View.read_apply]
  show V c (Pipeline.arrRef spec6 6) _ = V c (Pipeline.arrRef spec6 6) y
  refine congrArg _ (funext fun a => Fin.ext ?_)
  match a with
  | ⟨0, _⟩ => show win6_6.index t (0 : Fin 2) * 1 + 1 * (y 0).val = (y 0).val; omega
  | ⟨1, _⟩ => show win6_6.index t (1 : Fin 2) * 32 + 1 * (y 1).val = (y 1).val; omega

theorem wholeBlock7_eq (c : Dev nD) (t : Fin cfg6.N) :
    (iblk6 V c 7 t : Vec Ideal S32x32 .f32) = (V c (Pipeline.arrRef spec6 7) : S32x32.Idx → EReal) := by
  obtain ⟨a0, b0, a1, b1, a2, b2, a9, b9, a10, b10, a3, b3, a4, b4, a5, b5, a6, b6, a7, b7, a8, b8⟩ := blockIdx_facts t
  funext y
  unfold iblk6
  rw [View.read_apply]
  show V c (Pipeline.arrRef spec6 7) _ = V c (Pipeline.arrRef spec6 7) y
  refine congrArg _ (funext fun a => Fin.ext ?_)
  match a with
  | ⟨0, _⟩ => show win6_7.index t (0 : Fin 2) * 32 + 1 * (y 0).val = (y 0).val; omega
  | ⟨1, _⟩ => show win6_7.index t (1 : Fin 2) * 32 + 1 * (y 1).val = (y 1).val; omega

theorem wholeBlock8_eq (c : Dev nD) (t : Fin cfg6.N) :
    (iblk6 V c 8 t : Vec Ideal S1x32 .f32) = (V c (Pipeline.arrRef spec6 8) : S1x32.Idx → EReal) := by
  obtain ⟨a0, b0, a1, b1, a2, b2, a9, b9, a10, b10, a3, b3, a4, b4, a5, b5, a6, b6, a7, b7, a8, b8⟩ := blockIdx_facts t
  funext y
  unfold iblk6
  rw [View.read_apply]
  show V c (Pipeline.arrRef spec6 8) _ = V c (Pipeline.arrRef spec6 8) y
  refine congrArg _ (funext fun a => Fin.ext ?_)
  match a with
  | ⟨0, _⟩ => show win6_8.index t (0 : Fin 2) * 1 + 1 * (y 0).val = (y 0).val; omega
  | ⟨1, _⟩ => show win6_8.index t (1 : Fin 2) * 32 + 1 * (y 1).val = (y 1).val; omega

def fwdArr (c : Dev nD) : S800000x32.Idx → EReal := msgArr (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6)) (V c (Pipeline.arrRef spec6 7)) (V c (Pipeline.arrRef spec6 8))

theorem stored_f (c : Dev nD) (t : Fin cfg6.N) :
    (dat6 (F := Ideal) V c).after 9 t = k6_pay1 (k6_pay12 (iblk6 V c 0 t) (iblk6 V c 1 t) (iblk6 V c 2 t) (iblk6 V c 3 t) (iblk6 V c 4 t) (iblk6 V c 5 t) (iblk6 V c 6 t) (iblk6 V c 7 t)) (k6_pay13 (iblk6 V c 8 t)) := by
  rw [after6_9]
  unfold out6_9
  rw [View.canon_unit_zero zeroOffsets]
  simp only [View.ld_unit_zero (S := S2000x32) zeroOffsets, View.ld_unit_zero (S := S2000x16) zeroOffsets, View.ld_unit_zero (S := S32x32) zeroOffsets, View.ld_unit_zero (S := S16x32) zeroOffsets, View.ld_unit_zero (S := S1x32) zeroOffsets]

theorem outRow_f (t : Fin cfg6.N) (r : Fin 2000) (q : Fin 32) (p : Fin 800000) (hp : p.val = t.val * 2000 + r.val) :
    ((cfg6.win 9).blk t).view.emb (ix2 r q) = (ix2 p q : S800000x32.Idx) := by
  obtain ⟨a0, b0, a1, b1, a2, b2, a9, b9, a10, b10, a3, b3, a4, b4, a5, b5, a6, b6, a7, b7, a8, b8⟩ := blockIdx_facts t
  funext a; apply Fin.ext
  match a with
  | ⟨0, _⟩ => show win6_9.index t (0 : Fin 2) * 2000 + 1 * r.val = p.val; omega
  | ⟨1, _⟩ => show win6_9.index t (1 : Fin 2) * 32 + 1 * q.val = q.val; omega

theorem readOut_f (G : S800000x32.Idx → EReal) (t : Fin cfg6.N) (r : Fin 2000) (q : Fin 32) (p : Fin 800000) (hp : p.val = t.val * 2000 + r.val) :
    ((cfg6.win 9).blk t).view.read (Elt Ideal) G (ix2 r q) = G (ix2 p q) := by
  rw [View.read_apply, cast_eq]
  exact congrArg G (outRow_f t r q p hp)

theorem flushed_f (c : Dev nD) (t : Fin cfg6.N) :
    (dat6 (F := Ideal) V c).flushed 9 t = ((cfg6.win 9).blk t).view.read (Elt Ideal) (fwdArr V c) := by
  funext j
  obtain ⟨r, q, rfl⟩ : ∃ (r : Fin 2000) (q : Fin 32), j = ix2 r q := ⟨j 0, j 1, eq_ix2 j⟩
  have hN : t.val < 400 := lt_of_lt_of_eq t.isLt N_6
  have hr : r.val < 2000 := r.isLt
  refine Eq.trans (congrFun (stored_f V c t) (ix2 r q))
    (Eq.trans ?_ (readOut_f (fwdArr V c) t r q ⟨t.val * 2000 + r.val, by omega⟩ rfl).symm)
  exact point_f _ _ _ _ _ _ _ _ _ _ _ _ _ _ _ _ _ _ r q _
      (fun k => rowBlock0_apply V c t r k _ rfl) (fun k => rowBlock1_apply V c t r k _ rfl) (fun k => rowBlock2_apply V c t r k _ rfl)
      (wholeBlock3_eq V c t) (wholeBlock4_eq V c t) (wholeBlock5_eq V c t) (wholeBlock6_eq V c t) (wholeBlock7_eq V c t) (wholeBlock8_eq V c t)

theorem mem_outBlock_f (t : Fin cfg6.N) (i : S800000x32.Idx) :
    i ∈ ((cfg6.win 9).blk t).view.set ↔ ∀ a : Fin 2, win6_9.index t a * S2000x32.size a ≤ (i a).val ∧ (i a).val < win6_9.index t a * S2000x32.size a + S2000x32.size a := by
  show i ∈ ((View.whole (Pipeline.arrRef spec6 9)).slice (win6_9.rect t)).set ↔ _
  rw [View.set_slice_whole, Rect.mem_set_unit]
  exact Iff.rfl

/-- Row p of the array lies in the block of grid point p / 2000. -/
theorem cover_f (i : S800000x32.Idx) : ∃ t : Fin cfg6.N, (cfg6.win 9).flush t = true ∧ i ∈ ((cfg6.win 9).blk t).view.set := by
  have hi0 : (i 0).val < 800000 := idx2_lt0 i
  have hi1 : (i 1).val < 32 := idx2_lt1 i
  have hN : cfg6.N = 400 := N_6
  obtain ⟨t, ht⟩ : ∃ t : Fin cfg6.N, t.val = (i 0).val / 2000 := ⟨⟨(i 0).val / 2000, by rw [hN]; omega⟩, rfl⟩
  refine ⟨t, flush6_9 t, ?_⟩
  rw [mem_outBlock_f]
  obtain ⟨a0, b0, a1, b1, a2, b2, a9, b9, a10, b10, a3, b3, a4, b4, a5, b5, a6, b6, a7, b7, a8, b8⟩ := blockIdx_facts t
  intro a
  match a with
  | ⟨0, _⟩ => show win6_9.index t (0 : Fin 2) * 2000 ≤ (i 0).val ∧ (i 0).val < win6_9.index t (0 : Fin 2) * 2000 + 2000; omega
  | ⟨1, _⟩ => show win6_9.index t (1 : Fin 2) * 32 ≤ (i 1).val ∧ (i 1).val < win6_9.index t (1 : Fin 2) * 32 + 32; omega

/-- The blocks tile the array, and each is the matching block of the message array. -/
theorem array_f (c : Dev nD) : (dat6 (F := Ideal) V c).arrAt 9 cfg6.N = fwdArr V c :=
  (dat6 V c).arrAt_eq_of_cover 9 (fwdArr V c) (fun t _ => flushed_f V c t) cover_f

def revArr (c : Dev nD) : S800000x32.Idx → EReal := msgArr (V c (Pipeline.arrRef spec6 1)) (V c (Pipeline.arrRef spec6 0)) (V c (Pipeline.arrRef spec6 2)) (V c (Pipeline.arrRef spec6 3)) (V c (Pipeline.arrRef spec6 4)) (V c (Pipeline.arrRef spec6 5)) (V c (Pipeline.arrRef spec6 6)) (V c (Pipeline.arrRef spec6 7)) (V c (Pipeline.arrRef spec6 8))

theorem stored_r (c : Dev nD) (t : Fin cfg6.N) :
    (dat6 (F := Ideal) V c).after 10 t = k6_pay2 (k6_pay3 (iblk6 V c 0 t)) (k6_pay4 (iblk6 V c 1 t)) (k6_pay5 (iblk6 V c 2 t)) (k6_pay6 (iblk6 V c 3 t)) (k6_pay7 (iblk6 V c 4 t)) (k6_pay8 (iblk6 V c 5 t)) (k6_pay9 (iblk6 V c 6 t)) (k6_pay10 (iblk6 V c 7 t)) (k6_pay11 (iblk6 V c 8 t)) := by
  rw [after6_10]
  unfold out6_10
  rw [View.canon_unit_zero zeroOffsets]
  simp only [View.ld_unit_zero (S := S2000x32) zeroOffsets, View.ld_unit_zero (S := S2000x16) zeroOffsets, View.ld_unit_zero (S := S32x32) zeroOffsets, View.ld_unit_zero (S := S16x32) zeroOffsets, View.ld_unit_zero (S := S1x32) zeroOffsets]

theorem outRow_r (t : Fin cfg6.N) (r : Fin 2000) (q : Fin 32) (p : Fin 800000) (hp : p.val = t.val * 2000 + r.val) :
    ((cfg6.win 10).blk t).view.emb (ix2 r q) = (ix2 p q : S800000x32.Idx) := by
  obtain ⟨a0, b0, a1, b1, a2, b2, a9, b9, a10, b10, a3, b3, a4, b4, a5, b5, a6, b6, a7, b7, a8, b8⟩ := blockIdx_facts t
  funext a; apply Fin.ext
  match a with
  | ⟨0, _⟩ => show win6_10.index t (0 : Fin 2) * 2000 + 1 * r.val = p.val; omega
  | ⟨1, _⟩ => show win6_10.index t (1 : Fin 2) * 32 + 1 * q.val = q.val; omega

theorem readOut_r (G : S800000x32.Idx → EReal) (t : Fin cfg6.N) (r : Fin 2000) (q : Fin 32) (p : Fin 800000) (hp : p.val = t.val * 2000 + r.val) :
    ((cfg6.win 10).blk t).view.read (Elt Ideal) G (ix2 r q) = G (ix2 p q) := by
  rw [View.read_apply, cast_eq]
  exact congrArg G (outRow_r t r q p hp)

theorem flushed_r (c : Dev nD) (t : Fin cfg6.N) :
    (dat6 (F := Ideal) V c).flushed 10 t = ((cfg6.win 10).blk t).view.read (Elt Ideal) (revArr V c) := by
  funext j
  obtain ⟨r, q, rfl⟩ : ∃ (r : Fin 2000) (q : Fin 32), j = ix2 r q := ⟨j 0, j 1, eq_ix2 j⟩
  have hN : t.val < 400 := lt_of_lt_of_eq t.isLt N_6
  have hr : r.val < 2000 := r.isLt
  refine Eq.trans (congrFun (stored_r V c t) (ix2 r q))
    (Eq.trans ?_ (readOut_r (revArr V c) t r q ⟨t.val * 2000 + r.val, by omega⟩ rfl).symm)
  exact point_r _ _ _ _ _ _ _ _ _ _ _ _ _ _ _ _ _ _ r q _
      (fun k => rowBlock0_apply V c t r k _ rfl) (fun k => rowBlock1_apply V c t r k _ rfl) (fun k => rowBlock2_apply V c t r k _ rfl)
      (wholeBlock3_eq V c t) (wholeBlock4_eq V c t) (wholeBlock5_eq V c t) (wholeBlock6_eq V c t) (wholeBlock7_eq V c t) (wholeBlock8_eq V c t)

theorem mem_outBlock_r (t : Fin cfg6.N) (i : S800000x32.Idx) :
    i ∈ ((cfg6.win 10).blk t).view.set ↔ ∀ a : Fin 2, win6_10.index t a * S2000x32.size a ≤ (i a).val ∧ (i a).val < win6_10.index t a * S2000x32.size a + S2000x32.size a := by
  show i ∈ ((View.whole (Pipeline.arrRef spec6 10)).slice (win6_10.rect t)).set ↔ _
  rw [View.set_slice_whole, Rect.mem_set_unit]
  exact Iff.rfl

theorem cover_r (i : S800000x32.Idx) : ∃ t : Fin cfg6.N, (cfg6.win 10).flush t = true ∧ i ∈ ((cfg6.win 10).blk t).view.set := by
  have hi0 : (i 0).val < 800000 := idx2_lt0 i
  have hi1 : (i 1).val < 32 := idx2_lt1 i
  have hN : cfg6.N = 400 := N_6
  obtain ⟨t, ht⟩ : ∃ t : Fin cfg6.N, t.val = (i 0).val / 2000 := ⟨⟨(i 0).val / 2000, by rw [hN]; omega⟩, rfl⟩
  refine ⟨t, flush6_10 t, ?_⟩
  rw [mem_outBlock_r]
  obtain ⟨a0, b0, a1, b1, a2, b2, a9, b9, a10, b10, a3, b3, a4, b4, a5, b5, a6, b6, a7, b7, a8, b8⟩ := blockIdx_facts t
  intro a
  match a with
  | ⟨0, _⟩ => show win6_10.index t (0 : Fin 2) * 2000 ≤ (i 0).val ∧ (i 0).val < win6_10.index t (0 : Fin 2) * 2000 + 2000; omega
  | ⟨1, _⟩ => show win6_10.index t (1 : Fin 2) * 32 ≤ (i 1).val ∧ (i 1).val < win6_10.index t (1 : Fin 2) * 32 + 32; omega

theorem array_r (c : Dev nD) : (dat6 (F := Ideal) V c).arrAt 10 cfg6.N = revArr V c :=
  (dat6 V c).arrAt_eq_of_cover 10 (revArr V c) (fun t _ => flushed_r V c t) cover_r

theorem value_f (c : Dev nD) (p : Fin 800000) (q : Fin 32) :
    (dat6 (F := Ideal) V c).arrAt 9 cfg6.N (ix2 p q)
      = Cert.Spec.msgRowSplit (fun k : Fin 32 => V c (Pipeline.arrRef spec6 0) (ix2 p k)) (fun k : Fin 32 => V c (Pipeline.arrRef spec6 1) (ix2 p k)) (fun k : Fin 16 => V c (Pipeline.arrRef spec6 2) (ix2 p k))
          (fun (k : Fin 32) (j : Fin 32) => V c (Pipeline.arrRef spec6 3) (ix2 k j)) (fun (k : Fin 32) (j : Fin 32) => V c (Pipeline.arrRef spec6 4) (ix2 k j)) (fun (k : Fin 16) (j : Fin 32) => V c (Pipeline.arrRef spec6 5) (ix2 k j))
          (fun j : Fin 32 => V c (Pipeline.arrRef spec6 6) (ix2 (0 : Fin 1) j)) (fun (k : Fin 32) (j : Fin 32) => V c (Pipeline.arrRef spec6 7) (ix2 k j)) (fun j : Fin 32 => V c (Pipeline.arrRef spec6 8) (ix2 (0 : Fin 1) j)) q :=
  (congrFun (array_f V c) (ix2 p q)).trans (msgArr_apply _ _ _ _ _ _ _ _ _ p q)

theorem value_r (c : Dev nD) (p : Fin 800000) (q : Fin 32) :
    (dat6 (F := Ideal) V c).arrAt 10 cfg6.N (ix2 p q)
      = Cert.Spec.msgRowSplit (fun k : Fin 32 => V c (Pipeline.arrRef spec6 1) (ix2 p k)) (fun k : Fin 32 => V c (Pipeline.arrRef spec6 0) (ix2 p k)) (fun k : Fin 16 => V c (Pipeline.arrRef spec6 2) (ix2 p k))
          (fun (k : Fin 32) (j : Fin 32) => V c (Pipeline.arrRef spec6 3) (ix2 k j)) (fun (k : Fin 32) (j : Fin 32) => V c (Pipeline.arrRef spec6 4) (ix2 k j)) (fun (k : Fin 16) (j : Fin 32) => V c (Pipeline.arrRef spec6 5) (ix2 k j))
          (fun j : Fin 32 => V c (Pipeline.arrRef spec6 6) (ix2 (0 : Fin 1) j)) (fun (k : Fin 32) (j : Fin 32) => V c (Pipeline.arrRef spec6 7) (ix2 k j)) (fun j : Fin 32 => V c (Pipeline.arrRef spec6 8) (ix2 (0 : Fin 1) j)) q :=
  (congrFun (array_r V c) (ix2 p q)).trans (msgArr_apply _ _ _ _ _ _ _ _ _ p q)

end Region

end Cert.KernelIdeal.Msg6

end
-- ==== Proof.Upd3.lean ====
import proofs.«411375_j87694642250038_1_alg».proof.Proof.Gen.KernelIdeal.Frame
import proofs.«411375_j87694642250038_1_alg».proof.Proof.Spec
import Idealize.ShloMosaic.Lib.Pipeline.Value
import Idealize.ShloMosaic.Lib.ValueIdx
import Idealize.ShloMosaic.PureOps.Ideal.Laws

noncomputable section

namespace Cert.KernelIdeal.Upd3

open Cert.KernelIdeal Cert.KernelIdeal.Gen Idealize.ShloMosaic Idealize.ShloMosaic.TcCoe Idealize.SL.Sem Idealize.ShloMosaic.ValueIdx
open scoped BigOperators
theorem lhs1_0 (i : S5000x64.Idx) (q : dot_S5000x32_S32x64_S5000x64_1_0_0_1_n_n.contr.Idx) :
    (dot_S5000x32_S32x64_S5000x64_1_0_0_1_n_n.lhsIdx i q 0).val = (i 0).val := by
  unfold DotDims.lhsIdx
  rw [dif_neg (show ¬(0 : Fin S5000x32.rank) ∈ dot_S5000x32_S32x64_S5000x64_1_0_0_1_n_n.lhsBatch by decide), dif_pos (show (0 : Fin S5000x32.rank) ∈ dot_S5000x32_S32x64_S5000x64_1_0_0_1_n_n.lhsNonContracting by decide)]
  rfl

theorem lhs1_1 (i : S5000x64.Idx) (q : dot_S5000x32_S32x64_S5000x64_1_0_0_1_n_n.contr.Idx) :
    (dot_S5000x32_S32x64_S5000x64_1_0_0_1_n_n.lhsIdx i q 1).val = (q ⟨0, by decide⟩).val :=
  dot_S5000x32_S32x64_S5000x64_1_0_0_1_n_n.lhsIdx_val_of_single rfl i q

theorem rhs1_0 (i : S5000x64.Idx) (q : dot_S5000x32_S32x64_S5000x64_1_0_0_1_n_n.contr.Idx) :
    (dot_S5000x32_S32x64_S5000x64_1_0_0_1_n_n.rhsIdx i q 0).val = (q ⟨0, by decide⟩).val :=
  dot_S5000x32_S32x64_S5000x64_1_0_0_1_n_n.rhsIdx_val_of_single rfl i q

theorem rhs1_1 (i : S5000x64.Idx) (q : dot_S5000x32_S32x64_S5000x64_1_0_0_1_n_n.contr.Idx) :
    (dot_S5000x32_S32x64_S5000x64_1_0_0_1_n_n.rhsIdx i q 1).val = (i 1).val := by
  unfold DotDims.rhsIdx
  rw [dif_neg (show ¬(1 : Fin S32x64.rank) ∈ dot_S5000x32_S32x64_S5000x64_1_0_0_1_n_n.rhsBatch by decide), dif_pos (show (1 : Fin S32x64.rank) ∈ dot_S5000x32_S32x64_S5000x64_1_0_0_1_n_n.rhsNonContracting by decide)]
  rfl

theorem mm1_apply (a : FVec Ideal S5000x32 .bf16) (b : FVec Ideal S32x64 .bf16) (r : Fin 5000) (j : Fin 64) :
    matmul dot_S5000x32_S32x64_S5000x64_1_0_0_1_n_n none a b (constant (F := Ideal) S5000x64 .f32 0x00000000#32) (ix2 r j)
      = ∑ k : Fin 32, a (ix2 r k) * b (ix2 k j) := by
  refine (Ideal.matmul_constant_zero_apply dot_S5000x32_S32x64_S5000x64_1_0_0_1_n_n none a b (ix2 r j)).trans ?_
  rw [← Equiv.sum_comp (contrEquiv1 dot_S5000x32_S32x64_S5000x64_1_0_0_1_n_n 32 rfl rfl).symm]
  refine Finset.sum_congr rfl fun k _ => ?_
  have hk := contrEquiv1_symm_val dot_S5000x32_S32x64_S5000x64_1_0_0_1_n_n 32 rfl rfl k
  have el : dot_S5000x32_S32x64_S5000x64_1_0_0_1_n_n.lhsIdx (ix2 r j) ((contrEquiv1 dot_S5000x32_S32x64_S5000x64_1_0_0_1_n_n 32 rfl rfl).symm k) = ix2 r k := funext fun x => Fin.ext (by
    match x with
    | ⟨0, _⟩ => exact lhs1_0 _ _
    | ⟨1, _⟩ => exact (lhs1_1 _ _).trans hk)
  have er : dot_S5000x32_S32x64_S5000x64_1_0_0_1_n_n.rhsIdx (ix2 r j) ((contrEquiv1 dot_S5000x32_S32x64_S5000x64_1_0_0_1_n_n 32 rfl rfl).symm k) = ix2 k j := funext fun x => Fin.ext (by
    match x with
    | ⟨0, _⟩ => exact (rhs1_0 _ _).trans hk
    | ⟨1, _⟩ => exact rhs1_1 _ _)
  rw [el, er]

theorem lhs2_0 (i : S5000x32.Idx) (q : dot_S5000x64_S64x32_S5000x32_1_0_0_1_n_n.contr.Idx) :
    (dot_S5000x64_S64x32_S5000x32_1_0_0_1_n_n.lhsIdx i q 0).val = (i 0).val := by
  unfold DotDims.lhsIdx
  rw [dif_neg (show ¬(0 : Fin S5000x64.rank) ∈ dot_S5000x64_S64x32_S5000x32_1_0_0_1_n_n.lhsBatch by decide), dif_pos (show (0 : Fin S5000x64.rank) ∈ dot_S5000x64_S64x32_S5000x32_1_0_0_1_n_n.lhsNonContracting by decide)]
  rfl

theorem lhs2_1 (i : S5000x32.Idx) (q : dot_S5000x64_S64x32_S5000x32_1_0_0_1_n_n.contr.Idx) :
    (dot_S5000x64_S64x32_S5000x32_1_0_0_1_n_n.lhsIdx i q 1).val = (q ⟨0, by decide⟩).val :=
  dot_S5000x64_S64x32_S5000x32_1_0_0_1_n_n.lhsIdx_val_of_single rfl i q

theorem rhs2_0 (i : S5000x32.Idx) (q : dot_S5000x64_S64x32_S5000x32_1_0_0_1_n_n.contr.Idx) :
    (dot_S5000x64_S64x32_S5000x32_1_0_0_1_n_n.rhsIdx i q 0).val = (q ⟨0, by decide⟩).val :=
  dot_S5000x64_S64x32_S5000x32_1_0_0_1_n_n.rhsIdx_val_of_single rfl i q

theorem rhs2_1 (i : S5000x32.Idx) (q : dot_S5000x64_S64x32_S5000x32_1_0_0_1_n_n.contr.Idx) :
    (dot_S5000x64_S64x32_S5000x32_1_0_0_1_n_n.rhsIdx i q 1).val = (i 1).val := by
  unfold DotDims.rhsIdx
  rw [dif_neg (show ¬(1 : Fin S64x32.rank) ∈ dot_S5000x64_S64x32_S5000x32_1_0_0_1_n_n.rhsBatch by decide), dif_pos (show (1 : Fin S64x32.rank) ∈ dot_S5000x64_S64x32_S5000x32_1_0_0_1_n_n.rhsNonContracting by decide)]
  rfl

theorem mm2_apply (a : FVec Ideal S5000x64 .bf16) (b : FVec Ideal S64x32 .bf16) (r : Fin 5000) (q : Fin 32) :
    matmul dot_S5000x64_S64x32_S5000x32_1_0_0_1_n_n none a b (constant (F := Ideal) S5000x32 .f32 0x00000000#32) (ix2 r q)
      = ∑ j : Fin 64, a (ix2 r j) * b (ix2 j q) := by
  refine (Ideal.matmul_constant_zero_apply dot_S5000x64_S64x32_S5000x32_1_0_0_1_n_n none a b (ix2 r q)).trans ?_
  rw [← Equiv.sum_comp (contrEquiv1 dot_S5000x64_S64x32_S5000x32_1_0_0_1_n_n 64 rfl rfl).symm]
  refine Finset.sum_congr rfl fun j _ => ?_
  have hj := contrEquiv1_symm_val dot_S5000x64_S64x32_S5000x32_1_0_0_1_n_n 64 rfl rfl j
  have el : dot_S5000x64_S64x32_S5000x32_1_0_0_1_n_n.lhsIdx (ix2 r q) ((contrEquiv1 dot_S5000x64_S64x32_S5000x32_1_0_0_1_n_n 64 rfl rfl).symm j) = ix2 r j := funext fun x => Fin.ext (by
    match x with
    | ⟨0, _⟩ => exact lhs2_0 _ _
    | ⟨1, _⟩ => exact (lhs2_1 _ _).trans hj)
  have er : dot_S5000x64_S64x32_S5000x32_1_0_0_1_n_n.rhsIdx (ix2 r q) ((contrEquiv1 dot_S5000x64_S64x32_S5000x32_1_0_0_1_n_n 64 rfl rfl).symm j) = ix2 j q := funext fun x => Fin.ext (by
    match x with
    | ⟨0, _⟩ => exact (rhs2_0 _ _).trans hj
    | ⟨1, _⟩ => exact rhs2_1 _ _)
  rw [el, er]

theorem bias1_apply (v : S1x64.Idx → EReal) (r : Fin 5000) (j : Fin 64) :
    broadcastTo S5000x64 v broadcasts_S1x64_S5000x64 (ix2 r j) = v (ix2 (0 : Fin 1) j) :=
  broadcastTo_apply v broadcasts_S1x64_S5000x64 (ix2 r j) (ix2 (0 : Fin 1) j) fun a => by
    match a with
    | ⟨0, _⟩ => rfl
    | ⟨1, _⟩ => rfl

theorem bias2_apply (v : S1x32.Idx → EReal) (r : Fin 5000) (q : Fin 32) :
    broadcastTo S5000x32 v broadcasts_S1x32_S5000x32 (ix2 r q) = v (ix2 (0 : Fin 1) q) :=
  broadcastTo_apply v broadcasts_S1x32_S5000x32 (ix2 r q) (ix2 (0 : Fin 1) q) fun a => by
    match a with
    | ⟨0, _⟩ => rfl
    | ⟨1, _⟩ => rfl

/-- Entry (r, q) of the stored block is the update of row r of the two row blocks, added to the node's row. -/
theorem pay_apply (x0 x1 : Vec Ideal S5000x32 .f32) (x2 x3 : Vec Ideal S32x64 .f32) (x4 : Vec Ideal S1x64 .f32)
    (x5 : Vec Ideal S64x32 .f32) (x6 : Vec Ideal S1x32 .f32) (r : Fin 5000) (q : Fin 32) :
    k3_pay1 (F := Ideal) x0 x1 x2 x3 x4 x5 x6 x1 (ix2 r q)
      = Cert.Spec.updRowSplit (fun k : Fin 32 => x0 (ix2 r k)) (fun k : Fin 32 => x1 (ix2 r k))
          (fun (k : Fin 32) (j : Fin 64) => x2 (ix2 k j)) (fun (k : Fin 32) (j : Fin 64) => x3 (ix2 k j))
          (fun j : Fin 64 => x4 (ix2 (0 : Fin 1) j)) (fun (k : Fin 64) (j : Fin 32) => x5 (ix2 k j))
          (fun j : Fin 32 => x6 (ix2 (0 : Fin 1) j)) q := by
  unfold k3_pay1 Cert.Spec.updRowSplit Cert.Spec.linRow
  simp only [shapeCast_self]
  refine congrArg₂ (· + ·) rfl (congrArg₂ (· + ·) ?_ (bias2_apply x6 r q))
  refine (mm2_apply _ _ r q).trans (Finset.sum_congr rfl fun j _ => congrArg₂ (· * ·) ?_ rfl)
  refine congrArg₂ max (congrArg₂ (· + ·) (congrArg₂ (· + ·) (mm1_apply _ _ r j) (mm1_apply _ _ r j)) (bias1_apply x4 r j)) ?_
  exact Ideal.ofBits_zero_f32

def updArr (agg h : S100000x32.Idx → EReal) (w1a w1b : S32x64.Idx → EReal) (b1 : S1x64.Idx → EReal)
    (w2 : S64x32.Idx → EReal) (b2 : S1x32.Idx → EReal) : S100000x32.Idx → EReal := fun i =>
  Cert.Spec.updRowSplit (fun k : Fin 32 => agg (ix2 (⟨(i 0).val, idx2_lt0 i⟩ : Fin 100000) k))
    (fun k : Fin 32 => h (ix2 (⟨(i 0).val, idx2_lt0 i⟩ : Fin 100000) k))
    (fun (k : Fin 32) (j : Fin 64) => w1a (ix2 k j)) (fun (k : Fin 32) (j : Fin 64) => w1b (ix2 k j))
    (fun j : Fin 64 => b1 (ix2 (0 : Fin 1) j)) (fun (k : Fin 64) (j : Fin 32) => w2 (ix2 k j))
    (fun j : Fin 32 => b2 (ix2 (0 : Fin 1) j)) (⟨(i 1).val, idx2_lt1 i⟩ : Fin 32)

/-- The row update depends on its arguments only through their entries. -/
theorem upd_congr {a a' h h' : Fin 32 → EReal} {w1a w1a' w1b w1b' : Fin 32 → Fin 64 → EReal} {b1 b1' : Fin 64 → EReal}
    {w2 w2' : Fin 64 → Fin 32 → EReal} {b2 b2' : Fin 32 → EReal} {q q' : Fin 32}
    (ha : ∀ k, a k = a' k) (hh : ∀ k, h k = h' k) (h1a : ∀ k j, w1a k j = w1a' k j) (h1b : ∀ k j, w1b k j = w1b' k j)
    (hb1 : ∀ j, b1 j = b1' j) (hw2 : ∀ k j, w2 k j = w2' k j) (hb2 : ∀ j, b2 j = b2' j) (hq : q = q') :
    Cert.Spec.updRowSplit a h w1a w1b b1 w2 b2 q = Cert.Spec.updRowSplit a' h' w1a' w1b' b1' w2' b2' q' := by
  obtain rfl : a = a' := funext ha
  obtain rfl : h = h' := funext hh
  obtain rfl : w1a = w1a' := funext fun k => funext (h1a k)
  obtain rfl : w1b = w1b' := funext fun k => funext (h1b k)
  obtain rfl : b1 = b1' := funext hb1
  obtain rfl : w2 = w2' := funext fun k => funext (hw2 k)
  obtain rfl : b2 = b2' := funext hb2
  subst hq
  rfl

theorem hz : (![0, 0] : Fin 2 → Nat) = fun _ => 0 := funext fun a => by
  match a with
  | ⟨0, _⟩ => rfl
  | ⟨1, _⟩ => rfl

section Region

variable (V : (c : Dev nD) → (b : Ref sig .tc) → Buf (Elt Ideal) ((c : Thread nD τ).loc b))

theorem idx_agg : ∀ t : Fin cfg3.N, win3_0.index t (0 : Fin 2) = t.val ∧ win3_0.index t (1 : Fin 2) = 0 :=
  (by decide +kernel : ∀ t : Fin grid3.N, _)
theorem idx_h : ∀ t : Fin cfg3.N, win3_1.index t (0 : Fin 2) = t.val ∧ win3_1.index t (1 : Fin 2) = 0 :=
  (by decide +kernel : ∀ t : Fin grid3.N, _)
theorem idx_w1a : ∀ t : Fin cfg3.N, win3_2.index t (0 : Fin 2) = 0 ∧ win3_2.index t (1 : Fin 2) = 0 :=
  (by decide +kernel : ∀ t : Fin grid3.N, _)
theorem idx_w1b : ∀ t : Fin cfg3.N, win3_3.index t (0 : Fin 2) = 0 ∧ win3_3.index t (1 : Fin 2) = 0 :=
  (by decide +kernel : ∀ t : Fin grid3.N, _)
theorem idx_b1 : ∀ t : Fin cfg3.N, win3_4.index t (0 : Fin 2) = 0 ∧ win3_4.index t (1 : Fin 2) = 0 :=
  (by decide +kernel : ∀ t : Fin grid3.N, _)
theorem idx_w2 : ∀ t : Fin cfg3.N, win3_5.index t (0 : Fin 2) = 0 ∧ win3_5.index t (1 : Fin 2) = 0 :=
  (by decide +kernel : ∀ t : Fin grid3.N, _)
theorem idx_b2 : ∀ t : Fin cfg3.N, win3_6.index t (0 : Fin 2) = 0 ∧ win3_6.index t (1 : Fin 2) = 0 :=
  (by decide +kernel : ∀ t : Fin grid3.N, _)
theorem idx_out : ∀ t : Fin cfg3.N, win3_7.index t (0 : Fin 2) = t.val ∧ win3_7.index t (1 : Fin 2) = 0 :=
  (by decide +kernel : ∀ t : Fin grid3.N, _)

theorem agg_block (c : Dev nD) (t : Fin cfg3.N) (r : Fin 5000) (k : Fin 32) (p : Fin 100000) (hp : p.val = t.val * 5000 + r.val) :
    (iblk3 V c 0 t : Vec Ideal S5000x32 .f32) (ix2 r k) = (V c (Pipeline.arrRef spec3 0) : S100000x32.Idx → EReal) (ix2 p k) := by
  obtain ⟨e0, e1⟩ := idx_agg t
  unfold iblk3
  rw [View.read_apply]
  show (V c (Pipeline.arrRef spec3 0) : S100000x32.Idx → EReal) _ = _
  refine congrArg (V c (Pipeline.arrRef spec3 0) : S100000x32.Idx → EReal) (funext fun a => Fin.ext ?_)
  match a with
  | ⟨0, _⟩ => show win3_0.index t (0 : Fin 2) * 5000 + 1 * r.val = p.val; rw [e0, hp]; omega
  | ⟨1, _⟩ => show win3_0.index t (1 : Fin 2) * 32 + 1 * k.val = k.val; rw [e1]; omega

theorem h_block (c : Dev nD) (t : Fin cfg3.N) (r : Fin 5000) (k : Fin 32) (p : Fin 100000) (hp : p.val = t.val * 5000 + r.val) :
    (iblk3 V c 1 t : Vec Ideal S5000x32 .f32) (ix2 r k) = (V c (Pipeline.arrRef spec3 1) : S100000x32.Idx → EReal) (ix2 p k) := by
  obtain ⟨e0, e1⟩ := idx_h t
  unfold iblk3
  rw [View.read_apply]
  show (V c (Pipeline.arrRef spec3 1) : S100000x32.Idx → EReal) _ = _
  refine congrArg (V c (Pipeline.arrRef spec3 1) : S100000x32.Idx → EReal) (funext fun a => Fin.ext ?_)
  match a with
  | ⟨0, _⟩ => show win3_1.index t (0 : Fin 2) * 5000 + 1 * r.val = p.val; rw [e0, hp]; omega
  | ⟨1, _⟩ => show win3_1.index t (1 : Fin 2) * 32 + 1 * k.val = k.val; rw [e1]; omega

theorem w1a_block (c : Dev nD) (t : Fin cfg3.N) (k : Fin 32) (j : Fin 64) :
    (iblk3 V c 2 t : Vec Ideal S32x64 .f32) (ix2 k j) = (V c (Pipeline.arrRef spec3 2) : S32x64.Idx → EReal) (ix2 k j) := by
  obtain ⟨e0, e1⟩ := idx_w1a t
  unfold iblk3
  rw [View.read_apply]
  show (V c (Pipeline.arrRef spec3 2) : S32x64.Idx → EReal) _ = _
  refine congrArg (V c (Pipeline.arrRef spec3 2) : S32x64.Idx → EReal) (funext fun a => Fin.ext ?_)
  match a with
  | ⟨0, _⟩ => show win3_2.index t (0 : Fin 2) * 32 + 1 * k.val = k.val; rw [e0]; omega
  | ⟨1, _⟩ => show win3_2.index t (1 : Fin 2) * 64 + 1 * j.val = j.val; rw [e1]; omega

theorem w1b_block (c : Dev nD) (t : Fin cfg3.N) (k : Fin 32) (j : Fin 64) :
    (iblk3 V c 3 t : Vec Ideal S32x64 .f32) (ix2 k j) = (V c (Pipeline.arrRef spec3 3) : S32x64.Idx → EReal) (ix2 k j) := by
  obtain ⟨e0, e1⟩ := idx_w1b t
  unfold iblk3
  rw [View.read_apply]
  show (V c (Pipeline.arrRef spec3 3) : S32x64.Idx → EReal) _ = _
  refine congrArg (V c (Pipeline.arrRef spec3 3) : S32x64.Idx → EReal) (funext fun a => Fin.ext ?_)
  match a with
  | ⟨0, _⟩ => show win3_3.index t (0 : Fin 2) * 32 + 1 * k.val = k.val; rw [e0]; omega
  | ⟨1, _⟩ => show win3_3.index t (1 : Fin 2) * 64 + 1 * j.val = j.val; rw [e1]; omega

theorem b1_block (c : Dev nD) (t : Fin cfg3.N) (j : Fin 64) :
    (iblk3 V c 4 t : Vec Ideal S1x64 .f32) (ix2 (0 : Fin 1) j) = (V c (Pipeline.arrRef spec3 4) : S1x64.Idx → EReal) (ix2 (0 : Fin 1) j) := by
  obtain ⟨e0, e1⟩ := idx_b1 t
  unfold iblk3
  rw [View.read_apply]
  show (V c (Pipeline.arrRef spec3 4) : S1x64.Idx → EReal) _ = _
  refine congrArg (V c (Pipeline.arrRef spec3 4) : S1x64.Idx → EReal) (funext fun a => Fin.ext ?_)
  match a with
  | ⟨0, _⟩ => show win3_4.index t (0 : Fin 2) * 1 + 1 * 0 = 0; rw [e0]
  | ⟨1, _⟩ => show win3_4.index t (1 : Fin 2) * 64 + 1 * j.val = j.val; rw [e1]; omega

theorem w2_block (c : Dev nD) (t : Fin cfg3.N) (k : Fin 64) (j : Fin 32) :
    (iblk3 V c 5 t : Vec Ideal S64x32 .f32) (ix2 k j) = (V c (Pipeline.arrRef spec3 5) : S64x32.Idx → EReal) (ix2 k j) := by
  obtain ⟨e0, e1⟩ := idx_w2 t
  unfold iblk3
  rw [View.read_apply]
  show (V c (Pipeline.arrRef spec3 5) : S64x32.Idx → EReal) _ = _
  refine congrArg (V c (Pipeline.arrRef spec3 5) : S64x32.Idx → EReal) (funext fun a => Fin.ext ?_)
  match a with
  | ⟨0, _⟩ => show win3_5.index t (0 : Fin 2) * 64 + 1 * k.val = k.val; rw [e0]; omega
  | ⟨1, _⟩ => show win3_5.index t (1 : Fin 2) * 32 + 1 * j.val = j.val; rw [e1]; omega

theorem b2_block (c : Dev nD) (t : Fin cfg3.N) (j : Fin 32) :
    (iblk3 V c 6 t : Vec Ideal S1x32 .f32) (ix2 (0 : Fin 1) j) = (V c (Pipeline.arrRef spec3 6) : S1x32.Idx → EReal) (ix2 (0 : Fin 1) j) := by
  obtain ⟨e0, e1⟩ := idx_b2 t
  unfold iblk3
  rw [View.read_apply]
  show (V c (Pipeline.arrRef spec3 6) : S1x32.Idx → EReal) _ = _
  refine congrArg (V c (Pipeline.arrRef spec3 6) : S1x32.Idx → EReal) (funext fun a => Fin.ext ?_)
  match a with
  | ⟨0, _⟩ => show win3_6.index t (0 : Fin 2) * 1 + 1 * 0 = 0; rw [e0]
  | ⟨1, _⟩ => show win3_6.index t (1 : Fin 2) * 32 + 1 * j.val = j.val; rw [e1]; omega

theorem out_eq (x0 x1 : Vec Ideal S5000x32 .f32) (x2 x3 : Vec Ideal S32x64 .f32) (x4 : Vec Ideal S1x64 .f32)
    (x5 : Vec Ideal S64x32 .f32) (x6 : Vec Ideal S1x32 .f32) :
    out3_7 (F := Ideal) x0 x1 x2 x3 x4 x5 x6 = k3_pay1 (F := Ideal) x0 x1 x2 x3 x4 x5 x6 x1 := by
  unfold out3_7
  rw [View.canon_unit_zero hz]
  simp only [View.ld_unit_zero (S := S5000x32) hz, View.ld_unit_zero (S := S32x64) hz, View.ld_unit_zero (S := S1x64) hz,
    View.ld_unit_zero (S := S64x32) hz, View.ld_unit_zero (S := S1x32) hz]

theorem out_row (t : Fin cfg3.N) (y : ((cfg3.win 7).xblock (grid3.coords t)).Idx) :
    ((((cfg3.win 7).blk t).view.emb y) 0).val = t.val * 5000 + (y 0).val := by
  obtain ⟨e0, -⟩ := idx_out t
  show win3_7.index t (0 : Fin 2) * 5000 + 1 * (y 0).val = _
  rw [e0]; omega

theorem out_col (t : Fin cfg3.N) (y : ((cfg3.win 7).xblock (grid3.coords t)).Idx) :
    ((((cfg3.win 7).blk t).view.emb y) 1).val = (y 1).val := by
  obtain ⟨-, e1⟩ := idx_out t
  show win3_7.index t (1 : Fin 2) * 32 + 1 * (y 1).val = _
  rw [e1]; omega

theorem stored_apply (c : Dev nD) (t : Fin cfg3.N) (y : ((cfg3.win 7).xblock (grid3.coords t)).Idx) :
    k3_pay1 (F := Ideal) (iblk3 V c 0 t) (iblk3 V c 1 t) (iblk3 V c 2 t) (iblk3 V c 3 t) (iblk3 V c 4 t) (iblk3 V c 5 t) (iblk3 V c 6 t) (iblk3 V c 1 t)
        ((cfg3.win 7).xinj (grid3.coords t) y)
      = updArr (V c (Pipeline.arrRef spec3 0)) (V c (Pipeline.arrRef spec3 1)) (V c (Pipeline.arrRef spec3 2)) (V c (Pipeline.arrRef spec3 3))
          (V c (Pipeline.arrRef spec3 4)) (V c (Pipeline.arrRef spec3 5)) (V c (Pipeline.arrRef spec3 6)) (((cfg3.win 7).blk t).view.emb y) := by
  have hy0 : (y 0).val < 5000 := (y 0).isLt
  have hy1 : (y 1).val < 32 := (y 1).isLt
  have hx : (cfg3.win 7).xinj (grid3.coords t) y = ix2 (⟨(y 0).val, hy0⟩ : Fin 5000) (⟨(y 1).val, hy1⟩ : Fin 32) := funext fun a => by
    match a with
    | ⟨0, _⟩ => rfl
    | ⟨1, _⟩ => rfl
  refine (congrArg (k3_pay1 (F := Ideal) (iblk3 V c 0 t) (iblk3 V c 1 t) (iblk3 V c 2 t) (iblk3 V c 3 t) (iblk3 V c 4 t) (iblk3 V c 5 t) (iblk3 V c 6 t) (iblk3 V c 1 t)) hx).trans ?_
  refine (pay_apply (iblk3 V c 0 t) (iblk3 V c 1 t) (iblk3 V c 2 t) (iblk3 V c 3 t) (iblk3 V c 4 t) (iblk3 V c 5 t) (iblk3 V c 6 t) ⟨(y 0).val, hy0⟩ ⟨(y 1).val, hy1⟩).trans ?_
  unfold updArr
  refine upd_congr (fun k => ?_) (fun k => ?_) (fun k j => w1a_block V c t k j) (fun k j => w1b_block V c t k j) (fun j => b1_block V c t j)
    (fun k j => w2_block V c t k j) (fun j => b2_block V c t j) (Fin.ext (out_col t y).symm)
  · exact agg_block V c t ⟨(y 0).val, hy0⟩ k ⟨((((cfg3.win 7).blk t).view.emb y) 0).val, idx2_lt0 (((cfg3.win 7).blk t).view.emb y)⟩ (out_row t y)
  · exact h_block V c t ⟨(y 0).val, hy0⟩ k ⟨((((cfg3.win 7).blk t).view.emb y) 0).val, idx2_lt0 (((cfg3.win 7).blk t).view.emb y)⟩ (out_row t y)

theorem flushed_eq (c : Dev nD) (t : Fin cfg3.N) :
    (dat3 (F := Ideal) V c).flushed 7 t = ((cfg3.win 7).blk t).view.read (Elt Ideal)
      (updArr (V c (Pipeline.arrRef spec3 0)) (V c (Pipeline.arrRef spec3 1)) (V c (Pipeline.arrRef spec3 2)) (V c (Pipeline.arrRef spec3 3))
        (V c (Pipeline.arrRef spec3 4)) (V c (Pipeline.arrRef spec3 5)) (V c (Pipeline.arrRef spec3 6))) := by
  show (cfg3.win 7).cut (grid3.coords t) ((dat3 (F := Ideal) V c).after 7 t) = _
  rw [after3_7, out_eq]
  funext y
  exact stored_apply V c t y

theorem mem_blk (t : Fin cfg3.N) (i : S100000x32.Idx) :
    i ∈ ((cfg3.win 7).blk t).view.set ↔ ∀ a : Fin 2, win3_7.index t a * S5000x32.size a ≤ (i a).val ∧ (i a).val < win3_7.index t a * S5000x32.size a + S5000x32.size a := by
  show i ∈ ((View.whole (Pipeline.arrRef spec3 7)).slice (win3_7.rect t)).set ↔ _
  rw [View.set_slice_whole, Rect.mem_set_unit]
  exact Iff.rfl

/-- Row p of the array lies in the block of grid point p / 5000. -/
theorem cover (i : S100000x32.Idx) :
    ∃ t : Fin cfg3.N, (cfg3.win 7).flush t = true ∧ i ∈ ((cfg3.win 7).blk t).view.set := by
  have hi0 : (i 0).val < 100000 := idx2_lt0 i
  have hi1 : (i 1).val < 32 := idx2_lt1 i
  have hN : (i 0).val / 5000 < cfg3.N := by
    show (i 0).val / 5000 < 20
    omega
  obtain ⟨e0, e1⟩ := idx_out ⟨(i 0).val / 5000, hN⟩
  refine ⟨⟨(i 0).val / 5000, hN⟩, flush3_7 _, ?_⟩
  rw [mem_blk]
  intro a
  match a with
  | ⟨0, _⟩ =>
    show win3_7.index ⟨(i 0).val / 5000, hN⟩ (0 : Fin 2) * 5000 ≤ (i 0).val ∧ (i 0).val < win3_7.index ⟨(i 0).val / 5000, hN⟩ (0 : Fin 2) * 5000 + 5000
    rw [e0]
    show (i 0).val / 5000 * 5000 ≤ (i 0).val ∧ (i 0).val < (i 0).val / 5000 * 5000 + 5000
    omega
  | ⟨1, _⟩ =>
    show win3_7.index ⟨(i 0).val / 5000, hN⟩ (1 : Fin 2) * 32 ≤ (i 1).val ∧ (i 1).val < win3_7.index ⟨(i 0).val / 5000, hN⟩ (1 : Fin 2) * 32 + 32
    rw [e1]
    omega

/-- The blocks tile the array, and each is the matching block of the updated node table. -/
theorem final (c : Dev nD) :
    (dat3 (F := Ideal) V c).arrAt 7 cfg3.N
      = updArr (V c (Pipeline.arrRef spec3 0)) (V c (Pipeline.arrRef spec3 1)) (V c (Pipeline.arrRef spec3 2)) (V c (Pipeline.arrRef spec3 3))
          (V c (Pipeline.arrRef spec3 4)) (V c (Pipeline.arrRef spec3 5)) (V c (Pipeline.arrRef spec3 6)) :=
  (dat3 (F := Ideal) V c).arrAt_eq_of_cover 7 _ (fun t _ => flushed_eq V c t) cover

theorem value (c : Dev nD) (p : Fin 100000) (q : Fin 32) :
    (dat3 (F := Ideal) V c).arrAt 7 cfg3.N (ix2 p q)
      = Cert.Spec.updRowSplit (fun k : Fin 32 => V c (Pipeline.arrRef spec3 0) (ix2 p k)) (fun k : Fin 32 => V c (Pipeline.arrRef spec3 1) (ix2 p k))
          (fun (k : Fin 32) (j : Fin 64) => V c (Pipeline.arrRef spec3 2) (ix2 k j)) (fun (k : Fin 32) (j : Fin 64) => V c (Pipeline.arrRef spec3 3) (ix2 k j))
          (fun j : Fin 64 => V c (Pipeline.arrRef spec3 4) (ix2 (0 : Fin 1) j)) (fun (k : Fin 64) (j : Fin 32) => V c (Pipeline.arrRef spec3 5) (ix2 k j))
          (fun j : Fin 32 => V c (Pipeline.arrRef spec3 6) (ix2 (0 : Fin 1) j)) q :=
  (congrFun (final V c) (ix2 p q)).trans rfl

end Region

end Cert.KernelIdeal.Upd3

end
-- ==== Proof.Upd5.lean ====
import proofs.«411375_j87694642250038_1_alg».proof.Proof.Upd3

noncomputable section

namespace Cert.KernelIdeal.Upd5
open Cert.KernelIdeal Cert.KernelIdeal.Gen Idealize.ShloMosaic Idealize.ShloMosaic.TcCoe Idealize.SL.Sem Idealize.ShloMosaic.ValueIdx
open scoped BigOperators
open Cert.KernelIdeal.Upd3 (pay_apply updArr upd_congr hz)

section Region

variable (V : (c : Dev nD) → (b : Ref sig .tc) → Buf (Elt Ideal) ((c : Thread nD τ).loc b))

theorem idx_agg : ∀ t : Fin cfg5.N, win5_0.index t (0 : Fin 2) = t.val ∧ win5_0.index t (1 : Fin 2) = 0 :=
  (by decide +kernel : ∀ t : Fin grid5.N, _)
theorem idx_h : ∀ t : Fin cfg5.N, win5_1.index t (0 : Fin 2) = t.val ∧ win5_1.index t (1 : Fin 2) = 0 :=
  (by decide +kernel : ∀ t : Fin grid5.N, _)
theorem idx_w1a : ∀ t : Fin cfg5.N, win5_2.index t (0 : Fin 2) = 0 ∧ win5_2.index t (1 : Fin 2) = 0 :=
  (by decide +kernel : ∀ t : Fin grid5.N, _)
theorem idx_w1b : ∀ t : Fin cfg5.N, win5_3.index t (0 : Fin 2) = 0 ∧ win5_3.index t (1 : Fin 2) = 0 :=
  (by decide +kernel : ∀ t : Fin grid5.N, _)
theorem idx_b1 : ∀ t : Fin cfg5.N, win5_4.index t (0 : Fin 2) = 0 ∧ win5_4.index t (1 : Fin 2) = 0 :=
  (by decide +kernel : ∀ t : Fin grid5.N, _)
theorem idx_w2 : ∀ t : Fin cfg5.N, win5_5.index t (0 : Fin 2) = 0 ∧ win5_5.index t (1 : Fin 2) = 0 :=
  (by decide +kernel : ∀ t : Fin grid5.N, _)
theorem idx_b2 : ∀ t : Fin cfg5.N, win5_6.index t (0 : Fin 2) = 0 ∧ win5_6.index t (1 : Fin 2) = 0 :=
  (by decide +kernel : ∀ t : Fin grid5.N, _)
theorem idx_out : ∀ t : Fin cfg5.N, win5_7.index t (0 : Fin 2) = t.val ∧ win5_7.index t (1 : Fin 2) = 0 :=
  (by decide +kernel : ∀ t : Fin grid5.N, _)

theorem agg_block (c : Dev nD) (t : Fin cfg5.N) (r : Fin 5000) (k : Fin 32) (p : Fin 100000) (hp : p.val = t.val * 5000 + r.val) :
    (iblk5 V c 0 t : Vec Ideal S5000x32 .f32) (ix2 r k) = (V c (Pipeline.arrRef spec5 0) : S100000x32.Idx → EReal) (ix2 p k) := by
  obtain ⟨e0, e1⟩ := idx_agg t
  unfold iblk5
  rw [View.read_apply]
  show (V c (Pipeline.arrRef spec5 0) : S100000x32.Idx → EReal) _ = _
  refine congrArg (V c (Pipeline.arrRef spec5 0) : S100000x32.Idx → EReal) (funext fun a => Fin.ext ?_)
  match a with
  | ⟨0, _⟩ => show win5_0.index t (0 : Fin 2) * 5000 + 1 * r.val = p.val; rw [e0, hp]; omega
  | ⟨1, _⟩ => show win5_0.index t (1 : Fin 2) * 32 + 1 * k.val = k.val; rw [e1]; omega

theorem h_block (c : Dev nD) (t : Fin cfg5.N) (r : Fin 5000) (k : Fin 32) (p : Fin 100000) (hp : p.val = t.val * 5000 + r.val) :
    (iblk5 V c 1 t : Vec Ideal S5000x32 .f32) (ix2 r k) = (V c (Pipeline.arrRef spec5 1) : S100000x32.Idx → EReal) (ix2 p k) := by
  obtain ⟨e0, e1⟩ := idx_h t
  unfold iblk5
  rw [View.read_apply]
  show (V c (Pipeline.arrRef spec5 1) : S100000x32.Idx → EReal) _ = _
  refine congrArg (V c (Pipeline.arrRef spec5 1) : S100000x32.Idx → EReal) (funext fun a => Fin.ext ?_)
  match a with
  | ⟨0, _⟩ => show win5_1.index t (0 : Fin 2) * 5000 + 1 * r.val = p.val; rw [e0, hp]; omega
  | ⟨1, _⟩ => show win5_1.index t (1 : Fin 2) * 32 + 1 * k.val = k.val; rw [e1]; omega

theorem w1a_block (c : Dev nD) (t : Fin cfg5.N) (k : Fin 32) (j : Fin 64) :
    (iblk5 V c 2 t : Vec Ideal S32x64 .f32) (ix2 k j) = (V c (Pipeline.arrRef spec5 2) : S32x64.Idx → EReal) (ix2 k j) := by
  obtain ⟨e0, e1⟩ := idx_w1a t
  unfold iblk5
  rw [View.read_apply]
  show (V c (Pipeline.arrRef spec5 2) : S32x64.Idx → EReal) _ = _
  refine congrArg (V c (Pipeline.arrRef spec5 2) : S32x64.Idx → EReal) (funext fun a => Fin.ext ?_)
  match a with
  | ⟨0, _⟩ => show win5_2.index t (0 : Fin 2) * 32 + 1 * k.val = k.val; rw [e0]; omega
  | ⟨1, _⟩ => show win5_2.index t (1 : Fin 2) * 64 + 1 * j.val = j.val; rw [e1]; omega

theorem w1b_block (c : Dev nD) (t : Fin cfg5.N) (k : Fin 32) (j : Fin 64) :
    (iblk5 V c 3 t : Vec Ideal S32x64 .f32) (ix2 k j) = (V c (Pipeline.arrRef spec5 3) : S32x64.Idx → EReal) (ix2 k j) := by
  obtain ⟨e0, e1⟩ := idx_w1b t
  unfold iblk5
  rw [View.read_apply]
  show (V c (Pipeline.arrRef spec5 3) : S32x64.Idx → EReal) _ = _
  refine congrArg (V c (Pipeline.arrRef spec5 3) : S32x64.Idx → EReal) (funext fun a => Fin.ext ?_)
  match a with
  | ⟨0, _⟩ => show win5_3.index t (0 : Fin 2) * 32 + 1 * k.val = k.val; rw [e0]; omega
  | ⟨1, _⟩ => show win5_3.index t (1 : Fin 2) * 64 + 1 * j.val = j.val; rw [e1]; omega

theorem b1_block (c : Dev nD) (t : Fin cfg5.N) (j : Fin 64) :
    (iblk5 V c 4 t : Vec Ideal S1x64 .f32) (ix2 (0 : Fin 1) j) = (V c (Pipeline.arrRef spec5 4) : S1x64.Idx → EReal) (ix2 (0 : Fin 1) j) := by
  obtain ⟨e0, e1⟩ := idx_b1 t
  unfold iblk5
  rw [View.read_apply]
  show (V c (Pipeline.arrRef spec5 4) : S1x64.Idx → EReal) _ = _
  refine congrArg (V c (Pipeline.arrRef spec5 4) : S1x64.Idx → EReal) (funext fun a => Fin.ext ?_)
  match a with
  | ⟨0, _⟩ => show win5_4.index t (0 : Fin 2) * 1 + 1 * 0 = 0; rw [e0]
  | ⟨1, _⟩ => show win5_4.index t (1 : Fin 2) * 64 + 1 * j.val = j.val; rw [e1]; omega

theorem w2_block (c : Dev nD) (t : Fin cfg5.N) (k : Fin 64) (j : Fin 32) :
    (iblk5 V c 5 t : Vec Ideal S64x32 .f32) (ix2 k j) = (V c (Pipeline.arrRef spec5 5) : S64x32.Idx → EReal) (ix2 k j) := by
  obtain ⟨e0, e1⟩ := idx_w2 t
  unfold iblk5
  rw [View.read_apply]
  show (V c (Pipeline.arrRef spec5 5) : S64x32.Idx → EReal) _ = _
  refine congrArg (V c (Pipeline.arrRef spec5 5) : S64x32.Idx → EReal) (funext fun a => Fin.ext ?_)
  match a with
  | ⟨0, _⟩ => show win5_5.index t (0 : Fin 2) * 64 + 1 * k.val = k.val; rw [e0]; omega
  | ⟨1, _⟩ => show win5_5.index t (1 : Fin 2) * 32 + 1 * j.val = j.val; rw [e1]; omega

theorem b2_block (c : Dev nD) (t : Fin cfg5.N) (j : Fin 32) :
    (iblk5 V c 6 t : Vec Ideal S1x32 .f32) (ix2 (0 : Fin 1) j) = (V c (Pipeline.arrRef spec5 6) : S1x32.Idx → EReal) (ix2 (0 : Fin 1) j) := by
  obtain ⟨e0, e1⟩ := idx_b2 t
  unfold iblk5
  rw [View.read_apply]
  show (V c (Pipeline.arrRef spec5 6) : S1x32.Idx → EReal) _ = _
  refine congrArg (V c (Pipeline.arrRef spec5 6) : S1x32.Idx → EReal) (funext fun a => Fin.ext ?_)
  match a with
  | ⟨0, _⟩ => show win5_6.index t (0 : Fin 2) * 1 + 1 * 0 = 0; rw [e0]
  | ⟨1, _⟩ => show win5_6.index t (1 : Fin 2) * 32 + 1 * j.val = j.val; rw [e1]; omega

theorem out_eq (x0 x1 : Vec Ideal S5000x32 .f32) (x2 x3 : Vec Ideal S32x64 .f32) (x4 : Vec Ideal S1x64 .f32)
    (x5 : Vec Ideal S64x32 .f32) (x6 : Vec Ideal S1x32 .f32) :
    out5_7 (F := Ideal) x0 x1 x2 x3 x4 x5 x6 = k5_pay1 (F := Ideal) x0 x1 x2 x3 x4 x5 x6 x1 := by
  unfold out5_7
  rw [View.canon_unit_zero hz]
  simp only [View.ld_unit_zero (S := S5000x32) hz, View.ld_unit_zero (S := S32x64) hz, View.ld_unit_zero (S := S1x64) hz,
    View.ld_unit_zero (S := S64x32) hz, View.ld_unit_zero (S := S1x32) hz]

theorem out_row (t : Fin cfg5.N) (y : ((cfg5.win 7).xblock (grid5.coords t)).Idx) :
    ((((cfg5.win 7).blk t).view.emb y) 0).val = t.val * 5000 + (y 0).val := by
  obtain ⟨e0, -⟩ := idx_out t
  show win5_7.index t (0 : Fin 2) * 5000 + 1 * (y 0).val = _
  rw [e0]; omega

theorem out_col (t : Fin cfg5.N) (y : ((cfg5.win 7).xblock (grid5.coords t)).Idx) :
    ((((cfg5.win 7).blk t).view.emb y) 1).val = (y 1).val := by
  obtain ⟨-, e1⟩ := idx_out t
  show win5_7.index t (1 : Fin 2) * 32 + 1 * (y 1).val = _
  rw [e1]; omega

theorem stored_apply (c : Dev nD) (t : Fin cfg5.N) (y : ((cfg5.win 7).xblock (grid5.coords t)).Idx) :
    k5_pay1 (F := Ideal) (iblk5 V c 0 t) (iblk5 V c 1 t) (iblk5 V c 2 t) (iblk5 V c 3 t) (iblk5 V c 4 t) (iblk5 V c 5 t) (iblk5 V c 6 t) (iblk5 V c 1 t)
        ((cfg5.win 7).xinj (grid5.coords t) y)
      = updArr (V c (Pipeline.arrRef spec5 0)) (V c (Pipeline.arrRef spec5 1)) (V c (Pipeline.arrRef spec5 2)) (V c (Pipeline.arrRef spec5 3))
          (V c (Pipeline.arrRef spec5 4)) (V c (Pipeline.arrRef spec5 5)) (V c (Pipeline.arrRef spec5 6)) (((cfg5.win 7).blk t).view.emb y) := by
  have hy0 : (y 0).val < 5000 := (y 0).isLt
  have hy1 : (y 1).val < 32 := (y 1).isLt
  have hx : (cfg5.win 7).xinj (grid5.coords t) y = ix2 (⟨(y 0).val, hy0⟩ : Fin 5000) (⟨(y 1).val, hy1⟩ : Fin 32) := funext fun a => by
    match a with
    | ⟨0, _⟩ => rfl
    | ⟨1, _⟩ => rfl
  refine (congrArg (k5_pay1 (F := Ideal) (iblk5 V c 0 t) (iblk5 V c 1 t) (iblk5 V c 2 t) (iblk5 V c 3 t) (iblk5 V c 4 t) (iblk5 V c 5 t) (iblk5 V c 6 t) (iblk5 V c 1 t)) hx).trans ?_
  refine (pay_apply (iblk5 V c 0 t) (iblk5 V c 1 t) (iblk5 V c 2 t) (iblk5 V c 3 t) (iblk5 V c 4 t) (iblk5 V c 5 t) (iblk5 V c 6 t) ⟨(y 0).val, hy0⟩ ⟨(y 1).val, hy1⟩).trans ?_
  unfold updArr
  refine upd_congr (fun k => ?_) (fun k => ?_) (fun k j => w1a_block V c t k j) (fun k j => w1b_block V c t k j) (fun j => b1_block V c t j)
    (fun k j => w2_block V c t k j) (fun j => b2_block V c t j) (Fin.ext (out_col t y).symm)
  · exact agg_block V c t ⟨(y 0).val, hy0⟩ k ⟨((((cfg5.win 7).blk t).view.emb y) 0).val, idx2_lt0 (((cfg5.win 7).blk t).view.emb y)⟩ (out_row t y)
  · exact h_block V c t ⟨(y 0).val, hy0⟩ k ⟨((((cfg5.win 7).blk t).view.emb y) 0).val, idx2_lt0 (((cfg5.win 7).blk t).view.emb y)⟩ (out_row t y)

theorem flushed_eq (c : Dev nD) (t : Fin cfg5.N) :
    (dat5 (F := Ideal) V c).flushed 7 t = ((cfg5.win 7).blk t).view.read (Elt Ideal)
      (updArr (V c (Pipeline.arrRef spec5 0)) (V c (Pipeline.arrRef spec5 1)) (V c (Pipeline.arrRef spec5 2)) (V c (Pipeline.arrRef spec5 3))
        (V c (Pipeline.arrRef spec5 4)) (V c (Pipeline.arrRef spec5 5)) (V c (Pipeline.arrRef spec5 6))) := by
  show (cfg5.win 7).cut (grid5.coords t) ((dat5 (F := Ideal) V c).after 7 t) = _
  rw [after5_7, out_eq]
  funext y
  exact stored_apply V c t y

theorem mem_blk (t : Fin cfg5.N) (i : S100000x32.Idx) :
    i ∈ ((cfg5.win 7).blk t).view.set ↔ ∀ a : Fin 2, win5_7.index t a * S5000x32.size a ≤ (i a).val ∧ (i a).val < win5_7.index t a * S5000x32.size a + S5000x32.size a := by
  show i ∈ ((View.whole (Pipeline.arrRef spec5 7)).slice (win5_7.rect t)).set ↔ _
  rw [View.set_slice_whole, Rect.mem_set_unit]
  exact Iff.rfl

/-- Row p of the array lies in the block of grid point p / 5000. -/
theorem cover (i : S100000x32.Idx) :
    ∃ t : Fin cfg5.N, (cfg5.win 7).flush t = true ∧ i ∈ ((cfg5.win 7).blk t).view.set := by
  have hi0 : (i 0).val < 100000 := idx2_lt0 i
  have hi1 : (i 1).val < 32 := idx2_lt1 i
  have hN : (i 0).val / 5000 < cfg5.N := by
    show (i 0).val / 5000 < 20
    omega
  obtain ⟨e0, e1⟩ := idx_out ⟨(i 0).val / 5000, hN⟩
  refine ⟨⟨(i 0).val / 5000, hN⟩, flush5_7 _, ?_⟩
  rw [mem_blk]
  intro a
  match a with
  | ⟨0, _⟩ =>
    show win5_7.index ⟨(i 0).val / 5000, hN⟩ (0 : Fin 2) * 5000 ≤ (i 0).val ∧ (i 0).val < win5_7.index ⟨(i 0).val / 5000, hN⟩ (0 : Fin 2) * 5000 + 5000
    rw [e0]
    show (i 0).val / 5000 * 5000 ≤ (i 0).val ∧ (i 0).val < (i 0).val / 5000 * 5000 + 5000
    omega
  | ⟨1, _⟩ =>
    show win5_7.index ⟨(i 0).val / 5000, hN⟩ (1 : Fin 2) * 32 ≤ (i 1).val ∧ (i 1).val < win5_7.index ⟨(i 0).val / 5000, hN⟩ (1 : Fin 2) * 32 + 32
    rw [e1]
    omega

/-- The blocks tile the array, and each is the matching block of the updated node table. -/
theorem final (c : Dev nD) :
    (dat5 (F := Ideal) V c).arrAt 7 cfg5.N
      = updArr (V c (Pipeline.arrRef spec5 0)) (V c (Pipeline.arrRef spec5 1)) (V c (Pipeline.arrRef spec5 2)) (V c (Pipeline.arrRef spec5 3))
          (V c (Pipeline.arrRef spec5 4)) (V c (Pipeline.arrRef spec5 5)) (V c (Pipeline.arrRef spec5 6)) :=
  (dat5 (F := Ideal) V c).arrAt_eq_of_cover 7 _ (fun t _ => flushed_eq V c t) cover

theorem value (c : Dev nD) (p : Fin 100000) (q : Fin 32) :
    (dat5 (F := Ideal) V c).arrAt 7 cfg5.N (ix2 p q)
      = Cert.Spec.updRowSplit (fun k : Fin 32 => V c (Pipeline.arrRef spec5 0) (ix2 p k)) (fun k : Fin 32 => V c (Pipeline.arrRef spec5 1) (ix2 p k))
          (fun (k : Fin 32) (j : Fin 64) => V c (Pipeline.arrRef spec5 2) (ix2 k j)) (fun (k : Fin 32) (j : Fin 64) => V c (Pipeline.arrRef spec5 3) (ix2 k j))
          (fun j : Fin 64 => V c (Pipeline.arrRef spec5 4) (ix2 (0 : Fin 1) j)) (fun (k : Fin 64) (j : Fin 32) => V c (Pipeline.arrRef spec5 5) (ix2 k j))
          (fun j : Fin 32 => V c (Pipeline.arrRef spec5 6) (ix2 (0 : Fin 1) j)) q :=
  (congrFun (final V c) (ix2 p q)).trans rfl

end Region

end Cert.KernelIdeal.Upd5

end
-- ==== Proof.Upd7.lean ====
import proofs.«411375_j87694642250038_1_alg».proof.Proof.Upd3

noncomputable section

namespace Cert.KernelIdeal.Upd7
open Cert.KernelIdeal Cert.KernelIdeal.Gen Idealize.ShloMosaic Idealize.ShloMosaic.TcCoe Idealize.SL.Sem Idealize.ShloMosaic.ValueIdx
open scoped BigOperators
open Cert.KernelIdeal.Upd3 (pay_apply updArr upd_congr hz)

section Region

variable (V : (c : Dev nD) → (b : Ref sig .tc) → Buf (Elt Ideal) ((c : Thread nD τ).loc b))

theorem idx_agg : ∀ t : Fin cfg7.N, win7_0.index t (0 : Fin 2) = t.val ∧ win7_0.index t (1 : Fin 2) = 0 :=
  (by decide +kernel : ∀ t : Fin grid7.N, _)
theorem idx_h : ∀ t : Fin cfg7.N, win7_1.index t (0 : Fin 2) = t.val ∧ win7_1.index t (1 : Fin 2) = 0 :=
  (by decide +kernel : ∀ t : Fin grid7.N, _)
theorem idx_w1a : ∀ t : Fin cfg7.N, win7_2.index t (0 : Fin 2) = 0 ∧ win7_2.index t (1 : Fin 2) = 0 :=
  (by decide +kernel : ∀ t : Fin grid7.N, _)
theorem idx_w1b : ∀ t : Fin cfg7.N, win7_3.index t (0 : Fin 2) = 0 ∧ win7_3.index t (1 : Fin 2) = 0 :=
  (by decide +kernel : ∀ t : Fin grid7.N, _)
theorem idx_b1 : ∀ t : Fin cfg7.N, win7_4.index t (0 : Fin 2) = 0 ∧ win7_4.index t (1 : Fin 2) = 0 :=
  (by decide +kernel : ∀ t : Fin grid7.N, _)
theorem idx_w2 : ∀ t : Fin cfg7.N, win7_5.index t (0 : Fin 2) = 0 ∧ win7_5.index t (1 : Fin 2) = 0 :=
  (by decide +kernel : ∀ t : Fin grid7.N, _)
theorem idx_b2 : ∀ t : Fin cfg7.N, win7_6.index t (0 : Fin 2) = 0 ∧ win7_6.index t (1 : Fin 2) = 0 :=
  (by decide +kernel : ∀ t : Fin grid7.N, _)
theorem idx_out : ∀ t : Fin cfg7.N, win7_7.index t (0 : Fin 2) = t.val ∧ win7_7.index t (1 : Fin 2) = 0 :=
  (by decide +kernel : ∀ t : Fin grid7.N, _)

theorem agg_block (c : Dev nD) (t : Fin cfg7.N) (r : Fin 5000) (k : Fin 32) (p : Fin 100000) (hp : p.val = t.val * 5000 + r.val) :
    (iblk7 V c 0 t : Vec Ideal S5000x32 .f32) (ix2 r k) = (V c (Pipeline.arrRef spec7 0) : S100000x32.Idx → EReal) (ix2 p k) := by
  obtain ⟨e0, e1⟩ := idx_agg t
  unfold iblk7
  rw [View.read_apply]
  show (V c (Pipeline.arrRef spec7 0) : S100000x32.Idx → EReal) _ = _
  refine congrArg (V c (Pipeline.arrRef spec7 0) : S100000x32.Idx → EReal) (funext fun a => Fin.ext ?_)
  match a with
  | ⟨0, _⟩ => show win7_0.index t (0 : Fin 2) * 5000 + 1 * r.val = p.val; rw [e0, hp]; omega
  | ⟨1, _⟩ => show win7_0.index t (1 : Fin 2) * 32 + 1 * k.val = k.val; rw [e1]; omega

theorem h_block (c : Dev nD) (t : Fin cfg7.N) (r : Fin 5000) (k : Fin 32) (p : Fin 100000) (hp : p.val = t.val * 5000 + r.val) :
    (iblk7 V c 1 t : Vec Ideal S5000x32 .f32) (ix2 r k) = (V c (Pipeline.arrRef spec7 1) : S100000x32.Idx → EReal) (ix2 p k) := by
  obtain ⟨e0, e1⟩ := idx_h t
  unfold iblk7
  rw [View.read_apply]
  show (V c (Pipeline.arrRef spec7 1) : S100000x32.Idx → EReal) _ = _
  refine congrArg (V c (Pipeline.arrRef spec7 1) : S100000x32.Idx → EReal) (funext fun a => Fin.ext ?_)
  match a with
  | ⟨0, _⟩ => show win7_1.index t (0 : Fin 2) * 5000 + 1 * r.val = p.val; rw [e0, hp]; omega
  | ⟨1, _⟩ => show win7_1.index t (1 : Fin 2) * 32 + 1 * k.val = k.val; rw [e1]; omega

theorem w1a_block (c : Dev nD) (t : Fin cfg7.N) (k : Fin 32) (j : Fin 64) :
    (iblk7 V c 2 t : Vec Ideal S32x64 .f32) (ix2 k j) = (V c (Pipeline.arrRef spec7 2) : S32x64.Idx → EReal) (ix2 k j) := by
  obtain ⟨e0, e1⟩ := idx_w1a t
  unfold iblk7
  rw [View.read_apply]
  show (V c (Pipeline.arrRef spec7 2) : S32x64.Idx → EReal) _ = _
  refine congrArg (V c (Pipeline.arrRef spec7 2) : S32x64.Idx → EReal) (funext fun a => Fin.ext ?_)
  match a with
  | ⟨0, _⟩ => show win7_2.index t (0 : Fin 2) * 32 + 1 * k.val = k.val; rw [e0]; omega
  | ⟨1, _⟩ => show win7_2.index t (1 : Fin 2) * 64 + 1 * j.val = j.val; rw [e1]; omega

theorem w1b_block (c : Dev nD) (t : Fin cfg7.N) (k : Fin 32) (j : Fin 64) :
    (iblk7 V c 3 t : Vec Ideal S32x64 .f32) (ix2 k j) = (V c (Pipeline.arrRef spec7 3) : S32x64.Idx → EReal) (ix2 k j) := by
  obtain ⟨e0, e1⟩ := idx_w1b t
  unfold iblk7
  rw [View.read_apply]
  show (V c (Pipeline.arrRef spec7 3) : S32x64.Idx → EReal) _ = _
  refine congrArg (V c (Pipeline.arrRef spec7 3) : S32x64.Idx → EReal) (funext fun a => Fin.ext ?_)
  match a with
  | ⟨0, _⟩ => show win7_3.index t (0 : Fin 2) * 32 + 1 * k.val = k.val; rw [e0]; omega
  | ⟨1, _⟩ => show win7_3.index t (1 : Fin 2) * 64 + 1 * j.val = j.val; rw [e1]; omega

theorem b1_block (c : Dev nD) (t : Fin cfg7.N) (j : Fin 64) :
    (iblk7 V c 4 t : Vec Ideal S1x64 .f32) (ix2 (0 : Fin 1) j) = (V c (Pipeline.arrRef spec7 4) : S1x64.Idx → EReal) (ix2 (0 : Fin 1) j) := by
  obtain ⟨e0, e1⟩ := idx_b1 t
  unfold iblk7
  rw [View.read_apply]
  show (V c (Pipeline.arrRef spec7 4) : S1x64.Idx → EReal) _ = _
  refine congrArg (V c (Pipeline.arrRef spec7 4) : S1x64.Idx → EReal) (funext fun a => Fin.ext ?_)
  match a with
  | ⟨0, _⟩ => show win7_4.index t (0 : Fin 2) * 1 + 1 * 0 = 0; rw [e0]
  | ⟨1, _⟩ => show win7_4.index t (1 : Fin 2) * 64 + 1 * j.val = j.val; rw [e1]; omega

theorem w2_block (c : Dev nD) (t : Fin cfg7.N) (k : Fin 64) (j : Fin 32) :
    (iblk7 V c 5 t : Vec Ideal S64x32 .f32) (ix2 k j) = (V c (Pipeline.arrRef spec7 5) : S64x32.Idx → EReal) (ix2 k j) := by
  obtain ⟨e0, e1⟩ := idx_w2 t
  unfold iblk7
  rw [View.read_apply]
  show (V c (Pipeline.arrRef spec7 5) : S64x32.Idx → EReal) _ = _
  refine congrArg (V c (Pipeline.arrRef spec7 5) : S64x32.Idx → EReal) (funext fun a => Fin.ext ?_)
  match a with
  | ⟨0, _⟩ => show win7_5.index t (0 : Fin 2) * 64 + 1 * k.val = k.val; rw [e0]; omega
  | ⟨1, _⟩ => show win7_5.index t (1 : Fin 2) * 32 + 1 * j.val = j.val; rw [e1]; omega

theorem b2_block (c : Dev nD) (t : Fin cfg7.N) (j : Fin 32) :
    (iblk7 V c 6 t : Vec Ideal S1x32 .f32) (ix2 (0 : Fin 1) j) = (V c (Pipeline.arrRef spec7 6) : S1x32.Idx → EReal) (ix2 (0 : Fin 1) j) := by
  obtain ⟨e0, e1⟩ := idx_b2 t
  unfold iblk7
  rw [View.read_apply]
  show (V c (Pipeline.arrRef spec7 6) : S1x32.Idx → EReal) _ = _
  refine congrArg (V c (Pipeline.arrRef spec7 6) : S1x32.Idx → EReal) (funext fun a => Fin.ext ?_)
  match a with
  | ⟨0, _⟩ => show win7_6.index t (0 : Fin 2) * 1 + 1 * 0 = 0; rw [e0]
  | ⟨1, _⟩ => show win7_6.index t (1 : Fin 2) * 32 + 1 * j.val = j.val; rw [e1]; omega

theorem out_eq (x0 x1 : Vec Ideal S5000x32 .f32) (x2 x3 : Vec Ideal S32x64 .f32) (x4 : Vec Ideal S1x64 .f32)
    (x5 : Vec Ideal S64x32 .f32) (x6 : Vec Ideal S1x32 .f32) :
    out7_7 (F := Ideal) x0 x1 x2 x3 x4 x5 x6 = k7_pay1 (F := Ideal) x0 x1 x2 x3 x4 x5 x6 x1 := by
  unfold out7_7
  rw [View.canon_unit_zero hz]
  simp only [View.ld_unit_zero (S := S5000x32) hz, View.ld_unit_zero (S := S32x64) hz, View.ld_unit_zero (S := S1x64) hz,
    View.ld_unit_zero (S := S64x32) hz, View.ld_unit_zero (S := S1x32) hz]

theorem out_row (t : Fin cfg7.N) (y : ((cfg7.win 7).xblock (grid7.coords t)).Idx) :
    ((((cfg7.win 7).blk t).view.emb y) 0).val = t.val * 5000 + (y 0).val := by
  obtain ⟨e0, -⟩ := idx_out t
  show win7_7.index t (0 : Fin 2) * 5000 + 1 * (y 0).val = _
  rw [e0]; omega

theorem out_col (t : Fin cfg7.N) (y : ((cfg7.win 7).xblock (grid7.coords t)).Idx) :
    ((((cfg7.win 7).blk t).view.emb y) 1).val = (y 1).val := by
  obtain ⟨-, e1⟩ := idx_out t
  show win7_7.index t (1 : Fin 2) * 32 + 1 * (y 1).val = _
  rw [e1]; omega

theorem stored_apply (c : Dev nD) (t : Fin cfg7.N) (y : ((cfg7.win 7).xblock (grid7.coords t)).Idx) :
    k7_pay1 (F := Ideal) (iblk7 V c 0 t) (iblk7 V c 1 t) (iblk7 V c 2 t) (iblk7 V c 3 t) (iblk7 V c 4 t) (iblk7 V c 5 t) (iblk7 V c 6 t) (iblk7 V c 1 t)
        ((cfg7.win 7).xinj (grid7.coords t) y)
      = updArr (V c (Pipeline.arrRef spec7 0)) (V c (Pipeline.arrRef spec7 1)) (V c (Pipeline.arrRef spec7 2)) (V c (Pipeline.arrRef spec7 3))
          (V c (Pipeline.arrRef spec7 4)) (V c (Pipeline.arrRef spec7 5)) (V c (Pipeline.arrRef spec7 6)) (((cfg7.win 7).blk t).view.emb y) := by
  have hy0 : (y 0).val < 5000 := (y 0).isLt
  have hy1 : (y 1).val < 32 := (y 1).isLt
  have hx : (cfg7.win 7).xinj (grid7.coords t) y = ix2 (⟨(y 0).val, hy0⟩ : Fin 5000) (⟨(y 1).val, hy1⟩ : Fin 32) := funext fun a => by
    match a with
    | ⟨0, _⟩ => rfl
    | ⟨1, _⟩ => rfl
  refine (congrArg (k7_pay1 (F := Ideal) (iblk7 V c 0 t) (iblk7 V c 1 t) (iblk7 V c 2 t) (iblk7 V c 3 t) (iblk7 V c 4 t) (iblk7 V c 5 t) (iblk7 V c 6 t) (iblk7 V c 1 t)) hx).trans ?_
  refine (pay_apply (iblk7 V c 0 t) (iblk7 V c 1 t) (iblk7 V c 2 t) (iblk7 V c 3 t) (iblk7 V c 4 t) (iblk7 V c 5 t) (iblk7 V c 6 t) ⟨(y 0).val, hy0⟩ ⟨(y 1).val, hy1⟩).trans ?_
  unfold updArr
  refine upd_congr (fun k => ?_) (fun k => ?_) (fun k j => w1a_block V c t k j) (fun k j => w1b_block V c t k j) (fun j => b1_block V c t j)
    (fun k j => w2_block V c t k j) (fun j => b2_block V c t j) (Fin.ext (out_col t y).symm)
  · exact agg_block V c t ⟨(y 0).val, hy0⟩ k ⟨((((cfg7.win 7).blk t).view.emb y) 0).val, idx2_lt0 (((cfg7.win 7).blk t).view.emb y)⟩ (out_row t y)
  · exact h_block V c t ⟨(y 0).val, hy0⟩ k ⟨((((cfg7.win 7).blk t).view.emb y) 0).val, idx2_lt0 (((cfg7.win 7).blk t).view.emb y)⟩ (out_row t y)

theorem flushed_eq (c : Dev nD) (t : Fin cfg7.N) :
    (dat7 (F := Ideal) V c).flushed 7 t = ((cfg7.win 7).blk t).view.read (Elt Ideal)
      (updArr (V c (Pipeline.arrRef spec7 0)) (V c (Pipeline.arrRef spec7 1)) (V c (Pipeline.arrRef spec7 2)) (V c (Pipeline.arrRef spec7 3))
        (V c (Pipeline.arrRef spec7 4)) (V c (Pipeline.arrRef spec7 5)) (V c (Pipeline.arrRef spec7 6))) := by
  show (cfg7.win 7).cut (grid7.coords t) ((dat7 (F := Ideal) V c).after 7 t) = _
  rw [after7_7, out_eq]
  funext y
  exact stored_apply V c t y

theorem mem_blk (t : Fin cfg7.N) (i : S100000x32.Idx) :
    i ∈ ((cfg7.win 7).blk t).view.set ↔ ∀ a : Fin 2, win7_7.index t a * S5000x32.size a ≤ (i a).val ∧ (i a).val < win7_7.index t a * S5000x32.size a + S5000x32.size a := by
  show i ∈ ((View.whole (Pipeline.arrRef spec7 7)).slice (win7_7.rect t)).set ↔ _
  rw [View.set_slice_whole, Rect.mem_set_unit]
  exact Iff.rfl

/-- Row p of the array lies in the block of grid point p / 5000. -/
theorem cover (i : S100000x32.Idx) :
    ∃ t : Fin cfg7.N, (cfg7.win 7).flush t = true ∧ i ∈ ((cfg7.win 7).blk t).view.set := by
  have hi0 : (i 0).val < 100000 := idx2_lt0 i
  have hi1 : (i 1).val < 32 := idx2_lt1 i
  have hN : (i 0).val / 5000 < cfg7.N := by
    show (i 0).val / 5000 < 20
    omega
  obtain ⟨e0, e1⟩ := idx_out ⟨(i 0).val / 5000, hN⟩
  refine ⟨⟨(i 0).val / 5000, hN⟩, flush7_7 _, ?_⟩
  rw [mem_blk]
  intro a
  match a with
  | ⟨0, _⟩ =>
    show win7_7.index ⟨(i 0).val / 5000, hN⟩ (0 : Fin 2) * 5000 ≤ (i 0).val ∧ (i 0).val < win7_7.index ⟨(i 0).val / 5000, hN⟩ (0 : Fin 2) * 5000 + 5000
    rw [e0]
    show (i 0).val / 5000 * 5000 ≤ (i 0).val ∧ (i 0).val < (i 0).val / 5000 * 5000 + 5000
    omega
  | ⟨1, _⟩ =>
    show win7_7.index ⟨(i 0).val / 5000, hN⟩ (1 : Fin 2) * 32 ≤ (i 1).val ∧ (i 1).val < win7_7.index ⟨(i 0).val / 5000, hN⟩ (1 : Fin 2) * 32 + 32
    rw [e1]
    omega

/-- The blocks tile the array, and each is the matching block of the updated node table. -/
theorem final (c : Dev nD) :
    (dat7 (F := Ideal) V c).arrAt 7 cfg7.N
      = updArr (V c (Pipeline.arrRef spec7 0)) (V c (Pipeline.arrRef spec7 1)) (V c (Pipeline.arrRef spec7 2)) (V c (Pipeline.arrRef spec7 3))
          (V c (Pipeline.arrRef spec7 4)) (V c (Pipeline.arrRef spec7 5)) (V c (Pipeline.arrRef spec7 6)) :=
  (dat7 (F := Ideal) V c).arrAt_eq_of_cover 7 _ (fun t _ => flushed_eq V c t) cover

theorem value (c : Dev nD) (p : Fin 100000) (q : Fin 32) :
    (dat7 (F := Ideal) V c).arrAt 7 cfg7.N (ix2 p q)
      = Cert.Spec.updRowSplit (fun k : Fin 32 => V c (Pipeline.arrRef spec7 0) (ix2 p k)) (fun k : Fin 32 => V c (Pipeline.arrRef spec7 1) (ix2 p k))
          (fun (k : Fin 32) (j : Fin 64) => V c (Pipeline.arrRef spec7 2) (ix2 k j)) (fun (k : Fin 32) (j : Fin 64) => V c (Pipeline.arrRef spec7 3) (ix2 k j))
          (fun j : Fin 64 => V c (Pipeline.arrRef spec7 4) (ix2 (0 : Fin 1) j)) (fun (k : Fin 64) (j : Fin 32) => V c (Pipeline.arrRef spec7 5) (ix2 k j))
          (fun j : Fin 32 => V c (Pipeline.arrRef spec7 6) (ix2 (0 : Fin 1) j)) q :=
  (congrFun (final V c) (ix2 p q)).trans rfl

end Region

end Cert.KernelIdeal.Upd7

end
-- ==== Proof.Gated8.lean ====
import proofs.«411375_j87694642250038_1_alg».proof.Proof.Gen.KernelIdeal.Frame
import proofs.«411375_j87694642250038_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Gated8

open Cert.KernelIdeal Cert.KernelIdeal.Gen Idealize.ShloMosaic Idealize.ShloMosaic.TcCoe Idealize.SL.Sem Idealize.ShloMosaic.ValueIdx
open scoped BigOperators

variable (V : (c : Dev nD) → (b : Ref sig .tc) → Buf (Elt Ideal) ((c : Thread nD τ).loc b))

theorem lhs_axis0 (i : S5000x128.Idx) (q : dot_S5000x32_S32x128_S5000x128_1_0_0_1_n_n.contr.Idx) :
    (dot_S5000x32_S32x128_S5000x128_1_0_0_1_n_n.lhsIdx i q 0).val = (i 0).val := by
  unfold DotDims.lhsIdx
  rw [dif_neg (show ¬(0 : Fin S5000x32.rank) ∈ dot_S5000x32_S32x128_S5000x128_1_0_0_1_n_n.lhsBatch by decide), dif_pos (show (0 : Fin S5000x32.rank) ∈ dot_S5000x32_S32x128_S5000x128_1_0_0_1_n_n.lhsNonContracting by decide)]
  rfl

theorem lhs_axis1 (i : S5000x128.Idx) (q : dot_S5000x32_S32x128_S5000x128_1_0_0_1_n_n.contr.Idx) :
    (dot_S5000x32_S32x128_S5000x128_1_0_0_1_n_n.lhsIdx i q 1).val = (q ⟨0, by decide⟩).val :=
  dot_S5000x32_S32x128_S5000x128_1_0_0_1_n_n.lhsIdx_val_of_single rfl i q

theorem rhs_axis0 (i : S5000x128.Idx) (q : dot_S5000x32_S32x128_S5000x128_1_0_0_1_n_n.contr.Idx) :
    (dot_S5000x32_S32x128_S5000x128_1_0_0_1_n_n.rhsIdx i q 0).val = (q ⟨0, by decide⟩).val :=
  dot_S5000x32_S32x128_S5000x128_1_0_0_1_n_n.rhsIdx_val_of_single rfl i q

theorem rhs_axis1 (i : S5000x128.Idx) (q : dot_S5000x32_S32x128_S5000x128_1_0_0_1_n_n.contr.Idx) :
    (dot_S5000x32_S32x128_S5000x128_1_0_0_1_n_n.rhsIdx i q 1).val = (i 1).val := by
  unfold DotDims.rhsIdx
  rw [dif_neg (show ¬(1 : Fin S32x128.rank) ∈ dot_S5000x32_S32x128_S5000x128_1_0_0_1_n_n.rhsBatch by decide), dif_pos (show (1 : Fin S32x128.rank) ∈ dot_S5000x32_S32x128_S5000x128_1_0_0_1_n_n.rhsNonContracting by decide)]
  rfl

theorem prod_apply {φ₁ φ₂ : FTy} (a : FVec Ideal S5000x32 φ₁) (b : FVec Ideal S32x128 φ₂) (r : Fin 5000) (j : Fin 128) :
    FloatOps.matmul dot_S5000x32_S32x128_S5000x128_1_0_0_1_n_n none a b (constant S5000x128 .f32 0x00000000#32) (ix2 r j)
      = ∑ k : Fin 32, a (ix2 r k) * b (ix2 k j) := by
  rw [Ideal.matmul_constant_zero_apply, ← Equiv.sum_comp (ValueIdx.contrEquiv1 dot_S5000x32_S32x128_S5000x128_1_0_0_1_n_n 32 rfl rfl).symm]
  refine Finset.sum_congr rfl fun k _ => ?_
  have hk := ValueIdx.contrEquiv1_symm_val dot_S5000x32_S32x128_S5000x128_1_0_0_1_n_n 32 rfl rfl k
  have el : dot_S5000x32_S32x128_S5000x128_1_0_0_1_n_n.lhsIdx (ix2 r j) ((ValueIdx.contrEquiv1 dot_S5000x32_S32x128_S5000x128_1_0_0_1_n_n 32 rfl rfl).symm k) = ix2 r k := funext fun a => Fin.ext (by
    match a with
    | ⟨0, _⟩ => exact lhs_axis0 _ _
    | ⟨1, _⟩ => exact (lhs_axis1 _ _).trans hk)
  have er : dot_S5000x32_S32x128_S5000x128_1_0_0_1_n_n.rhsIdx (ix2 r j) ((ValueIdx.contrEquiv1 dot_S5000x32_S32x128_S5000x128_1_0_0_1_n_n 32 rfl rfl).symm k) = ix2 k j := funext fun a => Fin.ext (by
    match a with
    | ⟨0, _⟩ => exact (rhs_axis0 _ _).trans hk
    | ⟨1, _⟩ => exact rhs_axis1 _ _)
  rw [el, er]

theorem logistic_apply {s : Shape} {φ : FTy} (a : FVec Ideal s φ) (i : s.Idx) : logistic a i = Ideal.logistic (a i) := rfl

theorem lin_apply {φ₁ φ₂ : FTy} (a : FVec Ideal S5000x32 φ₁) (b : FVec Ideal S32x128 φ₂) (bias : FVec Ideal S1x128 .f32)
    (hb : S1x128.Broadcasts S5000x128) (r : Fin 5000) (j : Fin 128) :
    addf (matmul dot_S5000x32_S32x128_S5000x128_1_0_0_1_n_n none a b (constant S5000x128 .f32 0x00000000#32))
        (broadcastTo S5000x128 bias hb) (ix2 r j)
      = Cert.Spec.linRow (fun k : Fin 32 => a (ix2 r k)) (fun k : Fin 32 => b (ix2 k j)) (bias (ix2 (0 : Fin 1) j)) := by
  rw [addf_apply]
  unfold Cert.Spec.linRow
  congr 1
  · exact prod_apply a b r j
  · exact broadcastTo_1b_ab_apply bias hb r j

theorem pay_apply (x0 : Vec Ideal S5000x32 .f32) (x1 : Vec Ideal S32x128 .f32) (x2 : Vec Ideal S1x128 .f32) (r : Fin 5000) (q : Fin 64) :
    k8_pay1 (F := Ideal) x0 x1 x2 (ix2 r q)
      = Cert.Spec.gatedRow (fun k : Fin 32 => x0 (ix2 r k)) (fun (k : Fin 32) (j : Fin 128) => x1 (ix2 k j))
          (fun j : Fin 128 => x2 (ix2 (0 : Fin 1) j)) q := by
  unfold k8_pay1
  simp only [shapeCast_self]
  rw [mulf_apply, logistic_apply]
  unfold Cert.Spec.gatedRow
  refine congrArg₂ (· * ·) (congrArg Ideal.logistic ?_) ?_
  · refine (slice2_axis1_apply 0 _ _ r q (⟨q.val, by omega⟩ : Fin 128) (Nat.zero_add _).symm).trans ?_
    exact lin_apply _ _ x2 _ r _
  · refine (slice2_axis1_apply 64 _ _ r q (⟨64 + q.val, by omega⟩ : Fin 128) rfl).trans ?_
    exact lin_apply _ _ x2 _ r _

theorem zero_off : (![0, 0] : Fin 2 → Nat) = fun _ => 0 := funext fun a => by fin_cases a <;> rfl

theorem idx_facts : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = t.val ∧ win8_3.index t (1 : Fin 2) = 0 :=
  (by decide +kernel : ∀ t : Fin grid8.N, _)

theorem x_blk_apply (A : S100000x32.Idx → Elt Ideal .f32) (t : Fin cfg8.N) (r : Fin 5000) (k : Fin 32) (p : Fin 100000)
    (hp : p.val = t.val * 5000 + r.val) :
    (((cfg8.win 0).blk t).view.read (Elt Ideal) A : Vec Ideal S5000x32 .f32) (ix2 r k) = A (ix2 p k) := by
  obtain ⟨e0, e1, -⟩ := idx_facts t
  show A (((cfg8.win 0).blk t).view.emb (ix2 r k)) = A (ix2 p k)
  refine congrArg A (funext fun a => Fin.ext ?_)
  match a with
  | ⟨0, _⟩ => show win8_0.index t (0 : Fin 2) * 5000 + 1 * r.val = p.val; omega
  | ⟨1, _⟩ => show win8_0.index t (1 : Fin 2) * 32 + 1 * k.val = k.val; omega

theorem w_blk_apply (A : S32x128.Idx → Elt Ideal .f32) (t : Fin cfg8.N) (k : Fin 32) (j : Fin 128) :
    (((cfg8.win 1).blk t).view.read (Elt Ideal) A : Vec Ideal S32x128 .f32) (ix2 k j) = A (ix2 k j) := by
  obtain ⟨-, -, e0, e1, -⟩ := idx_facts t
  show A (((cfg8.win 1).blk t).view.emb (ix2 k j)) = A (ix2 k j)
  refine congrArg A (funext fun a => Fin.ext ?_)
  match a with
  | ⟨0, _⟩ => show win8_1.index t (0 : Fin 2) * 32 + 1 * k.val = k.val; omega
  | ⟨1, _⟩ => show win8_1.index t (1 : Fin 2) * 128 + 1 * j.val = j.val; omega

theorem b_blk_apply (A : S1x128.Idx → Elt Ideal .f32) (t : Fin cfg8.N) (z : Fin 1) (j : Fin 128) :
    (((cfg8.win 2).blk t).view.read (Elt Ideal) A : Vec Ideal S1x128 .f32) (ix2 z j) = A (ix2 z j) := by
  obtain ⟨-, -, -, -, e0, e1, -⟩ := idx_facts t
  show A (((cfg8.win 2).blk t).view.emb (ix2 z j)) = A (ix2 z j)
  refine congrArg A (funext fun a => Fin.ext ?_)
  match a with
  | ⟨0, _⟩ => show win8_2.index t (0 : Fin 2) * 1 + 1 * z.val = z.val; omega
  | ⟨1, _⟩ => show win8_2.index t (1 : Fin 2) * 128 + 1 * j.val = j.val; omega

theorem o_blk_emb (t : Fin cfg8.N) (r : Fin 5000) (q : Fin 64) (p : Fin 100000) (hp : p.val = t.val * 5000 + r.val) :
    ((cfg8.win 3).blk t).view.emb (ix2 r q) = (ix2 p q : S100000x64.Idx) := by
  obtain ⟨-, -, -, -, -, -, e0, e1⟩ := idx_facts t
  refine funext fun a => Fin.ext ?_
  match a with
  | ⟨0, _⟩ => show win8_3.index t (0 : Fin 2) * 5000 + 1 * r.val = p.val; omega
  | ⟨1, _⟩ => show win8_3.index t (1 : Fin 2) * 64 + 1 * q.val = q.val; omega

abbrev G (A0 : S100000x32.Idx → Elt Ideal .f32) (A1 : S32x128.Idx → Elt Ideal .f32) (A2 : S1x128.Idx → Elt Ideal .f32) :
    S100000x64.Idx → Elt Ideal .f32 := fun i =>
  Cert.Spec.gatedRow (fun k : Fin 32 => A0 (ix2 (⟨(i 0).val, (i 0).isLt⟩ : Fin 100000) k))
    (fun (k : Fin 32) (j : Fin 128) => A1 (ix2 k j))
    (fun j : Fin 128 => A2 (ix2 (0 : Fin 1) j))
    (⟨(i 1).val, (i 1).isLt⟩ : Fin 64)

theorem mem_blk (t : Fin cfg8.N) (i : S100000x64.Idx) :
    i ∈ ((cfg8.win 3).blk t).view.set ↔ ∀ a : Fin 2, win8_3.index t a * S5000x64.size a ≤ (i a).val ∧ (i a).val < win8_3.index t a * S5000x64.size a + S5000x64.size a := by
  show i ∈ ((View.whole main_v47).slice (win8_3.rect t)).set ↔ _
  rw [View.set_slice_whole, Rect.mem_set_unit]
  exact Iff.rfl

theorem cover (i : S100000x64.Idx) : ∃ t : Fin cfg8.N, (cfg8.win 3).flush t = true ∧ i ∈ ((cfg8.win 3).blk t).view.set := by
  have hi0 : (i 0).val < 100000 := (i 0).isLt
  have hi1 : (i 1).val < 64 := (i 1).isLt
  have hN : cfg8.N = 20 := N_8
  let t : Fin cfg8.N := ⟨(i 0).val / 5000, by rw [hN]; omega⟩
  obtain ⟨-, -, -, -, -, -, e0, e1⟩ := idx_facts t
  have ht : t.val = (i 0).val / 5000 := rfl
  refine ⟨t, flush8_3 t, ?_⟩
  rw [mem_blk]
  intro a
  match a with
  | ⟨0, _⟩ => show win8_3.index t (0 : Fin 2) * 5000 ≤ (i 0).val ∧ (i 0).val < win8_3.index t (0 : Fin 2) * 5000 + 5000; omega
  | ⟨1, _⟩ => show win8_3.index t (1 : Fin 2) * 64 ≤ (i 1).val ∧ (i 1).val < win8_3.index t (1 : Fin 2) * 64 + 64; omega

theorem flushed_eq (c : Dev nD) (t : Fin cfg8.N) :
    (dat8 (F := Ideal) V c).flushed 3 t
      = ((cfg8.win 3).blk t).view.read (Elt Ideal) (G (V c (Pipeline.arrRef spec8 0)) (V c (Pipeline.arrRef spec8 1)) (V c (Pipeline.arrRef spec8 2))) := by
  show (cfg8.win 3).cut (grid8.coords t) ((dat8 V c).after 3 t) = _
  rw [after8_3]
  unfold out8_3
  rw [View.canon_unit_zero zero_off]
  simp only [View.ld_unit_zero (S := S5000x32) zero_off, View.ld_unit_zero (S := S32x128) zero_off, View.ld_unit_zero (S := S1x128) zero_off]
  funext j
  obtain ⟨r, q, rfl⟩ : ∃ (r : Fin 5000) (q : Fin 64), j = ix2 r q := ⟨j 0, j 1, eq_ix2 j⟩
  have hp : t.val * 5000 + r.val < 100000 := by
    have hN : cfg8.N = 20 := N_8
    have := t.isLt; have := r.isLt; omega
  show k8_pay1 (F := Ideal) (iblk8 V c 0 t) (iblk8 V c 1 t) (iblk8 V c 2 t) (ix2 r q)
    = G (V c (Pipeline.arrRef spec8 0)) (V c (Pipeline.arrRef spec8 1)) (V c (Pipeline.arrRef spec8 2)) (((cfg8.win 3).blk t).view.emb (ix2 r q))
  rw [o_blk_emb t r q ⟨t.val * 5000 + r.val, hp⟩ rfl]
  refine (pay_apply (iblk8 V c 0 t) (iblk8 V c 1 t) (iblk8 V c 2 t) r q).trans ?_
  unfold iblk8
  show Cert.Spec.gatedRow _ _ _ _ = Cert.Spec.gatedRow _ _ _ _
  congr 1
  · funext k
    exact x_blk_apply (V c (Pipeline.arrRef spec8 0)) t r k ⟨t.val * 5000 + r.val, hp⟩ rfl
  · funext k j
    exact w_blk_apply (V c (Pipeline.arrRef spec8 1)) t k j
  · funext j
    exact b_blk_apply (V c (Pipeline.arrRef spec8 2)) t 0 j

theorem final (c : Dev nD) :
    (dat8 (F := Ideal) V c).arrAt 3 cfg8.N = G (V c (Pipeline.arrRef spec8 0)) (V c (Pipeline.arrRef spec8 1)) (V c (Pipeline.arrRef spec8 2)) :=
  (dat8 (F := Ideal) V c).arrAt_eq_of_cover 3 _ (fun t _ => flushed_eq V c t) cover

theorem value (c : Dev nD) (p : Fin 100000) (q : Fin 64) :
    (dat8 (F := Ideal) V c).arrAt 3 cfg8.N (ix2 p q)
      = Cert.Spec.gatedRow (fun k : Fin 32 => V c (Pipeline.arrRef spec8 0) (ix2 p k)) (fun (k : Fin 32) (j : Fin 128) => V c (Pipeline.arrRef spec8 1) (ix2 k j)) (fun j : Fin 128 => V c (Pipeline.arrRef spec8 2) (ix2 (0 : Fin 1) j)) q := by
  rw [final V c]

end Cert.KernelIdeal.Gated8

end
-- ==== Proof.RefOps.lean ====
import proofs.«411375_j87694642250038_1_alg».proof.Proof.Gen.ReferenceIdeal
import proofs.«411375_j87694642250038_1_alg».proof.Proof.Spec
import Idealize.ShloMosaic.Lib.Pipeline.Value
import Idealize.ShloMosaic.Lib.ValueIdx
import Idealize.ShloMosaic.PureOps.Ideal.Laws

noncomputable section

namespace Cert.ReferenceIdeal.RefOps

open Cert.ReferenceIdeal Cert.ReferenceIdeal.Gen Idealize.ShloMosaic Idealize.ShloMosaic.TcCoe Idealize.SL.Sem Idealize.ShloMosaic.StableHlo
open Idealize.ShloMosaic.ValueIdx
open scoped BigOperators

def rlinN (x : FVec Ideal S100000x16 .f32) (w : FVec Ideal S16x32 .f32) (b : FVec Ideal S32 .f32) : FVec Ideal S100000x32 .f32 :=
  addf (Host.dotGeneral dot_S100000x16_S16x32_S100000x32_1_0_0_1_n_n none x w)
    (broadcastInDim S100000x32 ![0, 1] bcast_S1x32_S100000x32_0_1 (broadcastInDim S1x32 ![1] bcast_S32_S1x32_1 b))

def rlinE (x : FVec Ideal S800000x8 .f32) (w : FVec Ideal S8x16 .f32) (b : FVec Ideal S16 .f32) : FVec Ideal S800000x16 .f32 :=
  addf (Host.dotGeneral dot_S800000x8_S8x16_S800000x16_1_0_0_1_n_n none x w)
    (broadcastInDim S800000x16 ![0, 1] bcast_S1x16_S800000x16_0_1 (broadcastInDim S1x16 ![1] bcast_S16_S1x16_1 b))

def rmsg (fs ts : FVec Ideal S800000x32 .f32) (e : FVec Ideal S800000x16 .f32) (w1 : FVec Ideal S80x32 .f32) (b1 : FVec Ideal S32 .f32)
    (w2 : FVec Ideal S32x32 .f32) (b2 : FVec Ideal S32 .f32) : FVec Ideal S800000x32 .f32 :=
  addf
    (Host.dotGeneral dot_S800000x32_S32x32_S800000x32_1_0_0_1_n_n none
      (maximumf
        (addf
          (Host.dotGeneral dot_S800000x80_S80x32_S800000x32_1_0_0_1_n_n none
            (concatenate S800000x80 1 [⟨S800000x32, fs⟩, ⟨S800000x32, ts⟩, ⟨S800000x16, e⟩] concatenates_S800000x32_S800000x32_S800000x16_S800000x80_d1)
            w1)
          (broadcastInDim S800000x32 ![0, 1] bcast_S1x32_S800000x32_0_1 (broadcastInDim S1x32 ![1] bcast_S32_S1x32_1 b1)))
        (broadcastInDim S800000x32 ![] bcast_S_S800000x32 (constant S_ .f32 0x00000000#32)))
      w2)
    (broadcastInDim S800000x32 ![0, 1] bcast_S1x32_S800000x32_0_1 (broadcastInDim S1x32 ![1] bcast_S32_S1x32_1 b2))

def rupd (agg h : FVec Ideal S100000x32 .f32) (w1 : FVec Ideal S64x64 .f32) (b1 : FVec Ideal S64 .f32)
    (w2 : FVec Ideal S64x32 .f32) (b2 : FVec Ideal S32 .f32) : FVec Ideal S100000x32 .f32 :=
  addf h
    (addf
      (Host.dotGeneral dot_S100000x64_S64x32_S100000x32_1_0_0_1_n_n none
        (maximumf
          (addf
            (Host.dotGeneral dot_S100000x64_S64x64_S100000x64_1_0_0_1_n_n none
              (concatenate S100000x64 1 [⟨S100000x32, agg⟩, ⟨S100000x32, h⟩] concatenates_S100000x32_S100000x32_S100000x64_d1)
              w1)
            (broadcastInDim S100000x64 ![0, 1] bcast_S1x64_S100000x64_0_1 (broadcastInDim S1x64 ![1] bcast_S64_S1x64_1 b1)))
          (broadcastInDim S100000x64 ![] bcast_S_S100000x64 (constant S_ .f32 0x00000000#32)))
        w2)
      (broadcastInDim S100000x32 ![0, 1] bcast_S1x32_S100000x32_0_1 (broadcastInDim S1x32 ![1] bcast_S32_S1x32_1 b2)))

def rgateLin (h : FVec Ideal S100000x32 .f32) (w : FVec Ideal S32x128 .f32) (b : FVec Ideal S128 .f32) : FVec Ideal S100000x128 .f32 :=
  addf (Host.dotGeneral dot_S100000x32_S32x128_S100000x128_1_0_0_1_n_n none h w)
    (broadcastInDim S100000x128 ![0, 1] bcast_S1x128_S100000x128_0_1 (broadcastInDim S1x128 ![1] bcast_S128_S1x128_1 b))

def rgated (h : FVec Ideal S100000x32 .f32) (w : FVec Ideal S32x128 .f32) (b : FVec Ideal S128 .f32) : FVec Ideal S100000x64 .f32 :=
  mulf
    (Host.divf (broadcastInDim S100000x64 ![] bcast_S_S100000x64 (constant S_ .f32 0x3F800000#32))
      (addf (broadcastInDim S100000x64 ![] bcast_S_S100000x64 (constant S_ .f32 0x3F800000#32))
        (Host.exp (Host.negf (extractStridedSlice S100000x64 ![0, 0] (rgateLin h w b) slices_S100000x128_S100000x64_0_0)))))
    (extractStridedSlice S100000x64 ![0, 64] (rgateLin h w b) slices_S100000x128_S100000x64_0_64)

theorem dot_apply {M K N : Nat} (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (l : FVec Ideal ⟨2, ![M, K]⟩ .f32) (r : FVec Ideal ⟨2, ![K, N]⟩ .f32) (p : Fin M) (q : Fin N) :
    Host.dotGeneral D none l r (ix2 p q) = ∑ k : Fin K, l (ix2 p k) * r (ix2 k q) := by
  obtain ⟨lc, rc, ln, rn, lb, rb, wf⟩ := D
  obtain rfl : lc = [1] := hlc
  obtain rfl : rc = [0] := hrc
  obtain rfl : ln = [0] := hln
  obtain rfl : rn = [1] := hrn
  obtain rfl : lb = [] := hlb
  obtain rfl : rb = [] := hrb
  set D : DotDims ⟨2, ![M, K]⟩ ⟨2, ![K, N]⟩ ⟨2, ![M, N]⟩ := ⟨[1], [0], [0], [1], [], [], wf⟩ with hD
  simp only [Host.dotGeneral]
  rw [Ideal.dotGeneral_apply, ← Equiv.sum_comp (contrEquiv1 D K rfl rfl).symm]
  refine Finset.sum_congr rfl fun k _ => ?_
  have hk := contrEquiv1_symm_val D K rfl rfl k

  have l0 : ∀ c : D.contr.Idx, (D.lhsIdx (ix2 p q) c 0).val = p.val := fun c => by
    unfold DotDims.lhsIdx
    rw [dif_neg (show ¬(0 : Fin 2) ∈ D.lhsBatch from List.not_mem_nil), dif_pos (show (0 : Fin 2) ∈ D.lhsNonContracting from List.mem_singleton.mpr rfl)]
    rfl
  have l1 : ∀ c : D.contr.Idx, (D.lhsIdx (ix2 p q) c 1).val = (c ⟨0, Nat.one_pos⟩).val := fun c =>
    D.lhsIdx_val_of_single rfl (ix2 p q) c

  have r0 : ∀ c : D.contr.Idx, (D.rhsIdx (ix2 p q) c 0).val = (c ⟨0, Nat.one_pos⟩).val := fun c =>
    D.rhsIdx_val_of_single rfl (ix2 p q) c
  have r1 : ∀ c : D.contr.Idx, (D.rhsIdx (ix2 p q) c 1).val = q.val := fun c => by
    unfold DotDims.rhsIdx
    rw [dif_neg (show ¬(1 : Fin 2) ∈ D.rhsBatch from List.not_mem_nil), dif_pos (show (1 : Fin 2) ∈ D.rhsNonContracting from List.mem_singleton.mpr rfl)]
    rfl
  have el : D.lhsIdx (ix2 p q) ((contrEquiv1 D K rfl rfl).symm k) = ix2 p k := funext fun a => Fin.ext (by
    match a with
    | ⟨0, _⟩ => exact l0 _
    | ⟨1, _⟩ => exact (l1 _).trans hk)
  have er : D.rhsIdx (ix2 p q) ((contrEquiv1 D K rfl rfl).symm k) = ix2 k q := funext fun a => Fin.ext (by
    match a with
    | ⟨0, _⟩ => exact (r0 _).trans hk
    | ⟨1, _⟩ => exact r1 _)
  rw [el, er]

theorem bias_apply {M N : Nat} {α : Type} (h1 : (⟨1, ![N]⟩ : Shape).BroadcastsInDim ⟨2, ![1, N]⟩ ![1])
    (h2 : (⟨2, ![1, N]⟩ : Shape).BroadcastsInDim ⟨2, ![M, N]⟩ ![0, 1]) (b : (⟨1, ![N]⟩ : Shape).Idx → α) (p : Fin M) (q : Fin N) :
    broadcastInDim ⟨2, ![M, N]⟩ ![0, 1] h2 (broadcastInDim ⟨2, ![1, N]⟩ ![1] h1 b) (ix2 p q) = b (ix1 q) := by
  generalize hy : broadcastInDim ⟨2, ![1, N]⟩ ![1] h1 b = y
  have e2 : broadcastInDim ⟨2, ![M, N]⟩ ![0, 1] h2 y (ix2 p q) = y (ix2 ⟨0, Nat.one_pos⟩ q) :=
    broadcastInDim_apply _ h2 y (ix2 p q) (ix2 ⟨0, Nat.one_pos⟩ q) (fun a => match a with
      | ⟨0, _⟩ => by show 0 = if (1 : Nat) = 1 then 0 else p.val; rw [if_pos rfl]
      | ⟨1, _⟩ => by
          show q.val = if N = 1 then 0 else q.val
          split
          · have := q.isLt; omega
          · rfl)
  rw [e2, ← hy]
  exact broadcastInDim_apply _ h1 b (ix2 ⟨0, Nat.one_pos⟩ q) (ix1 q) (fun a => match a with
    | ⟨0, _⟩ => by
        show q.val = if N = 1 then 0 else q.val
        split
        · have := q.isLt; omega
        · rfl)

theorem splat_apply {M N : Nat} {α : Type} (h0 : (⟨0, ![]⟩ : Shape).BroadcastsInDim ⟨2, ![M, N]⟩ ![])
    (c : (⟨0, ![]⟩ : Shape).Idx → α) (j : (⟨2, ![M, N]⟩ : Shape).Idx) :
    broadcastInDim ⟨2, ![M, N]⟩ ![] h0 c j = c ix0 :=
  broadcastInDim_apply _ h0 c j ix0 (fun a => a.elim0)

theorem ofBits_one_f32 : Ideal.ofBits .f32 0x3F800000#32 = 1 := by
  simp [Ideal.ofBits, Ideal.ieee]

  rw [← EReal.coe_mul, ← EReal.coe_one, EReal.coe_eq_coe_iff]
  norm_num

theorem cat3_apply (fs ts : FVec Ideal S800000x32 .f32) (e : FVec Ideal S800000x16 .f32) (p : Fin 800000) (k : Fin 80) :
    concatenate S800000x80 1 [⟨S800000x32, fs⟩, ⟨S800000x32, ts⟩, ⟨S800000x16, e⟩]
        concatenates_S800000x32_S800000x32_S800000x16_S800000x80_d1 (ix2 p k) =
      Cert.Spec.cat3 (fun k : Fin 32 => fs (ix2 p k)) (fun k : Fin 32 => ts (ix2 p k)) (fun k : Fin 16 => e (ix2 p k)) k := by
  unfold Cert.Spec.cat3
  by_cases h1 : k.val < 32
  · rw [dif_pos h1]
    exact concatenate_apply_piece 1 [⟨S800000x32, fs⟩, ⟨S800000x32, ts⟩, ⟨S800000x16, e⟩] concatenates_S800000x32_S800000x32_S800000x16_S800000x80_d1 (ix2 p k)
      0 (by show (0 : Nat) < 3; omega) S800000x32 fs rfl rfl 0 rfl (ix2 p ⟨k.val, h1⟩)
      (fun b => match b with
        | ⟨0, _⟩ => fun _ => rfl
        | ⟨1, _⟩ => fun hb => absurd rfl hb)
      (Nat.zero_add _)
  · rw [dif_neg h1]
    by_cases h2 : k.val < 64
    · rw [dif_pos h2]
      exact concatenate_apply_piece 1 [⟨S800000x32, fs⟩, ⟨S800000x32, ts⟩, ⟨S800000x16, e⟩] concatenates_S800000x32_S800000x32_S800000x16_S800000x80_d1 (ix2 p k)
        1 (by show (1 : Nat) < 3; omega) S800000x32 ts rfl rfl 32 rfl (ix2 p ⟨k.val - 32, by omega⟩)
        (fun b => match b with
          | ⟨0, _⟩ => fun _ => rfl
          | ⟨1, _⟩ => fun hb => absurd rfl hb)
        (by show 32 + (k.val - 32) = k.val; omega)
    · rw [dif_neg h2]
      exact concatenate_apply_piece 1 [⟨S800000x32, fs⟩, ⟨S800000x32, ts⟩, ⟨S800000x16, e⟩] concatenates_S800000x32_S800000x32_S800000x16_S800000x80_d1 (ix2 p k)
        2 (by show (2 : Nat) < 3; omega) S800000x16 e rfl rfl 64 rfl (ix2 p ⟨k.val - 64, by have := k.isLt; omega⟩)
        (fun b => match b with
          | ⟨0, _⟩ => fun _ => rfl
          | ⟨1, _⟩ => fun hb => absurd rfl hb)
        (by show 64 + (k.val - 64) = k.val; omega)

theorem cat2_apply (a h : FVec Ideal S100000x32 .f32) (p : Fin 100000) (k : Fin 64) :
    concatenate S100000x64 1 [⟨S100000x32, a⟩, ⟨S100000x32, h⟩] concatenates_S100000x32_S100000x32_S100000x64_d1 (ix2 p k) =
      Cert.Spec.cat2 (fun k : Fin 32 => a (ix2 p k)) (fun k : Fin 32 => h (ix2 p k)) k := by
  unfold Cert.Spec.cat2
  by_cases h1 : k.val < 32
  · rw [dif_pos h1]
    exact concatenate_pair_apply_left 1 a h concatenates_S100000x32_S100000x32_S100000x64_d1 (ix2 p k) rfl (ix2 p ⟨k.val, h1⟩)
      (fun b => match b with
        | ⟨0, _⟩ => rfl
        | ⟨1, _⟩ => rfl)
  · rw [dif_neg h1]
    exact concatenate_pair_apply_right 1 a h concatenates_S100000x32_S100000x32_S100000x64_d1 (ix2 p k) rfl rfl
      (ix2 p ⟨k.val - 32, by have := k.isLt; omega⟩)
      (fun b => match b with
        | ⟨0, _⟩ => fun _ => rfl
        | ⟨1, _⟩ => fun hb => absurd rfl hb)
      (by show (k.val - 32) + 32 = k.val; omega)

theorem rlinN_apply (x : FVec Ideal S100000x16 .f32) (w : FVec Ideal S16x32 .f32) (b : FVec Ideal S32 .f32) (p : Fin 100000) (q : Fin 32) :
    rlinN x w b (ix2 p q) = Cert.Spec.linRow (fun k : Fin 16 => x (ix2 p k)) (fun k : Fin 16 => w (ix2 k q)) (b (ix1 q)) :=
  congrArg₂ (· + ·) (dot_apply dot_S100000x16_S16x32_S100000x32_1_0_0_1_n_n rfl rfl rfl rfl rfl rfl x w p q)
    (bias_apply bcast_S32_S1x32_1 bcast_S1x32_S100000x32_0_1 b p q)

theorem rlinE_apply (x : FVec Ideal S800000x8 .f32) (w : FVec Ideal S8x16 .f32) (b : FVec Ideal S16 .f32) (p : Fin 800000) (q : Fin 16) :
    rlinE x w b (ix2 p q) = Cert.Spec.linRow (fun k : Fin 8 => x (ix2 p k)) (fun k : Fin 8 => w (ix2 k q)) (b (ix1 q)) :=
  congrArg₂ (· + ·) (dot_apply dot_S800000x8_S8x16_S800000x16_1_0_0_1_n_n rfl rfl rfl rfl rfl rfl x w p q)
    (bias_apply bcast_S16_S1x16_1 bcast_S1x16_S800000x16_0_1 b p q)

theorem rmsg_apply (fs ts : FVec Ideal S800000x32 .f32) (e : FVec Ideal S800000x16 .f32) (w1 : FVec Ideal S80x32 .f32) (b1 : FVec Ideal S32 .f32)
    (w2 : FVec Ideal S32x32 .f32) (b2 : FVec Ideal S32 .f32) (p : Fin 800000) (q : Fin 32) :
    rmsg fs ts e w1 b1 w2 b2 (ix2 p q) =
      Cert.Spec.msgRow (fun k : Fin 32 => fs (ix2 p k)) (fun k : Fin 32 => ts (ix2 p k)) (fun k : Fin 16 => e (ix2 p k))
        (fun (k : Fin 80) (j : Fin 32) => w1 (ix2 k j)) (fun j : Fin 32 => b1 (ix1 j))
        (fun (k : Fin 32) (j : Fin 32) => w2 (ix2 k j)) (fun j : Fin 32 => b2 (ix1 j)) q := by
  unfold rmsg Cert.Spec.msgRow Cert.Spec.mlp2

  generalize hC : concatenate S800000x80 1 [⟨S800000x32, fs⟩, ⟨S800000x32, ts⟩, ⟨S800000x16, e⟩]
    concatenates_S800000x32_S800000x32_S800000x16_S800000x80_d1 = C
  have hCa : ∀ k : Fin 80, C (ix2 p k) =
      Cert.Spec.cat3 (fun k : Fin 32 => fs (ix2 p k)) (fun k : Fin 32 => ts (ix2 p k)) (fun k : Fin 16 => e (ix2 p k)) k :=
    fun k => by rw [← hC]; exact cat3_apply fs ts e p k
  generalize hH : maximumf
      (addf (Host.dotGeneral dot_S800000x80_S80x32_S800000x32_1_0_0_1_n_n none C w1)
        (broadcastInDim S800000x32 ![0, 1] bcast_S1x32_S800000x32_0_1 (broadcastInDim S1x32 ![1] bcast_S32_S1x32_1 b1)))
      (broadcastInDim S800000x32 ![] bcast_S_S800000x32 (constant S_ .f32 0x00000000#32)) = H

  have hHa : ∀ j : Fin 32, H (ix2 p j) =
      Cert.Spec.hidden (Cert.Spec.cat3 (fun k : Fin 32 => fs (ix2 p k)) (fun k : Fin 32 => ts (ix2 p k)) (fun k : Fin 16 => e (ix2 p k)))
        (fun (k : Fin 80) (j : Fin 32) => w1 (ix2 k j)) (fun j : Fin 32 => b1 (ix1 j)) j := fun j => by
    rw [← hH]
    unfold Cert.Spec.hidden Cert.Spec.linRow
    refine congrArg₂ max (congrArg₂ (· + ·) ?_ (bias_apply bcast_S32_S1x32_1 bcast_S1x32_S800000x32_0_1 b1 p j)) ?_
    · refine (dot_apply dot_S800000x80_S80x32_S800000x32_1_0_0_1_n_n rfl rfl rfl rfl rfl rfl C w1 p j).trans ?_
      exact Finset.sum_congr rfl fun k _ => congrArg (· * w1 (ix2 k j)) (hCa k)
    · exact (splat_apply bcast_S_S800000x32 _ (ix2 p j)).trans Ideal.ofBits_zero_f32
  unfold Cert.Spec.linRow
  refine congrArg₂ (· + ·) ?_ (bias_apply bcast_S32_S1x32_1 bcast_S1x32_S800000x32_0_1 b2 p q)
  refine (dot_apply dot_S800000x32_S32x32_S800000x32_1_0_0_1_n_n rfl rfl rfl rfl rfl rfl H w2 p q).trans ?_
  exact Finset.sum_congr rfl fun j _ => congrArg (· * w2 (ix2 j q)) (hHa j)

theorem rupd_apply (agg h : FVec Ideal S100000x32 .f32) (w1 : FVec Ideal S64x64 .f32) (b1 : FVec Ideal S64 .f32)
    (w2 : FVec Ideal S64x32 .f32) (b2 : FVec Ideal S32 .f32) (p : Fin 100000) (q : Fin 32) :
    rupd agg h w1 b1 w2 b2 (ix2 p q) =
      Cert.Spec.updRow (fun k : Fin 32 => agg (ix2 p k)) (fun k : Fin 32 => h (ix2 p k))
        (fun (k : Fin 64) (j : Fin 64) => w1 (ix2 k j)) (fun j : Fin 64 => b1 (ix1 j))
        (fun (k : Fin 64) (j : Fin 32) => w2 (ix2 k j)) (fun j : Fin 32 => b2 (ix1 j)) q := by
  unfold rupd Cert.Spec.updRow Cert.Spec.mlp2
  generalize hC : concatenate S100000x64 1 [⟨S100000x32, agg⟩, ⟨S100000x32, h⟩] concatenates_S100000x32_S100000x32_S100000x64_d1 = C
  have hCa : ∀ k : Fin 64, C (ix2 p k) = Cert.Spec.cat2 (fun k : Fin 32 => agg (ix2 p k)) (fun k : Fin 32 => h (ix2 p k)) k :=
    fun k => by rw [← hC]; exact cat2_apply agg h p k
  generalize hH : maximumf
      (addf (Host.dotGeneral dot_S100000x64_S64x64_S100000x64_1_0_0_1_n_n none C w1)
        (broadcastInDim S100000x64 ![0, 1] bcast_S1x64_S100000x64_0_1 (broadcastInDim S1x64 ![1] bcast_S64_S1x64_1 b1)))
      (broadcastInDim S100000x64 ![] bcast_S_S100000x64 (constant S_ .f32 0x00000000#32)) = H

  have hHa : ∀ j : Fin 64, H (ix2 p j) =
      Cert.Spec.hidden (Cert.Spec.cat2 (fun k : Fin 32 => agg (ix2 p k)) (fun k : Fin 32 => h (ix2 p k)))
        (fun (k : Fin 64) (j : Fin 64) => w1 (ix2 k j)) (fun j : Fin 64 => b1 (ix1 j)) j := fun j => by
    rw [← hH]
    unfold Cert.Spec.hidden Cert.Spec.linRow
    refine congrArg₂ max (congrArg₂ (· + ·) ?_ (bias_apply bcast_S64_S1x64_1 bcast_S1x64_S100000x64_0_1 b1 p j)) ?_
    · refine (dot_apply dot_S100000x64_S64x64_S100000x64_1_0_0_1_n_n rfl rfl rfl rfl rfl rfl C w1 p j).trans ?_
      exact Finset.sum_congr rfl fun k _ => congrArg (· * w1 (ix2 k j)) (hCa k)
    · exact (splat_apply bcast_S_S100000x64 _ (ix2 p j)).trans Ideal.ofBits_zero_f32
  unfold Cert.Spec.linRow

  refine congrArg₂ (· + ·) rfl (congrArg₂ (· + ·) ?_ (bias_apply bcast_S32_S1x32_1 bcast_S1x32_S100000x32_0_1 b2 p q))
  refine (dot_apply dot_S100000x64_S64x32_S100000x32_1_0_0_1_n_n rfl rfl rfl rfl rfl rfl H w2 p q).trans ?_
  exact Finset.sum_congr rfl fun j _ => congrArg (· * w2 (ix2 j q)) (hHa j)

theorem rgateLin_apply (h : FVec Ideal S100000x32 .f32) (w : FVec Ideal S32x128 .f32) (b : FVec Ideal S128 .f32) (p : Fin 100000) (r : Fin 128) :
    rgateLin h w b (ix2 p r) = Cert.Spec.linRow (fun k : Fin 32 => h (ix2 p k)) (fun k : Fin 32 => w (ix2 k r)) (b (ix1 r)) :=
  congrArg₂ (· + ·) (dot_apply dot_S100000x32_S32x128_S100000x128_1_0_0_1_n_n rfl rfl rfl rfl rfl rfl h w p r)
    (bias_apply bcast_S128_S1x128_1 bcast_S1x128_S100000x128_0_1 b p r)

theorem rgated_apply (h : FVec Ideal S100000x32 .f32) (w : FVec Ideal S32x128 .f32) (b : FVec Ideal S128 .f32) (p : Fin 100000) (q : Fin 64) :
    rgated h w b (ix2 p q) =
      Cert.Spec.gatedRow (fun k : Fin 32 => h (ix2 p k)) (fun (k : Fin 32) (j : Fin 128) => w (ix2 k j)) (fun j : Fin 128 => b (ix1 j)) q := by
  unfold rgated Cert.Spec.gatedRow
  generalize hY : rgateLin h w b = Y
  have hYa : ∀ r : Fin 128, Y (ix2 p r) =
      Cert.Spec.linRow (fun k : Fin 32 => h (ix2 p k)) (fun k : Fin 32 => w (ix2 k r)) (b (ix1 r)) :=
    fun r => by rw [← hY]; exact rgateLin_apply h w b p r

  have s0 : extractStridedSlice S100000x64 ![0, 0] Y slices_S100000x128_S100000x64_0_0 (ix2 p q) =
      Y (ix2 p (⟨q.val, by have := q.isLt; omega⟩ : Fin 128)) :=
    extractStridedSlice_apply ![0, 0] Y slices_S100000x128_S100000x64_0_0 (ix2 p q) (ix2 p (⟨q.val, by have := q.isLt; omega⟩ : Fin 128))
      (fun a => match a with
        | ⟨0, _⟩ => by show p.val = 0 + p.val; omega
        | ⟨1, _⟩ => by show q.val = 0 + q.val; omega)
  have s1 : extractStridedSlice S100000x64 ![0, 64] Y slices_S100000x128_S100000x64_0_64 (ix2 p q) =
      Y (ix2 p (⟨64 + q.val, by have := q.isLt; omega⟩ : Fin 128)) :=
    extractStridedSlice_apply ![0, 64] Y slices_S100000x128_S100000x64_0_64 (ix2 p q) (ix2 p (⟨64 + q.val, by have := q.isLt; omega⟩ : Fin 128))
      (fun a => match a with
        | ⟨0, _⟩ => by show p.val = 0 + p.val; omega
        | ⟨1, _⟩ => by show 64 + q.val = 64 + q.val; rfl)

  have one : broadcastInDim S100000x64 ![] bcast_S_S100000x64 (constant (F := Ideal) S_ .f32 0x3F800000#32) (ix2 p q) = 1 :=
    (splat_apply bcast_S_S100000x64 _ (ix2 p q)).trans ofBits_one_f32
  show Ideal.div (broadcastInDim S100000x64 ![] bcast_S_S100000x64 (constant (F := Ideal) S_ .f32 0x3F800000#32) (ix2 p q))
        (broadcastInDim S100000x64 ![] bcast_S_S100000x64 (constant (F := Ideal) S_ .f32 0x3F800000#32) (ix2 p q)
          + Ideal.exp (-(extractStridedSlice S100000x64 ![0, 0] Y slices_S100000x128_S100000x64_0_0 (ix2 p q))))
      * extractStridedSlice S100000x64 ![0, 64] Y slices_S100000x128_S100000x64_0_64 (ix2 p q) = _
  rw [one, s0, s1, hYa, hYa]
  rfl

end Cert.ReferenceIdeal.RefOps

end
-- ==== Proof.SpecAlg.lean ====
import proofs.«411375_j87694642250038_1_alg».proof.Proof.Spec
import Mathlib.Algebra.BigOperators.Fin
import Mathlib.Data.EReal.Basic

noncomputable section

namespace Cert.Spec

open scoped BigOperators

theorem sum_cut {a b : Nat} (f : Fin (a + b) → EReal) :
    (∑ k : Fin (a + b), f k) = (∑ k : Fin a, f (Fin.castAdd b k)) + (∑ k : Fin b, f (Fin.natAdd a k)) :=
  Fin.sum_univ_add f

theorem cat3_lo (fs ts : Fin 32 → EReal) (e : Fin 16 → EReal) (x : Fin 80) (k : Fin 32) (hx : x.val = k.val) :
    cat3 fs ts e x = fs k := by
  have h : x.val < 32 := by omega
  unfold cat3
  rw [dif_pos h]
  exact congrArg fs (Fin.ext hx)

theorem cat3_mid (fs ts : Fin 32 → EReal) (e : Fin 16 → EReal) (x : Fin 80) (k : Fin 32) (hx : x.val = 32 + k.val) :
    cat3 fs ts e x = ts k := by
  have h : ¬ x.val < 32 := by omega
  have h' : x.val < 64 := by omega
  unfold cat3
  rw [dif_neg h, dif_pos h']
  exact congrArg ts (Fin.ext (by simp only []; omega))

theorem cat3_hi (fs ts : Fin 32 → EReal) (e : Fin 16 → EReal) (x : Fin 80) (k : Fin 16) (hx : x.val = 64 + k.val) :
    cat3 fs ts e x = e k := by
  have h : ¬ x.val < 32 := by omega
  have h' : ¬ x.val < 64 := by omega
  unfold cat3
  rw [dif_neg h, dif_neg h']
  exact congrArg e (Fin.ext (by simp only []; omega))

theorem cat2_lo (a h : Fin 32 → EReal) (x : Fin 64) (k : Fin 32) (hx : x.val = k.val) : cat2 a h x = a k := by
  have hk : x.val < 32 := by omega
  unfold cat2
  rw [dif_pos hk]
  exact congrArg a (Fin.ext hx)

theorem cat2_hi (a h : Fin 32 → EReal) (x : Fin 64) (k : Fin 32) (hx : x.val = 32 + k.val) : cat2 a h x = h k := by
  have hk : ¬ x.val < 32 := by omega
  unfold cat2
  rw [dif_neg hk]
  exact congrArg h (Fin.ext (by simp only []; omega))

theorem cat3_dot (fs ts : Fin 32 → EReal) (e : Fin 16 → EReal) (w : Fin 80 → EReal) :
    (∑ k : Fin 80, cat3 fs ts e k * w k)
      = ((∑ k : Fin 32, fs k * w ⟨0 + k.val, by omega⟩) + (∑ k : Fin 32, ts k * w ⟨32 + k.val, by omega⟩))
          + (∑ k : Fin 16, e k * w ⟨64 + k.val, by omega⟩) := by
  have h1 := sum_cut (a := 32 + 32) (b := 16) (fun k : Fin (32 + 32 + 16) => cat3 fs ts e k * w k)
  have h2 := sum_cut (a := 32) (b := 32)
    (fun k : Fin (32 + 32) => cat3 fs ts e (Fin.castAdd 16 k) * w (Fin.castAdd 16 k))
  refine h1.trans ?_
  rw [h2]
  refine congrArg₂ (· + ·) (congrArg₂ (· + ·) ?_ ?_) ?_
  · refine Finset.sum_congr rfl (fun k _ => ?_)
    have hx : (Fin.castAdd 16 (Fin.castAdd 32 k) : Fin 80) = ⟨0 + k.val, by omega⟩ := Fin.ext (by simp <;> omega)
    show cat3 fs ts e (Fin.castAdd 16 (Fin.castAdd 32 k)) * w (Fin.castAdd 16 (Fin.castAdd 32 k)) = _
    rw [hx, cat3_lo fs ts e _ k (by simp)]
  · refine Finset.sum_congr rfl (fun k _ => ?_)
    have hx : (Fin.castAdd 16 (Fin.natAdd 32 k) : Fin 80) = ⟨32 + k.val, by omega⟩ := Fin.ext (by simp <;> omega)
    show cat3 fs ts e (Fin.castAdd 16 (Fin.natAdd 32 k)) * w (Fin.castAdd 16 (Fin.natAdd 32 k)) = _
    rw [hx, cat3_mid fs ts e _ k (by simp)]
  · refine Finset.sum_congr rfl (fun k _ => ?_)
    have hx : (Fin.natAdd (32 + 32) k : Fin 80) = ⟨64 + k.val, by omega⟩ := Fin.ext (by simp <;> omega)
    show cat3 fs ts e (Fin.natAdd (32 + 32) k) * w (Fin.natAdd (32 + 32) k) = _
    rw [hx, cat3_hi fs ts e _ k (by simp)]

theorem cat2_dot (a h : Fin 32 → EReal) (w : Fin 64 → EReal) :
    (∑ k : Fin 64, cat2 a h k * w k)
      = (∑ k : Fin 32, a k * w ⟨0 + k.val, by omega⟩) + (∑ k : Fin 32, h k * w ⟨32 + k.val, by omega⟩) := by
  have h1 := sum_cut (a := 32) (b := 32) (fun k : Fin (32 + 32) => cat2 a h k * w k)
  refine h1.trans ?_
  refine congrArg₂ (· + ·) ?_ ?_
  · refine Finset.sum_congr rfl (fun k _ => ?_)
    have hx : (Fin.castAdd 32 k : Fin 64) = ⟨0 + k.val, by omega⟩ := Fin.ext (by simp <;> omega)
    show cat2 a h (Fin.castAdd 32 k) * w (Fin.castAdd 32 k) = _
    rw [hx, cat2_lo a h _ k (by simp)]
  · refine Finset.sum_congr rfl (fun k _ => ?_)
    have hx : (Fin.natAdd 32 k : Fin 64) = ⟨32 + k.val, by omega⟩ := Fin.ext (by simp <;> omega)
    show cat2 a h (Fin.natAdd 32 k) * w (Fin.natAdd 32 k) = _
    rw [hx, cat2_hi a h _ k (by simp)]

theorem msgRowSplit_eq (fs ts : Fin 32 → EReal) (e : Fin 16 → EReal) (w1 : Fin 80 → Fin 32 → EReal) (b1 : Fin 32 → EReal)
    (w2 : Fin 32 → Fin 32 → EReal) (b2 : Fin 32 → EReal) (q : Fin 32) :
    msgRowSplit fs ts e (rowsFrom 32 0 (by omega) w1) (rowsFrom 32 32 (by omega) w1) (rowsFrom 16 64 (by omega) w1) b1 w2 b2 q
      = msgRow fs ts e w1 b1 w2 b2 q := by
  have hh : (fun j => max ((((∑ k : Fin 32, fs k * rowsFrom 32 0 (by omega) w1 k j)
        + (∑ k : Fin 32, ts k * rowsFrom 32 32 (by omega) w1 k j))
        + (∑ k : Fin 16, e k * rowsFrom 16 64 (by omega) w1 k j)) + b1 j) 0)
      = hidden (cat3 fs ts e) w1 b1 := by
    funext j
    unfold hidden linRow
    rw [cat3_dot fs ts e (fun k => w1 k j)]
    rfl
  unfold msgRowSplit msgRow mlp2
  rw [hh]

theorem updRowSplit_eq (agg h : Fin 32 → EReal) (w1 : Fin 64 → Fin 64 → EReal) (b1 : Fin 64 → EReal)
    (w2 : Fin 64 → Fin 32 → EReal) (b2 : Fin 32 → EReal) (q : Fin 32) :
    updRowSplit agg h (rowsFrom 32 0 (by omega) w1) (rowsFrom 32 32 (by omega) w1) b1 w2 b2 q = updRow agg h w1 b1 w2 b2 q := by
  have hh : (fun j => max (((∑ k : Fin 32, agg k * rowsFrom 32 0 (by omega) w1 k j)
        + (∑ k : Fin 32, h k * rowsFrom 32 32 (by omega) w1 k j)) + b1 j) 0)
      = hidden (cat2 agg h) w1 b1 := by
    funext j
    unfold hidden linRow
    rw [cat2_dot agg h (fun k => w1 k j)]
    rfl
  unfold updRowSplit updRow mlp2
  rw [hh]

end Cert.Spec

end
-- ==== Proof.Bridge.lean ====
import proofs.«411375_j87694642250038_1_alg».proof.Proof.RefOps
import proofs.«411375_j87694642250038_1_alg».proof.Proof.SpecAlg
import Idealize.ShloMosaic.Lib.ValueIdx

noncomputable section

namespace Cert.Bridge

open Cert.ReferenceIdeal Cert.ReferenceIdeal.RefOps Cert.Spec Idealize.ShloMosaic Idealize.ShloMosaic.ValueIdx

theorem funext_ix2 {α : Type} {n0 n1 : Nat} (f g : (⟨2, ![n0, n1]⟩ : Shape).Idx → α)
    (h : ∀ (p : Fin n0) (q : Fin n1), f (ix2 p q) = g (ix2 p q)) : f = g :=
  funext fun i => by rw [eq_ix2 i]; exact h _ _

theorem linN (out : FVec Ideal S100000x32 .f32) (x : FVec Ideal S100000x16 .f32) (w : FVec Ideal S16x32 .f32)
    (br : FVec Ideal S1x32 .f32) (b : FVec Ideal S32 .f32)
    (hout : ∀ (p : Fin 100000) (q : Fin 32), out (ix2 p q) = linRow (fun k : Fin 16 => x (ix2 p k)) (fun k : Fin 16 => w (ix2 k q)) (br (ix2 (0 : Fin 1) q)))
    (hb : ∀ q : Fin 32, br (ix2 (0 : Fin 1) q) = b (ix1 q)) : out = rlinN x w b :=
  funext_ix2 _ _ fun p q => by rw [hout, rlinN_apply, hb]

theorem linE (out : FVec Ideal S800000x16 .f32) (x : FVec Ideal S800000x8 .f32) (w : FVec Ideal S8x16 .f32)
    (br : FVec Ideal S1x16 .f32) (b : FVec Ideal S16 .f32)
    (hout : ∀ (p : Fin 800000) (q : Fin 16), out (ix2 p q) = linRow (fun k : Fin 8 => x (ix2 p k)) (fun k : Fin 8 => w (ix2 k q)) (br (ix2 (0 : Fin 1) q)))
    (hb : ∀ q : Fin 16, br (ix2 (0 : Fin 1) q) = b (ix1 q)) : out = rlinE x w b :=
  funext_ix2 _ _ fun p q => by rw [hout, rlinE_apply, hb]

theorem msg (out fs ts : FVec Ideal S800000x32 .f32) (e : FVec Ideal S800000x16 .f32)
    (w1a w1b : FVec Ideal S32x32 .f32) (w1c : FVec Ideal S16x32 .f32) (b1r : FVec Ideal S1x32 .f32) (w2 : FVec Ideal S32x32 .f32) (b2r : FVec Ideal S1x32 .f32)
    (x9 : FVec Ideal S80x32 .f32) (x10 x12 : FVec Ideal S32 .f32)
    (hout : ∀ (p : Fin 800000) (q : Fin 32), out (ix2 p q) =
      msgRowSplit (fun k : Fin 32 => fs (ix2 p k)) (fun k : Fin 32 => ts (ix2 p k)) (fun k : Fin 16 => e (ix2 p k))
        (fun (k : Fin 32) (j : Fin 32) => w1a (ix2 k j)) (fun (k : Fin 32) (j : Fin 32) => w1b (ix2 k j)) (fun (k : Fin 16) (j : Fin 32) => w1c (ix2 k j))
        (fun j : Fin 32 => b1r (ix2 (0 : Fin 1) j)) (fun (k : Fin 32) (j : Fin 32) => w2 (ix2 k j)) (fun j : Fin 32 => b2r (ix2 (0 : Fin 1) j)) q)
    (ha : ∀ (k : Fin 32) (j : Fin 32), w1a (ix2 k j) = x9 (ix2 (⟨0 + k.val, by omega⟩ : Fin 80) j))
    (hb : ∀ (k : Fin 32) (j : Fin 32), w1b (ix2 k j) = x9 (ix2 (⟨32 + k.val, by omega⟩ : Fin 80) j))
    (hc : ∀ (k : Fin 16) (j : Fin 32), w1c (ix2 k j) = x9 (ix2 (⟨64 + k.val, by omega⟩ : Fin 80) j))
    (h1 : ∀ j : Fin 32, b1r (ix2 (0 : Fin 1) j) = x10 (ix1 j)) (h2 : ∀ j : Fin 32, b2r (ix2 (0 : Fin 1) j) = x12 (ix1 j)) :
    out = rmsg fs ts e x9 x10 w2 x12 :=
  funext_ix2 _ _ fun p q => by
    rw [hout, rmsg_apply]
    simp only [ha, hb, hc, h1, h2]
    exact msgRowSplit_eq _ _ _ (fun (k : Fin 80) (j : Fin 32) => x9 (ix2 k j)) _ _ _ q

theorem upd (out agg h : FVec Ideal S100000x32 .f32) (w1a w1b : FVec Ideal (⟨2, ![32, 64]⟩ : Shape) .f32) (b1r : FVec Ideal S1x64 .f32)
    (w2 : FVec Ideal S64x32 .f32) (b2r : FVec Ideal S1x32 .f32) (x13 : FVec Ideal S64x64 .f32) (x14 : FVec Ideal S64 .f32) (x16 : FVec Ideal S32 .f32)
    (hout : ∀ (p : Fin 100000) (q : Fin 32), out (ix2 p q) =
      updRowSplit (fun k : Fin 32 => agg (ix2 p k)) (fun k : Fin 32 => h (ix2 p k))
        (fun (k : Fin 32) (j : Fin 64) => w1a (ix2 k j)) (fun (k : Fin 32) (j : Fin 64) => w1b (ix2 k j))
        (fun j : Fin 64 => b1r (ix2 (0 : Fin 1) j)) (fun (k : Fin 64) (j : Fin 32) => w2 (ix2 k j)) (fun j : Fin 32 => b2r (ix2 (0 : Fin 1) j)) q)
    (ha : ∀ (k : Fin 32) (j : Fin 64), w1a (ix2 k j) = x13 (ix2 (⟨0 + k.val, by omega⟩ : Fin 64) j))
    (hb : ∀ (k : Fin 32) (j : Fin 64), w1b (ix2 k j) = x13 (ix2 (⟨32 + k.val, by omega⟩ : Fin 64) j))
    (h1 : ∀ j : Fin 64, b1r (ix2 (0 : Fin 1) j) = x14 (ix1 j)) (h2 : ∀ j : Fin 32, b2r (ix2 (0 : Fin 1) j) = x16 (ix1 j)) :
    out = rupd agg h x13 x14 w2 x16 :=
  funext_ix2 _ _ fun p q => by
    rw [hout, rupd_apply]
    simp only [ha, hb, h1, h2]
    exact updRowSplit_eq _ _ (fun (k : Fin 64) (j : Fin 64) => x13 (ix2 k j)) _ _ _ q

theorem gated (out : FVec Ideal S100000x64 .f32) (h : FVec Ideal S100000x32 .f32) (w : FVec Ideal S32x128 .f32)
    (br : FVec Ideal S1x128 .f32) (b : FVec Ideal S128 .f32)
    (hout : ∀ (p : Fin 100000) (q : Fin 64), out (ix2 p q) =
      gatedRow (fun k : Fin 32 => h (ix2 p k)) (fun (k : Fin 32) (j : Fin 128) => w (ix2 k j)) (fun j : Fin 128 => br (ix2 (0 : Fin 1) j)) q)
    (hb : ∀ j : Fin 128, br (ix2 (0 : Fin 1) j) = b (ix1 j)) : out = rgated h w b :=
  funext_ix2 _ _ fun p q => by
    rw [hout, rgated_apply]
    simp only [hb]

end Cert.Bridge

end
-- ==== Proof.RefSpec.lean ====
import proofs.«411375_j87694642250038_1_alg».proof.Proof.RefOps

noncomputable section

namespace Cert.ReferenceIdeal.RefSpec

open Cert.ReferenceIdeal Cert.ReferenceIdeal.Gen Cert.ReferenceIdeal.RefOps Idealize.ShloMosaic Idealize.ShloMosaic.TcCoe Idealize.SL.Sem Idealize.ShloMosaic.StableHlo

def rwrap (idx : IVec S800000 32) : IVec S800000x1 32 :=
  broadcastInDim S800000x1 ![0] bcast_S800000_S800000x1_0
    (select (cmpi .slt idx (broadcastInDim S800000 ![] bcast_S_S800000 (constantI S_ 32 0#32)))
      (addi idx (broadcastInDim S800000 ![] bcast_S_S800000 (constantI S_ 32 100000#32))) idx)

def rgath (h : FVec Ideal S100000x32 .f32) (idx : IVec S800000 32) : FVec Ideal S800000x32 .f32 :=
  Host.gather gather_S100000x32_S800000x1_S800000x32_1_0_n_n_0_1_132 h (rwrap idx)

def rscat (idx : IVec S800000 32) (u : FVec Ideal S800000x32 .f32) : FVec Ideal S100000x32 .f32 :=
  Host.scatterAdd scatter_S100000x32_S800000x1_S800000x32_1_0_0_1
    (broadcastInDim S100000x32 ![] bcast_S_S100000x32 (constant S_ .f32 0x00000000#32))
    (broadcastInDim S800000x1 ![0] bcast_S800000_S800000x1_0 idx) u

def rlayer (h : FVec Ideal S100000x32 .f32) (e : FVec Ideal S800000x16 .f32) (x2 x3 : IVec S800000 32)
    (x9 : FVec Ideal S80x32 .f32) (x10 : FVec Ideal S32 .f32) (x11 : FVec Ideal S32x32 .f32) (x12 : FVec Ideal S32 .f32)
    (x13 : FVec Ideal S64x64 .f32) (x14 : FVec Ideal S64 .f32) (x15 : FVec Ideal S64x32 .f32) (x16 : FVec Ideal S32 .f32) :
    FVec Ideal S100000x32 .f32 :=
  rupd (addf (rscat x3 (rmsg (rgath h x2) (rgath h x3) e x9 x10 x11 x12)) (rscat x2 (rmsg (rgath h x3) (rgath h x2) e x9 x10 x11 x12)))
    h x13 x14 x15 x16

def rpairs (g : FVec Ideal S100000x64 .f32) (x4 : IVec S100000 32) (x19 : FVec Ideal S64x64 .f32) (x20 : FVec Ideal S64 .f32) :
    FVec Ideal S256x128 .f32 :=
  shapeCast _
    (addf
      (Host.dotGeneral dot_S512x64_S64x64_S512x64_1_0_0_1_n_n none
        (Host.scatterAdd scatter_S512x64_S100000x1_S100000x64_1_0_0_1
          (broadcastInDim S512x64 ![] bcast_S_S512x64 (constant S_ .f32 0x00000000#32))
          (broadcastInDim S100000x1 ![0] bcast_S100000_S100000x1_0 x4) g)
        x19)
      (broadcastInDim S512x64 ![0, 1] bcast_S1x64_S512x64_0_1 (broadcastInDim S1x64 ![1] bcast_S64_S1x64_1 x20)))
    shapeCasts_S512x64_S256x128

def rtail (g : FVec Ideal S100000x64 .f32) (x4 : IVec S100000 32) (x19 : FVec Ideal S64x64 .f32) (x20 : FVec Ideal S64 .f32) :
    FVec Ideal S256 .f32 :=
  addf
    (mulf (broadcastInDim S256 ![] bcast_S_S256 (constant S_ .f32 0x3F800000#32))
      (Host.reduceAdd
        (maximumf
          (subf (extractStridedSlice S256x64 ![0, 64] (rpairs g x4 x19 x20) slices_S256x128_S256x64_0_64)
            (extractStridedSlice S256x64 ![0, 0] (rpairs g x4 x19 x20) slices_S256x128_S256x64_0_0))
          (broadcastInDim S256x64 ![] bcast_S_S256x64 (constant S_ .f32 0x00000000#32)))
        (constant S_ .f32 0x00000000#32) reducesTo_S256x64_S256_d1 h_S_))
    (mulf (broadcastInDim S256 ![] bcast_S_S256 (constant S_ .f32 0x3F800000#32))
      (Host.reduceAdd
        (maximumf
          (subf (extractStridedSlice S256x64 ![0, 0] (rpairs g x4 x19 x20) slices_S256x128_S256x64_0_0)
            (extractStridedSlice S256x64 ![0, 64] (rpairs g x4 x19 x20) slices_S256x128_S256x64_0_64))
          (broadcastInDim S256x64 ![] bcast_S_S256x64 (constant S_ .f32 0x00000000#32)))
        (constant S_ .f32 0x00000000#32) reducesTo_S256x64_S256_d1 h_S_))

def rspec (x0 : FVec Ideal S100000x16 .f32) (x1 : FVec Ideal S800000x8 .f32) (x2 x3 : IVec S800000 32) (x4 : IVec S100000 32)
    (x5 : FVec Ideal S16x32 .f32) (x6 : FVec Ideal S32 .f32) (x7 : FVec Ideal S8x16 .f32) (x8 : FVec Ideal S16 .f32)
    (x9 : FVec Ideal S80x32 .f32) (x10 : FVec Ideal S32 .f32) (x11 : FVec Ideal S32x32 .f32) (x12 : FVec Ideal S32 .f32)
    (x13 : FVec Ideal S64x64 .f32) (x14 : FVec Ideal S64 .f32) (x15 : FVec Ideal S64x32 .f32) (x16 : FVec Ideal S32 .f32)
    (x17 : FVec Ideal S32x128 .f32) (x18 : FVec Ideal S128 .f32) (x19 : FVec Ideal S64x64 .f32) (x20 : FVec Ideal S64 .f32) :
    FVec Ideal S256 .f32 :=
  rtail
    (rgated
      (rlayer (rlayer (rlayer (rlinN x0 x5 x6) (rlinE x1 x7 x8) x2 x3 x9 x10 x11 x12 x13 x14 x15 x16)
        (rlinE x1 x7 x8) x2 x3 x9 x10 x11 x12 x13 x14 x15 x16) (rlinE x1 x7 x8) x2 x3 x9 x10 x11 x12 x13 x14 x15 x16)
      x17 x18)
    x4 x19 x20

end Cert.ReferenceIdeal.RefSpec

end
-- ==== Proof.KernelChain.lean ====
import proofs.«411375_j87694642250038_1_alg».proof.Proof.Gen.KernelIdeal.Frame
import proofs.«411375_j87694642250038_1_alg».proof.Proof.KernelKeep
import proofs.«411375_j87694642250038_1_alg».proof.Proof.KernelHost
import proofs.«411375_j87694642250038_1_alg».proof.Proof.Lin0
import proofs.«411375_j87694642250038_1_alg».proof.Proof.Lin1
import proofs.«411375_j87694642250038_1_alg».proof.Proof.Msg2
import proofs.«411375_j87694642250038_1_alg».proof.Proof.Msg4
import proofs.«411375_j87694642250038_1_alg».proof.Proof.Msg6
import proofs.«411375_j87694642250038_1_alg».proof.Proof.Upd3
import proofs.«411375_j87694642250038_1_alg».proof.Proof.Upd5
import proofs.«411375_j87694642250038_1_alg».proof.Proof.Upd7
import proofs.«411375_j87694642250038_1_alg».proof.Proof.Gated8
import proofs.«411375_j87694642250038_1_alg».proof.Proof.TakeGather
import proofs.«411375_j87694642250038_1_alg».proof.Proof.Bridge
import proofs.«411375_j87694642250038_1_alg».proof.Proof.RefSpec

noncomputable section

namespace Cert.KernelIdeal.Chain

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

open Cert.KernelIdeal.Keep Cert.KernelIdeal.HostVal Cert.KernelIdeal.TakeGather
open Cert.ReferenceIdeal.RefOps Cert.ReferenceIdeal.RefSpec

structure InRange : Prop where
  lo2 : ∀ e : Fin 800000, IntOp.cmpi .sge (W0 m ρ c (Proc.devRef .tc main_arg2) (ix1 e)) 0#32 = 1#1
  hi2 : ∀ e : Fin 800000, IntOp.cmpi .slt (W0 m ρ c (Proc.devRef .tc main_arg2) (ix1 e)) 100000#32 = 1#1
  lo3 : ∀ e : Fin 800000, IntOp.cmpi .sge (W0 m ρ c (Proc.devRef .tc main_arg3) (ix1 e)) 0#32 = 1#1
  hi3 : ∀ e : Fin 800000, IntOp.cmpi .slt (W0 m ρ c (Proc.devRef .tc main_arg3) (ix1 e)) 100000#32 = 1#1

theorem gatherK_eq_rgath (h : FVec Ideal S100000x32 .f32) (idx : IVec S800000 32) : gatherK h idx = rgath h idx := rfl

theorem scatK_eq_rscat (idx : IVec S800000 32) (u : FVec Ideal S800000x32 .f32) : scatK idx u = rscat idx u := rfl

theorem tailK_eq_rtail (g : FVec Ideal S100000x64 .f32) (x4 : IVec S100000 32) (x19 : FVec Ideal S64x64 .f32) (x20 : FVec Ideal S64 .f32) :
    tailK g x4 x19 x20 = rtail g x4 x19 x20 := rfl

theorem h0 : W2 m ρ c (Proc.devRef .tc main_v1) = rlinN (W0 m ρ c (Proc.devRef .tc main_arg0)) (W0 m ρ c (Proc.devRef .tc main_arg5)) (W0 m ρ c (Proc.devRef .tc main_arg6)) :=
  Cert.Bridge.linN _ _ _ (W1 m ρ c (Proc.devRef .tc main_v0)) _
    (fun p q => (congrFun (W2_arr m ρ c 3) (ix2 p q)).trans ((Cert.KernelIdeal.Lin0.value (V1 m ρ) c p q).trans (by
      show Cert.Spec.linRow (fun k : Fin 16 => W1 m ρ c (Proc.devRef .tc main_arg0) (ix2 p k)) (fun k : Fin 16 => W1 m ρ c (Proc.devRef .tc main_arg5) (ix2 k q)) (W1 m ρ c (Proc.devRef .tc main_v0) (ix2 (0 : Fin 1) q)) = _
      rw [keep1_arg0, keep1_arg5])))
    (fun q => w1_v0 m ρ c q)

theorem e0 : W4 m ρ c (Proc.devRef .tc main_v3) = rlinE (W0 m ρ c (Proc.devRef .tc main_arg1)) (W0 m ρ c (Proc.devRef .tc main_arg7)) (W0 m ρ c (Proc.devRef .tc main_arg8)) :=
  Cert.Bridge.linE _ _ _ (W3 m ρ c (Proc.devRef .tc main_v2)) _
    (fun p q => (congrFun (W4_arr m ρ c 3) (ix2 p q)).trans ((Cert.KernelIdeal.Lin1.value (V3 m ρ) c p q).trans (by
      show Cert.Spec.linRow (fun k : Fin 8 => W3 m ρ c (Proc.devRef .tc main_arg1) (ix2 p k)) (fun k : Fin 8 => W3 m ρ c (Proc.devRef .tc main_arg7) (ix2 k q)) (W3 m ρ c (Proc.devRef .tc main_v2) (ix2 (0 : Fin 1) q)) = _
      rw [keep3_arg1, keep3_arg7])))
    (fun q => (w3_v2 m ρ c q).trans (by rw [keep2_arg8]))

section Round1

variable (hr : InRange m ρ c) (H : FVec Ideal S100000x32 .f32) (E : FVec Ideal S800000x16 .f32)
  (hH : W2 m ρ c (Proc.devRef .tc main_v1) = H) (hE : W4 m ρ c (Proc.devRef .tc main_v3) = E)
include hr hH

theorem fs1 : W7 m ρ c (Proc.devRef .tc main_v13) = rgath H (W0 m ρ c (Proc.devRef .tc main_arg2)) := by
  rw [keep7_v13, w6_v13, keep5_v1, keep5_arg2, hH, takeK_eq_gatherK _ _ hr.lo2 hr.hi2, gatherK_eq_rgath]

theorem ts1 : W7 m ρ c (Proc.devRef .tc main_v14) = rgath H (W0 m ρ c (Proc.devRef .tc main_arg3)) := by
  rw [w7_v14, keep6_v1, keep6_arg3, hH, takeK_eq_gatherK _ _ hr.lo3 hr.hi3, gatherK_eq_rgath]

include hE

theorem mf1 : W8 m ρ c (Proc.devRef .tc main_v15_0) = rmsg (rgath H (W0 m ρ c (Proc.devRef .tc main_arg2))) (rgath H (W0 m ρ c (Proc.devRef .tc main_arg3))) E (W0 m ρ c (Proc.devRef .tc main_arg9)) (W0 m ρ c (Proc.devRef .tc main_arg10)) (W0 m ρ c (Proc.devRef .tc main_arg11)) (W0 m ρ c (Proc.devRef .tc main_arg12)) :=
  Cert.Bridge.msg _ _ _ _ (W7 m ρ c (Proc.devRef .tc main_v4)) (W7 m ρ c (Proc.devRef .tc main_v5)) (W7 m ρ c (Proc.devRef .tc main_v6)) (W7 m ρ c (Proc.devRef .tc main_v9)) _ (W7 m ρ c (Proc.devRef .tc main_v10)) _ _ _
    (fun p q => (congrFun (W8_arr m ρ c 9) (ix2 p q)).trans ((Cert.KernelIdeal.Msg2.value_f (V7 m ρ) c p q).trans (by
      show Cert.Spec.msgRowSplit (fun k : Fin 32 => W7 m ρ c (Proc.devRef .tc main_v13) (ix2 p k)) (fun k : Fin 32 => W7 m ρ c (Proc.devRef .tc main_v14) (ix2 p k)) (fun k : Fin 16 => W7 m ρ c (Proc.devRef .tc main_v3) (ix2 p k))
          (fun (k : Fin 32) (j : Fin 32) => W7 m ρ c (Proc.devRef .tc main_v4) (ix2 k j)) (fun (k : Fin 32) (j : Fin 32) => W7 m ρ c (Proc.devRef .tc main_v5) (ix2 k j)) (fun (k : Fin 16) (j : Fin 32) => W7 m ρ c (Proc.devRef .tc main_v6) (ix2 k j))
          (fun j : Fin 32 => W7 m ρ c (Proc.devRef .tc main_v9) (ix2 (0 : Fin 1) j)) (fun (k : Fin 32) (j : Fin 32) => W7 m ρ c (Proc.devRef .tc main_arg11) (ix2 k j)) (fun j : Fin 32 => W7 m ρ c (Proc.devRef .tc main_v10) (ix2 (0 : Fin 1) j)) q = _
      rw [fs1 m ρ c hr H hH, ts1 m ρ c hr H hH, keep7_v3, hE, keep7_arg11])))
    (fun k j => by rw [keep7_v4, w5_v4, keep4_arg9])
    (fun k j => by rw [keep7_v5, w5_v5, keep4_arg9])
    (fun k j => by rw [keep7_v6, w5_v6, keep4_arg9])
    (fun j => by rw [keep7_v9, w5_v9, keep4_arg10])
    (fun j => by rw [keep7_v10, w5_v10, keep4_arg12])

theorem mr1 : W8 m ρ c (Proc.devRef .tc main_v15_1) = rmsg (rgath H (W0 m ρ c (Proc.devRef .tc main_arg3))) (rgath H (W0 m ρ c (Proc.devRef .tc main_arg2))) E (W0 m ρ c (Proc.devRef .tc main_arg9)) (W0 m ρ c (Proc.devRef .tc main_arg10)) (W0 m ρ c (Proc.devRef .tc main_arg11)) (W0 m ρ c (Proc.devRef .tc main_arg12)) :=
  Cert.Bridge.msg _ _ _ _ (W7 m ρ c (Proc.devRef .tc main_v4)) (W7 m ρ c (Proc.devRef .tc main_v5)) (W7 m ρ c (Proc.devRef .tc main_v6)) (W7 m ρ c (Proc.devRef .tc main_v9)) _ (W7 m ρ c (Proc.devRef .tc main_v10)) _ _ _
    (fun p q => (congrFun (W8_arr m ρ c 10) (ix2 p q)).trans ((Cert.KernelIdeal.Msg2.value_r (V7 m ρ) c p q).trans (by
      show Cert.Spec.msgRowSplit (fun k : Fin 32 => W7 m ρ c (Proc.devRef .tc main_v14) (ix2 p k)) (fun k : Fin 32 => W7 m ρ c (Proc.devRef .tc main_v13) (ix2 p k)) (fun k : Fin 16 => W7 m ρ c (Proc.devRef .tc main_v3) (ix2 p k))
          (fun (k : Fin 32) (j : Fin 32) => W7 m ρ c (Proc.devRef .tc main_v4) (ix2 k j)) (fun (k : Fin 32) (j : Fin 32) => W7 m ρ c (Proc.devRef .tc main_v5) (ix2 k j)) (fun (k : Fin 16) (j : Fin 32) => W7 m ρ c (Proc.devRef .tc main_v6) (ix2 k j))
          (fun j : Fin 32 => W7 m ρ c (Proc.devRef .tc main_v9) (ix2 (0 : Fin 1) j)) (fun (k : Fin 32) (j : Fin 32) => W7 m ρ c (Proc.devRef .tc main_arg11) (ix2 k j)) (fun j : Fin 32 => W7 m ρ c (Proc.devRef .tc main_v10) (ix2 (0 : Fin 1) j)) q = _
      rw [fs1 m ρ c hr H hH, ts1 m ρ c hr H hH, keep7_v3, hE, keep7_arg11])))
    (fun k j => by rw [keep7_v4, w5_v4, keep4_arg9])
    (fun k j => by rw [keep7_v5, w5_v5, keep4_arg9])
    (fun k j => by rw [keep7_v6, w5_v6, keep4_arg9])
    (fun j => by rw [keep7_v9, w5_v9, keep4_arg10])
    (fun j => by rw [keep7_v10, w5_v10, keep4_arg12])

theorem agg1 : W9 m ρ c (Proc.devRef .tc main_v22)
    = addf (rscat (W0 m ρ c (Proc.devRef .tc main_arg3)) (rmsg (rgath H (W0 m ρ c (Proc.devRef .tc main_arg2))) (rgath H (W0 m ρ c (Proc.devRef .tc main_arg3))) E (W0 m ρ c (Proc.devRef .tc main_arg9)) (W0 m ρ c (Proc.devRef .tc main_arg10)) (W0 m ρ c (Proc.devRef .tc main_arg11)) (W0 m ρ c (Proc.devRef .tc main_arg12))))
        (rscat (W0 m ρ c (Proc.devRef .tc main_arg2)) (rmsg (rgath H (W0 m ρ c (Proc.devRef .tc main_arg3))) (rgath H (W0 m ρ c (Proc.devRef .tc main_arg2))) E (W0 m ρ c (Proc.devRef .tc main_arg9)) (W0 m ρ c (Proc.devRef .tc main_arg10)) (W0 m ρ c (Proc.devRef .tc main_arg11)) (W0 m ρ c (Proc.devRef .tc main_arg12)))) := by
  rw [w9_v22, keep8_arg3, keep8_arg2, mf1 m ρ c hr H E hH hE, mr1 m ρ c hr H E hH hE, scatK_eq_rscat, scatK_eq_rscat]

theorem h1 : W10 m ρ c (Proc.devRef .tc main_v23) = rlayer H E (W0 m ρ c (Proc.devRef .tc main_arg2)) (W0 m ρ c (Proc.devRef .tc main_arg3)) (W0 m ρ c (Proc.devRef .tc main_arg9)) (W0 m ρ c (Proc.devRef .tc main_arg10)) (W0 m ρ c (Proc.devRef .tc main_arg11)) (W0 m ρ c (Proc.devRef .tc main_arg12))
      (W0 m ρ c (Proc.devRef .tc main_arg13)) (W0 m ρ c (Proc.devRef .tc main_arg14)) (W0 m ρ c (Proc.devRef .tc main_arg15)) (W0 m ρ c (Proc.devRef .tc main_arg16)) :=
  Cert.Bridge.upd _ _ _ (W9 m ρ c (Proc.devRef .tc main_v7)) (W9 m ρ c (Proc.devRef .tc main_v8)) (W9 m ρ c (Proc.devRef .tc main_v11)) _ (W9 m ρ c (Proc.devRef .tc main_v12)) _ _ _
    (fun p q => (congrFun (W10_arr m ρ c 7) (ix2 p q)).trans ((Cert.KernelIdeal.Upd3.value (V9 m ρ) c p q).trans (by
      show Cert.Spec.updRowSplit (fun k : Fin 32 => W9 m ρ c (Proc.devRef .tc main_v22) (ix2 p k)) (fun k : Fin 32 => W9 m ρ c (Proc.devRef .tc main_v1) (ix2 p k))
          (fun (k : Fin 32) (j : Fin 64) => W9 m ρ c (Proc.devRef .tc main_v7) (ix2 k j)) (fun (k : Fin 32) (j : Fin 64) => W9 m ρ c (Proc.devRef .tc main_v8) (ix2 k j))
          (fun j : Fin 64 => W9 m ρ c (Proc.devRef .tc main_v11) (ix2 (0 : Fin 1) j)) (fun (k : Fin 64) (j : Fin 32) => W9 m ρ c (Proc.devRef .tc main_arg15) (ix2 k j)) (fun j : Fin 32 => W9 m ρ c (Proc.devRef .tc main_v12) (ix2 (0 : Fin 1) j)) q = _
      rw [agg1 m ρ c hr H E hH hE, keep9_v1, hH, keep9_arg15])))
    (fun k j => by rw [keep9_v7, w5_v7, keep4_arg13])
    (fun k j => by rw [keep9_v8, w5_v8, keep4_arg13])
    (fun j => by rw [keep9_v11, w5_v11, keep4_arg14])
    (fun j => by rw [keep9_v12, w5_v12, keep4_arg16])

end Round1

section Round2

variable (hr : InRange m ρ c) (H : FVec Ideal S100000x32 .f32) (E : FVec Ideal S800000x16 .f32)
  (hH : W10 m ρ c (Proc.devRef .tc main_v23) = H) (hE : W4 m ρ c (Proc.devRef .tc main_v3) = E)
include hr hH

theorem fs2 : W12 m ρ c (Proc.devRef .tc main_v24) = rgath H (W0 m ρ c (Proc.devRef .tc main_arg2)) := by
  rw [keep12_v24, w11_v24, keep10_arg2, hH, takeK_eq_gatherK _ _ hr.lo2 hr.hi2, gatherK_eq_rgath]

theorem ts2 : W12 m ρ c (Proc.devRef .tc main_v25) = rgath H (W0 m ρ c (Proc.devRef .tc main_arg3)) := by
  rw [w12_v25, keep11_v23, keep11_arg3, hH, takeK_eq_gatherK _ _ hr.lo3 hr.hi3, gatherK_eq_rgath]

include hE

theorem mf2 : W13 m ρ c (Proc.devRef .tc main_v26_0) = rmsg (rgath H (W0 m ρ c (Proc.devRef .tc main_arg2))) (rgath H (W0 m ρ c (Proc.devRef .tc main_arg3))) E (W0 m ρ c (Proc.devRef .tc main_arg9)) (W0 m ρ c (Proc.devRef .tc main_arg10)) (W0 m ρ c (Proc.devRef .tc main_arg11)) (W0 m ρ c (Proc.devRef .tc main_arg12)) :=
  Cert.Bridge.msg _ _ _ _ (W12 m ρ c (Proc.devRef .tc main_v4)) (W12 m ρ c (Proc.devRef .tc main_v5)) (W12 m ρ c (Proc.devRef .tc main_v6)) (W12 m ρ c (Proc.devRef .tc main_v9)) _ (W12 m ρ c (Proc.devRef .tc main_v10)) _ _ _
    (fun p q => (congrFun (W13_arr m ρ c 9) (ix2 p q)).trans ((Cert.KernelIdeal.Msg4.value_f (V12 m ρ) c p q).trans (by
      show Cert.Spec.msgRowSplit (fun k : Fin 32 => W12 m ρ c (Proc.devRef .tc main_v24) (ix2 p k)) (fun k : Fin 32 => W12 m ρ c (Proc.devRef .tc main_v25) (ix2 p k)) (fun k : Fin 16 => W12 m ρ c (Proc.devRef .tc main_v3) (ix2 p k))
          (fun (k : Fin 32) (j : Fin 32) => W12 m ρ c (Proc.devRef .tc main_v4) (ix2 k j)) (fun (k : Fin 32) (j : Fin 32) => W12 m ρ c (Proc.devRef .tc main_v5) (ix2 k j)) (fun (k : Fin 16) (j : Fin 32) => W12 m ρ c (Proc.devRef .tc main_v6) (ix2 k j))
          (fun j : Fin 32 => W12 m ρ c (Proc.devRef .tc main_v9) (ix2 (0 : Fin 1) j)) (fun (k : Fin 32) (j : Fin 32) => W12 m ρ c (Proc.devRef .tc main_arg11) (ix2 k j)) (fun j : Fin 32 => W12 m ρ c (Proc.devRef .tc main_v10) (ix2 (0 : Fin 1) j)) q = _
      rw [fs2 m ρ c hr H hH, ts2 m ρ c hr H hH, keep12_v3, hE, keep12_arg11])))
    (fun k j => by rw [keep12_v4, w5_v4, keep4_arg9])
    (fun k j => by rw [keep12_v5, w5_v5, keep4_arg9])
    (fun k j => by rw [keep12_v6, w5_v6, keep4_arg9])
    (fun j => by rw [keep12_v9, w5_v9, keep4_arg10])
    (fun j => by rw [keep12_v10, w5_v10, keep4_arg12])

theorem mr2 : W13 m ρ c (Proc.devRef .tc main_v26_1) = rmsg (rgath H (W0 m ρ c (Proc.devRef .tc main_arg3))) (rgath H (W0 m ρ c (Proc.devRef .tc main_arg2))) E (W0 m ρ c (Proc.devRef .tc main_arg9)) (W0 m ρ c (Proc.devRef .tc main_arg10)) (W0 m ρ c (Proc.devRef .tc main_arg11)) (W0 m ρ c (Proc.devRef .tc main_arg12)) :=
  Cert.Bridge.msg _ _ _ _ (W12 m ρ c (Proc.devRef .tc main_v4)) (W12 m ρ c (Proc.devRef .tc main_v5)) (W12 m ρ c (Proc.devRef .tc main_v6)) (W12 m ρ c (Proc.devRef .tc main_v9)) _ (W12 m ρ c (Proc.devRef .tc main_v10)) _ _ _
    (fun p q => (congrFun (W13_arr m ρ c 10) (ix2 p q)).trans ((Cert.KernelIdeal.Msg4.value_r (V12 m ρ) c p q).trans (by
      show Cert.Spec.msgRowSplit (fun k : Fin 32 => W12 m ρ c (Proc.devRef .tc main_v25) (ix2 p k)) (fun k : Fin 32 => W12 m ρ c (Proc.devRef .tc main_v24) (ix2 p k)) (fun k : Fin 16 => W12 m ρ c (Proc.devRef .tc main_v3) (ix2 p k))
          (fun (k : Fin 32) (j : Fin 32) => W12 m ρ c (Proc.devRef .tc main_v4) (ix2 k j)) (fun (k : Fin 32) (j : Fin 32) => W12 m ρ c (Proc.devRef .tc main_v5) (ix2 k j)) (fun (k : Fin 16) (j : Fin 32) => W12 m ρ c (Proc.devRef .tc main_v6) (ix2 k j))
          (fun j : Fin 32 => W12 m ρ c (Proc.devRef .tc main_v9) (ix2 (0 : Fin 1) j)) (fun (k : Fin 32) (j : Fin 32) => W12 m ρ c (Proc.devRef .tc main_arg11) (ix2 k j)) (fun j : Fin 32 => W12 m ρ c (Proc.devRef .tc main_v10) (ix2 (0 : Fin 1) j)) q = _
      rw [fs2 m ρ c hr H hH, ts2 m ρ c hr H hH, keep12_v3, hE, keep12_arg11])))
    (fun k j => by rw [keep12_v4, w5_v4, keep4_arg9])
    (fun k j => by rw [keep12_v5, w5_v5, keep4_arg9])
    (fun k j => by rw [keep12_v6, w5_v6, keep4_arg9])
    (fun j => by rw [keep12_v9, w5_v9, keep4_arg10])
    (fun j => by rw [keep12_v10, w5_v10, keep4_arg12])

theorem agg2 : W14 m ρ c (Proc.devRef .tc main_v33)
    = addf (rscat (W0 m ρ c (Proc.devRef .tc main_arg3)) (rmsg (rgath H (W0 m ρ c (Proc.devRef .tc main_arg2))) (rgath H (W0 m ρ c (Proc.devRef .tc main_arg3))) E (W0 m ρ c (Proc.devRef .tc main_arg9)) (W0 m ρ c (Proc.devRef .tc main_arg10)) (W0 m ρ c (Proc.devRef .tc main_arg11)) (W0 m ρ c (Proc.devRef .tc main_arg12))))
        (rscat (W0 m ρ c (Proc.devRef .tc main_arg2)) (rmsg (rgath H (W0 m ρ c (Proc.devRef .tc main_arg3))) (rgath H (W0 m ρ c (Proc.devRef .tc main_arg2))) E (W0 m ρ c (Proc.devRef .tc main_arg9)) (W0 m ρ c (Proc.devRef .tc main_arg10)) (W0 m ρ c (Proc.devRef .tc main_arg11)) (W0 m ρ c (Proc.devRef .tc main_arg12)))) := by
  rw [w14_v33, keep13_arg3, keep13_arg2, mf2 m ρ c hr H E hH hE, mr2 m ρ c hr H E hH hE, scatK_eq_rscat, scatK_eq_rscat]

theorem h2 : W15 m ρ c (Proc.devRef .tc main_v34) = rlayer H E (W0 m ρ c (Proc.devRef .tc main_arg2)) (W0 m ρ c (Proc.devRef .tc main_arg3)) (W0 m ρ c (Proc.devRef .tc main_arg9)) (W0 m ρ c (Proc.devRef .tc main_arg10)) (W0 m ρ c (Proc.devRef .tc main_arg11)) (W0 m ρ c (Proc.devRef .tc main_arg12))
      (W0 m ρ c (Proc.devRef .tc main_arg13)) (W0 m ρ c (Proc.devRef .tc main_arg14)) (W0 m ρ c (Proc.devRef .tc main_arg15)) (W0 m ρ c (Proc.devRef .tc main_arg16)) :=
  Cert.Bridge.upd _ _ _ (W14 m ρ c (Proc.devRef .tc main_v7)) (W14 m ρ c (Proc.devRef .tc main_v8)) (W14 m ρ c (Proc.devRef .tc main_v11)) _ (W14 m ρ c (Proc.devRef .tc main_v12)) _ _ _
    (fun p q => (congrFun (W15_arr m ρ c 7) (ix2 p q)).trans ((Cert.KernelIdeal.Upd5.value (V14 m ρ) c p q).trans (by
      show Cert.Spec.updRowSplit (fun k : Fin 32 => W14 m ρ c (Proc.devRef .tc main_v33) (ix2 p k)) (fun k : Fin 32 => W14 m ρ c (Proc.devRef .tc main_v23) (ix2 p k))
          (fun (k : Fin 32) (j : Fin 64) => W14 m ρ c (Proc.devRef .tc main_v7) (ix2 k j)) (fun (k : Fin 32) (j : Fin 64) => W14 m ρ c (Proc.devRef .tc main_v8) (ix2 k j))
          (fun j : Fin 64 => W14 m ρ c (Proc.devRef .tc main_v11) (ix2 (0 : Fin 1) j)) (fun (k : Fin 64) (j : Fin 32) => W14 m ρ c (Proc.devRef .tc main_arg15) (ix2 k j)) (fun j : Fin 32 => W14 m ρ c (Proc.devRef .tc main_v12) (ix2 (0 : Fin 1) j)) q = _
      rw [agg2 m ρ c hr H E hH hE, keep14_v23, hH, keep14_arg15])))
    (fun k j => by rw [keep14_v7, w5_v7, keep4_arg13])
    (fun k j => by rw [keep14_v8, w5_v8, keep4_arg13])
    (fun j => by rw [keep14_v11, w5_v11, keep4_arg14])
    (fun j => by rw [keep14_v12, w5_v12, keep4_arg16])

end Round2

section Round3

variable (hr : InRange m ρ c) (H : FVec Ideal S100000x32 .f32) (E : FVec Ideal S800000x16 .f32)
  (hH : W15 m ρ c (Proc.devRef .tc main_v34) = H) (hE : W4 m ρ c (Proc.devRef .tc main_v3) = E)
include hr hH

theorem fs3 : W17 m ρ c (Proc.devRef .tc main_v35) = rgath H (W0 m ρ c (Proc.devRef .tc main_arg2)) := by
  rw [keep17_v35, w16_v35, keep15_arg2, hH, takeK_eq_gatherK _ _ hr.lo2 hr.hi2, gatherK_eq_rgath]

theorem ts3 : W17 m ρ c (Proc.devRef .tc main_v36) = rgath H (W0 m ρ c (Proc.devRef .tc main_arg3)) := by
  rw [w17_v36, keep16_v34, keep16_arg3, hH, takeK_eq_gatherK _ _ hr.lo3 hr.hi3, gatherK_eq_rgath]

include hE

theorem mf3 : W18 m ρ c (Proc.devRef .tc main_v37_0) = rmsg (rgath H (W0 m ρ c (Proc.devRef .tc main_arg2))) (rgath H (W0 m ρ c (Proc.devRef .tc main_arg3))) E (W0 m ρ c (Proc.devRef .tc main_arg9)) (W0 m ρ c (Proc.devRef .tc main_arg10)) (W0 m ρ c (Proc.devRef .tc main_arg11)) (W0 m ρ c (Proc.devRef .tc main_arg12)) :=
  Cert.Bridge.msg _ _ _ _ (W17 m ρ c (Proc.devRef .tc main_v4)) (W17 m ρ c (Proc.devRef .tc main_v5)) (W17 m ρ c (Proc.devRef .tc main_v6)) (W17 m ρ c (Proc.devRef .tc main_v9)) _ (W17 m ρ c (Proc.devRef .tc main_v10)) _ _ _
    (fun p q => (congrFun (W18_arr m ρ c 9) (ix2 p q)).trans ((Cert.KernelIdeal.Msg6.value_f (V17 m ρ) c p q).trans (by
      show Cert.Spec.msgRowSplit (fun k : Fin 32 => W17 m ρ c (Proc.devRef .tc main_v35) (ix2 p k)) (fun k : Fin 32 => W17 m ρ c (Proc.devRef .tc main_v36) (ix2 p k)) (fun k : Fin 16 => W17 m ρ c (Proc.devRef .tc main_v3) (ix2 p k))
          (fun (k : Fin 32) (j : Fin 32) => W17 m ρ c (Proc.devRef .tc main_v4) (ix2 k j)) (fun (k : Fin 32) (j : Fin 32) => W17 m ρ c (Proc.devRef .tc main_v5) (ix2 k j)) (fun (k : Fin 16) (j : Fin 32) => W17 m ρ c (Proc.devRef .tc main_v6) (ix2 k j))
          (fun j : Fin 32 => W17 m ρ c (Proc.devRef .tc main_v9) (ix2 (0 : Fin 1) j)) (fun (k : Fin 32) (j : Fin 32) => W17 m ρ c (Proc.devRef .tc main_arg11) (ix2 k j)) (fun j : Fin 32 => W17 m ρ c (Proc.devRef .tc main_v10) (ix2 (0 : Fin 1) j)) q = _
      rw [fs3 m ρ c hr H hH, ts3 m ρ c hr H hH, keep17_v3, hE, keep17_arg11])))
    (fun k j => by rw [keep17_v4, w5_v4, keep4_arg9])
    (fun k j => by rw [keep17_v5, w5_v5, keep4_arg9])
    (fun k j => by rw [keep17_v6, w5_v6, keep4_arg9])
    (fun j => by rw [keep17_v9, w5_v9, keep4_arg10])
    (fun j => by rw [keep17_v10, w5_v10, keep4_arg12])

theorem mr3 : W18 m ρ c (Proc.devRef .tc main_v37_1) = rmsg (rgath H (W0 m ρ c (Proc.devRef .tc main_arg3))) (rgath H (W0 m ρ c (Proc.devRef .tc main_arg2))) E (W0 m ρ c (Proc.devRef .tc main_arg9)) (W0 m ρ c (Proc.devRef .tc main_arg10)) (W0 m ρ c (Proc.devRef .tc main_arg11)) (W0 m ρ c (Proc.devRef .tc main_arg12)) :=
  Cert.Bridge.msg _ _ _ _ (W17 m ρ c (Proc.devRef .tc main_v4)) (W17 m ρ c (Proc.devRef .tc main_v5)) (W17 m ρ c (Proc.devRef .tc main_v6)) (W17 m ρ c (Proc.devRef .tc main_v9)) _ (W17 m ρ c (Proc.devRef .tc main_v10)) _ _ _
    (fun p q => (congrFun (W18_arr m ρ c 10) (ix2 p q)).trans ((Cert.KernelIdeal.Msg6.value_r (V17 m ρ) c p q).trans (by
      show Cert.Spec.msgRowSplit (fun k : Fin 32 => W17 m ρ c (Proc.devRef .tc main_v36) (ix2 p k)) (fun k : Fin 32 => W17 m ρ c (Proc.devRef .tc main_v35) (ix2 p k)) (fun k : Fin 16 => W17 m ρ c (Proc.devRef .tc main_v3) (ix2 p k))
          (fun (k : Fin 32) (j : Fin 32) => W17 m ρ c (Proc.devRef .tc main_v4) (ix2 k j)) (fun (k : Fin 32) (j : Fin 32) => W17 m ρ c (Proc.devRef .tc main_v5) (ix2 k j)) (fun (k : Fin 16) (j : Fin 32) => W17 m ρ c (Proc.devRef .tc main_v6) (ix2 k j))
          (fun j : Fin 32 => W17 m ρ c (Proc.devRef .tc main_v9) (ix2 (0 : Fin 1) j)) (fun (k : Fin 32) (j : Fin 32) => W17 m ρ c (Proc.devRef .tc main_arg11) (ix2 k j)) (fun j : Fin 32 => W17 m ρ c (Proc.devRef .tc main_v10) (ix2 (0 : Fin 1) j)) q = _
      rw [fs3 m ρ c hr H hH, ts3 m ρ c hr H hH, keep17_v3, hE, keep17_arg11])))
    (fun k j => by rw [keep17_v4, w5_v4, keep4_arg9])
    (fun k j => by rw [keep17_v5, w5_v5, keep4_arg9])
    (fun k j => by rw [keep17_v6, w5_v6, keep4_arg9])
    (fun j => by rw [keep17_v9, w5_v9, keep4_arg10])
    (fun j => by rw [keep17_v10, w5_v10, keep4_arg12])

theorem agg3 : W19 m ρ c (Proc.devRef .tc main_v44)
    = addf (rscat (W0 m ρ c (Proc.devRef .tc main_arg3)) (rmsg (rgath H (W0 m ρ c (Proc.devRef .tc main_arg2))) (rgath H (W0 m ρ c (Proc.devRef .tc main_arg3))) E (W0 m ρ c (Proc.devRef .tc main_arg9)) (W0 m ρ c (Proc.devRef .tc main_arg10)) (W0 m ρ c (Proc.devRef .tc main_arg11)) (W0 m ρ c (Proc.devRef .tc main_arg12))))
        (rscat (W0 m ρ c (Proc.devRef .tc main_arg2)) (rmsg (rgath H (W0 m ρ c (Proc.devRef .tc main_arg3))) (rgath H (W0 m ρ c (Proc.devRef .tc main_arg2))) E (W0 m ρ c (Proc.devRef .tc main_arg9)) (W0 m ρ c (Proc.devRef .tc main_arg10)) (W0 m ρ c (Proc.devRef .tc main_arg11)) (W0 m ρ c (Proc.devRef .tc main_arg12)))) := by
  rw [w19_v44, keep18_arg3, keep18_arg2, mf3 m ρ c hr H E hH hE, mr3 m ρ c hr H E hH hE, scatK_eq_rscat, scatK_eq_rscat]

theorem h3 : W20 m ρ c (Proc.devRef .tc main_v45) = rlayer H E (W0 m ρ c (Proc.devRef .tc main_arg2)) (W0 m ρ c (Proc.devRef .tc main_arg3)) (W0 m ρ c (Proc.devRef .tc main_arg9)) (W0 m ρ c (Proc.devRef .tc main_arg10)) (W0 m ρ c (Proc.devRef .tc main_arg11)) (W0 m ρ c (Proc.devRef .tc main_arg12))
      (W0 m ρ c (Proc.devRef .tc main_arg13)) (W0 m ρ c (Proc.devRef .tc main_arg14)) (W0 m ρ c (Proc.devRef .tc main_arg15)) (W0 m ρ c (Proc.devRef .tc main_arg16)) :=
  Cert.Bridge.upd _ _ _ (W19 m ρ c (Proc.devRef .tc main_v7)) (W19 m ρ c (Proc.devRef .tc main_v8)) (W19 m ρ c (Proc.devRef .tc main_v11)) _ (W19 m ρ c (Proc.devRef .tc main_v12)) _ _ _
    (fun p q => (congrFun (W20_arr m ρ c 7) (ix2 p q)).trans ((Cert.KernelIdeal.Upd7.value (V19 m ρ) c p q).trans (by
      show Cert.Spec.updRowSplit (fun k : Fin 32 => W19 m ρ c (Proc.devRef .tc main_v44) (ix2 p k)) (fun k : Fin 32 => W19 m ρ c (Proc.devRef .tc main_v34) (ix2 p k))
          (fun (k : Fin 32) (j : Fin 64) => W19 m ρ c (Proc.devRef .tc main_v7) (ix2 k j)) (fun (k : Fin 32) (j : Fin 64) => W19 m ρ c (Proc.devRef .tc main_v8) (ix2 k j))
          (fun j : Fin 64 => W19 m ρ c (Proc.devRef .tc main_v11) (ix2 (0 : Fin 1) j)) (fun (k : Fin 64) (j : Fin 32) => W19 m ρ c (Proc.devRef .tc main_arg15) (ix2 k j)) (fun j : Fin 32 => W19 m ρ c (Proc.devRef .tc main_v12) (ix2 (0 : Fin 1) j)) q = _
      rw [agg3 m ρ c hr H E hH hE, keep19_v34, hH, keep19_arg15])))
    (fun k j => by rw [keep19_v7, w5_v7, keep4_arg13])
    (fun k j => by rw [keep19_v8, w5_v8, keep4_arg13])
    (fun j => by rw [keep19_v11, w5_v11, keep4_arg14])
    (fun j => by rw [keep19_v12, w5_v12, keep4_arg16])

end Round3

theorem gated0 (H3 : FVec Ideal S100000x32 .f32) (hH3 : W20 m ρ c (Proc.devRef .tc main_v45) = H3) :
    W22 m ρ c (Proc.devRef .tc main_v47) = rgated H3 (W0 m ρ c (Proc.devRef .tc main_arg17)) (W0 m ρ c (Proc.devRef .tc main_arg18)) :=
  Cert.Bridge.gated _ _ _ (W21 m ρ c (Proc.devRef .tc main_v46)) _
    (fun p q => (congrFun (W22_arr m ρ c 3) (ix2 p q)).trans ((Cert.KernelIdeal.Gated8.value (V21 m ρ) c p q).trans (by
      show Cert.Spec.gatedRow (fun k : Fin 32 => W21 m ρ c (Proc.devRef .tc main_v45) (ix2 p k)) (fun (k : Fin 32) (j : Fin 128) => W21 m ρ c (Proc.devRef .tc main_arg17) (ix2 k j))
          (fun j : Fin 128 => W21 m ρ c (Proc.devRef .tc main_v46) (ix2 (0 : Fin 1) j)) q = _
      rw [keep21_v45, hH3, keep21_arg17])))
    (fun j => by rw [w21_v46, keep20_arg18])

theorem result (hr : InRange m ρ c) : W27 m ρ c (Proc.devRef .tc main_v68) = rspec (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)) (W0 m ρ c (Proc.devRef .tc main_arg12)) (W0 m ρ c (Proc.devRef .tc main_arg13)) (W0 m ρ c (Proc.devRef .tc main_arg14)) (W0 m ρ c (Proc.devRef .tc main_arg15)) (W0 m ρ c (Proc.devRef .tc main_arg16)) (W0 m ρ c (Proc.devRef .tc main_arg17)) (W0 m ρ c (Proc.devRef .tc main_arg18)) (W0 m ρ c (Proc.devRef .tc main_arg19)) (W0 m ρ c (Proc.devRef .tc main_arg20)) := by
  have he := e0 m ρ c
  have h0' := h0 m ρ c
  have h1' := h1 m ρ c hr _ _ h0' he
  have h2' := h2 m ρ c hr _ _ h1' he
  have h3' := h3 m ρ c hr _ _ h2' he
  rw [w27_v68, keep22_arg4, keep22_arg19, keep22_arg20, tailK_eq_rtail, gated0 m ρ c _ h3']
  rfl

end Cert.KernelIdeal.Chain

end
-- ==== Proof.PreDecode.lean ====
import proofs.«411375_j87694642250038_1_alg».proof.Defs
import proofs.«411375_j87694642250038_1_alg».proof.Proof.Gen.Pre_finite_inputs
import Idealize.ShloMosaic.Lib.ReduceAll
import Idealize.ShloMosaic.Lib.ValueIdx

noncomputable section

namespace Cert.PreDecode

open Idealize.ShloMosaic Idealize.SL.Sem Idealize.ShloMosaic.ValueIdx

instance : Subsingleton Cert.Pre_finite_inputs.S_.Idx := ⟨fun a b => funext fun d => d.elim0⟩

theorem andi_apply {s : Shape} {w : Nat} (x y : IVec s w) (i : s.Idx) : andi x y i = IntOp.andi (x i) (y i) := rfl

section Part5

open Cert.Pre_finite_inputs Cert.Pre_finite_inputs.Gen

theorem part5_decode {F : FTy → Type} [FloatOps F] (a2 a3 : IVec S800000 32) (v83 : IVec S_ 1) (v84 : FVec F S64 .f32)
    (c32 : FVec F S_ .f32) (h : fn_part5 (F := F) a2 a3 v83 v84 c32 ix0 = 1#1) (e : Fin 800000) :
    IntOp.cmpi .sge (a2 (ix1 e)) 0#32 = 1#1 ∧ IntOp.cmpi .slt (a2 (ix1 e)) 100000#32 = 1#1
      ∧ IntOp.cmpi .sge (a3 (ix1 e)) 0#32 = 1#1 ∧ IntOp.cmpi .slt (a3 (ix1 e)) 100000#32 = 1#1 := by
  unfold fn_part5 fn_part6 at h
  dsimp only at h
  rw [andi_apply, andi_apply] at h
  obtain ⟨h12, h3⟩ := IntOp.andi_eq_one.1 h
  obtain ⟨-, h2⟩ := IntOp.andi_eq_one.1 h12
  have p2 := Host.reduce_andi_all _ _ _ _ _ h2 (ix1 e)
  have p3 := Host.reduce_andi_all _ _ _ _ _ h3 (ix1 e)
  obtain ⟨q2a, q2b⟩ := IntOp.andi_eq_one.1
    (show IntOp.andi (IntOp.cmpi .sge (a2 (ix1 e)) 0#32) (IntOp.cmpi .slt (a2 (ix1 e)) 100000#32) = 1#1 from p2)
  obtain ⟨q3a, q3b⟩ := IntOp.andi_eq_one.1
    (show IntOp.andi (IntOp.cmpi .sge (a3 (ix1 e)) 0#32) (IntOp.cmpi .slt (a3 (ix1 e)) 100000#32) = 1#1 from p3)
  exact ⟨q2a, q2b, q3a, q3b⟩

end Part5

theorem idx_in_range (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m)
    (c : Dev Cert.KernelIdeal.nD) (e : Fin 800000) :
    IntOp.cmpi .sge (m ((c.tc : Thread Cert.KernelIdeal.nD Cert.KernelIdeal.τ).loc Cert.KernelIdeal.main_arg2) (ix1 e)) 0#32 = 1#1
      ∧ IntOp.cmpi .slt (m ((c.tc : Thread Cert.KernelIdeal.nD Cert.KernelIdeal.τ).loc Cert.KernelIdeal.main_arg2) (ix1 e)) 100000#32 = 1#1
      ∧ IntOp.cmpi .sge (m ((c.tc : Thread Cert.KernelIdeal.nD Cert.KernelIdeal.τ).loc Cert.KernelIdeal.main_arg3) (ix1 e)) 0#32 = 1#1
      ∧ IntOp.cmpi .slt (m ((c.tc : Thread Cert.KernelIdeal.nD Cert.KernelIdeal.τ).loc Cert.KernelIdeal.main_arg3) (ix1 e)) 100000#32 = 1#1 := by
  have e0 := congrFun (h c) ix0
  have e1 : Cert.Pre_finite_inputs.fn_part5 (F := Ideal)
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) _ _ _ ix0 = 1#1 := e0
  exact part5_decode _ _ _ _ _ e1 e

end Cert.PreDecode
-- ==== Proof.RefRunOps.lean ====
import proofs.«411375_j87694642250038_1_alg».proof.Proof.Gen.ReferenceIdeal
import Idealize.ShloMosaic.Lib.StableHlo.Run
import proofs.«411375_j87694642250038_1_alg».proof.Proof.IndexBlocks

noncomputable section

namespace Cert.ReferenceIdeal.RefRun

open Cert.ReferenceIdeal Cert.ReferenceIdeal.Gen
open Idealize.ShloMosaic Idealize.ShloMosaic.TcCoe Idealize.SL.Sem Idealize.ShloMosaic.StableHlo Cert.IndexBlocks

theorem after_app {Val : EltTy → Type} : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_app l₁ l₂]

section Ops
variable {F : FTy → Type} [FloatOps F]

abbrev opsE : List (HloOp τ sig (Elt F)) :=
  [ binary main_arg0 main_arg5 main_v0 ((fun l r => Host.dotGeneral dot_S100000x16_S16x32_S100000x32_1_0_0_1_n_n none l r) : (⟨S100000x16, .f32⟩ : BufTy).Contents (Elt F) → (⟨S16x32, .f32⟩ : BufTy).Contents (Elt F) → (⟨S100000x32, .f32⟩ : BufTy).Contents (Elt F)),
    unary main_arg6 main_v1 (broadcastInDim S1x32 ![1] bcast_S32_S1x32_1 : (⟨S32, .f32⟩ : BufTy).Contents (Elt F) → (⟨S1x32, .f32⟩ : BufTy).Contents (Elt F)),
    unary main_v1 main_v2 (broadcastInDim S100000x32 ![0, 1] bcast_S1x32_S100000x32_0_1 : (⟨S1x32, .f32⟩ : BufTy).Contents (Elt F) → (⟨S100000x32, .f32⟩ : BufTy).Contents (Elt F)),
    binary main_v0 main_v2 main_v3 (addf : (⟨S100000x32, .f32⟩ : BufTy).Contents (Elt F) → (⟨S100000x32, .f32⟩ : BufTy).Contents (Elt F) → (⟨S100000x32, .f32⟩ : BufTy).Contents (Elt F)),
    binary main_arg1 main_arg7 main_v4 ((fun l r => Host.dotGeneral dot_S800000x8_S8x16_S800000x16_1_0_0_1_n_n none l r) : (⟨S800000x8, .f32⟩ : BufTy).Contents (Elt F) → (⟨S8x16, .f32⟩ : BufTy).Contents (Elt F) → (⟨S800000x16, .f32⟩ : BufTy).Contents (Elt F)),
    unary main_arg8 main_v5 (broadcastInDim S1x16 ![1] bcast_S16_S1x16_1 : (⟨S16, .f32⟩ : BufTy).Contents (Elt F) → (⟨S1x16, .f32⟩ : BufTy).Contents (Elt F)),
    unary main_v5 main_v6 (broadcastInDim S800000x16 ![0, 1] bcast_S1x16_S800000x16_0_1 : (⟨S1x16, .f32⟩ : BufTy).Contents (Elt F) → (⟨S800000x16, .f32⟩ : BufTy).Contents (Elt F)),
    binary main_v4 main_v6 main_v7 (addf : (⟨S800000x16, .f32⟩ : BufTy).Contents (Elt F) → (⟨S800000x16, .f32⟩ : BufTy).Contents (Elt F) → (⟨S800000x16, .f32⟩ : BufTy).Contents (Elt F)) ]
theorem opsE_sub : (opsE : List (HloOp τ sig (Elt F))).Forall fun op => op.bufs ⊆ tcRefs τ sig :=
  ⟨binary_bufs_sub .., unary_bufs_sub .., unary_bufs_sub .., binary_bufs_sub .., binary_bufs_sub .., unary_bufs_sub .., unary_bufs_sub .., binary_bufs_sub ..⟩
theorem opsE_fresh : ∀ op ∈ (opsE : List (HloOp τ sig (Elt F))), op.fresh = ∅ := by
  intro _ h; (repeat (cases h with | head => rfl | tail _ h => ?_)); exact nomatch h

abbrev opsG1 : List (HloOp τ sig (Elt F)) :=
  [ nullary main_c (constantI S_ 32 0#32),
    unary main_c main_v8 (broadcastInDim S800000 ![] bcast_S_S800000 : (⟨S_, .i32⟩ : BufTy).Contents (Elt F) → (⟨S800000, .i32⟩ : BufTy).Contents (Elt F)),
    binary main_arg2 main_v8 main_v9 (cmpi .slt : (⟨S800000, .i32⟩ : BufTy).Contents (Elt F) → (⟨S800000, .i32⟩ : BufTy).Contents (Elt F) → (⟨S800000, .i1⟩ : BufTy).Contents (Elt F)),
    nullary main_c_0 (constantI S_ 32 100000#32),
    unary main_c_0 main_v10 (broadcastInDim S800000 ![] bcast_S_S800000 : (⟨S_, .i32⟩ : BufTy).Contents (Elt F) → (⟨S800000, .i32⟩ : BufTy).Contents (Elt F)),
    binary main_arg2 main_v10 main_v11 (addi : (⟨S800000, .i32⟩ : BufTy).Contents (Elt F) → (⟨S800000, .i32⟩ : BufTy).Contents (Elt F) → (⟨S800000, .i32⟩ : BufTy).Contents (Elt F)),
    ternary main_v9 main_v11 main_arg2 main_v12 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v12 main_v13 (broadcastInDim S800000x1 ![0] bcast_S800000_S800000x1_0 : (⟨S800000, .i32⟩ : BufTy).Contents (Elt F) → (⟨S800000x1, .i32⟩ : BufTy).Contents (Elt F)),
    binary main_v3 main_v13 main_v14 ((fun x i => Host.gather gather_S100000x32_S800000x1_S800000x32_1_0_n_n_0_1_132 x i) : (⟨S100000x32, .f32⟩ : BufTy).Contents (Elt F) → (⟨S800000x1, .i32⟩ : BufTy).Contents (Elt F) → (⟨S800000x32, .f32⟩ : BufTy).Contents (Elt F)),
    nullary main_c_1 (constantI S_ 32 0#32),
    unary main_c_1 main_v15 (broadcastInDim S800000 ![] bcast_S_S800000 : (⟨S_, .i32⟩ : BufTy).Contents (Elt F) → (⟨S800000, .i32⟩ : BufTy).Contents (Elt F)),
    binary main_arg3 main_v15 main_v16 (cmpi .slt : (⟨S800000, .i32⟩ : BufTy).Contents (Elt F) → (⟨S800000, .i32⟩ : BufTy).Contents (Elt F) → (⟨S800000, .i1⟩ : BufTy).Contents (Elt F)),
    nullary main_c_2 (constantI S_ 32 100000#32),
    unary main_c_2 main_v17 (broadcastInDim S800000 ![] bcast_S_S800000 : (⟨S_, .i32⟩ : BufTy).Contents (Elt F) → (⟨S800000, .i32⟩ : BufTy).Contents (Elt F)),
    binary main_arg3 main_v17 main_v18 (addi : (⟨S800000, .i32⟩ : BufTy).Contents (Elt F) → (⟨S800000, .i32⟩ : BufTy).Contents (Elt F) → (⟨S800000, .i32⟩ : BufTy).Contents (Elt F)),
    ternary main_v16 main_v18 main_arg3 main_v19 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v19 main_v20 (broadcastInDim S800000x1 ![0] bcast_S800000_S800000x1_0 : (⟨S800000, .i32⟩ : BufTy).Contents (Elt F) → (⟨S800000x1, .i32⟩ : BufTy).Contents (Elt F)),
    binary main_v3 main_v20 main_v21 ((fun x i => Host.gather gather_S100000x32_S800000x1_S800000x32_1_0_n_n_0_1_132 x i) : (⟨S100000x32, .f32⟩ : BufTy).Contents (Elt F) → (⟨S800000x1, .i32⟩ : BufTy).Contents (Elt F) → (⟨S800000x32, .f32⟩ : BufTy).Contents (Elt F)) ]
theorem opsG1_sub : (opsG1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩
theorem opsG1_fresh : ∀ op ∈ (opsG1 : List (HloOp τ sig (Elt F))), op.fresh = ∅ := by
  intro _ h; (repeat (cases h with | head => rfl | tail _ h => ?_)); exact nomatch h

abbrev opsF1 : List (HloOp τ sig (Elt F)) :=
  [ nary ![main_v14, main_v21, main_v7] main_v22 (fun u => concatenate S800000x80 1 [⟨S800000x32, u 0⟩, ⟨S800000x32, u 1⟩, ⟨S800000x16, u 2⟩] concatenates_S800000x32_S800000x32_S800000x16_S800000x80_d1),
    binary main_v22 main_arg9 main_v23 ((fun l r => Host.dotGeneral dot_S800000x80_S80x32_S800000x32_1_0_0_1_n_n none l r) : (⟨S800000x80, .f32⟩ : BufTy).Contents (Elt F) → (⟨S80x32, .f32⟩ : BufTy).Contents (Elt F) → (⟨S800000x32, .f32⟩ : BufTy).Contents (Elt F)),
    unary main_arg10 main_v24 (broadcastInDim S1x32 ![1] bcast_S32_S1x32_1 : (⟨S32, .f32⟩ : BufTy).Contents (Elt F) → (⟨S1x32, .f32⟩ : BufTy).Contents (Elt F)),
    unary main_v24 main_v25 (broadcastInDim S800000x32 ![0, 1] bcast_S1x32_S800000x32_0_1 : (⟨S1x32, .f32⟩ : BufTy).Contents (Elt F) → (⟨S800000x32, .f32⟩ : BufTy).Contents (Elt F)),
    binary main_v23 main_v25 main_v26 (addf : (⟨S800000x32, .f32⟩ : BufTy).Contents (Elt F) → (⟨S800000x32, .f32⟩ : BufTy).Contents (Elt F) → (⟨S800000x32, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S800000x32, .f32⟩) main_call0_v0) (broadcastInDim S800000x32 ![] bcast_S_S800000x32),
    TRef.binary (TRef.of (T := ⟨S800000x32, .f32⟩) main_v26) (TRef.of (T := ⟨S800000x32, .f32⟩) main_call0_v0) (TRef.of (T := ⟨S800000x32, .f32⟩) main_v27) maximumf,
    binary main_v27 main_arg11 main_v28 ((fun l r => Host.dotGeneral dot_S800000x32_S32x32_S800000x32_1_0_0_1_n_n none l r) : (⟨S800000x32, .f32⟩ : BufTy).Contents (Elt F) → (⟨S32x32, .f32⟩ : BufTy).Contents (Elt F) → (⟨S800000x32, .f32⟩ : BufTy).Contents (Elt F)),
    unary main_arg12 main_v29 (broadcastInDim S1x32 ![1] bcast_S32_S1x32_1 : (⟨S32, .f32⟩ : BufTy).Contents (Elt F) → (⟨S1x32, .f32⟩ : BufTy).Contents (Elt F)),
    unary main_v29 main_v30 (broadcastInDim S800000x32 ![0, 1] bcast_S1x32_S800000x32_0_1 : (⟨S1x32, .f32⟩ : BufTy).Contents (Elt F) → (⟨S800000x32, .f32⟩ : BufTy).Contents (Elt F)),
    binary main_v28 main_v30 main_v31 (addf : (⟨S800000x32, .f32⟩ : BufTy).Contents (Elt F) → (⟨S800000x32, .f32⟩ : BufTy).Contents (Elt F) → (⟨S800000x32, .f32⟩ : BufTy).Contents (Elt F)),
    nullary main_cst (constant S_ .f32 0x00000000#32),
    unary main_cst main_v32 (broadcastInDim S100000x32 ![] bcast_S_S100000x32 : (⟨S_, .f32⟩ : BufTy).Contents (Elt F) → (⟨S100000x32, .f32⟩ : BufTy).Contents (Elt F)),
    unary main_arg3 main_v33 (broadcastInDim S800000x1 ![0] bcast_S800000_S800000x1_0 : (⟨S800000, .i32⟩ : BufTy).Contents (Elt F) → (⟨S800000x1, .i32⟩ : BufTy).Contents (Elt F)),
    ternary main_v32 main_v33 main_v31 main_v34 ((fun x i u => Host.scatterAdd scatter_S100000x32_S800000x1_S800000x32_1_0_0_1 x i u) : (⟨S100000x32, .f32⟩ : BufTy).Contents (Elt F) → (⟨S800000x1, .i32⟩ : BufTy).Contents (Elt F) → (⟨S800000x32, .f32⟩ : BufTy).Contents (Elt F) → (⟨S100000x32, .f32⟩ : BufTy).Contents (Elt F)) ]
theorem opsF1_sub : (opsF1 : List (HloOp τ sig (Elt F))).Forall fun op => op.bufs ⊆ tcRefs τ sig :=
  ⟨nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., unary_bufs_sub .., ternary_bufs_sub ..⟩
theorem opsF1_fresh : ∀ op ∈ (opsF1 : List (HloOp τ sig (Elt F))), op.fresh = ∅ := by
  intro _ h; (repeat (cases h with | head => rfl | tail _ h => ?_)); exact nomatch h

abbrev opsR1 : List (HloOp τ sig (Elt F)) :=
  [ nary ![main_v21, main_v14, main_v7] main_v35 (fun u => concatenate S800000x80 1 [⟨S800000x32, u 0⟩, ⟨S800000x32, u 1⟩, ⟨S800000x16, u 2⟩] concatenates_S800000x32_S800000x32_S800000x16_S800000x80_d1),
    binary main_v35 main_arg9 main_v36 ((fun l r => Host.dotGeneral dot_S800000x80_S80x32_S800000x32_1_0_0_1_n_n none l r) : (⟨S800000x80, .f32⟩ : BufTy).Contents (Elt F) → (⟨S80x32, .f32⟩ : BufTy).Contents (Elt F) → (⟨S800000x32, .f32⟩ : BufTy).Contents (Elt F)),
    unary main_arg10 main_v37 (broadcastInDim S1x32 ![1] bcast_S32_S1x32_1 : (⟨S32, .f32⟩ : BufTy).Contents (Elt F) → (⟨S1x32, .f32⟩ : BufTy).Contents (Elt F)),
    unary main_v37 main_v38 (broadcastInDim S800000x32 ![0, 1] bcast_S1x32_S800000x32_0_1 : (⟨S1x32, .f32⟩ : BufTy).Contents (Elt F) → (⟨S800000x32, .f32⟩ : BufTy).Contents (Elt F)),
    binary main_v36 main_v38 main_v39 (addf : (⟨S800000x32, .f32⟩ : BufTy).Contents (Elt F) → (⟨S800000x32, .f32⟩ : BufTy).Contents (Elt F) → (⟨S800000x32, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S800000x32, .f32⟩) main_call1_v0) (broadcastInDim S800000x32 ![] bcast_S_S800000x32),
    TRef.binary (TRef.of (T := ⟨S800000x32, .f32⟩) main_v39) (TRef.of (T := ⟨S800000x32, .f32⟩) main_call1_v0) (TRef.of (T := ⟨S800000x32, .f32⟩) main_v40) maximumf,
    binary main_v40 main_arg11 main_v41 ((fun l r => Host.dotGeneral dot_S800000x32_S32x32_S800000x32_1_0_0_1_n_n none l r) : (⟨S800000x32, .f32⟩ : BufTy).Contents (Elt F) → (⟨S32x32, .f32⟩ : BufTy).Contents (Elt F) → (⟨S800000x32, .f32⟩ : BufTy).Contents (Elt F)),
    unary main_arg12 main_v42 (broadcastInDim S1x32 ![1] bcast_S32_S1x32_1 : (⟨S32, .f32⟩ : BufTy).Contents (Elt F) → (⟨S1x32, .f32⟩ : BufTy).Contents (Elt F)),
    unary main_v42 main_v43 (broadcastInDim S800000x32 ![0, 1] bcast_S1x32_S800000x32_0_1 : (⟨S1x32, .f32⟩ : BufTy).Contents (Elt F) → (⟨S800000x32, .f32⟩ : BufTy).Contents (Elt F)),
    binary main_v41 main_v43 main_v44 (addf : (⟨S800000x32, .f32⟩ : BufTy).Contents (Elt F) → (⟨S800000x32, .f32⟩ : BufTy).Contents (Elt F) → (⟨S800000x32, .f32⟩ : BufTy).Contents (Elt F)),
    nullary main_cst_3 (constant S_ .f32 0x00000000#32),
    unary main_cst_3 main_v45 (broadcastInDim S100000x32 ![] bcast_S_S100000x32 : (⟨S_, .f32⟩ : BufTy).Contents (Elt F) → (⟨S100000x32, .f32⟩ : BufTy).Contents (Elt F)),
    unary main_arg2 main_v46 (broadcastInDim S800000x1 ![0] bcast_S800000_S800000x1_0 : (⟨S800000, .i32⟩ : BufTy).Contents (Elt F) → (⟨S800000x1, .i32⟩ : BufTy).Contents (Elt F)),
    ternary main_v45 main_v46 main_v44 main_v47 ((fun x i u => Host.scatterAdd scatter_S100000x32_S800000x1_S800000x32_1_0_0_1 x i u) : (⟨S100000x32, .f32⟩ : BufTy).Contents (Elt F) → (⟨S800000x1, .i32⟩ : BufTy).Contents (Elt F) → (⟨S800000x32, .f32⟩ : BufTy).Contents (Elt F) → (⟨S100000x32, .f32⟩ : BufTy).Contents (Elt F)),
    binary main_v34 main_v47 main_v48 (addf : (⟨S100000x32, .f32⟩ : BufTy).Contents (Elt F) → (⟨S100000x32, .f32⟩ : BufTy).Contents (Elt F) → (⟨S100000x32, .f32⟩ : BufTy).Contents (Elt F)) ]
theorem opsR1_sub : (opsR1 : List (HloOp τ sig (Elt F))).Forall fun op => op.bufs ⊆ tcRefs τ sig :=
  ⟨nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., unary_bufs_sub .., ternary_bufs_sub .., binary_bufs_sub ..⟩
theorem opsR1_fresh : ∀ op ∈ (opsR1 : List (HloOp τ sig (Elt F))), op.fresh = ∅ := by
  intro _ h; (repeat (cases h with | head => rfl | tail _ h => ?_)); exact nomatch h

abbrev opsU1 : List (HloOp τ sig (Elt F)) :=
  [ binary main_v48 main_v3 main_v49 ((fun a b => concatenate S100000x64 1 [⟨S100000x32, a⟩, ⟨S100000x32, b⟩] concatenates_S100000x32_S100000x32_S100000x64_d1) : (⟨S100000x32, .f32⟩ : BufTy).Contents (Elt F) → (⟨S100000x32, .f32⟩ : BufTy).Contents (Elt F) → (⟨S100000x64, .f32⟩ : BufTy).Contents (Elt F)),
    binary main_v49 main_arg13 main_v50 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg14 main_v51 (broadcastInDim S1x64 ![1] bcast_S64_S1x64_1 : (⟨S64, .f32⟩ : BufTy).Contents (Elt F) → (⟨S1x64, .f32⟩ : BufTy).Contents (Elt F)),
    unary main_v51 main_v52 (broadcastInDim S100000x64 ![0, 1] bcast_S1x64_S100000x64_0_1 : (⟨S1x64, .f32⟩ : BufTy).Contents (Elt F) → (⟨S100000x64, .f32⟩ : BufTy).Contents (Elt F)),
    binary main_v50 main_v52 main_v53 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v53) (TRef.of (T := ⟨S100000x64, .f32⟩) main_call2_v0) (TRef.of (T := ⟨S100000x64, .f32⟩) main_v54) maximumf,
    binary main_v54 main_arg15 main_v55 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    unary main_arg16 main_v56 (broadcastInDim S1x32 ![1] bcast_S32_S1x32_1 : (⟨S32, .f32⟩ : BufTy).Contents (Elt F) → (⟨S1x32, .f32⟩ : BufTy).Contents (Elt F)),
    unary main_v56 main_v57 (broadcastInDim S100000x32 ![0, 1] bcast_S1x32_S100000x32_0_1 : (⟨S1x32, .f32⟩ : BufTy).Contents (Elt F) → (⟨S100000x32, .f32⟩ : BufTy).Contents (Elt F)),
    binary main_v55 main_v57 main_v58 (addf : (⟨S100000x32, .f32⟩ : BufTy).Contents (Elt F) → (⟨S100000x32, .f32⟩ : BufTy).Contents (Elt F) → (⟨S100000x32, .f32⟩ : BufTy).Contents (Elt F)),
    binary main_v3 main_v58 main_v59 (addf : (⟨S100000x32, .f32⟩ : BufTy).Contents (Elt F) → (⟨S100000x32, .f32⟩ : BufTy).Contents (Elt F) → (⟨S100000x32, .f32⟩ : BufTy).Contents (Elt F)) ]
theorem opsU1_sub : (opsU1 : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub ..⟩
theorem opsU1_fresh : ∀ op ∈ (opsU1 : List (HloOp τ sig (Elt F))), op.fresh = ∅ := by
  intro _ h; (repeat (cases h with | head => rfl | tail _ h => ?_)); exact nomatch h

abbrev opsG2 : List (HloOp τ sig (Elt F)) :=
  [ nullary main_c_4 (constantI S_ 32 0#32),
    unary main_c_4 main_v60 (broadcastInDim S800000 ![] bcast_S_S800000 : (⟨S_, .i32⟩ : BufTy).Contents (Elt F) → (⟨S800000, .i32⟩ : BufTy).Contents (Elt F)),
    binary main_arg2 main_v60 main_v61 (cmpi .slt : (⟨S800000, .i32⟩ : BufTy).Contents (Elt F) → (⟨S800000, .i32⟩ : BufTy).Contents (Elt F) → (⟨S800000, .i1⟩ : BufTy).Contents (Elt F)),
    nullary main_c_5 (constantI S_ 32 100000#32),
    unary main_c_5 main_v62 (broadcastInDim S800000 ![] bcast_S_S800000 : (⟨S_, .i32⟩ : BufTy).Contents (Elt F) → (⟨S800000, .i32⟩ : BufTy).Contents (Elt F)),
    binary main_arg2 main_v62 main_v63 (addi : (⟨S800000, .i32⟩ : BufTy).Contents (Elt F) → (⟨S800000, .i32⟩ : BufTy).Contents (Elt F) → (⟨S800000, .i32⟩ : BufTy).Contents (Elt F)),
    ternary main_v61 main_v63 main_arg2 main_v64 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v64 main_v65 (broadcastInDim S800000x1 ![0] bcast_S800000_S800000x1_0 : (⟨S800000, .i32⟩ : BufTy).Contents (Elt F) → (⟨S800000x1, .i32⟩ : BufTy).Contents (Elt F)),
    binary main_v59 main_v65 main_v66 ((fun x i => Host.gather gather_S100000x32_S800000x1_S800000x32_1_0_n_n_0_1_132 x i) : (⟨S100000x32, .f32⟩ : BufTy).Contents (Elt F) → (⟨S800000x1, .i32⟩ : BufTy).Contents (Elt F) → (⟨S800000x32, .f32⟩ : BufTy).Contents (Elt F)),
    nullary main_c_6 (constantI S_ 32 0#32),
    unary main_c_6 main_v67 (broadcastInDim S800000 ![] bcast_S_S800000 : (⟨S_, .i32⟩ : BufTy).Contents (Elt F) → (⟨S800000, .i32⟩ : BufTy).Contents (Elt F)),
    binary main_arg3 main_v67 main_v68 (cmpi .slt : (⟨S800000, .i32⟩ : BufTy).Contents (Elt F) → (⟨S800000, .i32⟩ : BufTy).Contents (Elt F) → (⟨S800000, .i1⟩ : BufTy).Contents (Elt F)),
    nullary main_c_7 (constantI S_ 32 100000#32),
    unary main_c_7 main_v69 (broadcastInDim S800000 ![] bcast_S_S800000 : (⟨S_, .i32⟩ : BufTy).Contents (Elt F) → (⟨S800000, .i32⟩ : BufTy).Contents (Elt F)),
    binary main_arg3 main_v69 main_v70 (addi : (⟨S800000, .i32⟩ : BufTy).Contents (Elt F) → (⟨S800000, .i32⟩ : BufTy).Contents (Elt F) → (⟨S800000, .i32⟩ : BufTy).Contents (Elt F)),
    ternary main_v68 main_v70 main_arg3 main_v71 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v71 main_v72 (broadcastInDim S800000x1 ![0] bcast_S800000_S800000x1_0 : (⟨S800000, .i32⟩ : BufTy).Contents (Elt F) → (⟨S800000x1, .i32⟩ : BufTy).Contents (Elt F)),
    binary main_v59 main_v72 main_v73 ((fun x i => Host.gather gather_S100000x32_S800000x1_S800000x32_1_0_n_n_0_1_132 x i) : (⟨S100000x32, .f32⟩ : BufTy).Contents (Elt F) → (⟨S800000x1, .i32⟩ : BufTy).Contents (Elt F) → (⟨S800000x32, .f32⟩ : BufTy).Contents (Elt F)) ]
theorem opsG2_sub : (opsG2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩
theorem opsG2_fresh : ∀ op ∈ (opsG2 : List (HloOp τ sig (Elt F))), op.fresh = ∅ := by
  intro _ h; (repeat (cases h with | head => rfl | tail _ h => ?_)); exact nomatch h

abbrev opsF2 : List (HloOp τ sig (Elt F)) :=
  [ nary ![main_v66, main_v73, main_v7] main_v74 (fun u => concatenate S800000x80 1 [⟨S800000x32, u 0⟩, ⟨S800000x32, u 1⟩, ⟨S800000x16, u 2⟩] concatenates_S800000x32_S800000x32_S800000x16_S800000x80_d1),
    binary main_v74 main_arg9 main_v75 ((fun l r => Host.dotGeneral dot_S800000x80_S80x32_S800000x32_1_0_0_1_n_n none l r) : (⟨S800000x80, .f32⟩ : BufTy).Contents (Elt F) → (⟨S80x32, .f32⟩ : BufTy).Contents (Elt F) → (⟨S800000x32, .f32⟩ : BufTy).Contents (Elt F)),
    unary main_arg10 main_v76 (broadcastInDim S1x32 ![1] bcast_S32_S1x32_1 : (⟨S32, .f32⟩ : BufTy).Contents (Elt F) → (⟨S1x32, .f32⟩ : BufTy).Contents (Elt F)),
    unary main_v76 main_v77 (broadcastInDim S800000x32 ![0, 1] bcast_S1x32_S800000x32_0_1 : (⟨S1x32, .f32⟩ : BufTy).Contents (Elt F) → (⟨S800000x32, .f32⟩ : BufTy).Contents (Elt F)),
    binary main_v75 main_v77 main_v78 (addf : (⟨S800000x32, .f32⟩ : BufTy).Contents (Elt F) → (⟨S800000x32, .f32⟩ : BufTy).Contents (Elt F) → (⟨S800000x32, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S800000x32, .f32⟩) main_call3_v0) (broadcastInDim S800000x32 ![] bcast_S_S800000x32),
    TRef.binary (TRef.of (T := ⟨S800000x32, .f32⟩) main_v78) (TRef.of (T := ⟨S800000x32, .f32⟩) main_call3_v0) (TRef.of (T := ⟨S800000x32, .f32⟩) main_v79) maximumf,
    binary main_v79 main_arg11 main_v80 ((fun l r => Host.dotGeneral dot_S800000x32_S32x32_S800000x32_1_0_0_1_n_n none l r) : (⟨S800000x32, .f32⟩ : BufTy).Contents (Elt F) → (⟨S32x32, .f32⟩ : BufTy).Contents (Elt F) → (⟨S800000x32, .f32⟩ : BufTy).Contents (Elt F)),
    unary main_arg12 main_v81 (broadcastInDim S1x32 ![1] bcast_S32_S1x32_1 : (⟨S32, .f32⟩ : BufTy).Contents (Elt F) → (⟨S1x32, .f32⟩ : BufTy).Contents (Elt F)),
    unary main_v81 main_v82 (broadcastInDim S800000x32 ![0, 1] bcast_S1x32_S800000x32_0_1 : (⟨S1x32, .f32⟩ : BufTy).Contents (Elt F) → (⟨S800000x32, .f32⟩ : BufTy).Contents (Elt F)),
    binary main_v80 main_v82 main_v83 (addf : (⟨S800000x32, .f32⟩ : BufTy).Contents (Elt F) → (⟨S800000x32, .f32⟩ : BufTy).Contents (Elt F) → (⟨S800000x32, .f32⟩ : BufTy).Contents (Elt F)),
    nullary main_cst_8 (constant S_ .f32 0x00000000#32),
    unary main_cst_8 main_v84 (broadcastInDim S100000x32 ![] bcast_S_S100000x32 : (⟨S_, .f32⟩ : BufTy).Contents (Elt F) → (⟨S100000x32, .f32⟩ : BufTy).Contents (Elt F)),
    unary main_arg3 main_v85 (broadcastInDim S800000x1 ![0] bcast_S800000_S800000x1_0 : (⟨S800000, .i32⟩ : BufTy).Contents (Elt F) → (⟨S800000x1, .i32⟩ : BufTy).Contents (Elt F)),
    ternary main_v84 main_v85 main_v83 main_v86 ((fun x i u => Host.scatterAdd scatter_S100000x32_S800000x1_S800000x32_1_0_0_1 x i u) : (⟨S100000x32, .f32⟩ : BufTy).Contents (Elt F) → (⟨S800000x1, .i32⟩ : BufTy).Contents (Elt F) → (⟨S800000x32, .f32⟩ : BufTy).Contents (Elt F) → (⟨S100000x32, .f32⟩ : BufTy).Contents (Elt F)) ]
theorem opsF2_sub : (opsF2 : List (HloOp τ sig (Elt F))).Forall fun op => op.bufs ⊆ tcRefs τ sig :=
  ⟨nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., unary_bufs_sub .., ternary_bufs_sub ..⟩
theorem opsF2_fresh : ∀ op ∈ (opsF2 : List (HloOp τ sig (Elt F))), op.fresh = ∅ := by
  intro _ h; (repeat (cases h with | head => rfl | tail _ h => ?_)); exact nomatch h

abbrev opsR2 : List (HloOp τ sig (Elt F)) :=
  [ nary ![main_v73, main_v66, main_v7] main_v87 (fun u => concatenate S800000x80 1 [⟨S800000x32, u 0⟩, ⟨S800000x32, u 1⟩, ⟨S800000x16, u 2⟩] concatenates_S800000x32_S800000x32_S800000x16_S800000x80_d1),
    binary main_v87 main_arg9 main_v88 ((fun l r => Host.dotGeneral dot_S800000x80_S80x32_S800000x32_1_0_0_1_n_n none l r) : (⟨S800000x80, .f32⟩ : BufTy).Contents (Elt F) → (⟨S80x32, .f32⟩ : BufTy).Contents (Elt F) → (⟨S800000x32, .f32⟩ : BufTy).Contents (Elt F)),
    unary main_arg10 main_v89 (broadcastInDim S1x32 ![1] bcast_S32_S1x32_1 : (⟨S32, .f32⟩ : BufTy).Contents (Elt F) → (⟨S1x32, .f32⟩ : BufTy).Contents (Elt F)),
    unary main_v89 main_v90 (broadcastInDim S800000x32 ![0, 1] bcast_S1x32_S800000x32_0_1 : (⟨S1x32, .f32⟩ : BufTy).Contents (Elt F) → (⟨S800000x32, .f32⟩ : BufTy).Contents (Elt F)),
    binary main_v88 main_v90 main_v91 (addf : (⟨S800000x32, .f32⟩ : BufTy).Contents (Elt F) → (⟨S800000x32, .f32⟩ : BufTy).Contents (Elt F) → (⟨S800000x32, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S800000x32, .f32⟩) main_call4_v0) (broadcastInDim S800000x32 ![] bcast_S_S800000x32),
    TRef.binary (TRef.of (T := ⟨S800000x32, .f32⟩) main_v91) (TRef.of (T := ⟨S800000x32, .f32⟩) main_call4_v0) (TRef.of (T := ⟨S800000x32, .f32⟩) main_v92) maximumf,
    binary main_v92 main_arg11 main_v93 ((fun l r => Host.dotGeneral dot_S800000x32_S32x32_S800000x32_1_0_0_1_n_n none l r) : (⟨S800000x32, .f32⟩ : BufTy).Contents (Elt F) → (⟨S32x32, .f32⟩ : BufTy).Contents (Elt F) → (⟨S800000x32, .f32⟩ : BufTy).Contents (Elt F)),
    unary main_arg12 main_v94 (broadcastInDim S1x32 ![1] bcast_S32_S1x32_1 : (⟨S32, .f32⟩ : BufTy).Contents (Elt F) → (⟨S1x32, .f32⟩ : BufTy).Contents (Elt F)),
    unary main_v94 main_v95 (broadcastInDim S800000x32 ![0, 1] bcast_S1x32_S800000x32_0_1 : (⟨S1x32, .f32⟩ : BufTy).Contents (Elt F) → (⟨S800000x32, .f32⟩ : BufTy).Contents (Elt F)),
    binary main_v93 main_v95 main_v96 (addf : (⟨S800000x32, .f32⟩ : BufTy).Contents (Elt F) → (⟨S800000x32, .f32⟩ : BufTy).Contents (Elt F) → (⟨S800000x32, .f32⟩ : BufTy).Contents (Elt F)),
    nullary main_cst_9 (constant S_ .f32 0x00000000#32),
    unary main_cst_9 main_v97 (broadcastInDim S100000x32 ![] bcast_S_S100000x32 : (⟨S_, .f32⟩ : BufTy).Contents (Elt F) → (⟨S100000x32, .f32⟩ : BufTy).Contents (Elt F)),
    unary main_arg2 main_v98 (broadcastInDim S800000x1 ![0] bcast_S800000_S800000x1_0 : (⟨S800000, .i32⟩ : BufTy).Contents (Elt F) → (⟨S800000x1, .i32⟩ : BufTy).Contents (Elt F)),
    ternary main_v97 main_v98 main_v96 main_v99 ((fun x i u => Host.scatterAdd scatter_S100000x32_S800000x1_S800000x32_1_0_0_1 x i u) : (⟨S100000x32, .f32⟩ : BufTy).Contents (Elt F) → (⟨S800000x1, .i32⟩ : BufTy).Contents (Elt F) → (⟨S800000x32, .f32⟩ : BufTy).Contents (Elt F) → (⟨S100000x32, .f32⟩ : BufTy).Contents (Elt F)),
    binary main_v86 main_v99 main_v100 (addf : (⟨S100000x32, .f32⟩ : BufTy).Contents (Elt F) → (⟨S100000x32, .f32⟩ : BufTy).Contents (Elt F) → (⟨S100000x32, .f32⟩ : BufTy).Contents (Elt F)) ]
theorem opsR2_sub : (opsR2 : List (HloOp τ sig (Elt F))).Forall fun op => op.bufs ⊆ tcRefs τ sig :=
  ⟨nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., unary_bufs_sub .., ternary_bufs_sub .., binary_bufs_sub ..⟩
theorem opsR2_fresh : ∀ op ∈ (opsR2 : List (HloOp τ sig (Elt F))), op.fresh = ∅ := by
  intro _ h; (repeat (cases h with | head => rfl | tail _ h => ?_)); exact nomatch h

abbrev opsU2 : List (HloOp τ sig (Elt F)) :=
  [ binary main_v100 main_v59 main_v101 ((fun a b => concatenate S100000x64 1 [⟨S100000x32, a⟩, ⟨S100000x32, b⟩] concatenates_S100000x32_S100000x32_S100000x64_d1) : (⟨S100000x32, .f32⟩ : BufTy).Contents (Elt F) → (⟨S100000x32, .f32⟩ : BufTy).Contents (Elt F) → (⟨S100000x64, .f32⟩ : BufTy).Contents (Elt F)),
    binary main_v101 main_arg13 main_v102 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg14 main_v103 (broadcastInDim S1x64 ![1] bcast_S64_S1x64_1 : (⟨S64, .f32⟩ : BufTy).Contents (Elt F) → (⟨S1x64, .f32⟩ : BufTy).Contents (Elt F)),
    unary main_v103 main_v104 (broadcastInDim S100000x64 ![0, 1] bcast_S1x64_S100000x64_0_1 : (⟨S1x64, .f32⟩ : BufTy).Contents (Elt F) → (⟨S100000x64, .f32⟩ : BufTy).Contents (Elt F)),
    binary main_v102 main_v104 main_v105 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S100000x64, .f32⟩) main_call5_v0) (broadcastInDim S100000x64 ![] bcast_S_S100000x64),
    TRef.binary (TRef.of (T := ⟨S100000x64, .f32⟩) main_v105) (TRef.of (T := ⟨S100000x64, .f32⟩) main_call5_v0) (TRef.of (T := ⟨S100000x64, .f32⟩) main_v106) maximumf,
    binary main_v106 main_arg15 main_v107 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    unary main_arg16 main_v108 (broadcastInDim S1x32 ![1] bcast_S32_S1x32_1 : (⟨S32, .f32⟩ : BufTy).Contents (Elt F) → (⟨S1x32, .f32⟩ : BufTy).Contents (Elt F)),
    unary main_v108 main_v109 (broadcastInDim S100000x32 ![0, 1] bcast_S1x32_S100000x32_0_1 : (⟨S1x32, .f32⟩ : BufTy).Contents (Elt F) → (⟨S100000x32, .f32⟩ : BufTy).Contents (Elt F)),
    binary main_v107 main_v109 main_v110 (addf : (⟨S100000x32, .f32⟩ : BufTy).Contents (Elt F) → (⟨S100000x32, .f32⟩ : BufTy).Contents (Elt F) → (⟨S100000x32, .f32⟩ : BufTy).Contents (Elt F)),
    binary main_v59 main_v110 main_v111 (addf : (⟨S100000x32, .f32⟩ : BufTy).Contents (Elt F) → (⟨S100000x32, .f32⟩ : BufTy).Contents (Elt F) → (⟨S100000x32, .f32⟩ : BufTy).Contents (Elt F)) ]
theorem opsU2_sub : (opsU2 : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub ..⟩
theorem opsU2_fresh : ∀ op ∈ (opsU2 : List (HloOp τ sig (Elt F))), op.fresh = ∅ := by
  intro _ h; (repeat (cases h with | head => rfl | tail _ h => ?_)); exact nomatch h

abbrev opsG3 : List (HloOp τ sig (Elt F)) :=
  [ nullary main_c_10 (constantI S_ 32 0#32),
    unary main_c_10 main_v112 (broadcastInDim S800000 ![] bcast_S_S800000 : (⟨S_, .i32⟩ : BufTy).Contents (Elt F) → (⟨S800000, .i32⟩ : BufTy).Contents (Elt F)),
    binary main_arg2 main_v112 main_v113 (cmpi .slt : (⟨S800000, .i32⟩ : BufTy).Contents (Elt F) → (⟨S800000, .i32⟩ : BufTy).Contents (Elt F) → (⟨S800000, .i1⟩ : BufTy).Contents (Elt F)),
    nullary main_c_11 (constantI S_ 32 100000#32),
    unary main_c_11 main_v114 (broadcastInDim S800000 ![] bcast_S_S800000 : (⟨S_, .i32⟩ : BufTy).Contents (Elt F) → (⟨S800000, .i32⟩ : BufTy).Contents (Elt F)),
    binary main_arg2 main_v114 main_v115 (addi : (⟨S800000, .i32⟩ : BufTy).Contents (Elt F) → (⟨S800000, .i32⟩ : BufTy).Contents (Elt F) → (⟨S800000, .i32⟩ : BufTy).Contents (Elt F)),
    ternary main_v113 main_v115 main_arg2 main_v116 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v116 main_v117 (broadcastInDim S800000x1 ![0] bcast_S800000_S800000x1_0 : (⟨S800000, .i32⟩ : BufTy).Contents (Elt F) → (⟨S800000x1, .i32⟩ : BufTy).Contents (Elt F)),
    binary main_v111 main_v117 main_v118 ((fun x i => Host.gather gather_S100000x32_S800000x1_S800000x32_1_0_n_n_0_1_132 x i) : (⟨S100000x32, .f32⟩ : BufTy).Contents (Elt F) → (⟨S800000x1, .i32⟩ : BufTy).Contents (Elt F) → (⟨S800000x32, .f32⟩ : BufTy).Contents (Elt F)),
    nullary main_c_12 (constantI S_ 32 0#32),
    unary main_c_12 main_v119 (broadcastInDim S800000 ![] bcast_S_S800000 : (⟨S_, .i32⟩ : BufTy).Contents (Elt F) → (⟨S800000, .i32⟩ : BufTy).Contents (Elt F)),
    binary main_arg3 main_v119 main_v120 (cmpi .slt : (⟨S800000, .i32⟩ : BufTy).Contents (Elt F) → (⟨S800000, .i32⟩ : BufTy).Contents (Elt F) → (⟨S800000, .i1⟩ : BufTy).Contents (Elt F)),
    nullary main_c_13 (constantI S_ 32 100000#32),
    unary main_c_13 main_v121 (broadcastInDim S800000 ![] bcast_S_S800000 : (⟨S_, .i32⟩ : BufTy).Contents (Elt F) → (⟨S800000, .i32⟩ : BufTy).Contents (Elt F)),
    binary main_arg3 main_v121 main_v122 (addi : (⟨S800000, .i32⟩ : BufTy).Contents (Elt F) → (⟨S800000, .i32⟩ : BufTy).Contents (Elt F) → (⟨S800000, .i32⟩ : BufTy).Contents (Elt F)),
    ternary main_v120 main_v122 main_arg3 main_v123 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v123 main_v124 (broadcastInDim S800000x1 ![0] bcast_S800000_S800000x1_0 : (⟨S800000, .i32⟩ : BufTy).Contents (Elt F) → (⟨S800000x1, .i32⟩ : BufTy).Contents (Elt F)),
    binary main_v111 main_v124 main_v125 ((fun x i => Host.gather gather_S100000x32_S800000x1_S800000x32_1_0_n_n_0_1_132 x i) : (⟨S100000x32, .f32⟩ : BufTy).Contents (Elt F) → (⟨S800000x1, .i32⟩ : BufTy).Contents (Elt F) → (⟨S800000x32, .f32⟩ : BufTy).Contents (Elt F)) ]
theorem opsG3_sub : (opsG3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩
theorem opsG3_fresh : ∀ op ∈ (opsG3 : List (HloOp τ sig (Elt F))), op.fresh = ∅ := by
  intro _ h; (repeat (cases h with | head => rfl | tail _ h => ?_)); exact nomatch h

abbrev opsF3 : List (HloOp τ sig (Elt F)) :=
  [ nary ![main_v118, main_v125, main_v7] main_v126 (fun u => concatenate S800000x80 1 [⟨S800000x32, u 0⟩, ⟨S800000x32, u 1⟩, ⟨S800000x16, u 2⟩] concatenates_S800000x32_S800000x32_S800000x16_S800000x80_d1),
    binary main_v126 main_arg9 main_v127 ((fun l r => Host.dotGeneral dot_S800000x80_S80x32_S800000x32_1_0_0_1_n_n none l r) : (⟨S800000x80, .f32⟩ : BufTy).Contents (Elt F) → (⟨S80x32, .f32⟩ : BufTy).Contents (Elt F) → (⟨S800000x32, .f32⟩ : BufTy).Contents (Elt F)),
    unary main_arg10 main_v128 (broadcastInDim S1x32 ![1] bcast_S32_S1x32_1 : (⟨S32, .f32⟩ : BufTy).Contents (Elt F) → (⟨S1x32, .f32⟩ : BufTy).Contents (Elt F)),
    unary main_v128 main_v129 (broadcastInDim S800000x32 ![0, 1] bcast_S1x32_S800000x32_0_1 : (⟨S1x32, .f32⟩ : BufTy).Contents (Elt F) → (⟨S800000x32, .f32⟩ : BufTy).Contents (Elt F)),
    binary main_v127 main_v129 main_v130 (addf : (⟨S800000x32, .f32⟩ : BufTy).Contents (Elt F) → (⟨S800000x32, .f32⟩ : BufTy).Contents (Elt F) → (⟨S800000x32, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S800000x32, .f32⟩) main_call6_v0) (broadcastInDim S800000x32 ![] bcast_S_S800000x32),
    TRef.binary (TRef.of (T := ⟨S800000x32, .f32⟩) main_v130) (TRef.of (T := ⟨S800000x32, .f32⟩) main_call6_v0) (TRef.of (T := ⟨S800000x32, .f32⟩) main_v131) maximumf,
    binary main_v131 main_arg11 main_v132 ((fun l r => Host.dotGeneral dot_S800000x32_S32x32_S800000x32_1_0_0_1_n_n none l r) : (⟨S800000x32, .f32⟩ : BufTy).Contents (Elt F) → (⟨S32x32, .f32⟩ : BufTy).Contents (Elt F) → (⟨S800000x32, .f32⟩ : BufTy).Contents (Elt F)),
    unary main_arg12 main_v133 (broadcastInDim S1x32 ![1] bcast_S32_S1x32_1 : (⟨S32, .f32⟩ : BufTy).Contents (Elt F) → (⟨S1x32, .f32⟩ : BufTy).Contents (Elt F)),
    unary main_v133 main_v134 (broadcastInDim S800000x32 ![0, 1] bcast_S1x32_S800000x32_0_1 : (⟨S1x32, .f32⟩ : BufTy).Contents (Elt F) → (⟨S800000x32, .f32⟩ : BufTy).Contents (Elt F)),
    binary main_v132 main_v134 main_v135 (addf : (⟨S800000x32, .f32⟩ : BufTy).Contents (Elt F) → (⟨S800000x32, .f32⟩ : BufTy).Contents (Elt F) → (⟨S800000x32, .f32⟩ : BufTy).Contents (Elt F)),
    nullary main_cst_14 (constant S_ .f32 0x00000000#32),
    unary main_cst_14 main_v136 (broadcastInDim S100000x32 ![] bcast_S_S100000x32 : (⟨S_, .f32⟩ : BufTy).Contents (Elt F) → (⟨S100000x32, .f32⟩ : BufTy).Contents (Elt F)),
    unary main_arg3 main_v137 (broadcastInDim S800000x1 ![0] bcast_S800000_S800000x1_0 : (⟨S800000, .i32⟩ : BufTy).Contents (Elt F) → (⟨S800000x1, .i32⟩ : BufTy).Contents (Elt F)),
    ternary main_v136 main_v137 main_v135 main_v138 ((fun x i u => Host.scatterAdd scatter_S100000x32_S800000x1_S800000x32_1_0_0_1 x i u) : (⟨S100000x32, .f32⟩ : BufTy).Contents (Elt F) → (⟨S800000x1, .i32⟩ : BufTy).Contents (Elt F) → (⟨S800000x32, .f32⟩ : BufTy).Contents (Elt F) → (⟨S100000x32, .f32⟩ : BufTy).Contents (Elt F)) ]
theorem opsF3_sub : (opsF3 : List (HloOp τ sig (Elt F))).Forall fun op => op.bufs ⊆ tcRefs τ sig :=
  ⟨nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., unary_bufs_sub .., ternary_bufs_sub ..⟩
theorem opsF3_fresh : ∀ op ∈ (opsF3 : List (HloOp τ sig (Elt F))), op.fresh = ∅ := by
  intro _ h; (repeat (cases h with | head => rfl | tail _ h => ?_)); exact nomatch h

abbrev opsR3 : List (HloOp τ sig (Elt F)) :=
  [ nary ![main_v125, main_v118, main_v7] main_v139 (fun u => concatenate S800000x80 1 [⟨S800000x32, u 0⟩, ⟨S800000x32, u 1⟩, ⟨S800000x16, u 2⟩] concatenates_S800000x32_S800000x32_S800000x16_S800000x80_d1),
    binary main_v139 main_arg9 main_v140 ((fun l r => Host.dotGeneral dot_S800000x80_S80x32_S800000x32_1_0_0_1_n_n none l r) : (⟨S800000x80, .f32⟩ : BufTy).Contents (Elt F) → (⟨S80x32, .f32⟩ : BufTy).Contents (Elt F) → (⟨S800000x32, .f32⟩ : BufTy).Contents (Elt F)),
    unary main_arg10 main_v141 (broadcastInDim S1x32 ![1] bcast_S32_S1x32_1 : (⟨S32, .f32⟩ : BufTy).Contents (Elt F) → (⟨S1x32, .f32⟩ : BufTy).Contents (Elt F)),
    unary main_v141 main_v142 (broadcastInDim S800000x32 ![0, 1] bcast_S1x32_S800000x32_0_1 : (⟨S1x32, .f32⟩ : BufTy).Contents (Elt F) → (⟨S800000x32, .f32⟩ : BufTy).Contents (Elt F)),
    binary main_v140 main_v142 main_v143 (addf : (⟨S800000x32, .f32⟩ : BufTy).Contents (Elt F) → (⟨S800000x32, .f32⟩ : BufTy).Contents (Elt F) → (⟨S800000x32, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S800000x32, .f32⟩) main_call7_v0) (broadcastInDim S800000x32 ![] bcast_S_S800000x32),
    TRef.binary (TRef.of (T := ⟨S800000x32, .f32⟩) main_v143) (TRef.of (T := ⟨S800000x32, .f32⟩) main_call7_v0) (TRef.of (T := ⟨S800000x32, .f32⟩) main_v144) maximumf,
    binary main_v144 main_arg11 main_v145 ((fun l r => Host.dotGeneral dot_S800000x32_S32x32_S800000x32_1_0_0_1_n_n none l r) : (⟨S800000x32, .f32⟩ : BufTy).Contents (Elt F) → (⟨S32x32, .f32⟩ : BufTy).Contents (Elt F) → (⟨S800000x32, .f32⟩ : BufTy).Contents (Elt F)),
    unary main_arg12 main_v146 (broadcastInDim S1x32 ![1] bcast_S32_S1x32_1 : (⟨S32, .f32⟩ : BufTy).Contents (Elt F) → (⟨S1x32, .f32⟩ : BufTy).Contents (Elt F)),
    unary main_v146 main_v147 (broadcastInDim S800000x32 ![0, 1] bcast_S1x32_S800000x32_0_1 : (⟨S1x32, .f32⟩ : BufTy).Contents (Elt F) → (⟨S800000x32, .f32⟩ : BufTy).Contents (Elt F)),
    binary main_v145 main_v147 main_v148 (addf : (⟨S800000x32, .f32⟩ : BufTy).Contents (Elt F) → (⟨S800000x32, .f32⟩ : BufTy).Contents (Elt F) → (⟨S800000x32, .f32⟩ : BufTy).Contents (Elt F)),
    nullary main_cst_15 (constant S_ .f32 0x00000000#32),
    unary main_cst_15 main_v149 (broadcastInDim S100000x32 ![] bcast_S_S100000x32 : (⟨S_, .f32⟩ : BufTy).Contents (Elt F) → (⟨S100000x32, .f32⟩ : BufTy).Contents (Elt F)),
    unary main_arg2 main_v150 (broadcastInDim S800000x1 ![0] bcast_S800000_S800000x1_0 : (⟨S800000, .i32⟩ : BufTy).Contents (Elt F) → (⟨S800000x1, .i32⟩ : BufTy).Contents (Elt F)),
    ternary main_v149 main_v150 main_v148 main_v151 ((fun x i u => Host.scatterAdd scatter_S100000x32_S800000x1_S800000x32_1_0_0_1 x i u) : (⟨S100000x32, .f32⟩ : BufTy).Contents (Elt F) → (⟨S800000x1, .i32⟩ : BufTy).Contents (Elt F) → (⟨S800000x32, .f32⟩ : BufTy).Contents (Elt F) → (⟨S100000x32, .f32⟩ : BufTy).Contents (Elt F)),
    binary main_v138 main_v151 main_v152 (addf : (⟨S100000x32, .f32⟩ : BufTy).Contents (Elt F) → (⟨S100000x32, .f32⟩ : BufTy).Contents (Elt F) → (⟨S100000x32, .f32⟩ : BufTy).Contents (Elt F)) ]
theorem opsR3_sub : (opsR3 : List (HloOp τ sig (Elt F))).Forall fun op => op.bufs ⊆ tcRefs τ sig :=
  ⟨nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., unary_bufs_sub .., ternary_bufs_sub .., binary_bufs_sub ..⟩
theorem opsR3_fresh : ∀ op ∈ (opsR3 : List (HloOp τ sig (Elt F))), op.fresh = ∅ := by
  intro _ h; (repeat (cases h with | head => rfl | tail _ h => ?_)); exact nomatch h

abbrev opsU3 : List (HloOp τ sig (Elt F)) :=
  [ binary main_v152 main_v111 main_v153 ((fun a b => concatenate S100000x64 1 [⟨S100000x32, a⟩, ⟨S100000x32, b⟩] concatenates_S100000x32_S100000x32_S100000x64_d1) : (⟨S100000x32, .f32⟩ : BufTy).Contents (Elt F) → (⟨S100000x32, .f32⟩ : BufTy).Contents (Elt F) → (⟨S100000x64, .f32⟩ : BufTy).Contents (Elt F)),
    binary main_v153 main_arg13 main_v154 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg14 main_v155 (broadcastInDim S1x64 ![1] bcast_S64_S1x64_1 : (⟨S64, .f32⟩ : BufTy).Contents (Elt F) → (⟨S1x64, .f32⟩ : BufTy).Contents (Elt F)),
    unary main_v155 main_v156 (broadcastInDim S100000x64 ![0, 1] bcast_S1x64_S100000x64_0_1 : (⟨S1x64, .f32⟩ : BufTy).Contents (Elt F) → (⟨S100000x64, .f32⟩ : BufTy).Contents (Elt F)),
    binary main_v154 main_v156 main_v157 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S100000x64, .f32⟩) main_call8_v0) (broadcastInDim S100000x64 ![] bcast_S_S100000x64),
    TRef.binary (TRef.of (T := ⟨S100000x64, .f32⟩) main_v157) (TRef.of (T := ⟨S100000x64, .f32⟩) main_call8_v0) (TRef.of (T := ⟨S100000x64, .f32⟩) main_v158) maximumf,
    binary main_v158 main_arg15 main_v159 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    unary main_arg16 main_v160 (broadcastInDim S1x32 ![1] bcast_S32_S1x32_1 : (⟨S32, .f32⟩ : BufTy).Contents (Elt F) → (⟨S1x32, .f32⟩ : BufTy).Contents (Elt F)),
    unary main_v160 main_v161 (broadcastInDim S100000x32 ![0, 1] bcast_S1x32_S100000x32_0_1 : (⟨S1x32, .f32⟩ : BufTy).Contents (Elt F) → (⟨S100000x32, .f32⟩ : BufTy).Contents (Elt F)),
    binary main_v159 main_v161 main_v162 (addf : (⟨S100000x32, .f32⟩ : BufTy).Contents (Elt F) → (⟨S100000x32, .f32⟩ : BufTy).Contents (Elt F) → (⟨S100000x32, .f32⟩ : BufTy).Contents (Elt F)),
    binary main_v111 main_v162 main_v163 (addf : (⟨S100000x32, .f32⟩ : BufTy).Contents (Elt F) → (⟨S100000x32, .f32⟩ : BufTy).Contents (Elt F) → (⟨S100000x32, .f32⟩ : BufTy).Contents (Elt F)) ]
theorem opsU3_sub : (opsU3 : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub ..⟩
theorem opsU3_fresh : ∀ op ∈ (opsU3 : List (HloOp τ sig (Elt F))), op.fresh = ∅ := by
  intro _ h; (repeat (cases h with | head => rfl | tail _ h => ?_)); exact nomatch h

abbrev opsP : List (HloOp τ sig (Elt F)) :=
  [ binary main_v163 main_arg17 main_v164 ((fun l r => Host.dotGeneral dot_S100000x32_S32x128_S100000x128_1_0_0_1_n_n none l r) : (⟨S100000x32, .f32⟩ : BufTy).Contents (Elt F) → (⟨S32x128, .f32⟩ : BufTy).Contents (Elt F) → (⟨S100000x128, .f32⟩ : BufTy).Contents (Elt F)),
    unary main_arg18 main_v165 (broadcastInDim S1x128 ![1] bcast_S128_S1x128_1 : (⟨S128, .f32⟩ : BufTy).Contents (Elt F) → (⟨S1x128, .f32⟩ : BufTy).Contents (Elt F)),
    unary main_v165 main_v166 (broadcastInDim S100000x128 ![0, 1] bcast_S1x128_S100000x128_0_1 : (⟨S1x128, .f32⟩ : BufTy).Contents (Elt F) → (⟨S100000x128, .f32⟩ : BufTy).Contents (Elt F)),
    binary main_v164 main_v166 main_v167 (addf : (⟨S100000x128, .f32⟩ : BufTy).Contents (Elt F) → (⟨S100000x128, .f32⟩ : BufTy).Contents (Elt F) → (⟨S100000x128, .f32⟩ : BufTy).Contents (Elt F)),
    unary main_v167 main_v168 ((extractStridedSlice S100000x64 ![0, 0] · slices_S100000x128_S100000x64_0_0) : (⟨S100000x128, .f32⟩ : BufTy).Contents (Elt F) → (⟨S100000x64, .f32⟩ : BufTy).Contents (Elt F)),
    unary main_v168 main_v169 (Host.negf : (⟨S100000x64, .f32⟩ : BufTy).Contents (Elt F) → (⟨S100000x64, .f32⟩ : BufTy).Contents (Elt F)),
    unary main_v169 main_v170 (Host.exp : (⟨S100000x64, .f32⟩ : BufTy).Contents (Elt F) → (⟨S100000x64, .f32⟩ : BufTy).Contents (Elt F)),
    nullary main_cst_16 (constant S_ .f32 0x3F800000#32),
    unary main_cst_16 main_v171 (broadcastInDim S100000x64 ![] bcast_S_S100000x64 : (⟨S_, .f32⟩ : BufTy).Contents (Elt F) → (⟨S100000x64, .f32⟩ : BufTy).Contents (Elt F)),
    binary main_v171 main_v170 main_v172 (addf : (⟨S100000x64, .f32⟩ : BufTy).Contents (Elt F) → (⟨S100000x64, .f32⟩ : BufTy).Contents (Elt F) → (⟨S100000x64, .f32⟩ : BufTy).Contents (Elt F)),
    nullary main_cst_17 (constant S_ .f32 0x3F800000#32),
    unary main_cst_17 main_v173 (broadcastInDim S100000x64 ![] bcast_S_S100000x64 : (⟨S_, .f32⟩ : BufTy).Contents (Elt F) → (⟨S100000x64, .f32⟩ : BufTy).Contents (Elt F)),
    binary main_v173 main_v172 main_v174 (Host.divf : (⟨S100000x64, .f32⟩ : BufTy).Contents (Elt F) → (⟨S100000x64, .f32⟩ : BufTy).Contents (Elt F) → (⟨S100000x64, .f32⟩ : BufTy).Contents (Elt F)),
    unary main_v167 main_v175 ((extractStridedSlice S100000x64 ![0, 64] · slices_S100000x128_S100000x64_0_64) : (⟨S100000x128, .f32⟩ : BufTy).Contents (Elt F) → (⟨S100000x64, .f32⟩ : BufTy).Contents (Elt F)),
    binary main_v174 main_v175 main_v176 (mulf : (⟨S100000x64, .f32⟩ : BufTy).Contents (Elt F) → (⟨S100000x64, .f32⟩ : BufTy).Contents (Elt F) → (⟨S100000x64, .f32⟩ : BufTy).Contents (Elt F)) ]
theorem opsP_sub : (opsP : List (HloOp τ sig (Elt F))).Forall fun op => op.bufs ⊆ tcRefs τ sig :=
  ⟨binary_bufs_sub .., unary_bufs_sub .., unary_bufs_sub .., binary_bufs_sub .., unary_bufs_sub .., unary_bufs_sub .., unary_bufs_sub .., nullary_bufs_sub .., unary_bufs_sub .., binary_bufs_sub .., nullary_bufs_sub .., unary_bufs_sub .., binary_bufs_sub .., unary_bufs_sub .., binary_bufs_sub ..⟩
theorem opsP_fresh : ∀ op ∈ (opsP : List (HloOp τ sig (Elt F))), op.fresh = ∅ := by
  intro _ h; (repeat (cases h with | head => rfl | tail _ h => ?_)); exact nomatch h

abbrev opsT : List (HloOp τ sig (Elt F)) :=
  [ nullary main_cst_18 (constant S_ .f32 0x00000000#32),
    unary main_cst_18 main_v177 (broadcastInDim S512x64 ![] bcast_S_S512x64 : (⟨S_, .f32⟩ : BufTy).Contents (Elt F) → (⟨S512x64, .f32⟩ : BufTy).Contents (Elt F)),
    unary main_arg4 main_v178 (broadcastInDim S100000x1 ![0] bcast_S100000_S100000x1_0 : (⟨S100000, .i32⟩ : BufTy).Contents (Elt F) → (⟨S100000x1, .i32⟩ : BufTy).Contents (Elt F)),
    ternary main_v177 main_v178 main_v176 main_v179 ((fun x i u => Host.scatterAdd scatter_S512x64_S100000x1_S100000x64_1_0_0_1 x i u) : (⟨S512x64, .f32⟩ : BufTy).Contents (Elt F) → (⟨S100000x1, .i32⟩ : BufTy).Contents (Elt F) → (⟨S100000x64, .f32⟩ : BufTy).Contents (Elt F) → (⟨S512x64, .f32⟩ : BufTy).Contents (Elt F)),
    binary main_v179 main_arg19 main_v180 ((fun l r => Host.dotGeneral dot_S512x64_S64x64_S512x64_1_0_0_1_n_n none l r) : (⟨S512x64, .f32⟩ : BufTy).Contents (Elt F) → (⟨S64x64, .f32⟩ : BufTy).Contents (Elt F) → (⟨S512x64, .f32⟩ : BufTy).Contents (Elt F)),
    unary main_arg20 main_v181 (broadcastInDim S1x64 ![1] bcast_S64_S1x64_1 : (⟨S64, .f32⟩ : BufTy).Contents (Elt F) → (⟨S1x64, .f32⟩ : BufTy).Contents (Elt F)),
    unary main_v181 main_v182 (broadcastInDim S512x64 ![0, 1] bcast_S1x64_S512x64_0_1 : (⟨S1x64, .f32⟩ : BufTy).Contents (Elt F) → (⟨S512x64, .f32⟩ : BufTy).Contents (Elt F)),
    binary main_v180 main_v182 main_v183 (addf : (⟨S512x64, .f32⟩ : BufTy).Contents (Elt F) → (⟨S512x64, .f32⟩ : BufTy).Contents (Elt F) → (⟨S512x64, .f32⟩ : BufTy).Contents (Elt F)),
    reshape main_v183 main_v184 rfl shapeCasts_S512x64_S256x128,
    unary main_v184 main_v185 ((extractStridedSlice S256x64 ![0, 0] · slices_S256x128_S256x64_0_0) : (⟨S256x128, .f32⟩ : BufTy).Contents (Elt F) → (⟨S256x64, .f32⟩ : BufTy).Contents (Elt F)),
    unary main_v184 main_v186 ((extractStridedSlice S256x64 ![0, 64] · slices_S256x128_S256x64_0_64) : (⟨S256x128, .f32⟩ : BufTy).Contents (Elt F) → (⟨S256x64, .f32⟩ : BufTy).Contents (Elt F)),
    binary main_v186 main_v185 main_v187 (subf : (⟨S256x64, .f32⟩ : BufTy).Contents (Elt F) → (⟨S256x64, .f32⟩ : BufTy).Contents (Elt F) → (⟨S256x64, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S256x64, .f32⟩) main_call9_v0) (broadcastInDim S256x64 ![] bcast_S_S256x64),
    TRef.binary (TRef.of (T := ⟨S256x64, .f32⟩) main_v187) (TRef.of (T := ⟨S256x64, .f32⟩) main_call9_v0) (TRef.of (T := ⟨S256x64, .f32⟩) main_v188) maximumf,
    nullary main_cst_19 (constant S_ .f32 0x00000000#32),
    binary main_v188 main_cst_19 main_v189 ((fun x v => Host.reduceAdd x v reducesTo_S256x64_S256_d1 h_S_) : (⟨S256x64, .f32⟩ : BufTy).Contents (Elt F) → (⟨S_, .f32⟩ : BufTy).Contents (Elt F) → (⟨S256, .f32⟩ : BufTy).Contents (Elt F)),
    binary main_v185 main_v186 main_v190 (subf : (⟨S256x64, .f32⟩ : BufTy).Contents (Elt F) → (⟨S256x64, .f32⟩ : BufTy).Contents (Elt F) → (⟨S256x64, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S256x64, .f32⟩) main_call10_v0) (broadcastInDim S256x64 ![] bcast_S_S256x64),
    TRef.binary (TRef.of (T := ⟨S256x64, .f32⟩) main_v190) (TRef.of (T := ⟨S256x64, .f32⟩) main_call10_v0) (TRef.of (T := ⟨S256x64, .f32⟩) main_v191) maximumf,
    nullary main_cst_20 (constant S_ .f32 0x00000000#32),
    binary main_v191 main_cst_20 main_v192 ((fun x v => Host.reduceAdd x v reducesTo_S256x64_S256_d1 h_S_) : (⟨S256x64, .f32⟩ : BufTy).Contents (Elt F) → (⟨S_, .f32⟩ : BufTy).Contents (Elt F) → (⟨S256, .f32⟩ : BufTy).Contents (Elt F)),
    nullary main_cst_21 (constant S_ .f32 0x3F800000#32),
    unary main_cst_21 main_v193 (broadcastInDim S256 ![] bcast_S_S256 : (⟨S_, .f32⟩ : BufTy).Contents (Elt F) → (⟨S256, .f32⟩ : BufTy).Contents (Elt F)),
    binary main_v193 main_v189 main_v194 (mulf : (⟨S256, .f32⟩ : BufTy).Contents (Elt F) → (⟨S256, .f32⟩ : BufTy).Contents (Elt F) → (⟨S256, .f32⟩ : BufTy).Contents (Elt F)),
    nullary main_cst_22 (constant S_ .f32 0x3F800000#32),
    unary main_cst_22 main_v195 (broadcastInDim S256 ![] bcast_S_S256 : (⟨S_, .f32⟩ : BufTy).Contents (Elt F) → (⟨S256, .f32⟩ : BufTy).Contents (Elt F)),
    binary main_v195 main_v192 main_v196 (mulf : (⟨S256, .f32⟩ : BufTy).Contents (Elt F) → (⟨S256, .f32⟩ : BufTy).Contents (Elt F) → (⟨S256, .f32⟩ : BufTy).Contents (Elt F)),
    binary main_v194 main_v196 main_v197 (addf : (⟨S256, .f32⟩ : BufTy).Contents (Elt F) → (⟨S256, .f32⟩ : BufTy).Contents (Elt F) → (⟨S256, .f32⟩ : BufTy).Contents (Elt F)) ]
theorem opsT_sub : (opsT : List (HloOp τ sig (Elt F))).Forall fun op => op.bufs ⊆ tcRefs τ sig :=
  ⟨nullary_bufs_sub .., unary_bufs_sub .., unary_bufs_sub .., ternary_bufs_sub .., binary_bufs_sub .., unary_bufs_sub .., unary_bufs_sub .., binary_bufs_sub .., reshape_bufs_sub .., unary_bufs_sub .., unary_bufs_sub .., binary_bufs_sub .., nullary_bufs_sub .., unary_bufs_sub .., binary_bufs_sub .., nullary_bufs_sub .., binary_bufs_sub .., binary_bufs_sub .., nullary_bufs_sub .., unary_bufs_sub .., binary_bufs_sub .., nullary_bufs_sub .., binary_bufs_sub .., nullary_bufs_sub .., unary_bufs_sub .., binary_bufs_sub .., nullary_bufs_sub .., unary_bufs_sub .., binary_bufs_sub .., binary_bufs_sub ..⟩
theorem opsT_fresh : ∀ op ∈ (opsT : List (HloOp τ sig (Elt F))), op.fresh = ∅ := by
  intro _ h; (repeat (cases h with | head => rfl | tail _ h => ?_)); exact nomatch h

/-- The program defines its buffers in index order: each stretch writes one block of consecutive indices. -/
theorem ops_writes : WritesIn (Val := Elt F) opsE 21 29 ∧ WritesIn (Val := Elt F) opsG1 29 47 ∧ WritesIn (Val := Elt F) opsF1 47 63 ∧ WritesIn (Val := Elt F) opsR1 63 80 ∧ WritesIn (Val := Elt F) opsU1 80 93 ∧ WritesIn (Val := Elt F) opsG2 93 111 ∧ WritesIn (Val := Elt F) opsF2 111 127 ∧ WritesIn (Val := Elt F) opsR2 127 144 ∧ WritesIn (Val := Elt F) opsU2 144 157 ∧ WritesIn (Val := Elt F) opsG3 157 175 ∧ WritesIn (Val := Elt F) opsF3 175 191 ∧ WritesIn (Val := Elt F) opsR3 191 208 ∧ WritesIn (Val := Elt F) opsU3 208 221 ∧ WritesIn (Val := Elt F) opsP 221 236 ∧ WritesIn (Val := Elt F) opsT 236 266 := by
  simp only [WritesIn, List.Forall, nullary_writes, unary_writes, binary_writes, ternary_writes, quaternary_writes, reshape_writes,
    binaryIndexed_writes, unaryIndexed_writes, nary_writes, Finset.mem_singleton, forall_eq]
  repeat' apply And.intro
  all_goals exact ⟨_, rfl, by decide⟩

theorem keepE (V : Valuation τ sig (Elt F)) (r : Ref sig .tc) (hr : r.idx.val < 21 ∨ 29 ≤ r.idx.val) :
    after (opsE (F := F)) V (Proc.devRef .tc r) = V (Proc.devRef .tc r) := after_keep (ops_writes (F := F)).1 V r hr
theorem keepG1 (V : Valuation τ sig (Elt F)) (r : Ref sig .tc) (hr : r.idx.val < 29 ∨ 47 ≤ r.idx.val) :
    after (opsG1 (F := F)) V (Proc.devRef .tc r) = V (Proc.devRef .tc r) := after_keep (ops_writes (F := F)).2.1 V r hr
theorem keepF1 (V : Valuation τ sig (Elt F)) (r : Ref sig .tc) (hr : r.idx.val < 47 ∨ 63 ≤ r.idx.val) :
    after (opsF1 (F := F)) V (Proc.devRef .tc r) = V (Proc.devRef .tc r) := after_keep (ops_writes (F := F)).2.2.1 V r hr
theorem keepR1 (V : Valuation τ sig (Elt F)) (r : Ref sig .tc) (hr : r.idx.val < 63 ∨ 80 ≤ r.idx.val) :
    after (opsR1 (F := F)) V (Proc.devRef .tc r) = V (Proc.devRef .tc r) := after_keep (ops_writes (F := F)).2.2.2.1 V r hr
theorem keepU1 (V : Valuation τ sig (Elt F)) (r : Ref sig .tc) (hr : r.idx.val < 80 ∨ 93 ≤ r.idx.val) :
    after (opsU1 (F := F)) V (Proc.devRef .tc r) = V (Proc.devRef .tc r) := after_keep (ops_writes (F := F)).2.2.2.2.1 V r hr
theorem keepG2 (V : Valuation τ sig (Elt F)) (r : Ref sig .tc) (hr : r.idx.val < 93 ∨ 111 ≤ r.idx.val) :
    after (opsG2 (F := F)) V (Proc.devRef .tc r) = V (Proc.devRef .tc r) := after_keep (ops_writes (F := F)).2.2.2.2.2.1 V r hr
theorem keepF2 (V : Valuation τ sig (Elt F)) (r : Ref sig .tc) (hr : r.idx.val < 111 ∨ 127 ≤ r.idx.val) :
    after (opsF2 (F := F)) V (Proc.devRef .tc r) = V (Proc.devRef .tc r) := after_keep (ops_writes (F := F)).2.2.2.2.2.2.1 V r hr
theorem keepR2 (V : Valuation τ sig (Elt F)) (r : Ref sig .tc) (hr : r.idx.val < 127 ∨ 144 ≤ r.idx.val) :
    after (opsR2 (F := F)) V (Proc.devRef .tc r) = V (Proc.devRef .tc r) := after_keep (ops_writes (F := F)).2.2.2.2.2.2.2.1 V r hr
theorem keepU2 (V : Valuation τ sig (Elt F)) (r : Ref sig .tc) (hr : r.idx.val < 144 ∨ 157 ≤ r.idx.val) :
    after (opsU2 (F := F)) V (Proc.devRef .tc r) = V (Proc.devRef .tc r) := after_keep (ops_writes (F := F)).2.2.2.2.2.2.2.2.1 V r hr
theorem keepG3 (V : Valuation τ sig (Elt F)) (r : Ref sig .tc) (hr : r.idx.val < 157 ∨ 175 ≤ r.idx.val) :
    after (opsG3 (F := F)) V (Proc.devRef .tc r) = V (Proc.devRef .tc r) := after_keep (ops_writes (F := F)).2.2.2.2.2.2.2.2.2.1 V r hr
theorem keepF3 (V : Valuation τ sig (Elt F)) (r : Ref sig .tc) (hr : r.idx.val < 175 ∨ 191 ≤ r.idx.val) :
    after (opsF3 (F := F)) V (Proc.devRef .tc r) = V (Proc.devRef .tc r) := after_keep (ops_writes (F := F)).2.2.2.2.2.2.2.2.2.2.1 V r hr
theorem keepR3 (V : Valuation τ sig (Elt F)) (r : Ref sig .tc) (hr : r.idx.val < 191 ∨ 208 ≤ r.idx.val) :
    after (opsR3 (F := F)) V (Proc.devRef .tc r) = V (Proc.devRef .tc r) := after_keep (ops_writes (F := F)).2.2.2.2.2.2.2.2.2.2.2.1 V r hr
theorem keepU3 (V : Valuation τ sig (Elt F)) (r : Ref sig .tc) (hr : r.idx.val < 208 ∨ 221 ≤ r.idx.val) :
    after (opsU3 (F := F)) V (Proc.devRef .tc r) = V (Proc.devRef .tc r) := after_keep (ops_writes (F := F)).2.2.2.2.2.2.2.2.2.2.2.2.1 V r hr
theorem keepP (V : Valuation τ sig (Elt F)) (r : Ref sig .tc) (hr : r.idx.val < 221 ∨ 236 ≤ r.idx.val) :
    after (opsP (F := F)) V (Proc.devRef .tc r) = V (Proc.devRef .tc r) := after_keep (ops_writes (F := F)).2.2.2.2.2.2.2.2.2.2.2.2.2.1 V r hr
theorem keepT (V : Valuation τ sig (Elt F)) (r : Ref sig .tc) (hr : r.idx.val < 236 ∨ 266 ≤ r.idx.val) :
    after (opsT (F := F)) V (Proc.devRef .tc r) = V (Proc.devRef .tc r) := after_keep (ops_writes (F := F)).2.2.2.2.2.2.2.2.2.2.2.2.2.2 V r hr

abbrev allOps : List (HloOp τ sig (Elt F)) := opsE ++ opsG1 ++ opsF1 ++ opsR1 ++ opsU1 ++ opsG2 ++ opsF2 ++ opsR2 ++ opsU2 ++ opsG3 ++ opsF3 ++ opsR3 ++ opsU3 ++ opsP ++ opsT

theorem forall_mem_app {α : Type} {P : α → Prop} {l₁ l₂ : List α} (h₁ : ∀ a ∈ l₁, P a) (h₂ : ∀ a ∈ l₂, P a) : ∀ a ∈ l₁ ++ l₂, P a :=
  fun a h => (List.mem_append.mp h).elim (h₁ a) (h₂ a)

theorem allOps_sub : (allOps : List (HloOp τ sig (Elt F))).Forall fun op => op.bufs ⊆ tcRefs τ sig :=
  List.forall_iff_forall_mem.mpr (forall_mem_app (forall_mem_app (forall_mem_app (forall_mem_app (forall_mem_app (forall_mem_app (forall_mem_app (forall_mem_app (forall_mem_app (forall_mem_app (forall_mem_app (forall_mem_app (forall_mem_app (forall_mem_app (List.forall_iff_forall_mem.mp opsE_sub) (List.forall_iff_forall_mem.mp opsG1_sub)) (List.forall_iff_forall_mem.mp opsF1_sub)) (List.forall_iff_forall_mem.mp opsR1_sub)) (List.forall_iff_forall_mem.mp opsU1_sub)) (List.forall_iff_forall_mem.mp opsG2_sub)) (List.forall_iff_forall_mem.mp opsF2_sub)) (List.forall_iff_forall_mem.mp opsR2_sub)) (List.forall_iff_forall_mem.mp opsU2_sub)) (List.forall_iff_forall_mem.mp opsG3_sub)) (List.forall_iff_forall_mem.mp opsF3_sub)) (List.forall_iff_forall_mem.mp opsR3_sub)) (List.forall_iff_forall_mem.mp opsU3_sub)) (List.forall_iff_forall_mem.mp opsP_sub)) (List.forall_iff_forall_mem.mp opsT_sub))

theorem allOps_fresh : ∀ op ∈ (allOps : List (HloOp τ sig (Elt F))), op.fresh = ∅ :=
  forall_mem_app (forall_mem_app (forall_mem_app (forall_mem_app (forall_mem_app (forall_mem_app (forall_mem_app (forall_mem_app (forall_mem_app (forall_mem_app (forall_mem_app (forall_mem_app (forall_mem_app (forall_mem_app (opsE_fresh) opsG1_fresh) opsF1_fresh) opsR1_fresh) opsU1_fresh) opsG2_fresh) opsF2_fresh) opsR2_fresh) opsU2_fresh) opsG3_fresh) opsF3_fresh) opsR3_fresh) opsU3_fresh) opsP_fresh) opsT_fresh

set_option maxRecDepth 8192 in
set_option maxHeartbeats 4000000 in

theorem main_eq (c : Dev nD) : main (F := F) c = seq allOps := rfl
theorem scopedRefs_eq : (Finset.univ.filter fun b : Ref sig .tc => b.isScoped) = ∅ := by decide
theorem scopedSems_eq : (Finset.univ.filter fun sm : SemLoc sig => sm.isScoped .tc) = ∅ := by decide

end Ops

end Cert.ReferenceIdeal.RefRun

end
-- ==== Proof.RefRunHand.lean ====
import proofs.«411375_j87694642250038_1_alg».proof.Proof.RefRunOps
import proofs.«411375_j87694642250038_1_alg».proof.Proof.RefSpec

noncomputable section

namespace Cert.ReferenceIdeal.RefRun

open Cert.ReferenceIdeal Cert.ReferenceIdeal.Gen Cert.ReferenceIdeal.RefOps Cert.ReferenceIdeal.RefSpec
open Idealize.ShloMosaic Idealize.ShloMosaic.TcCoe Idealize.SL.Sem Idealize.ShloMosaic.StableHlo

section Values

variable (V : Valuation τ sig (Elt Ideal))

set_option maxHeartbeats 2000000 in
theorem resE_v3 : after (opsE (F := Ideal)) V (Proc.devRef .tc main_v3) = rlinN (V (Proc.devRef .tc main_arg0)) (V (Proc.devRef .tc main_arg5)) (V (Proc.devRef .tc main_arg6)) := by
  after_results; rfl
set_option maxHeartbeats 2000000 in
theorem resE_v7 : after (opsE (F := Ideal)) V (Proc.devRef .tc main_v7) = rlinE (V (Proc.devRef .tc main_arg1)) (V (Proc.devRef .tc main_arg7)) (V (Proc.devRef .tc main_arg8)) := by
  after_results; rfl

set_option maxHeartbeats 2000000 in
theorem resG1_v14 : after (opsG1 (F := Ideal)) V (Proc.devRef .tc main_v14) = rgath (V (Proc.devRef .tc main_v3)) (V (Proc.devRef .tc main_arg2)) := by
  after_results; rfl
set_option maxHeartbeats 2000000 in
theorem resG1_v21 : after (opsG1 (F := Ideal)) V (Proc.devRef .tc main_v21) = rgath (V (Proc.devRef .tc main_v3)) (V (Proc.devRef .tc main_arg3)) := by
  after_results; rfl
set_option maxHeartbeats 2000000 in
theorem resF1_v34 : after (opsF1 (F := Ideal)) V (Proc.devRef .tc main_v34) =
    rscat (V (Proc.devRef .tc main_arg3)) (rmsg (V (Proc.devRef .tc main_v14)) (V (Proc.devRef .tc main_v21)) (V (Proc.devRef .tc main_v7)) (V (Proc.devRef .tc main_arg9)) (V (Proc.devRef .tc main_arg10)) (V (Proc.devRef .tc main_arg11)) (V (Proc.devRef .tc main_arg12))) := by
  after_results; rfl
set_option maxHeartbeats 2000000 in
theorem resR1_v48 : after (opsR1 (F := Ideal)) V (Proc.devRef .tc main_v48) =
    (addf (V (Proc.devRef .tc main_v34)) (rscat (V (Proc.devRef .tc main_arg2)) (rmsg (V (Proc.devRef .tc main_v21)) (V (Proc.devRef .tc main_v14)) (V (Proc.devRef .tc main_v7)) (V (Proc.devRef .tc main_arg9)) (V (Proc.devRef .tc main_arg10)) (V (Proc.devRef .tc main_arg11)) (V (Proc.devRef .tc main_arg12)))) : FVec Ideal S100000x32 .f32) := by
  after_results; rfl
set_option maxHeartbeats 2000000 in
theorem resU1_v59 : after (opsU1 (F := Ideal)) V (Proc.devRef .tc main_v59) = rupd (V (Proc.devRef .tc main_v48)) (V (Proc.devRef .tc main_v3)) (V (Proc.devRef .tc main_arg13)) (V (Proc.devRef .tc main_arg14)) (V (Proc.devRef .tc main_arg15)) (V (Proc.devRef .tc main_arg16)) := by
  after_results; rfl

set_option maxHeartbeats 2000000 in
theorem resG2_v66 : after (opsG2 (F := Ideal)) V (Proc.devRef .tc main_v66) = rgath (V (Proc.devRef .tc main_v59)) (V (Proc.devRef .tc main_arg2)) := by
  after_results; rfl
set_option maxHeartbeats 2000000 in
theorem resG2_v73 : after (opsG2 (F := Ideal)) V (Proc.devRef .tc main_v73) = rgath (V (Proc.devRef .tc main_v59)) (V (Proc.devRef .tc main_arg3)) := by
  after_results; rfl
set_option maxHeartbeats 2000000 in
theorem resF2_v86 : after (opsF2 (F := Ideal)) V (Proc.devRef .tc main_v86) =
    rscat (V (Proc.devRef .tc main_arg3)) (rmsg (V (Proc.devRef .tc main_v66)) (V (Proc.devRef .tc main_v73)) (V (Proc.devRef .tc main_v7)) (V (Proc.devRef .tc main_arg9)) (V (Proc.devRef .tc main_arg10)) (V (Proc.devRef .tc main_arg11)) (V (Proc.devRef .tc main_arg12))) := by
  after_results; rfl
set_option maxHeartbeats 2000000 in
theorem resR2_v100 : after (opsR2 (F := Ideal)) V (Proc.devRef .tc main_v100) =
    (addf (V (Proc.devRef .tc main_v86)) (rscat (V (Proc.devRef .tc main_arg2)) (rmsg (V (Proc.devRef .tc main_v73)) (V (Proc.devRef .tc main_v66)) (V (Proc.devRef .tc main_v7)) (V (Proc.devRef .tc main_arg9)) (V (Proc.devRef .tc main_arg10)) (V (Proc.devRef .tc main_arg11)) (V (Proc.devRef .tc main_arg12)))) : FVec Ideal S100000x32 .f32) := by
  after_results; rfl
set_option maxHeartbeats 2000000 in
theorem resU2_v111 : after (opsU2 (F := Ideal)) V (Proc.devRef .tc main_v111) = rupd (V (Proc.devRef .tc main_v100)) (V (Proc.devRef .tc main_v59)) (V (Proc.devRef .tc main_arg13)) (V (Proc.devRef .tc main_arg14)) (V (Proc.devRef .tc main_arg15)) (V (Proc.devRef .tc main_arg16)) := by
  after_results; rfl

set_option maxHeartbeats 2000000 in
theorem resG3_v118 : after (opsG3 (F := Ideal)) V (Proc.devRef .tc main_v118) = rgath (V (Proc.devRef .tc main_v111)) (V (Proc.devRef .tc main_arg2)) := by
  after_results; rfl
set_option maxHeartbeats 2000000 in
theorem resG3_v125 : after (opsG3 (F := Ideal)) V (Proc.devRef .tc main_v125) = rgath (V (Proc.devRef .tc main_v111)) (V (Proc.devRef .tc main_arg3)) := by
  after_results; rfl
set_option maxHeartbeats 2000000 in
theorem resF3_v138 : after (opsF3 (F := Ideal)) V (Proc.devRef .tc main_v138) =
    rscat (V (Proc.devRef .tc main_arg3)) (rmsg (V (Proc.devRef .tc main_v118)) (V (Proc.devRef .tc main_v125)) (V (Proc.devRef .tc main_v7)) (V (Proc.devRef .tc main_arg9)) (V (Proc.devRef .tc main_arg10)) (V (Proc.devRef .tc main_arg11)) (V (Proc.devRef .tc main_arg12))) := by
  after_results; rfl
set_option maxHeartbeats 2000000 in
theorem resR3_v152 : after (opsR3 (F := Ideal)) V (Proc.devRef .tc main_v152) =
    (addf (V (Proc.devRef .tc main_v138)) (rscat (V (Proc.devRef .tc main_arg2)) (rmsg (V (Proc.devRef .tc main_v125)) (V (Proc.devRef .tc main_v118)) (V (Proc.devRef .tc main_v7)) (V (Proc.devRef .tc main_arg9)) (V (Proc.devRef .tc main_arg10)) (V (Proc.devRef .tc main_arg11)) (V (Proc.devRef .tc main_arg12)))) : FVec Ideal S100000x32 .f32) := by
  after_results; rfl
set_option maxHeartbeats 2000000 in
theorem resU3_v163 : after (opsU3 (F := Ideal)) V (Proc.devRef .tc main_v163) = rupd (V (Proc.devRef .tc main_v152)) (V (Proc.devRef .tc main_v111)) (V (Proc.devRef .tc main_arg13)) (V (Proc.devRef .tc main_arg14)) (V (Proc.devRef .tc main_arg15)) (V (Proc.devRef .tc main_arg16)) := by
  after_results; rfl

set_option maxHeartbeats 2000000 in
theorem resP_v176 : after (opsP (F := Ideal)) V (Proc.devRef .tc main_v176) = rgated (V (Proc.devRef .tc main_v163)) (V (Proc.devRef .tc main_arg17)) (V (Proc.devRef .tc main_arg18)) := by
  after_results; rfl
set_option maxHeartbeats 2000000 in
theorem resT_v197 : after (opsT (F := Ideal)) V (Proc.devRef .tc main_v197) = rtail (V (Proc.devRef .tc main_v176)) (V (Proc.devRef .tc main_arg4)) (V (Proc.devRef .tc main_arg19)) (V (Proc.devRef .tc main_arg20)) := by
  after_results_simp
  rfl

abbrev mainArgs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20]
theorem arg_lt : ∀ r ∈ mainArgs, r.idx.val < 21 := by decide

def eH0 : FVec Ideal S100000x32 .f32 := rlinN (V (Proc.devRef .tc main_arg0)) (V (Proc.devRef .tc main_arg5)) (V (Proc.devRef .tc main_arg6))
def eE : FVec Ideal S800000x16 .f32 := rlinE (V (Proc.devRef .tc main_arg1)) (V (Proc.devRef .tc main_arg7)) (V (Proc.devRef .tc main_arg8))
def eH1 : FVec Ideal S100000x32 .f32 := rlayer (eH0 V) (eE V) (V (Proc.devRef .tc main_arg2)) (V (Proc.devRef .tc main_arg3)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16))
def eH2 : FVec Ideal S100000x32 .f32 := rlayer (eH1 V) (eE V) (V (Proc.devRef .tc main_arg2)) (V (Proc.devRef .tc main_arg3)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16))
def eH3 : FVec Ideal S100000x32 .f32 := rlayer (eH2 V) (eE V) (V (Proc.devRef .tc main_arg2)) (V (Proc.devRef .tc main_arg3)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16))

def BE : Valuation τ sig (Elt Ideal) := after (opsE (F := Ideal)) V
theorem BE_arg (r : Ref sig .tc) (hr : r ∈ mainArgs) : BE V (Proc.devRef .tc r) = V (Proc.devRef .tc r) := by
  unfold BE
  rw [keepE _ r (Or.inl (Nat.lt_of_lt_of_le (arg_lt r hr) (by decide)))]
theorem BE_v3 : BE V (Proc.devRef .tc main_v3) = eH0 V := resE_v3 V
theorem BE_v7 : BE V (Proc.devRef .tc main_v7) = eE V := resE_v7 V

def BG1 : Valuation τ sig (Elt Ideal) := after (opsG1 (F := Ideal)) (BE V)
theorem BG1_arg (r : Ref sig .tc) (hr : r ∈ mainArgs) : BG1 V (Proc.devRef .tc r) = V (Proc.devRef .tc r) := by
  unfold BG1
  rw [keepG1 _ r (Or.inl (Nat.lt_of_lt_of_le (arg_lt r hr) (by decide)))]
  exact BE_arg V r hr
theorem BG1_v3 : BG1 V (Proc.devRef .tc main_v3) = eH0 V := by
  unfold BG1
  rw [keepG1 _ main_v3 (by decide)]
  exact BE_v3 V
theorem BG1_v7 : BG1 V (Proc.devRef .tc main_v7) = eE V := by
  unfold BG1
  rw [keepG1 _ main_v7 (by decide)]
  exact BE_v7 V
theorem BG1_v14 : BG1 V (Proc.devRef .tc main_v14) = rgath (eH0 V) (V (Proc.devRef .tc main_arg2)) := by
  unfold BG1
  rw [resG1_v14 (BE V), BE_v3 V, BE_arg V main_arg2 (by decide)]
theorem BG1_v21 : BG1 V (Proc.devRef .tc main_v21) = rgath (eH0 V) (V (Proc.devRef .tc main_arg3)) := by
  unfold BG1
  rw [resG1_v21 (BE V), BE_v3 V, BE_arg V main_arg3 (by decide)]

def BF1 : Valuation τ sig (Elt Ideal) := after (opsF1 (F := Ideal)) (BG1 V)
theorem BF1_arg (r : Ref sig .tc) (hr : r ∈ mainArgs) : BF1 V (Proc.devRef .tc r) = V (Proc.devRef .tc r) := by
  unfold BF1
  rw [keepF1 _ r (Or.inl (Nat.lt_of_lt_of_le (arg_lt r hr) (by decide)))]
  exact BG1_arg V r hr
theorem BF1_v3 : BF1 V (Proc.devRef .tc main_v3) = eH0 V := by
  unfold BF1
  rw [keepF1 _ main_v3 (by decide)]
  exact BG1_v3 V
theorem BF1_v7 : BF1 V (Proc.devRef .tc main_v7) = eE V := by
  unfold BF1
  rw [keepF1 _ main_v7 (by decide)]
  exact BG1_v7 V
theorem BF1_v14 : BF1 V (Proc.devRef .tc main_v14) = rgath (eH0 V) (V (Proc.devRef .tc main_arg2)) := by
  unfold BF1
  rw [keepF1 _ main_v14 (by decide)]
  exact BG1_v14 V
theorem BF1_v21 : BF1 V (Proc.devRef .tc main_v21) = rgath (eH0 V) (V (Proc.devRef .tc main_arg3)) := by
  unfold BF1
  rw [keepF1 _ main_v21 (by decide)]
  exact BG1_v21 V
theorem BF1_v34 : BF1 V (Proc.devRef .tc main_v34) = rscat (V (Proc.devRef .tc main_arg3)) (rmsg (rgath (eH0 V) (V (Proc.devRef .tc main_arg2))) (rgath (eH0 V) (V (Proc.devRef .tc main_arg3))) (eE V) (V (Proc.devRef .tc main_arg9)) (V (Proc.devRef .tc main_arg10)) (V (Proc.devRef .tc main_arg11)) (V (Proc.devRef .tc main_arg12))) := by
  unfold BF1
  rw [resF1_v34 (BG1 V), BG1_arg V main_arg3 (by decide), BG1_v14 V, BG1_v21 V, BG1_v7 V, BG1_arg V main_arg9 (by decide), BG1_arg V main_arg10 (by decide), BG1_arg V main_arg11 (by decide), BG1_arg V main_arg12 (by decide)]

def BR1 : Valuation τ sig (Elt Ideal) := after (opsR1 (F := Ideal)) (BF1 V)
theorem BR1_arg (r : Ref sig .tc) (hr : r ∈ mainArgs) : BR1 V (Proc.devRef .tc r) = V (Proc.devRef .tc r) := by
  unfold BR1
  rw [keepR1 _ r (Or.inl (Nat.lt_of_lt_of_le (arg_lt r hr) (by decide)))]
  exact BF1_arg V r hr
theorem BR1_v3 : BR1 V (Proc.devRef .tc main_v3) = eH0 V := by
  unfold BR1
  rw [keepR1 _ main_v3 (by decide)]
  exact BF1_v3 V
theorem BR1_v7 : BR1 V (Proc.devRef .tc main_v7) = eE V := by
  unfold BR1
  rw [keepR1 _ main_v7 (by decide)]
  exact BF1_v7 V
theorem BR1_v48 : BR1 V (Proc.devRef .tc main_v48) = (addf (rscat (V (Proc.devRef .tc main_arg3)) (rmsg (rgath (eH0 V) (V (Proc.devRef .tc main_arg2))) (rgath (eH0 V) (V (Proc.devRef .tc main_arg3))) (eE V) (V (Proc.devRef .tc main_arg9)) (V (Proc.devRef .tc main_arg10)) (V (Proc.devRef .tc main_arg11)) (V (Proc.devRef .tc main_arg12)))) (rscat (V (Proc.devRef .tc main_arg2)) (rmsg (rgath (eH0 V) (V (Proc.devRef .tc main_arg3))) (rgath (eH0 V) (V (Proc.devRef .tc main_arg2))) (eE V) (V (Proc.devRef .tc main_arg9)) (V (Proc.devRef .tc main_arg10)) (V (Proc.devRef .tc main_arg11)) (V (Proc.devRef .tc main_arg12)))) : FVec Ideal S100000x32 .f32) := by
  unfold BR1
  rw [resR1_v48 (BF1 V), BF1_v34 V, BF1_arg V main_arg2 (by decide), BF1_v21 V, BF1_v14 V, BF1_v7 V, BF1_arg V main_arg9 (by decide), BF1_arg V main_arg10 (by decide), BF1_arg V main_arg11 (by decide), BF1_arg V main_arg12 (by decide)]

def BU1 : Valuation τ sig (Elt Ideal) := after (opsU1 (F := Ideal)) (BR1 V)
theorem BU1_arg (r : Ref sig .tc) (hr : r ∈ mainArgs) : BU1 V (Proc.devRef .tc r) = V (Proc.devRef .tc r) := by
  unfold BU1
  rw [keepU1 _ r (Or.inl (Nat.lt_of_lt_of_le (arg_lt r hr) (by decide)))]
  exact BR1_arg V r hr
theorem BU1_v7 : BU1 V (Proc.devRef .tc main_v7) = eE V := by
  unfold BU1
  rw [keepU1 _ main_v7 (by decide)]
  exact BR1_v7 V
theorem BU1_v59 : BU1 V (Proc.devRef .tc main_v59) = eH1 V := by
  unfold BU1
  rw [resU1_v59 (BR1 V), BR1_v48 V, BR1_v3 V, BR1_arg V main_arg13 (by decide), BR1_arg V main_arg14 (by decide), BR1_arg V main_arg15 (by decide), BR1_arg V main_arg16 (by decide)]
  rfl

def BG2 : Valuation τ sig (Elt Ideal) := after (opsG2 (F := Ideal)) (BU1 V)
theorem BG2_arg (r : Ref sig .tc) (hr : r ∈ mainArgs) : BG2 V (Proc.devRef .tc r) = V (Proc.devRef .tc r) := by
  unfold BG2
  rw [keepG2 _ r (Or.inl (Nat.lt_of_lt_of_le (arg_lt r hr) (by decide)))]
  exact BU1_arg V r hr
theorem BG2_v59 : BG2 V (Proc.devRef .tc main_v59) = eH1 V := by
  unfold BG2
  rw [keepG2 _ main_v59 (by decide)]
  exact BU1_v59 V
theorem BG2_v7 : BG2 V (Proc.devRef .tc main_v7) = eE V := by
  unfold BG2
  rw [keepG2 _ main_v7 (by decide)]
  exact BU1_v7 V
theorem BG2_v66 : BG2 V (Proc.devRef .tc main_v66) = rgath (eH1 V) (V (Proc.devRef .tc main_arg2)) := by
  unfold BG2
  rw [resG2_v66 (BU1 V), BU1_v59 V, BU1_arg V main_arg2 (by decide)]
theorem BG2_v73 : BG2 V (Proc.devRef .tc main_v73) = rgath (eH1 V) (V (Proc.devRef .tc main_arg3)) := by
  unfold BG2
  rw [resG2_v73 (BU1 V), BU1_v59 V, BU1_arg V main_arg3 (by decide)]

def BF2 : Valuation τ sig (Elt Ideal) := after (opsF2 (F := Ideal)) (BG2 V)
theorem BF2_arg (r : Ref sig .tc) (hr : r ∈ mainArgs) : BF2 V (Proc.devRef .tc r) = V (Proc.devRef .tc r) := by
  unfold BF2
  rw [keepF2 _ r (Or.inl (Nat.lt_of_lt_of_le (arg_lt r hr) (by decide)))]
  exact BG2_arg V r hr
theorem BF2_v59 : BF2 V (Proc.devRef .tc main_v59) = eH1 V := by
  unfold BF2
  rw [keepF2 _ main_v59 (by decide)]
  exact BG2_v59 V
theorem BF2_v7 : BF2 V (Proc.devRef .tc main_v7) = eE V := by
  unfold BF2
  rw [keepF2 _ main_v7 (by decide)]
  exact BG2_v7 V
theorem BF2_v66 : BF2 V (Proc.devRef .tc main_v66) = rgath (eH1 V) (V (Proc.devRef .tc main_arg2)) := by
  unfold BF2
  rw [keepF2 _ main_v66 (by decide)]
  exact BG2_v66 V
theorem BF2_v73 : BF2 V (Proc.devRef .tc main_v73) = rgath (eH1 V) (V (Proc.devRef .tc main_arg3)) := by
  unfold BF2
  rw [keepF2 _ main_v73 (by decide)]
  exact BG2_v73 V
theorem BF2_v86 : BF2 V (Proc.devRef .tc main_v86) = rscat (V (Proc.devRef .tc main_arg3)) (rmsg (rgath (eH1 V) (V (Proc.devRef .tc main_arg2))) (rgath (eH1 V) (V (Proc.devRef .tc main_arg3))) (eE V) (V (Proc.devRef .tc main_arg9)) (V (Proc.devRef .tc main_arg10)) (V (Proc.devRef .tc main_arg11)) (V (Proc.devRef .tc main_arg12))) := by
  unfold BF2
  rw [resF2_v86 (BG2 V), BG2_arg V main_arg3 (by decide), BG2_v66 V, BG2_v73 V, BG2_v7 V, BG2_arg V main_arg9 (by decide), BG2_arg V main_arg10 (by decide), BG2_arg V main_arg11 (by decide), BG2_arg V main_arg12 (by decide)]

def BR2 : Valuation τ sig (Elt Ideal) := after (opsR2 (F := Ideal)) (BF2 V)
theorem BR2_arg (r : Ref sig .tc) (hr : r ∈ mainArgs) : BR2 V (Proc.devRef .tc r) = V (Proc.devRef .tc r) := by
  unfold BR2
  rw [keepR2 _ r (Or.inl (Nat.lt_of_lt_of_le (arg_lt r hr) (by decide)))]
  exact BF2_arg V r hr
theorem BR2_v59 : BR2 V (Proc.devRef .tc main_v59) = eH1 V := by
  unfold BR2
  rw [keepR2 _ main_v59 (by decide)]
  exact BF2_v59 V
theorem BR2_v7 : BR2 V (Proc.devRef .tc main_v7) = eE V := by
  unfold BR2
  rw [keepR2 _ main_v7 (by decide)]
  exact BF2_v7 V
theorem BR2_v100 : BR2 V (Proc.devRef .tc main_v100) = (addf (rscat (V (Proc.devRef .tc main_arg3)) (rmsg (rgath (eH1 V) (V (Proc.devRef .tc main_arg2))) (rgath (eH1 V) (V (Proc.devRef .tc main_arg3))) (eE V) (V (Proc.devRef .tc main_arg9)) (V (Proc.devRef .tc main_arg10)) (V (Proc.devRef .tc main_arg11)) (V (Proc.devRef .tc main_arg12)))) (rscat (V (Proc.devRef .tc main_arg2)) (rmsg (rgath (eH1 V) (V (Proc.devRef .tc main_arg3))) (rgath (eH1 V) (V (Proc.devRef .tc main_arg2))) (eE V) (V (Proc.devRef .tc main_arg9)) (V (Proc.devRef .tc main_arg10)) (V (Proc.devRef .tc main_arg11)) (V (Proc.devRef .tc main_arg12)))) : FVec Ideal S100000x32 .f32) := by
  unfold BR2
  rw [resR2_v100 (BF2 V), BF2_v86 V, BF2_arg V main_arg2 (by decide), BF2_v73 V, BF2_v66 V, BF2_v7 V, BF2_arg V main_arg9 (by decide), BF2_arg V main_arg10 (by decide), BF2_arg V main_arg11 (by decide), BF2_arg V main_arg12 (by decide)]

def BU2 : Valuation τ sig (Elt Ideal) := after (opsU2 (F := Ideal)) (BR2 V)
theorem BU2_arg (r : Ref sig .tc) (hr : r ∈ mainArgs) : BU2 V (Proc.devRef .tc r) = V (Proc.devRef .tc r) := by
  unfold BU2
  rw [keepU2 _ r (Or.inl (Nat.lt_of_lt_of_le (arg_lt r hr) (by decide)))]
  exact BR2_arg V r hr
theorem BU2_v7 : BU2 V (Proc.devRef .tc main_v7) = eE V := by
  unfold BU2
  rw [keepU2 _ main_v7 (by decide)]
  exact BR2_v7 V
theorem BU2_v111 : BU2 V (Proc.devRef .tc main_v111) = eH2 V := by
  unfold BU2
  rw [resU2_v111 (BR2 V), BR2_v100 V, BR2_v59 V, BR2_arg V main_arg13 (by decide), BR2_arg V main_arg14 (by decide), BR2_arg V main_arg15 (by decide), BR2_arg V main_arg16 (by decide)]
  rfl

def BG3 : Valuation τ sig (Elt Ideal) := after (opsG3 (F := Ideal)) (BU2 V)
theorem BG3_arg (r : Ref sig .tc) (hr : r ∈ mainArgs) : BG3 V (Proc.devRef .tc r) = V (Proc.devRef .tc r) := by
  unfold BG3
  rw [keepG3 _ r (Or.inl (Nat.lt_of_lt_of_le (arg_lt r hr) (by decide)))]
  exact BU2_arg V r hr
theorem BG3_v111 : BG3 V (Proc.devRef .tc main_v111) = eH2 V := by
  unfold BG3
  rw [keepG3 _ main_v111 (by decide)]
  exact BU2_v111 V
theorem BG3_v7 : BG3 V (Proc.devRef .tc main_v7) = eE V := by
  unfold BG3
  rw [keepG3 _ main_v7 (by decide)]
  exact BU2_v7 V
theorem BG3_v118 : BG3 V (Proc.devRef .tc main_v118) = rgath (eH2 V) (V (Proc.devRef .tc main_arg2)) := by
  unfold BG3
  rw [resG3_v118 (BU2 V), BU2_v111 V, BU2_arg V main_arg2 (by decide)]
theorem BG3_v125 : BG3 V (Proc.devRef .tc main_v125) = rgath (eH2 V) (V (Proc.devRef .tc main_arg3)) := by
  unfold BG3
  rw [resG3_v125 (BU2 V), BU2_v111 V, BU2_arg V main_arg3 (by decide)]

def BF3 : Valuation τ sig (Elt Ideal) := after (opsF3 (F := Ideal)) (BG3 V)
theorem BF3_arg (r : Ref sig .tc) (hr : r ∈ mainArgs) : BF3 V (Proc.devRef .tc r) = V (Proc.devRef .tc r) := by
  unfold BF3
  rw [keepF3 _ r (Or.inl (Nat.lt_of_lt_of_le (arg_lt r hr) (by decide)))]
  exact BG3_arg V r hr
theorem BF3_v111 : BF3 V (Proc.devRef .tc main_v111) = eH2 V := by
  unfold BF3
  rw [keepF3 _ main_v111 (by decide)]
  exact BG3_v111 V
theorem BF3_v7 : BF3 V (Proc.devRef .tc main_v7) = eE V := by
  unfold BF3
  rw [keepF3 _ main_v7 (by decide)]
  exact BG3_v7 V
theorem BF3_v118 : BF3 V (Proc.devRef .tc main_v118) = rgath (eH2 V) (V (Proc.devRef .tc main_arg2)) := by
  unfold BF3
  rw [keepF3 _ main_v118 (by decide)]
  exact BG3_v118 V
theorem BF3_v125 : BF3 V (Proc.devRef .tc main_v125) = rgath (eH2 V) (V (Proc.devRef .tc main_arg3)) := by
  unfold BF3
  rw [keepF3 _ main_v125 (by decide)]
  exact BG3_v125 V
theorem BF3_v138 : BF3 V (Proc.devRef .tc main_v138) = rscat (V (Proc.devRef .tc main_arg3)) (rmsg (rgath (eH2 V) (V (Proc.devRef .tc main_arg2))) (rgath (eH2 V) (V (Proc.devRef .tc main_arg3))) (eE V) (V (Proc.devRef .tc main_arg9)) (V (Proc.devRef .tc main_arg10)) (V (Proc.devRef .tc main_arg11)) (V (Proc.devRef .tc main_arg12))) := by
  unfold BF3
  rw [resF3_v138 (BG3 V), BG3_arg V main_arg3 (by decide), BG3_v118 V, BG3_v125 V, BG3_v7 V, BG3_arg V main_arg9 (by decide), BG3_arg V main_arg10 (by decide), BG3_arg V main_arg11 (by decide), BG3_arg V main_arg12 (by decide)]

def BR3 : Valuation τ sig (Elt Ideal) := after (opsR3 (F := Ideal)) (BF3 V)
theorem BR3_arg (r : Ref sig .tc) (hr : r ∈ mainArgs) : BR3 V (Proc.devRef .tc r) = V (Proc.devRef .tc r) := by
  unfold BR3
  rw [keepR3 _ r (Or.inl (Nat.lt_of_lt_of_le (arg_lt r hr) (by decide)))]
  exact BF3_arg V r hr
theorem BR3_v111 : BR3 V (Proc.devRef .tc main_v111) = eH2 V := by
  unfold BR3
  rw [keepR3 _ main_v111 (by decide)]
  exact BF3_v111 V
theorem BR3_v7 : BR3 V (Proc.devRef .tc main_v7) = eE V := by
  unfold BR3
  rw [keepR3 _ main_v7 (by decide)]
  exact BF3_v7 V
theorem BR3_v152 : BR3 V (Proc.devRef .tc main_v152) = (addf (rscat (V (Proc.devRef .tc main_arg3)) (rmsg (rgath (eH2 V) (V (Proc.devRef .tc main_arg2))) (rgath (eH2 V) (V (Proc.devRef .tc main_arg3))) (eE V) (V (Proc.devRef .tc main_arg9)) (V (Proc.devRef .tc main_arg10)) (V (Proc.devRef .tc main_arg11)) (V (Proc.devRef .tc main_arg12)))) (rscat (V (Proc.devRef .tc main_arg2)) (rmsg (rgath (eH2 V) (V (Proc.devRef .tc main_arg3))) (rgath (eH2 V) (V (Proc.devRef .tc main_arg2))) (eE V) (V (Proc.devRef .tc main_arg9)) (V (Proc.devRef .tc main_arg10)) (V (Proc.devRef .tc main_arg11)) (V (Proc.devRef .tc main_arg12)))) : FVec Ideal S100000x32 .f32) := by
  unfold BR3
  rw [resR3_v152 (BF3 V), BF3_v138 V, BF3_arg V main_arg2 (by decide), BF3_v125 V, BF3_v118 V, BF3_v7 V, BF3_arg V main_arg9 (by decide), BF3_arg V main_arg10 (by decide), BF3_arg V main_arg11 (by decide), BF3_arg V main_arg12 (by decide)]

def BU3 : Valuation τ sig (Elt Ideal) := after (opsU3 (F := Ideal)) (BR3 V)
theorem BU3_arg (r : Ref sig .tc) (hr : r ∈ mainArgs) : BU3 V (Proc.devRef .tc r) = V (Proc.devRef .tc r) := by
  unfold BU3
  rw [keepU3 _ r (Or.inl (Nat.lt_of_lt_of_le (arg_lt r hr) (by decide)))]
  exact BR3_arg V r hr
theorem BU3_v163 : BU3 V (Proc.devRef .tc main_v163) = eH3 V := by
  unfold BU3
  rw [resU3_v163 (BR3 V), BR3_v152 V, BR3_v111 V, BR3_arg V main_arg13 (by decide), BR3_arg V main_arg14 (by decide), BR3_arg V main_arg15 (by decide), BR3_arg V main_arg16 (by decide)]
  rfl

def BP : Valuation τ sig (Elt Ideal) := after (opsP (F := Ideal)) (BU3 V)
theorem BP_arg (r : Ref sig .tc) (hr : r ∈ mainArgs) : BP V (Proc.devRef .tc r) = V (Proc.devRef .tc r) := by
  unfold BP
  rw [keepP _ r (Or.inl (Nat.lt_of_lt_of_le (arg_lt r hr) (by decide)))]
  exact BU3_arg V r hr
theorem BP_v176 : BP V (Proc.devRef .tc main_v176) = rgated (eH3 V) (V (Proc.devRef .tc main_arg17)) (V (Proc.devRef .tc main_arg18)) := by
  unfold BP
  rw [resP_v176 (BU3 V), BU3_v163 V, BU3_arg V main_arg17 (by decide), BU3_arg V main_arg18 (by decide)]

def BT : Valuation τ sig (Elt Ideal) := after (opsT (F := Ideal)) (BP V)
theorem BT_arg (r : Ref sig .tc) (hr : r ∈ mainArgs) : BT V (Proc.devRef .tc r) = V (Proc.devRef .tc r) := by
  unfold BT
  rw [keepT _ r (Or.inl (Nat.lt_of_lt_of_le (arg_lt r hr) (by decide)))]
  exact BP_arg V r hr
theorem BT_v197 : BT V (Proc.devRef .tc main_v197) = rtail (rgated (eH3 V) (V (Proc.devRef .tc main_arg17)) (V (Proc.devRef .tc main_arg18))) (V (Proc.devRef .tc main_arg4)) (V (Proc.devRef .tc main_arg19)) (V (Proc.devRef .tc main_arg20)) := by
  unfold BT
  rw [resT_v197 (BP V), BP_v176 V, BP_arg V main_arg4 (by decide), BP_arg V main_arg19 (by decide), BP_arg V main_arg20 (by decide)]

theorem after_allOps : after (allOps (F := Ideal)) V = BT V := by
  simp only [allOps, after_app]
  rfl

theorem allOps_v197 : after (allOps (F := Ideal)) V (Proc.devRef .tc main_v197) = rspec (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) := by
  rw [after_allOps]
  exact (BT_v197 V).trans rfl

theorem allOps_arg (r : Ref sig .tc) (hr : r ∈ mainArgs) : after (allOps (F := Ideal)) V (Proc.devRef .tc r) = V (Proc.devRef .tc r) := by
  rw [after_allOps]
  exact BT_arg V r hr

end Values

section Run

theorem run_rspec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v197) = Cert.ReferenceIdeal.RefSpec.rspec (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) :=
  (θ_run defs _ _).mono (fun _ h c => ⟨(h c main_v197).trans (allOps_v197 (launchContents m c)),
      (h c main_arg0).trans (allOps_arg (launchContents m c) main_arg0 (by decide)),
      (h c main_arg1).trans (allOps_arg (launchContents m c) main_arg1 (by decide)),
      (h c main_arg2).trans (allOps_arg (launchContents m c) main_arg2 (by decide)),
      (h c main_arg3).trans (allOps_arg (launchContents m c) main_arg3 (by decide)),
      (h c main_arg4).trans (allOps_arg (launchContents m c) main_arg4 (by decide)),
      (h c main_arg5).trans (allOps_arg (launchContents m c) main_arg5 (by decide)),
      (h c main_arg6).trans (allOps_arg (launchContents m c) main_arg6 (by decide)),
      (h c main_arg7).trans (allOps_arg (launchContents m c) main_arg7 (by decide)),
      (h c main_arg8).trans (allOps_arg (launchContents m c) main_arg8 (by decide)),
      (h c main_arg9).trans (allOps_arg (launchContents m c) main_arg9 (by decide)),
      (h c main_arg10).trans (allOps_arg (launchContents m c) main_arg10 (by decide)),
      (h c main_arg11).trans (allOps_arg (launchContents m c) main_arg11 (by decide)),
      (h c main_arg12).trans (allOps_arg (launchContents m c) main_arg12 (by decide)),
      (h c main_arg13).trans (allOps_arg (launchContents m c) main_arg13 (by decide)),
      (h c main_arg14).trans (allOps_arg (launchContents m c) main_arg14 (by decide)),
      (h c main_arg15).trans (allOps_arg (launchContents m c) main_arg15 (by decide)),
      (h c main_arg16).trans (allOps_arg (launchContents m c) main_arg16 (by decide)),
      (h c main_arg17).trans (allOps_arg (launchContents m c) main_arg17 (by decide)),
      (h c main_arg18).trans (allOps_arg (launchContents m c) main_arg18 (by decide)),
      (h c main_arg19).trans (allOps_arg (launchContents m c) main_arg19 (by decide)),
      (h c main_arg20).trans (allOps_arg (launchContents m c) main_arg20 (by decide))⟩)
    (run_seq scopedRefs_eq scopedSems_eq defs main (fun _ => allOps) main_eq (fun _ => allOps_sub) m ρ (fun _ => allOps_fresh))

end Run

end Cert.ReferenceIdeal.RefRun

end
-- ==== Proof.lean ====
import proofs.«411375_j87694642250038_1_alg».proof.Defs
import proofs.«411375_j87694642250038_1_alg».proof.Proof.Gen.Kernel
import proofs.«411375_j87694642250038_1_alg».proof.Proof.Gen.Kernel.Frame
import proofs.«411375_j87694642250038_1_alg».proof.Proof.Gen.KernelIdeal
import proofs.«411375_j87694642250038_1_alg».proof.Proof.Gen.KernelIdeal.Frame
import proofs.«411375_j87694642250038_1_alg».proof.Proof.Gen.ReferenceIdeal
import proofs.«411375_j87694642250038_1_alg».proof.Proof.Gen.Pre_finite_inputs
import proofs.«411375_j87694642250038_1_alg».proof.Proof.KernelRun
import proofs.«411375_j87694642250038_1_alg».proof.Proof.KernelChain
import proofs.«411375_j87694642250038_1_alg».proof.Proof.PreDecode
import proofs.«411375_j87694642250038_1_alg».proof.Proof.RefRunHand
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefRun.run_rspec m ρ)

theorem algebraic : Cert.algebraic_KernelIdeal_ReferenceIdeal (hKernelIdeal := Cert.KernelIdeal.Gen.facts) (hReferenceIdeal := Cert.ReferenceIdeal.Gen.facts)
    (hPre_finite_inputs := Cert.Pre_finite_inputs.Gen.facts) := by
  intro m ρ m' ρ' hpre hagree
  have hr : ∀ c, Cert.KernelIdeal.Chain.InRange m ρ c := fun c =>
    ⟨fun e => (Cert.PreDecode.idx_in_range m hpre c e).1, fun e => (Cert.PreDecode.idx_in_range m hpre c e).2.1,
     fun e => (Cert.PreDecode.idx_in_range m hpre c e).2.2.1, fun e => (Cert.PreDecode.idx_in_range m hpre c e).2.2.2⟩
  refine ⟨fun c => Cert.KernelIdeal.Gen.W27 m ρ c (Proc.devRef .tc Cert.KernelIdeal.main_v68), Cert.KernelIdeal.GenRun.run_named (F := Ideal) m ρ, ?_⟩
  refine (θ_run Cert.ReferenceIdeal.defs _ _).mono (fun _ h c => ⟨(h c).1.trans ?_, (h c).2⟩) (Cert.ReferenceIdeal.RefRun.run_rspec m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.1, (hagree c).2.2.2.2.2.2.2.2.2.2.2.2.2.2.2.2.2.2.2.2]
  exact (Cert.KernelIdeal.Chain.result m ρ c (hr c)).symm

theorem claim : Cert.Claim :=
  ⟨Cert.Kernel.Gen.facts, Cert.KernelIdeal.Gen.facts, Cert.ReferenceIdeal.Gen.facts, Cert.Pre_finite_inputs.Gen.facts, frame_k, frame_ki, frame_ri, trivial, algebraic⟩

end Cert.Proof

end
